-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v141)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v141) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v285) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S_ : Shape := ⟨0, ![]⟩
abbrev S64x40 : Shape := ⟨2, ![64, 40]⟩
abbrev S40 : Shape := ⟨1, ![40]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  reducesTo_S_S_d : S_.ReducesTo [] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_v47 : IVec S_ 1) (main_v50 : IVec S40 1) : IVec S_ 1 :=
  let main_c_19 : IVec S_ 1 := constantI S_ 1 1#1
  let main_v51 : IVec S_ 1 := (fun x v => Host.reduce IntOp.andi x v reducesTo_S40_S_d0 h_S_) main_v50 main_c_19
  let main_v52 : IVec S_ 1 := andi main_v47 main_v51
  main_v52

def fn_part2 {F : FTy → Type} [FloatOps F] (main_arg8 : FVec F S64x64 .f32) (main_arg9 : FVec F S_ .f32) (main_arg10 : FVec F S64x40 .f32) (main_arg11 : FVec F S40 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S_ .f32 := Host.absf main_arg9
  let main_cst_14 : FVec F S_ .f32 := constant S_ .f32 0x7F800000#32
  let main_v40 : IVec S_ 1 := cmpf .olt main_v39 main_cst_14
  let main_c_15 : IVec S_ 1 := constantI S_ 1 1#1
  let main_v41 : IVec S_ 1 := (fun x v => Host.reduce IntOp.andi x v reducesTo_S_S_d h_S_) main_v40 main_c_15
  let main_v42 : IVec S_ 1 := andi main_v38 main_v41
  let main_v43 : FVec F S64x40 .f32 := Host.absf main_arg10
  let main_cst_16 : FVec F S_ .f32 := constant S_ .f32 0x7F800000#32
  let main_v44 : FVec F S64x40 .f32 := broadcastInDim S64x40 ![] bcast_S_S64x40 main_cst_16
  let main_v45 : IVec S64x40 1 := cmpf .olt main_v43 main_v44
  let main_c_17 : IVec S_ 1 := constantI S_ 1 1#1
  let main_v46 : IVec S_ 1 := (fun x v => Host.reduce IntOp.andi x v reducesTo_S64x40_S_d0_1 h_S_) main_v45 main_c_17
  let main_v47 : IVec S_ 1 := andi main_v42 main_v46
  let main_v48 : FVec F S40 .f32 := Host.absf main_arg11
  let main_cst_18 : FVec F S_ .f32 := constant S_ .f32 0x7F800000#32
  let main_v49 : FVec F S40 .f32 := broadcastInDim S40 ![] bcast_S_S40 main_cst_18
  let main_v50 : IVec S40 1 := cmpf .olt main_v48 main_v49
  fn_part3 (F := F) main_v47 main_v50

def fn_part1 {F : FTy → Type} [FloatOps F] (main_arg5 : FVec F S64 .f32) (main_arg6 : FVec F S64x64 .f32) (main_arg7 : FVec F S64 .f32) (main_arg8 : FVec F S64x64 .f32) (main_arg9 : FVec F S_ .f32) (main_arg10 : FVec F S64x40 .f32) (main_arg11 : FVec F S40 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S128x64 .f32) (main_arg3 : FVec F S64 .f32) (main_arg4 : FVec F S64x64 .f32) (main_arg5 : FVec F S64 .f32) (main_arg6 : FVec F S64x64 .f32) (main_arg7 : FVec F S64 .f32) (main_arg8 : FVec F S64x64 .f32) (main_arg9 : FVec F S_ .f32) (main_arg10 : FVec F S64x40 .f32) (main_arg11 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S_ : Shape := ⟨0, ![]⟩
abbrev S64x40 : Shape := ⟨2, ![64, 40]⟩
abbrev S40 : Shape := ⟨1, ![40]⟩
abbrev S1x800000 : Shape := ⟨2, ![1, 800000]⟩
abbrev S800000 : Shape := ⟨1, ![800000]⟩
abbrev S50000 : Shape := ⟨1, ![50000]⟩
abbrev S800000x1 : Shape := ⟨2, ![800000, 1]⟩
abbrev S50000x1 : Shape := ⟨2, ![50000, 1]⟩
abbrev S1x64 : Shape := ⟨2, ![1, 64]⟩
abbrev S50000x64 : Shape := ⟨2, ![50000, 64]⟩
abbrev S5000x128 : Shape := ⟨2, ![5000, 128]⟩
abbrev S5000x64 : Shape := ⟨2, ![5000, 64]⟩
abbrev S800000x64 : Shape := ⟨2, ![800000, 64]⟩
abbrev S800000x128 : Shape := ⟨2, ![800000, 128]⟩
abbrev S5000x1 : Shape := ⟨2, ![5000, 1]⟩
abbrev S2000x64 : Shape := ⟨2, ![2000, 64]⟩
abbrev S2000x1 : Shape := ⟨2, ![2000, 1]⟩
abbrev S1x40 : Shape := ⟨2, ![1, 40]⟩
abbrev S50000x40 : Shape := ⟨2, ![50000, 40]⟩
abbrev S5000x40 : Shape := ⟨2, ![5000, 40]⟩

abbrev nBuf : Space → Nat
  | .hbm => 186
  | .vmem => 152
  | .smem => 0
  | _ => 0

abbrev hbmTy0_0 (i : Nat) : BufTy := match i % 128 with
  | 0 => ⟨S50000x128, .f32⟩
  | 1 => ⟨S2x800000, .i32⟩
  | 2 => ⟨S128x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x64, .f32⟩
  | 9 => ⟨S_, .f32⟩
  | 10 => ⟨S64x40, .f32⟩
  | 11 => ⟨S40, .f32⟩
  | 12 => ⟨S1x800000, .i32⟩
  | 13 => ⟨S800000, .i32⟩
  | 14 => ⟨S1x800000, .i32⟩
  | 15 => ⟨S800000, .i32⟩
  | 16 => ⟨S_, .f32⟩
  | 17 => ⟨S800000, .f32⟩
  | 18 => ⟨S_, .f32⟩
  | 19 => ⟨S50000, .f32⟩
  | 20 => ⟨S800000x1, .i32⟩
  | 21 => ⟨S50000, .f32⟩
  | 22 => ⟨S_, .f32⟩
  | 23 => ⟨S50000, .f32⟩
  | 24 => ⟨S50000, .f32⟩
  | 25 => ⟨S50000, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000, .f32⟩
  | 44 => ⟨S800000, .f32⟩
  | 45 => ⟨S800000x1, .f32⟩
  | 46 => ⟨S50000, .f32⟩
  | 47 => ⟨S50000x1, .f32⟩
  | 48 => ⟨S_, .f32⟩
  | 49 => ⟨S64, .f32⟩
  | 50 => ⟨S1x64, .f32⟩
  | 51 => ⟨S50000x64, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x64, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x64, .f32⟩
  | 70 => ⟨S1x64, .f32⟩
  | 71 => ⟨S50000x64, .f32⟩
  | 72 => ⟨S800000x128, .f32⟩
  | 73 => ⟨S_, .f32⟩
  | 74 => ⟨S50000x128, .f32⟩
  | 75 => ⟨S800000x1, .i32⟩
  | 76 => ⟨S50000x128, .f32⟩
  | 77 => ⟨S50000x64, .f32⟩
  | 78 => ⟨S50000x64, .f32⟩
  | 79 => ⟨S50000x64, .f32⟩
  | 80 => ⟨S50000x64, .f32⟩
  | 81 => ⟨S1x64, .f32⟩
  | 82 => ⟨S1x64, .f32⟩
  | 83 => ⟨S50000x64, .f32⟩
  | 84 => ⟨S50000x64, .f32⟩
  | 85 => ⟨S_, .i32⟩
  | 86 => ⟨S800000, .i32⟩
  | 87 => ⟨S800000, .i1⟩
  | 88 => ⟨S_, .i32⟩
  | 89 => ⟨S800000, .i32⟩
  | 90 => ⟨S800000, .i32⟩
  | 91 => ⟨S800000, .i32⟩
  | 92 => ⟨S800000x1, .i32⟩
  | 93 => ⟨S800000x64, .f32⟩
  | 94 => ⟨S_, .i32⟩
  | 95 => ⟨S800000, .i32⟩
  | 96 => ⟨S800000, .i1⟩
  | 97 => ⟨S_, .i32⟩
  | 98 => ⟨S800000, .i32⟩
  | 99 => ⟨S800000, .i32⟩
  | 100 => ⟨S800000, .i32⟩
  | 101 => ⟨S800000x1, .i32⟩
  | 102 => ⟨S800000x64, .f32⟩
  | 103 => ⟨S1x64, .f32⟩
  | 104 => ⟨S50000x64, .f32⟩
  | 105 => ⟨S800000x128, .f32⟩
  | 106 => ⟨S_, .f32⟩
  | 107 => ⟨S50000x128, .f32⟩
  | 108 => ⟨S800000x1, .i32⟩
  | 109 => ⟨S50000x128, .f32⟩
  | 110 => ⟨S50000x64, .f32⟩
  | 111 => ⟨S50000x64, .f32⟩
  | 112 => ⟨S50000x64, .f32⟩
  | 113 => ⟨S50000x64, .f32⟩
  | 114 => ⟨S1x64, .f32⟩
  | 115 => ⟨S1x64, .f32⟩
  | 116 => ⟨S50000x64, .f32⟩
  | 117 => ⟨S50000x64, .f32⟩
  | 118 => ⟨S_, .i32⟩
  | 119 => ⟨S800000, .i32⟩
  | 120 => ⟨S800000, .i1⟩
  | 121 => ⟨S_, .i32⟩
  | 122 => ⟨S800000, .i32⟩
  | 123 => ⟨S800000, .i32⟩
  | 124 => ⟨S800000, .i32⟩
  | 125 => ⟨S800000x1, .i32⟩
  | 126 => ⟨S800000x64, .f32⟩
  | 127 => ⟨S_, .i32⟩
  | _ => ⟨S50000x128, .f32⟩

abbrev hbmTy0_1 (i : Nat) : BufTy := match i % 128 with
  | 0 => ⟨S800000, .i32⟩
  | 1 => ⟨S800000, .i1⟩
  | 2 => ⟨S_, .i32⟩
  | 3 => ⟨S800000, .i32⟩
  | 4 => ⟨S800000, .i32⟩
  | 5 => ⟨S800000, .i32⟩
  | 6 => ⟨S800000x1, .i32⟩
  | 7 => ⟨S800000x64, .f32⟩
  | 8 => ⟨S1x64, .f32⟩
  | 9 => ⟨S50000x64, .f32⟩
  | 10 => ⟨S800000x128, .f32⟩
  | 11 => ⟨S_, .f32⟩
  | 12 => ⟨S50000x128, .f32⟩
  | 13 => ⟨S800000x1, .i32⟩
  | 14 => ⟨S50000x128, .f32⟩
  | 15 => ⟨S50000x64, .f32⟩
  | 16 => ⟨S50000x64, .f32⟩
  | 17 => ⟨S50000x64, .f32⟩
  | 18 => ⟨S50000x64, .f32⟩
  | 19 => ⟨S1x64, .f32⟩
  | 20 => ⟨S1x64, .f32⟩
  | 21 => ⟨S50000x64, .f32⟩
  | 22 => ⟨S50000x64, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x64, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x64, .f32⟩
  | 41 => ⟨S1x64, .f32⟩
  | 42 => ⟨S50000x64, .f32⟩
  | 43 => ⟨S800000x128, .f32⟩
  | 44 => ⟨S_, .f32⟩
  | 45 => ⟨S50000x128, .f32⟩
  | 46 => ⟨S800000x1, .i32⟩
  | 47 => ⟨S50000x128, .f32⟩
  | 48 => ⟨S50000x64, .f32⟩
  | 49 => ⟨S50000x64, .f32⟩
  | 50 => ⟨S50000x64, .f32⟩
  | 51 => ⟨S50000x64, .f32⟩
  | 52 => ⟨S1x64, .f32⟩
  | 53 => ⟨S1x64, .f32⟩
  | 54 => ⟨S50000x64, .f32⟩
  | 55 => ⟨S50000x64, .f32⟩
  | 56 => ⟨S1x40, .f32⟩
  | 57 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev vmemTy0_0 (i : Nat) : BufTy := match i % 128 with
  | 0 => ⟨S5000x128, .f32⟩
  | 1 => ⟨S5000x128, .f32⟩
  | 2 => ⟨S128x64, .f32⟩
  | 3 => ⟨S1x64, .f32⟩
  | 4 => ⟨S5000x64, .f32⟩
  | 5 => ⟨S5000x64, .f32⟩
  | 6 => ⟨S5000x64, .f32⟩
  | 7 => ⟨S5000x64, .f32⟩
  | 8 => ⟨S64x64, .f32⟩
  | 9 => ⟨S1x64, .f32⟩
  | 10 => ⟨S5000x64, .f32⟩
  | 11 => ⟨S5000x64, .f32⟩
  | 12 => ⟨S5000x64, .f32⟩
  | 13 => ⟨S5000x64, .f32⟩
  | 14 => ⟨S5000x64, .f32⟩
  | 15 => ⟨S5000x64, .f32⟩
  | 16 => ⟨S64x64, .f32⟩
  | 17 => ⟨S64x64, .f32⟩
  | 18 => ⟨S5000x1, .f32⟩
  | 19 => ⟨S5000x1, .f32⟩
  | 20 => ⟨S5000x128, .f32⟩
  | 21 => ⟨S5000x128, .f32⟩
  | 22 => ⟨S2000x64, .f32⟩
  | 23 => ⟨S2000x64, .f32⟩
  | 24 => ⟨S2000x64, .f32⟩
  | 25 => ⟨S2000x64, .f32⟩
  | 26 => ⟨S2000x64, .f32⟩
  | 27 => ⟨S2000x64, .f32⟩
  | 28 => ⟨S2000x64, .f32⟩
  | 29 => ⟨S2000x64, .f32⟩
  | 30 => ⟨S2000x64, .f32⟩
  | 31 => ⟨S2000x64, .f32⟩
  | 32 => ⟨S2000x1, .f32⟩
  | 33 => ⟨S2000x1, .f32⟩
  | 34 => ⟨S1x64, .f32⟩
  | 35 => ⟨S64x64, .f32⟩
  | 36 => ⟨S1x64, .f32⟩
  | 37 => ⟨S2000x64, .f32⟩
  | 38 => ⟨S2000x64, .f32⟩
  | 39 => ⟨S2000x64, .f32⟩
  | 40 => ⟨S2000x64, .f32⟩
  | 41 => ⟨S5000x64, .f32⟩
  | 42 => ⟨S5000x64, .f32⟩
  | 43 => ⟨S64x64, .f32⟩
  | 44 => ⟨S1x64, .f32⟩
  | 45 => ⟨S5000x64, .f32⟩
  | 46 => ⟨S5000x64, .f32⟩
  | 47 => ⟨S5000x64, .f32⟩
  | 48 => ⟨S5000x64, .f32⟩
  | 49 => ⟨S5000x64, .f32⟩
  | 50 => ⟨S5000x64, .f32⟩
  | 51 => ⟨S64x64, .f32⟩
  | 52 => ⟨S64x64, .f32⟩
  | 53 => ⟨S5000x1, .f32⟩
  | 54 => ⟨S5000x1, .f32⟩
  | 55 => ⟨S5000x128, .f32⟩
  | 56 => ⟨S5000x128, .f32⟩
  | 57 => ⟨S2000x64, .f32⟩
  | 58 => ⟨S2000x64, .f32⟩
  | 59 => ⟨S2000x64, .f32⟩
  | 60 => ⟨S2000x64, .f32⟩
  | 61 => ⟨S2000x64, .f32⟩
  | 62 => ⟨S2000x64, .f32⟩
  | 63 => ⟨S2000x64, .f32⟩
  | 64 => ⟨S2000x64, .f32⟩
  | 65 => ⟨S2000x64, .f32⟩
  | 66 => ⟨S2000x64, .f32⟩
  | 67 => ⟨S2000x1, .f32⟩
  | 68 => ⟨S2000x1, .f32⟩
  | 69 => ⟨S1x64, .f32⟩
  | 70 => ⟨S64x64, .f32⟩
  | 71 => ⟨S1x64, .f32⟩
  | 72 => ⟨S2000x64, .f32⟩
  | 73 => ⟨S2000x64, .f32⟩
  | 74 => ⟨S2000x64, .f32⟩
  | 75 => ⟨S2000x64, .f32⟩
  | 76 => ⟨S5000x64, .f32⟩
  | 77 => ⟨S5000x64, .f32⟩
  | 78 => ⟨S64x64, .f32⟩
  | 79 => ⟨S1x64, .f32⟩
  | 80 => ⟨S5000x64, .f32⟩
  | 81 => ⟨S5000x64, .f32⟩
  | 82 => ⟨S5000x64, .f32⟩
  | 83 => ⟨S5000x64, .f32⟩
  | 84 => ⟨S5000x64, .f32⟩
  | 85 => ⟨S5000x64, .f32⟩
  | 86 => ⟨S64x64, .f32⟩
  | 87 => ⟨S64x64, .f32⟩
  | 88 => ⟨S5000x1, .f32⟩
  | 89 => ⟨S5000x1, .f32⟩
  | 90 => ⟨S5000x128, .f32⟩
  | 91 => ⟨S5000x128, .f32⟩
  | 92 => ⟨S2000x64, .f32⟩
  | 93 => ⟨S2000x64, .f32⟩
  | 94 => ⟨S2000x64, .f32⟩
  | 95 => ⟨S2000x64, .f32⟩
  | 96 => ⟨S2000x64, .f32⟩
  | 97 => ⟨S2000x64, .f32⟩
  | 98 => ⟨S2000x64, .f32⟩
  | 99 => ⟨S2000x64, .f32⟩
  | 100 => ⟨S2000x64, .f32⟩
  | 101 => ⟨S2000x64, .f32⟩
  | 102 => ⟨S2000x1, .f32⟩
  | 103 => ⟨S2000x1, .f32⟩
  | 104 => ⟨S1x64, .f32⟩
  | 105 => ⟨S64x64, .f32⟩
  | 106 => ⟨S1x64, .f32⟩
  | 107 => ⟨S2000x64, .f32⟩
  | 108 => ⟨S2000x64, .f32⟩
  | 109 => ⟨S2000x64, .f32⟩
  | 110 => ⟨S2000x64, .f32⟩
  | 111 => ⟨S5000x64, .f32⟩
  | 112 => ⟨S5000x64, .f32⟩
  | 113 => ⟨S64x64, .f32⟩
  | 114 => ⟨S1x64, .f32⟩
  | 115 => ⟨S5000x64, .f32⟩
  | 116 => ⟨S5000x64, .f32⟩
  | 117 => ⟨S5000x64, .f32⟩
  | 118 => ⟨S5000x64, .f32⟩
  | 119 => ⟨S5000x64, .f32⟩
  | 120 => ⟨S5000x64, .f32⟩
  | 121 => ⟨S64x64, .f32⟩
  | 122 => ⟨S64x64, .f32⟩
  | 123 => ⟨S5000x1, .f32⟩
  | 124 => ⟨S5000x1, .f32⟩
  | 125 => ⟨S5000x128, .f32⟩
  | 126 => ⟨S5000x128, .f32⟩
  | 127 => ⟨S2000x64, .f32⟩
  | _ => ⟨S50000x128, .f32⟩

abbrev vmemTy0_1 (i : Nat) : BufTy := match i % 128 with
  | 0 => ⟨S2000x64, .f32⟩
  | 1 => ⟨S2000x64, .f32⟩
  | 2 => ⟨S2000x64, .f32⟩
  | 3 => ⟨S2000x64, .f32⟩
  | 4 => ⟨S2000x64, .f32⟩
  | 5 => ⟨S2000x64, .f32⟩
  | 6 => ⟨S2000x64, .f32⟩
  | 7 => ⟨S2000x64, .f32⟩
  | 8 => ⟨S2000x64, .f32⟩
  | 9 => ⟨S2000x1, .f32⟩
  | 10 => ⟨S2000x1, .f32⟩
  | 11 => ⟨S1x64, .f32⟩
  | 12 => ⟨S64x64, .f32⟩
  | 13 => ⟨S1x64, .f32⟩
  | 14 => ⟨S2000x64, .f32⟩
  | 15 => ⟨S2000x64, .f32⟩
  | 16 => ⟨S2000x64, .f32⟩
  | 17 => ⟨S2000x64, .f32⟩
  | 18 => ⟨S5000x64, .f32⟩
  | 19 => ⟨S5000x64, .f32⟩
  | 20 => ⟨S64x40, .f32⟩
  | 21 => ⟨S1x40, .f32⟩
  | 22 => ⟨S5000x40, .f32⟩
  | 23 => ⟨S5000x40, .f32⟩
  | _ => ⟨S50000x128, .f32⟩

abbrev vmemTy (i : Nat) : BufTy := match i / 128 with
  | 0 => vmemTy0_0 i
  | 1 => vmemTy0_1 i
  | _ => ⟨S50000x128, .f32⟩

abbrev bufTy : (tb : Table) → Fin (tcTables nBuf tb) → BufTy
  | .hbm, ⟨i, _⟩ => hbmTy i
  | .local _ .vmem, ⟨i, _⟩ => vmemTy i
  | _, _ => ⟨S50000x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 152 → Bool
  | ⟨i, _⟩ => dmaSemScopedAt i

abbrev sig : RefSig :=
  ofTc nBuf bufTy 0 152 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_8 : Ref sig .tc := ⟨.hbm, 61, rfl⟩
abbrev main_v39 : Ref sig .tc := ⟨.hbm, 62, rfl⟩
abbrev main_v40 : Ref sig .tc := ⟨.hbm, 63, rfl⟩
abbrev main_c_9 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58_0 : Ref sig .tc := ⟨.hbm, 83, rfl⟩
abbrev main_v58_1 : Ref sig .tc := ⟨.hbm, 84, rfl⟩
abbrev main_c_11 : Ref sig .tc := ⟨.hbm, 85, rfl⟩
abbrev main_v59 : Ref sig .tc := ⟨.hbm, 86, rfl⟩
abbrev main_v60 : Ref sig .tc := ⟨.hbm, 87, rfl⟩
abbrev main_c_12 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_c_13 : Ref sig .tc := ⟨.hbm, 94, rfl⟩
abbrev main_v66 : Ref sig .tc := ⟨.hbm, 95, rfl⟩
abbrev main_v67 : Ref sig .tc := ⟨.hbm, 96, rfl⟩
abbrev main_c_14 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_15 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85_0 : Ref sig .tc := ⟨.hbm, 116, rfl⟩
abbrev main_v85_1 : Ref sig .tc := ⟨.hbm, 117, rfl⟩
abbrev main_c_16 : Ref sig .tc := ⟨.hbm, 118, rfl⟩
abbrev main_v86 : Ref sig .tc := ⟨.hbm, 119, rfl⟩
abbrev main_v87 : Ref sig .tc := ⟨.hbm, 120, rfl⟩
abbrev main_c_17 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_c_18 : Ref sig .tc := ⟨.hbm, 127, rfl⟩
abbrev main_v93 : Ref sig .tc := ⟨.hbm, 128, rfl⟩
abbrev main_v94 : Ref sig .tc := ⟨.hbm, 129, rfl⟩
abbrev main_c_19 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_cst_20 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112_0 : Ref sig .tc := ⟨.hbm, 149, rfl⟩
abbrev main_v112_1 : Ref sig .tc := ⟨.hbm, 150, rfl⟩
abbrev main_c_21 : Ref sig .tc := ⟨.hbm, 151, rfl⟩
abbrev main_v113 : Ref sig .tc := ⟨.hbm, 152, rfl⟩
abbrev main_v114 : Ref sig .tc := ⟨.hbm, 153, rfl⟩
abbrev main_c_22 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_c_23 : Ref sig .tc := ⟨.hbm, 160, rfl⟩
abbrev main_v120 : Ref sig .tc := ⟨.hbm, 161, rfl⟩
abbrev main_v121 : Ref sig .tc := ⟨.hbm, 162, rfl⟩
abbrev main_c_24 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_cst_25 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_v139_0 : Ref sig .tc := ⟨.hbm, 182, rfl⟩
abbrev main_v139_1 : Ref sig .tc := ⟨.hbm, 183, rfl⟩
abbrev main_v140 : Ref sig .tc := ⟨.hbm, 184, rfl⟩
abbrev main_v141 : Ref sig .tc := ⟨.hbm, 185, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg4_1 : Ref sig .tc := ⟨.vmem, 19, rfl⟩
abbrev cc2_stg5_0 : Ref sig .tc := ⟨.vmem, 20, rfl⟩
abbrev cc2_stg5_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg3_1 : Ref sig .tc := ⟨.vmem, 29, rfl⟩
abbrev cc3_stg4_0 : Ref sig .tc := ⟨.vmem, 30, rfl⟩
abbrev cc3_stg4_1 : Ref sig .tc := ⟨.vmem, 31, rfl⟩
abbrev cc3_stg5_0 : Ref sig .tc := ⟨.vmem, 32, rfl⟩
abbrev cc3_stg5_1 : Ref sig .tc := ⟨.vmem, 33, rfl⟩
abbrev cc3_stg6_0 : Ref sig .tc := ⟨.vmem, 34, rfl⟩
abbrev cc3_stg7_0 : Ref sig .tc := ⟨.vmem, 35, rfl⟩
abbrev cc3_stg8_0 : Ref sig .tc := ⟨.vmem, 36, rfl⟩
abbrev cc3_stg9_0 : Ref sig .tc := ⟨.vmem, 37, rfl⟩
abbrev cc3_stg9_1 : Ref sig .tc := ⟨.vmem, 38, rfl⟩
abbrev cc3_stg10_0 : Ref sig .tc := ⟨.vmem, 39, rfl⟩
abbrev cc3_stg10_1 : Ref sig .tc := ⟨.vmem, 40, rfl⟩
abbrev cc4_stg0_0 : Ref sig .tc := ⟨.vmem, 41, rfl⟩
abbrev cc4_stg0_1 : Ref sig .tc := ⟨.vmem, 42, rfl⟩
abbrev cc4_stg1_0 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg3_1 : Ref sig .tc := ⟨.vmem, 46, rfl⟩
abbrev cc5_stg0_0 : Ref sig .tc := ⟨.vmem, 47, rfl⟩
abbrev cc5_stg0_1 : Ref sig .tc := ⟨.vmem, 48, rfl⟩
abbrev cc5_stg1_0 : Ref sig .tc := ⟨.vmem, 49, rfl⟩
abbrev cc5_stg1_1 : Ref sig .tc := ⟨.vmem, 50, rfl⟩
abbrev cc5_stg2_0 : Ref sig .tc := ⟨.vmem, 51, rfl⟩
abbrev cc5_stg3_0 : Ref sig .tc := ⟨.vmem, 52, rfl⟩
abbrev cc5_stg4_0 : Ref sig .tc := ⟨.vmem, 53, rfl⟩
abbrev cc5_stg4_1 : Ref sig .tc := ⟨.vmem, 54, rfl⟩
abbrev cc5_stg5_0 : Ref sig .tc := ⟨.vmem, 55, rfl⟩
abbrev cc5_stg5_1 : Ref sig .tc := ⟨.vmem, 56, rfl⟩
abbrev cc6_stg0_0 : Ref sig .tc := ⟨.vmem, 57, rfl⟩
abbrev cc6_stg0_1 : Ref sig .tc := ⟨.vmem, 58, rfl⟩
abbrev cc6_stg1_0 : Ref sig .tc := ⟨.vmem, 59, rfl⟩
abbrev cc6_stg1_1 : Ref sig .tc := ⟨.vmem, 60, rfl⟩
abbrev cc6_stg2_0 : Ref sig .tc := ⟨.vmem, 61, rfl⟩
abbrev cc6_stg2_1 : Ref sig .tc := ⟨.vmem, 62, rfl⟩
abbrev cc6_stg3_0 : Ref sig .tc := ⟨.vmem, 63, rfl⟩
abbrev cc6_stg3_1 : Ref sig .tc := ⟨.vmem, 64, rfl⟩
abbrev cc6_stg4_0 : Ref sig .tc := ⟨.vmem, 65, rfl⟩
abbrev cc6_stg4_1 : Ref sig .tc := ⟨.vmem, 66, rfl⟩
abbrev cc6_stg5_0 : Ref sig .tc := ⟨.vmem, 67, rfl⟩
abbrev cc6_stg5_1 : Ref sig .tc := ⟨.vmem, 68, rfl⟩
abbrev cc6_stg6_0 : Ref sig .tc := ⟨.vmem, 69, rfl⟩
abbrev cc6_stg7_0 : Ref sig .tc := ⟨.vmem, 70, rfl⟩
abbrev cc6_stg8_0 : Ref sig .tc := ⟨.vmem, 71, rfl⟩
abbrev cc6_stg9_0 : Ref sig .tc := ⟨.vmem, 72, rfl⟩
abbrev cc6_stg9_1 : Ref sig .tc := ⟨.vmem, 73, rfl⟩
abbrev cc6_stg10_0 : Ref sig .tc := ⟨.vmem, 74, rfl⟩
abbrev cc6_stg10_1 : Ref sig .tc := ⟨.vmem, 75, rfl⟩
abbrev cc7_stg0_0 : Ref sig .tc := ⟨.vmem, 76, rfl⟩
abbrev cc7_stg0_1 : Ref sig .tc := ⟨.vmem, 77, rfl⟩
abbrev cc7_stg1_0 : Ref sig .tc := ⟨.vmem, 78, rfl⟩
abbrev cc7_stg2_0 : Ref sig .tc := ⟨.vmem, 79, rfl⟩
abbrev cc7_stg3_0 : Ref sig .tc := ⟨.vmem, 80, rfl⟩
abbrev cc7_stg3_1 : Ref sig .tc := ⟨.vmem, 81, rfl⟩
abbrev cc8_stg0_0 : Ref sig .tc := ⟨.vmem, 82, rfl⟩
abbrev cc8_stg0_1 : Ref sig .tc := ⟨.vmem, 83, rfl⟩
abbrev cc8_stg1_0 : Ref sig .tc := ⟨.vmem, 84, rfl⟩
abbrev cc8_stg1_1 : Ref sig .tc := ⟨.vmem, 85, rfl⟩
abbrev cc8_stg2_0 : Ref sig .tc := ⟨.vmem, 86, rfl⟩
abbrev cc8_stg3_0 : Ref sig .tc := ⟨.vmem, 87, rfl⟩
abbrev cc8_stg4_0 : Ref sig .tc := ⟨.vmem, 88, rfl⟩
abbrev cc8_stg4_1 : Ref sig .tc := ⟨.vmem, 89, rfl⟩
abbrev cc8_stg5_0 : Ref sig .tc := ⟨.vmem, 90, rfl⟩
abbrev cc8_stg5_1 : Ref sig .tc := ⟨.vmem, 91, rfl⟩
abbrev cc9_stg0_0 : Ref sig .tc := ⟨.vmem, 92, rfl⟩
abbrev cc9_stg0_1 : Ref sig .tc := ⟨.vmem, 93, rfl⟩
abbrev cc9_stg1_0 : Ref sig .tc := ⟨.vmem, 94, rfl⟩
abbrev cc9_stg1_1 : Ref sig .tc := ⟨.vmem, 95, rfl⟩
abbrev cc9_stg2_0 : Ref sig .tc := ⟨.vmem, 96, rfl⟩
abbrev cc9_stg2_1 : Ref sig .tc := ⟨.vmem, 97, rfl⟩
abbrev cc9_stg3_0 : Ref sig .tc := ⟨.vmem, 98, rfl⟩
abbrev cc9_stg3_1 : Ref sig .tc := ⟨.vmem, 99, rfl⟩
abbrev cc9_stg4_0 : Ref sig .tc := ⟨.vmem, 100, rfl⟩
abbrev cc9_stg4_1 : Ref sig .tc := ⟨.vmem, 101, rfl⟩
abbrev cc9_stg5_0 : Ref sig .tc := ⟨.vmem, 102, rfl⟩
abbrev cc9_stg5_1 : Ref sig .tc := ⟨.vmem, 103, rfl⟩
abbrev cc9_stg6_0 : Ref sig .tc := ⟨.vmem, 104, rfl⟩
abbrev cc9_stg7_0 : Ref sig .tc := ⟨.vmem, 105, rfl⟩
abbrev cc9_stg8_0 : Ref sig .tc := ⟨.vmem, 106, rfl⟩
abbrev cc9_stg9_0 : Ref sig .tc := ⟨.vmem, 107, rfl⟩
abbrev cc9_stg9_1 : Ref sig .tc := ⟨.vmem, 108, rfl⟩
abbrev cc9_stg10_0 : Ref sig .tc := ⟨.vmem, 109, rfl⟩
abbrev cc9_stg10_1 : Ref sig .tc := ⟨.vmem, 110, rfl⟩
abbrev cc10_stg0_0 : Ref sig .tc := ⟨.vmem, 111, rfl⟩
abbrev cc10_stg0_1 : Ref sig .tc := ⟨.vmem, 112, rfl⟩
abbrev cc10_stg1_0 : Ref sig .tc := ⟨.vmem, 113, rfl⟩
abbrev cc10_stg2_0 : Ref sig .tc := ⟨.vmem, 114, rfl⟩
abbrev cc10_stg3_0 : Ref sig .tc := ⟨.vmem, 115, rfl⟩
abbrev cc10_stg3_1 : Ref sig .tc := ⟨.vmem, 116, rfl⟩
abbrev cc11_stg0_0 : Ref sig .tc := ⟨.vmem, 117, rfl⟩
abbrev cc11_stg0_1 : Ref sig .tc := ⟨.vmem, 118, rfl⟩
abbrev cc11_stg1_0 : Ref sig .tc := ⟨.vmem, 119, rfl⟩
abbrev cc11_stg1_1 : Ref sig .tc := ⟨.vmem, 120, rfl⟩
abbrev cc11_stg2_0 : Ref sig .tc := ⟨.vmem, 121, rfl⟩
abbrev cc11_stg3_0 : Ref sig .tc := ⟨.vmem, 122, rfl⟩
abbrev cc11_stg4_0 : Ref sig .tc := ⟨.vmem, 123, rfl⟩
abbrev cc11_stg4_1 : Ref sig .tc := ⟨.vmem, 124, rfl⟩
abbrev cc11_stg5_0 : Ref sig .tc := ⟨.vmem, 125, rfl⟩
abbrev cc11_stg5_1 : Ref sig .tc := ⟨.vmem, 126, rfl⟩
abbrev cc12_stg0_0 : Ref sig .tc := ⟨.vmem, 127, rfl⟩
abbrev cc12_stg0_1 : Ref sig .tc := ⟨.vmem, 128, rfl⟩
abbrev cc12_stg1_0 : Ref sig .tc := ⟨.vmem, 129, rfl⟩
abbrev cc12_stg1_1 : Ref sig .tc := ⟨.vmem, 130, rfl⟩
abbrev cc12_stg2_0 : Ref sig .tc := ⟨.vmem, 131, rfl⟩
abbrev cc12_stg2_1 : Ref sig .tc := ⟨.vmem, 132, rfl⟩
abbrev cc12_stg3_0 : Ref sig .tc := ⟨.vmem, 133, rfl⟩
abbrev cc12_stg3_1 : Ref sig .tc := ⟨.vmem, 134, rfl⟩
abbrev cc12_stg4_0 : Ref sig .tc := ⟨.vmem, 135, rfl⟩
abbrev cc12_stg4_1 : Ref sig .tc := ⟨.vmem, 136, rfl⟩
abbrev cc12_stg5_0 : Ref sig .tc := ⟨.vmem, 137, rfl⟩
abbrev cc12_stg5_1 : Ref sig .tc := ⟨.vmem, 138, rfl⟩
abbrev cc12_stg6_0 : Ref sig .tc := ⟨.vmem, 139, rfl⟩
abbrev cc12_stg7_0 : Ref sig .tc := ⟨.vmem, 140, rfl⟩
abbrev cc12_stg8_0 : Ref sig .tc := ⟨.vmem, 141, rfl⟩
abbrev cc12_stg9_0 : Ref sig .tc := ⟨.vmem, 142, rfl⟩
abbrev cc12_stg9_1 : Ref sig .tc := ⟨.vmem, 143, rfl⟩
abbrev cc12_stg10_0 : Ref sig .tc := ⟨.vmem, 144, rfl⟩
abbrev cc12_stg10_1 : Ref sig .tc := ⟨.vmem, 145, rfl⟩
abbrev cc13_stg0_0 : Ref sig .tc := ⟨.vmem, 146, rfl⟩
abbrev cc13_stg0_1 : Ref sig .tc := ⟨.vmem, 147, rfl⟩
abbrev cc13_stg1_0 : Ref sig .tc := ⟨.vmem, 148, rfl⟩
abbrev cc13_stg2_0 : Ref sig .tc := ⟨.vmem, 149, rfl⟩
abbrev cc13_stg3_0 : Ref sig .tc := ⟨.vmem, 150, rfl⟩
abbrev cc13_stg3_1 : Ref sig .tc := ⟨.vmem, 151, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem4_0 : DmaSem sig := 18
abbrev cc2_sem4_1 : DmaSem sig := 19
abbrev cc2_sem5_0 : DmaSem sig := 20
abbrev cc2_sem5_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem3_1 : DmaSem sig := 29
abbrev cc3_sem4_0 : DmaSem sig := 30
abbrev cc3_sem4_1 : DmaSem sig := 31
abbrev cc3_sem5_0 : DmaSem sig := 32
abbrev cc3_sem5_1 : DmaSem sig := 33
abbrev cc3_sem6_0 : DmaSem sig := 34
abbrev cc3_sem7_0 : DmaSem sig := 35
abbrev cc3_sem8_0 : DmaSem sig := 36
abbrev cc3_sem9_0 : DmaSem sig := 37
abbrev cc3_sem9_1 : DmaSem sig := 38
abbrev cc3_sem10_0 : DmaSem sig := 39
abbrev cc3_sem10_1 : DmaSem sig := 40
abbrev cc4_sem0_0 : DmaSem sig := 41
abbrev cc4_sem0_1 : DmaSem sig := 42
abbrev cc4_sem1_0 : DmaSem sig := 43
abbrev cc4_sem2_0 : DmaSem sig := 44
abbrev cc4_sem3_0 : DmaSem sig := 45
abbrev cc4_sem3_1 : DmaSem sig := 46
abbrev cc5_sem0_0 : DmaSem sig := 47
abbrev cc5_sem0_1 : DmaSem sig := 48
abbrev cc5_sem1_0 : DmaSem sig := 49
abbrev cc5_sem1_1 : DmaSem sig := 50
abbrev cc5_sem2_0 : DmaSem sig := 51
abbrev cc5_sem3_0 : DmaSem sig := 52
abbrev cc5_sem4_0 : DmaSem sig := 53
abbrev cc5_sem4_1 : DmaSem sig := 54
abbrev cc5_sem5_0 : DmaSem sig := 55
abbrev cc5_sem5_1 : DmaSem sig := 56
abbrev cc6_sem0_0 : DmaSem sig := 57
abbrev cc6_sem0_1 : DmaSem sig := 58
abbrev cc6_sem1_0 : DmaSem sig := 59
abbrev cc6_sem1_1 : DmaSem sig := 60
abbrev cc6_sem2_0 : DmaSem sig := 61
abbrev cc6_sem2_1 : DmaSem sig := 62
abbrev cc6_sem3_0 : DmaSem sig := 63
abbrev cc6_sem3_1 : DmaSem sig := 64
abbrev cc6_sem4_0 : DmaSem sig := 65
abbrev cc6_sem4_1 : DmaSem sig := 66
abbrev cc6_sem5_0 : DmaSem sig := 67
abbrev cc6_sem5_1 : DmaSem sig := 68
abbrev cc6_sem6_0 : DmaSem sig := 69
abbrev cc6_sem7_0 : DmaSem sig := 70
abbrev cc6_sem8_0 : DmaSem sig := 71
abbrev cc6_sem9_0 : DmaSem sig := 72
abbrev cc6_sem9_1 : DmaSem sig := 73
abbrev cc6_sem10_0 : DmaSem sig := 74
abbrev cc6_sem10_1 : DmaSem sig := 75
abbrev cc7_sem0_0 : DmaSem sig := 76
abbrev cc7_sem0_1 : DmaSem sig := 77
abbrev cc7_sem1_0 : DmaSem sig := 78
abbrev cc7_sem2_0 : DmaSem sig := 79
abbrev cc7_sem3_0 : DmaSem sig := 80
abbrev cc7_sem3_1 : DmaSem sig := 81
abbrev cc8_sem0_0 : DmaSem sig := 82
abbrev cc8_sem0_1 : DmaSem sig := 83
abbrev cc8_sem1_0 : DmaSem sig := 84
abbrev cc8_sem1_1 : DmaSem sig := 85
abbrev cc8_sem2_0 : DmaSem sig := 86
abbrev cc8_sem3_0 : DmaSem sig := 87
abbrev cc8_sem4_0 : DmaSem sig := 88
abbrev cc8_sem4_1 : DmaSem sig := 89
abbrev cc8_sem5_0 : DmaSem sig := 90
abbrev cc8_sem5_1 : DmaSem sig := 91
abbrev cc9_sem0_0 : DmaSem sig := 92
abbrev cc9_sem0_1 : DmaSem sig := 93
abbrev cc9_sem1_0 : DmaSem sig := 94
abbrev cc9_sem1_1 : DmaSem sig := 95
abbrev cc9_sem2_0 : DmaSem sig := 96
abbrev cc9_sem2_1 : DmaSem sig := 97
abbrev cc9_sem3_0 : DmaSem sig := 98
abbrev cc9_sem3_1 : DmaSem sig := 99
abbrev cc9_sem4_0 : DmaSem sig := 100
abbrev cc9_sem4_1 : DmaSem sig := 101
abbrev cc9_sem5_0 : DmaSem sig := 102
abbrev cc9_sem5_1 : DmaSem sig := 103
abbrev cc9_sem6_0 : DmaSem sig := 104
abbrev cc9_sem7_0 : DmaSem sig := 105
abbrev cc9_sem8_0 : DmaSem sig := 106
abbrev cc9_sem9_0 : DmaSem sig := 107
abbrev cc9_sem9_1 : DmaSem sig := 108
abbrev cc9_sem10_0 : DmaSem sig := 109
abbrev cc9_sem10_1 : DmaSem sig := 110
abbrev cc10_sem0_0 : DmaSem sig := 111
abbrev cc10_sem0_1 : DmaSem sig := 112
abbrev cc10_sem1_0 : DmaSem sig := 113
abbrev cc10_sem2_0 : DmaSem sig := 114
abbrev cc10_sem3_0 : DmaSem sig := 115
abbrev cc10_sem3_1 : DmaSem sig := 116
abbrev cc11_sem0_0 : DmaSem sig := 117
abbrev cc11_sem0_1 : DmaSem sig := 118
abbrev cc11_sem1_0 : DmaSem sig := 119
abbrev cc11_sem1_1 : DmaSem sig := 120
abbrev cc11_sem2_0 : DmaSem sig := 121
abbrev cc11_sem3_0 : DmaSem sig := 122
abbrev cc11_sem4_0 : DmaSem sig := 123
abbrev cc11_sem4_1 : DmaSem sig := 124
abbrev cc11_sem5_0 : DmaSem sig := 125
abbrev cc11_sem5_1 : DmaSem sig := 126
abbrev cc12_sem0_0 : DmaSem sig := 127
abbrev cc12_sem0_1 : DmaSem sig := 128
abbrev cc12_sem1_0 : DmaSem sig := 129
abbrev cc12_sem1_1 : DmaSem sig := 130
abbrev cc12_sem2_0 : DmaSem sig := 131
abbrev cc12_sem2_1 : DmaSem sig := 132
abbrev cc12_sem3_0 : DmaSem sig := 133
abbrev cc12_sem3_1 : DmaSem sig := 134
abbrev cc12_sem4_0 : DmaSem sig := 135
abbrev cc12_sem4_1 : DmaSem sig := 136
abbrev cc12_sem5_0 : DmaSem sig := 137
abbrev cc12_sem5_1 : DmaSem sig := 138
abbrev cc12_sem6_0 : DmaSem sig := 139
abbrev cc12_sem7_0 : DmaSem sig := 140
abbrev cc12_sem8_0 : DmaSem sig := 141
abbrev cc12_sem9_0 : DmaSem sig := 142
abbrev cc12_sem9_1 : DmaSem sig := 143
abbrev cc12_sem10_0 : DmaSem sig := 144
abbrev cc12_sem10_1 : DmaSem sig := 145
abbrev cc13_sem0_0 : DmaSem sig := 146
abbrev cc13_sem0_1 : DmaSem sig := 147
abbrev cc13_sem1_0 : DmaSem sig := 148
abbrev cc13_sem2_0 : DmaSem sig := 149
abbrev cc13_sem3_0 : DmaSem sig := 150
abbrev cc13_sem3_1 : DmaSem sig := 151

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![160], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S2000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S2000x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S64x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S2000x64 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev stage3_10 : Fin 2 → Memref sig .tc .vmem S2000x64 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![160], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x1 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_10 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S2000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S2000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S2000x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 2 → Memref sig .tc .vmem S2000x1 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 1 → Memref sig .tc .vmem S1x64 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S64x64 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1x64 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 2 → Memref sig .tc .vmem S2000x64 .f32 := fun | 0 => Memref.whole cc6_stg9_0 | 1 => Memref.whole cc6_stg9_1 | ⟨_ + 2, h⟩ => absurd h (Nat.not_lt.2 (Nat.le_add_left _ _))
abbrev sem6_9 : Fin 2 → DmaSem sig := fun | 0 => cc6_sem9_0 | 1 => cc6_sem9_1 | ⟨_ + 2, h⟩ => absurd h (Nat.not_lt.2 (Nat.le_add_left _ _))
abbrev reads6_9 : Fin grid6.rank → Bool := ![true]

abbrev stage6_10 : Fin 2 → Memref sig .tc .vmem S2000x64 .f32 := fun | 0 => Memref.whole cc6_stg10_0 | 1 => Memref.whole cc6_stg10_1 | ⟨_ + 2, h⟩ => absurd h (Nat.not_lt.2 (Nat.le_add_left _ _))
abbrev sem6_10 : Fin 2 → DmaSem sig := fun | 0 => cc6_sem10_0 | 1 => cc6_sem10_1 | ⟨_ + 2, h⟩ => absurd h (Nat.not_lt.2 (Nat.le_add_left _ _))
abbrev reads6_10 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![160], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S64x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S64x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S5000x1 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev stage8_5 : Fin 2 → Memref sig .tc .vmem S5000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_8 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_9 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_10 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S2000x64 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S2000x64 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 2 → Memref sig .tc .vmem S2000x64 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev stage9_4 : Fin 2 → Memref sig .tc .vmem S2000x64 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev stage9_5 : Fin 2 → Memref sig .tc .vmem S2000x1 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev stage9_6 : Fin 1 → Memref sig .tc .vmem S1x64 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 1 → Memref sig .tc .vmem S64x64 .f32 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![false]

abbrev stage9_8 : Fin 1 → Memref sig .tc .vmem S1x64 .f32 := fun | 0 => Memref.whole cc9_stg8_0 | ⟨_ + 1, h⟩ => absurd h (Nat.not_lt.2 (Nat.le_add_left _ _))
abbrev sem9_8 : Fin 1 → DmaSem sig := fun | 0 => cc9_sem8_0 | ⟨_ + 1, h⟩ => absurd h (Nat.not_lt.2 (Nat.le_add_left _ _))
abbrev reads9_8 : Fin grid9.rank → Bool := ![false]

abbrev stage9_9 : Fin 2 → Memref sig .tc .vmem S2000x64 .f32 := fun | 0 => Memref.whole cc9_stg9_0 | 1 => Memref.whole cc9_stg9_1 | ⟨_ + 2, h⟩ => absurd h (Nat.not_lt.2 (Nat.le_add_left _ _))
abbrev sem9_9 : Fin 2 → DmaSem sig := fun | 0 => cc9_sem9_0 | 1 => cc9_sem9_1 | ⟨_ + 2, h⟩ => absurd h (Nat.not_lt.2 (Nat.le_add_left _ _))
abbrev reads9_9 : Fin grid9.rank → Bool := ![true]

abbrev stage9_10 : Fin 2 → Memref sig .tc .vmem S2000x64 .f32 := fun | 0 => Memref.whole cc9_stg10_0 | 1 => Memref.whole cc9_stg10_1 | ⟨_ + 2, h⟩ => absurd h (Nat.not_lt.2 (Nat.le_add_left _ _))
abbrev sem9_10 : Fin 2 → DmaSem sig := fun | 0 => cc9_sem10_0 | 1 => cc9_sem10_1 | ⟨_ + 2, h⟩ => absurd h (Nat.not_lt.2 (Nat.le_add_left _ _))
abbrev reads9_10 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S64x64 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x64 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S5000x64 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev grid11 : Pipeline.Grid := ⟨1, ![160], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S5000x64 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S64x64 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S64x64 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 2 → Memref sig .tc .vmem S5000x1 .f32 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true]

abbrev stage11_5 : Fin 2 → Memref sig .tc .vmem S5000x128 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev grid12 : Pipeline.Grid := ⟨1, ![25], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_4 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_5 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_6 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_7 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_8 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_9 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_10 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S2000x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S2000x64 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 2 → Memref sig .tc .vmem S2000x64 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev stage12_3 : Fin 2 → Memref sig .tc .vmem S2000x64 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev stage12_4 : Fin 2 → Memref sig .tc .vmem S2000x64 .f32 := fun | 0 => Memref.whole cc12_stg4_0 | 1 => Memref.whole cc12_stg4_1 | ⟨_ + 2, h⟩ => absurd h (Nat.not_lt.2 (Nat.le_add_left _ _))
abbrev sem12_4 : Fin 2 → DmaSem sig := fun | 0 => cc12_sem4_0 | 1 => cc12_sem4_1 | ⟨_ + 2, h⟩ => absurd h (Nat.not_lt.2 (Nat.le_add_left _ _))
abbrev reads12_4 : Fin grid12.rank → Bool := ![true]

abbrev stage12_5 : Fin 2 → Memref sig .tc .vmem S2000x1 .f32 := fun | 0 => Memref.whole cc12_stg5_0 | 1 => Memref.whole cc12_stg5_1 | ⟨_ + 2, h⟩ => absurd h (Nat.not_lt.2 (Nat.le_add_left _ _))
abbrev sem12_5 : Fin 2 → DmaSem sig := fun | 0 => cc12_sem5_0 | 1 => cc12_sem5_1 | ⟨_ + 2, h⟩ => absurd h (Nat.not_lt.2 (Nat.le_add_left _ _))
abbrev reads12_5 : Fin grid12.rank → Bool := ![true]

abbrev stage12_6 : Fin 1 → Memref sig .tc .vmem S1x64 .f32 := fun | 0 => Memref.whole cc12_stg6_0 | ⟨_ + 1, h⟩ => absurd h (Nat.not_lt.2 (Nat.le_add_left _ _))
abbrev sem12_6 : Fin 1 → DmaSem sig := fun | 0 => cc12_sem6_0 | ⟨_ + 1, h⟩ => absurd h (Nat.not_lt.2 (Nat.le_add_left _ _))
abbrev reads12_6 : Fin grid12.rank → Bool := ![false]

abbrev stage12_7 : Fin 1 → Memref sig .tc .vmem S64x64 .f32 := fun | 0 => Memref.whole cc12_stg7_0 | ⟨_ + 1, h⟩ => absurd h (Nat.not_lt.2 (Nat.le_add_left _ _))
abbrev sem12_7 : Fin 1 → DmaSem sig := fun | 0 => cc12_sem7_0 | ⟨_ + 1, h⟩ => absurd h (Nat.not_lt.2 (Nat.le_add_left _ _))
abbrev reads12_7 : Fin grid12.rank → Bool := ![false]

abbrev stage12_8 : Fin 1 → Memref sig .tc .vmem S1x64 .f32 := fun | 0 => Memref.whole cc12_stg8_0 | ⟨_ + 1, h⟩ => absurd h (Nat.not_lt.2 (Nat.le_add_left _ _))
abbrev sem12_8 : Fin 1 → DmaSem sig := fun | 0 => cc12_sem8_0 | ⟨_ + 1, h⟩ => absurd h (Nat.not_lt.2 (Nat.le_add_left _ _))
abbrev reads12_8 : Fin grid12.rank → Bool := ![false]

abbrev stage12_9 : Fin 2 → Memref sig .tc .vmem S2000x64 .f32 := fun | 0 => Memref.whole cc12_stg9_0 | 1 => Memref.whole cc12_stg9_1 | ⟨_ + 2, h⟩ => absurd h (Nat.not_lt.2 (Nat.le_add_left _ _))
abbrev sem12_9 : Fin 2 → DmaSem sig := fun | 0 => cc12_sem9_0 | 1 => cc12_sem9_1 | ⟨_ + 2, h⟩ => absurd h (Nat.not_lt.2 (Nat.le_add_left _ _))
abbrev reads12_9 : Fin grid12.rank → Bool := ![true]

abbrev stage12_10 : Fin 2 → Memref sig .tc .vmem S2000x64 .f32 := fun | 0 => Memref.whole cc12_stg10_0 | 1 => Memref.whole cc12_stg10_1 | ⟨_ + 2, h⟩ => absurd h (Nat.not_lt.2 (Nat.le_add_left _ _))
abbrev sem12_10 : Fin 2 → DmaSem sig := fun | 0 => cc12_sem10_0 | 1 => cc12_sem10_1 | ⟨_ + 2, h⟩ => absurd h (Nat.not_lt.2 (Nat.le_add_left _ _))
abbrev reads12_10 : Fin grid12.rank → Bool := ![true]

abbrev grid13 : Pipeline.Grid := ⟨1, ![10], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S5000x64 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S64x40 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x40 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 2 → Memref sig .tc .vmem S5000x40 .f32 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S64 : S_.BroadcastsInDim S64 (![] : Fin 0 → Fin S64.rank)
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  concatenates_S5000x64_S5000x64_S5000x128_d1 : Shape.Concatenates [S5000x64, S5000x64] S5000x128 1
  bcast_S_S50000x128 : S_.BroadcastsInDim S50000x128 (![] : Fin 0 → Fin S50000x128.rank)
  slices_S50000x128_S50000x64_0_0 : S50000x128.Slices ![0, 0] S50000x64
  slices_S50000x128_S50000x64_0_64 : S50000x128.Slices ![0, 64] S50000x64
  bcast_S_S50000x64 : S_.BroadcastsInDim S50000x64 (![] : Fin 0 → Fin S50000x64.rank)
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  broadcasts_S1x64_S2000x64 : S1x64.Broadcasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  shapeCasts_S40_S1x40 : S40.ShapeCasts S1x40
  inb_S64x40_S64x40_0_0 : ∀ a, (![0, 0] : Fin 2 → Nat) a + S64x40.size a ≤ S64x40.size a
  h_S64x40 : 0 < S64x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x128_S128x64_S5000x64_1_0_0_1_n_n_wf : DotDims.WF S5000x128 S128x64 S5000x64 [1] [0] [0] [1] [] []
  gather_S50000x64_S800000x1_S800000x64_1_0_n_n_0_1_164_wf : GatherDims.WF S50000x64 S800000x1 S800000x64 [1] [0] [] [0] [] 1 ![1, 64]
  dot_S5000x64_S64x64_S5000x64_1_0_0_1_n_n_wf : DotDims.WF S5000x64 S64x64 S5000x64 [1] [0] [0] [1] [] []
  scatter_S50000x128_S800000x1_S800000x128_1_0_0_1_wf : ScatterDims.WF S50000x128 S800000x1 S800000x128 [1] [0] [0] 1
  dot_S2000x64_S64x64_S2000x64_1_0_0_1_n_n_wf : DotDims.WF S2000x64 S64x64 S2000x64 [1] [0] [0] [1] [] []
  dot_S5000x64_S64x40_S5000x40_1_0_0_1_n_n_wf : DotDims.WF S5000x64 S64x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S800000x64.size a
  hwx2_0 : ∀ i : grid2.Coords, EltTy.bits .f32 = 32 ∨ (Rect.block (s := S800000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S800000x64.size a
  hwx2_1 : ∀ i : grid2.Coords, EltTy.bits .f32 = 32 ∨ (Rect.block (s := S800000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x1.size a ≤ S800000x1.size a
  hwx2_4 : ∀ i : grid2.Coords, EltTy.bits .f32 = 32 ∨ (Rect.block (s := S800000x1) S5000x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S800000x128.size a
  hwx2_5 : ∀ i : grid2.Coords, EltTy.bits .f32 = 32 ∨ (Rect.block (s := S800000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S50000x64.size a
  hwx3_1 : ∀ i : grid3.Coords, EltTy.bits .f32 = 32 ∨ (Rect.block (s := S50000x64) S2000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S50000x64.size a
  hwx3_2 : ∀ i : grid3.Coords, EltTy.bits .f32 = 32 ∨ (Rect.block (s := S50000x64) S2000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x64.size a ≤ S50000x64.size a
  hwx3_3 : ∀ i : grid3.Coords, EltTy.bits .f32 = 32 ∨ (Rect.block (s := S50000x64) S2000x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x64.size a ≤ S50000x64.size a
  hwx3_4 : ∀ i : grid3.Coords, EltTy.bits .f32 = 32 ∨ (Rect.block (s := S50000x64) S2000x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x1.size a ≤ S50000x1.size a
  hwx3_5 : ∀ i : grid3.Coords, EltTy.bits .f32 = 32 ∨ (Rect.block (s := S50000x1) S2000x1.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S64x64.size a ≤ S64x64.size a
  hwx3_7 : ∀ i : grid3.Coords, EltTy.bits .f32 = 32 ∨ (Rect.block (s := S64x64) S64x64.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x64.size a ≤ S1x64.size a
  hwx3_8 : ∀ i : grid3.Coords, EltTy.bits .f32 = 32 ∨ (Rect.block (s := S1x64) S1x64.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S2000x64.size a ≤ S50000x64.size a
  hwx3_9 : ∀ i : grid3.Coords, EltTy.bits .f32 = 32 ∨ (Rect.block (s := S50000x64) S2000x64.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S2000x64.size a ≤ S50000x64.size a
  hwx3_10 : ∀ i : grid3.Coords, EltTy.bits .f32 = 32 ∨ (Rect.block (s := S50000x64) S2000x64.size (cc3_transform_10 i) (hinb3_10 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S50000x64.size a
  hwx4_3 : ∀ i : grid4.Coords, EltTy.bits .f32 = 32 ∨ (Rect.block (s := S50000x64) S5000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S800000x64.size a
  hwx5_0 : ∀ i : grid5.Coords, EltTy.bits .f32 = 32 ∨ (Rect.block (s := S800000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S800000x64.size a
  hwx5_1 : ∀ i : grid5.Coords, EltTy.bits .f32 = 32 ∨ (Rect.block (s := S800000x64) S5000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x64.size a ≤ S64x64.size a
  hwx5_3 : ∀ i : grid5.Coords, EltTy.bits .f32 = 32 ∨ (Rect.block (s := S64x64) S64x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x1.size a ≤ S800000x1.size a
  hwx5_4 : ∀ i : grid5.Coords, EltTy.bits .f32 = 32 ∨ (Rect.block (s := S800000x1) S5000x1.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S800000x128.size a
  hwx5_5 : ∀ i : grid5.Coords, EltTy.bits .f32 = 32 ∨ (Rect.block (s := S800000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x64.size a ≤ S50000x64.size a
  hwx6_0 : ∀ i : grid6.Coords, EltTy.bits .f32 = 32 ∨ (Rect.block (s := S50000x64) S2000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x64.size a ≤ S50000x64.size a
  hwx6_1 : ∀ i : grid6.Coords, EltTy.bits .f32 = 32 ∨ (Rect.block (s := S50000x64) S2000x64.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x64.size a ≤ S50000x64.size a
  hwx6_2 : ∀ i : grid6.Coords, EltTy.bits .f32 = 32 ∨ (Rect.block (s := S50000x64) S2000x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x64.size a ≤ S50000x64.size a
  hwx6_3 : ∀ i : grid6.Coords, EltTy.bits .f32 = 32 ∨ (Rect.block (s := S50000x64) S2000x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S2000x64.size a ≤ S50000x64.size a
  hwx6_4 : ∀ i : grid6.Coords, EltTy.bits .f32 = 32 ∨ (Rect.block (s := S50000x64) S2000x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S2000x1.size a ≤ S50000x1.size a
  hwx6_5 : ∀ i : grid6.Coords, EltTy.bits .f32 = 32 ∨ (Rect.block (s := S50000x1) S2000x1.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x64.size a ≤ S1x64.size a
  hwx6_6 : ∀ i : grid6.Coords, EltTy.bits .f32 = 32 ∨ (Rect.block (s := S1x64) S1x64.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S64x64.size a ≤ S64x64.size a
  hwx6_7 : ∀ i : grid6.Coords, EltTy.bits .f32 = 32 ∨ (Rect.block (s := S64x64) S64x64.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1x64.size a ≤ S1x64.size a
  hwx6_8 : ∀ i : grid6.Coords, EltTy.bits .f32 = 32 ∨ (Rect.block (s := S1x64) S1x64.size (cc6_transform_8 i) (hinb6_8 i)).WholeWords (EltTy.packing .f32)
  hstage6_9 : ∀ j, (stage6_9 j).IsWhole
  nbuf6_9 : grid6.bufCount reads6_9 false = 2
  hreads6_9 : ∀ i i' : grid6.Coords, (∀ a, reads6_9 a = true → i a = i' a) → cc6_transform_9 i = cc6_transform_9 i'
  hinb6_9 : ∀ (i : grid6.Coords) a, (cc6_transform_9 i a + 1) * S2000x64.size a ≤ S50000x64.size a
  hwx6_9 : ∀ i : grid6.Coords, EltTy.bits .f32 = 32 ∨ (Rect.block (s := S50000x64) S2000x64.size (cc6_transform_9 i) (hinb6_9 i)).WholeWords (EltTy.packing .f32)
  hstage6_10 : ∀ j, (stage6_10 j).IsWhole
  nbuf6_10 : grid6.bufCount reads6_10 false = 2
  hreads6_10 : ∀ i i' : grid6.Coords, (∀ a, reads6_10 a = true → i a = i' a) → cc6_transform_10 i = cc6_transform_10 i'
  hinb6_10 : ∀ (i : grid6.Coords) a, (cc6_transform_10 i a + 1) * S2000x64.size a ≤ S50000x64.size a
  hwx6_10 : ∀ i : grid6.Coords, EltTy.bits .f32 = 32 ∨ (Rect.block (s := S50000x64) S2000x64.size (cc6_transform_10 i) (hinb6_10 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S50000x64.size a
  hwx7_0 : ∀ i : grid7.Coords, EltTy.bits .f32 = 32 ∨ (Rect.block (s := S50000x64) S5000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x64.size a ≤ S64x64.size a
  hwx7_1 : ∀ i : grid7.Coords, EltTy.bits .f32 = 32 ∨ (Rect.block (s := S64x64) S64x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x64.size a ≤ S1x64.size a
  hwx7_2 : ∀ i : grid7.Coords, EltTy.bits .f32 = 32 ∨ (Rect.block (s := S1x64) S1x64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x64.size a ≤ S50000x64.size a
  hwx7_3 : ∀ i : grid7.Coords, EltTy.bits .f32 = 32 ∨ (Rect.block (s := S50000x64) S5000x64.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S800000x64.size a
  hwx8_0 : ∀ i : grid8.Coords, EltTy.bits .f32 = 32 ∨ (Rect.block (s := S800000x64) S5000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x64.size a ≤ S800000x64.size a
  hwx8_1 : ∀ i : grid8.Coords, EltTy.bits .f32 = 32 ∨ (Rect.block (s := S800000x64) S5000x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S64x64.size a ≤ S64x64.size a
  hwx8_2 : ∀ i : grid8.Coords, EltTy.bits .f32 = 32 ∨ (Rect.block (s := S64x64) S64x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S64x64.size a ≤ S64x64.size a
  hwx8_3 : ∀ i : grid8.Coords, EltTy.bits .f32 = 32 ∨ (Rect.block (s := S64x64) S64x64.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S5000x1.size a ≤ S800000x1.size a
  hwx8_4 : ∀ i : grid8.Coords, EltTy.bits .f32 = 32 ∨ (Rect.block (s := S800000x1) S5000x1.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x128.size a ≤ S800000x128.size a
  hwx8_5 : ∀ i : grid8.Coords, EltTy.bits .f32 = 32 ∨ (Rect.block (s := S800000x128) S5000x128.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x64.size a ≤ S50000x64.size a
  hwx9_0 : ∀ i : grid9.Coords, EltTy.bits .f32 = 32 ∨ (Rect.block (s := S50000x64) S2000x64.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S2000x64.size a ≤ S50000x64.size a
  hwx9_1 : ∀ i : grid9.Coords, EltTy.bits .f32 = 32 ∨ (Rect.block (s := S50000x64) S2000x64.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S2000x64.size a ≤ S50000x64.size a
  hwx9_2 : ∀ i : grid9.Coords, EltTy.bits .f32 = 32 ∨ (Rect.block (s := S50000x64) S2000x64.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S2000x64.size a ≤ S50000x64.size a
  hwx9_3 : ∀ i : grid9.Coords, EltTy.bits .f32 = 32 ∨ (Rect.block (s := S50000x64) S2000x64.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S2000x64.size a ≤ S50000x64.size a
  hwx9_4 : ∀ i : grid9.Coords, EltTy.bits .f32 = 32 ∨ (Rect.block (s := S50000x64) S2000x64.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S2000x1.size a ≤ S50000x1.size a
  hwx9_5 : ∀ i : grid9.Coords, EltTy.bits .f32 = 32 ∨ (Rect.block (s := S50000x1) S2000x1.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S1x64.size a ≤ S1x64.size a
  hwx9_6 : ∀ i : grid9.Coords, EltTy.bits .f32 = 32 ∨ (Rect.block (s := S1x64) S1x64.size (cc9_transform_6 i) (hinb9_6 i)).WholeWords (EltTy.packing .f32)
  hstage9_7 : ∀ j, (stage9_7 j).IsWhole
  nbuf9_7 : grid9.bufCount reads9_7 true = 1
  hreads9_7 : ∀ i i' : grid9.Coords, (∀ a, reads9_7 a = true → i a = i' a) → cc9_transform_7 i = cc9_transform_7 i'
  hinb9_7 : ∀ (i : grid9.Coords) a, (cc9_transform_7 i a + 1) * S64x64.size a ≤ S64x64.size a
  hwx9_7 : ∀ i : grid9.Coords, EltTy.bits .f32 = 32 ∨ (Rect.block (s := S64x64) S64x64.size (cc9_transform_7 i) (hinb9_7 i)).WholeWords (EltTy.packing .f32)
  hstage9_8 : ∀ j, (stage9_8 j).IsWhole
  nbuf9_8 : grid9.bufCount reads9_8 true = 1
  hreads9_8 : ∀ i i' : grid9.Coords, (∀ a, reads9_8 a = true → i a = i' a) → cc9_transform_8 i = cc9_transform_8 i'
  hinb9_8 : ∀ (i : grid9.Coords) a, (cc9_transform_8 i a + 1) * S1x64.size a ≤ S1x64.size a
  hwx9_8 : ∀ i : grid9.Coords, EltTy.bits .f32 = 32 ∨ (Rect.block (s := S1x64) S1x64.size (cc9_transform_8 i) (hinb9_8 i)).WholeWords (EltTy.packing .f32)
  hstage9_9 : ∀ j, (stage9_9 j).IsWhole
  nbuf9_9 : grid9.bufCount reads9_9 false = 2
  hreads9_9 : ∀ i i' : grid9.Coords, (∀ a, reads9_9 a = true → i a = i' a) → cc9_transform_9 i = cc9_transform_9 i'
  hinb9_9 : ∀ (i : grid9.Coords) a, (cc9_transform_9 i a + 1) * S2000x64.size a ≤ S50000x64.size a
  hwx9_9 : ∀ i : grid9.Coords, EltTy.bits .f32 = 32 ∨ (Rect.block (s := S50000x64) S2000x64.size (cc9_transform_9 i) (hinb9_9 i)).WholeWords (EltTy.packing .f32)
  hstage9_10 : ∀ j, (stage9_10 j).IsWhole
  nbuf9_10 : grid9.bufCount reads9_10 false = 2
  hreads9_10 : ∀ i i' : grid9.Coords, (∀ a, reads9_10 a = true → i a = i' a) → cc9_transform_10 i = cc9_transform_10 i'
  hinb9_10 : ∀ (i : grid9.Coords) a, (cc9_transform_10 i a + 1) * S2000x64.size a ≤ S50000x64.size a
  hwx9_10 : ∀ i : grid9.Coords, EltTy.bits .f32 = 32 ∨ (Rect.block (s := S50000x64) S2000x64.size (cc9_transform_10 i) (hinb9_10 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x64.size a ≤ S50000x64.size a
  hwx10_0 : ∀ i : grid10.Coords, EltTy.bits .f32 = 32 ∨ (Rect.block (s := S50000x64) S5000x64.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S64x64.size a ≤ S64x64.size a
  hwx10_1 : ∀ i : grid10.Coords, EltTy.bits .f32 = 32 ∨ (Rect.block (s := S64x64) S64x64.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x64.size a ≤ S1x64.size a
  hwx10_2 : ∀ i : grid10.Coords, EltTy.bits .f32 = 32 ∨ (Rect.block (s := S1x64) S1x64.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S5000x64.size a ≤ S50000x64.size a
  hwx10_3 : ∀ i : grid10.Coords, EltTy.bits .f32 = 32 ∨ (Rect.block (s := S50000x64) S5000x64.size (cc10_transform_3 i) (hinb10_3 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x64.size a ≤ S800000x64.size a
  hwx11_0 : ∀ i : grid11.Coords, EltTy.bits .f32 = 32 ∨ (Rect.block (s := S800000x64) S5000x64.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S5000x64.size a ≤ S800000x64.size a
  hwx11_1 : ∀ i : grid11.Coords, EltTy.bits .f32 = 32 ∨ (Rect.block (s := S800000x64) S5000x64.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S64x64.size a ≤ S64x64.size a
  hwx11_2 : ∀ i : grid11.Coords, EltTy.bits .f32 = 32 ∨ (Rect.block (s := S64x64) S64x64.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S64x64.size a ≤ S64x64.size a
  hwx11_3 : ∀ i : grid11.Coords, EltTy.bits .f32 = 32 ∨ (Rect.block (s := S64x64) S64x64.size (cc11_transform_3 i) (hinb11_3 i)).WholeWords (EltTy.packing .f32)
  hstage11_4 : ∀ j, (stage11_4 j).IsWhole
  nbuf11_4 : grid11.bufCount reads11_4 false = 2
  hreads11_4 : ∀ i i' : grid11.Coords, (∀ a, reads11_4 a = true → i a = i' a) → cc11_transform_4 i = cc11_transform_4 i'
  hinb11_4 : ∀ (i : grid11.Coords) a, (cc11_transform_4 i a + 1) * S5000x1.size a ≤ S800000x1.size a
  hwx11_4 : ∀ i : grid11.Coords, EltTy.bits .f32 = 32 ∨ (Rect.block (s := S800000x1) S5000x1.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S5000x128.size a ≤ S800000x128.size a
  hwx11_5 : ∀ i : grid11.Coords, EltTy.bits .f32 = 32 ∨ (Rect.block (s := S800000x128) S5000x128.size (cc11_transform_5 i) (hinb11_5 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S2000x64.size a ≤ S50000x64.size a
  hwx12_0 : ∀ i : grid12.Coords, EltTy.bits .f32 = 32 ∨ (Rect.block (s := S50000x64) S2000x64.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S2000x64.size a ≤ S50000x64.size a
  hwx12_1 : ∀ i : grid12.Coords, EltTy.bits .f32 = 32 ∨ (Rect.block (s := S50000x64) S2000x64.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S2000x64.size a ≤ S50000x64.size a
  hwx12_2 : ∀ i : grid12.Coords, EltTy.bits .f32 = 32 ∨ (Rect.block (s := S50000x64) S2000x64.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S2000x64.size a ≤ S50000x64.size a
  hwx12_3 : ∀ i : grid12.Coords, EltTy.bits .f32 = 32 ∨ (Rect.block (s := S50000x64) S2000x64.size (cc12_transform_3 i) (hinb12_3 i)).WholeWords (EltTy.packing .f32)
  hstage12_4 : ∀ j, (stage12_4 j).IsWhole
  nbuf12_4 : grid12.bufCount reads12_4 false = 2
  hreads12_4 : ∀ i i' : grid12.Coords, (∀ a, reads12_4 a = true → i a = i' a) → cc12_transform_4 i = cc12_transform_4 i'
  hinb12_4 : ∀ (i : grid12.Coords) a, (cc12_transform_4 i a + 1) * S2000x64.size a ≤ S50000x64.size a
  hwx12_4 : ∀ i : grid12.Coords, EltTy.bits .f32 = 32 ∨ (Rect.block (s := S50000x64) S2000x64.size (cc12_transform_4 i) (hinb12_4 i)).WholeWords (EltTy.packing .f32)
  hstage12_5 : ∀ j, (stage12_5 j).IsWhole
  nbuf12_5 : grid12.bufCount reads12_5 false = 2
  hreads12_5 : ∀ i i' : grid12.Coords, (∀ a, reads12_5 a = true → i a = i' a) → cc12_transform_5 i = cc12_transform_5 i'
  hinb12_5 : ∀ (i : grid12.Coords) a, (cc12_transform_5 i a + 1) * S2000x1.size a ≤ S50000x1.size a
  hwx12_5 : ∀ i : grid12.Coords, EltTy.bits .f32 = 32 ∨ (Rect.block (s := S50000x1) S2000x1.size (cc12_transform_5 i) (hinb12_5 i)).WholeWords (EltTy.packing .f32)
  hstage12_6 : ∀ j, (stage12_6 j).IsWhole
  nbuf12_6 : grid12.bufCount reads12_6 true = 1
  hreads12_6 : ∀ i i' : grid12.Coords, (∀ a, reads12_6 a = true → i a = i' a) → cc12_transform_6 i = cc12_transform_6 i'
  hinb12_6 : ∀ (i : grid12.Coords) a, (cc12_transform_6 i a + 1) * S1x64.size a ≤ S1x64.size a
  hwx12_6 : ∀ i : grid12.Coords, EltTy.bits .f32 = 32 ∨ (Rect.block (s := S1x64) S1x64.size (cc12_transform_6 i) (hinb12_6 i)).WholeWords (EltTy.packing .f32)
  hstage12_7 : ∀ j, (stage12_7 j).IsWhole
  nbuf12_7 : grid12.bufCount reads12_7 true = 1
  hreads12_7 : ∀ i i' : grid12.Coords, (∀ a, reads12_7 a = true → i a = i' a) → cc12_transform_7 i = cc12_transform_7 i'
  hinb12_7 : ∀ (i : grid12.Coords) a, (cc12_transform_7 i a + 1) * S64x64.size a ≤ S64x64.size a
  hwx12_7 : ∀ i : grid12.Coords, EltTy.bits .f32 = 32 ∨ (Rect.block (s := S64x64) S64x64.size (cc12_transform_7 i) (hinb12_7 i)).WholeWords (EltTy.packing .f32)
  hstage12_8 : ∀ j, (stage12_8 j).IsWhole
  nbuf12_8 : grid12.bufCount reads12_8 true = 1
  hreads12_8 : ∀ i i' : grid12.Coords, (∀ a, reads12_8 a = true → i a = i' a) → cc12_transform_8 i = cc12_transform_8 i'
  hinb12_8 : ∀ (i : grid12.Coords) a, (cc12_transform_8 i a + 1) * S1x64.size a ≤ S1x64.size a
  hwx12_8 : ∀ i : grid12.Coords, EltTy.bits .f32 = 32 ∨ (Rect.block (s := S1x64) S1x64.size (cc12_transform_8 i) (hinb12_8 i)).WholeWords (EltTy.packing .f32)
  hstage12_9 : ∀ j, (stage12_9 j).IsWhole
  nbuf12_9 : grid12.bufCount reads12_9 false = 2
  hreads12_9 : ∀ i i' : grid12.Coords, (∀ a, reads12_9 a = true → i a = i' a) → cc12_transform_9 i = cc12_transform_9 i'
  hinb12_9 : ∀ (i : grid12.Coords) a, (cc12_transform_9 i a + 1) * S2000x64.size a ≤ S50000x64.size a
  hwx12_9 : ∀ i : grid12.Coords, EltTy.bits .f32 = 32 ∨ (Rect.block (s := S50000x64) S2000x64.size (cc12_transform_9 i) (hinb12_9 i)).WholeWords (EltTy.packing .f32)
  hstage12_10 : ∀ j, (stage12_10 j).IsWhole
  nbuf12_10 : grid12.bufCount reads12_10 false = 2
  hreads12_10 : ∀ i i' : grid12.Coords, (∀ a, reads12_10 a = true → i a = i' a) → cc12_transform_10 i = cc12_transform_10 i'
  hinb12_10 : ∀ (i : grid12.Coords) a, (cc12_transform_10 i a + 1) * S2000x64.size a ≤ S50000x64.size a
  hwx12_10 : ∀ i : grid12.Coords, EltTy.bits .f32 = 32 ∨ (Rect.block (s := S50000x64) S2000x64.size (cc12_transform_10 i) (hinb12_10 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S5000x64.size a ≤ S50000x64.size a
  hwx13_0 : ∀ i : grid13.Coords, EltTy.bits .f32 = 32 ∨ (Rect.block (s := S50000x64) S5000x64.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S64x40.size a ≤ S64x40.size a
  hwx13_1 : ∀ i : grid13.Coords, EltTy.bits .f32 = 32 ∨ (Rect.block (s := S64x40) S64x40.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x40.size a ≤ S1x40.size a
  hwx13_2 : ∀ i : grid13.Coords, EltTy.bits .f32 = 32 ∨ (Rect.block (s := S1x40) S1x40.size (cc13_transform_2 i) (hinb13_2 i)).WholeWords (EltTy.packing .f32)
  hstage13_3 : ∀ j, (stage13_3 j).IsWhole
  nbuf13_3 : grid13.bufCount reads13_3 false = 2
  hreads13_3 : ∀ i i' : grid13.Coords, (∀ a, reads13_3 a = true → i a = i' a) → cc13_transform_3 i = cc13_transform_3 i'
  hinb13_3 : ∀ (i : grid13.Coords) a, (cc13_transform_3 i a + 1) * S5000x40.size a ≤ S50000x40.size a
  hwx13_3 : ∀ i : grid13.Coords, EltTy.bits .f32 = 32 ∨ (Rect.block (s := S50000x40) S5000x40.size (cc13_transform_3 i) (hinb13_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v31) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v38) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg4) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v26) S5000x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v48) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v31) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v31) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v47) S2000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v53) S2000x64.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v55) S2000x64.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v28) S2000x1.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v56) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg6) S64x64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v57) S1x64.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v58_0) S2000x64.size cc3_transform_9 reads3_9 true false 2 stage3_9 sem3_9
    hrank3 hreads3_9 hinb3_9 nbuf3_9 (Memref.isWhole_whole _) hwx3_9 hstage3_9

abbrev win3_10 : Pipeline.Window sig grid3 :=
  Pipeline.Window.ofSpec (Memref.whole main_v58_1) S2000x64.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

abbrev win4_0 : Pipeline.Window sig grid4 :=
  Pipeline.Window.ofSpec (Memref.whole main_v58_0) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg4) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v73) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v74) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v65) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v72) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg8) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg4) S64x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v26) S5000x1.size cc5_transform_4 reads5_4 false false 2 stage5_4 sem5_4
    hrank5 hreads5_4 hinb5_4 nbuf5_4 (Memref.isWhole_whole _) hwx5_4 hstage5_4

abbrev win5_5 : Pipeline.Window sig grid5 :=
  Pipeline.Window.ofSpec (Memref.whole main_v75) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v58_0) S2000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v58_1) S2000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v74) S2000x64.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v80) S2000x64.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v82) S2000x64.size cc6_transform_4 reads6_4 false false 2 stage6_4 sem6_4
    hrank6 hreads6_4 hinb6_4 nbuf6_4 (Memref.isWhole_whole _) hwx6_4 hstage6_4

abbrev win6_5 : Pipeline.Window sig grid6 :=
  Pipeline.Window.ofSpec (Memref.whole main_v28) S2000x1.size cc6_transform_5 reads6_5 false false 2 stage6_5 sem6_5
    hrank6 hreads6_5 hinb6_5 nbuf6_5 (Memref.isWhole_whole _) hwx6_5 hstage6_5

abbrev win6_6 : Pipeline.Window sig grid6 :=
  Pipeline.Window.ofSpec (Memref.whole main_v83) S1x64.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_arg6) S64x64.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v84) S1x64.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v85_0) S2000x64.size cc6_transform_9 reads6_9 true false 2 stage6_9 sem6_9
    hrank6 hreads6_9 hinb6_9 nbuf6_9 (Memref.isWhole_whole _) hwx6_9 hstage6_9

abbrev win6_10 : Pipeline.Window sig grid6 :=
  Pipeline.Window.ofSpec (Memref.whole main_v85_1) S2000x64.size cc6_transform_10 reads6_10 true false 2 stage6_10 sem6_10
    hrank6 hreads6_10 hinb6_10 nbuf6_10 (Memref.isWhole_whole _) hwx6_10 hstage6_10

abbrev win6 : Fin 11 → Pipeline.Window sig grid6 := fun | 0 => win6_0 | 1 => win6_1 | 2 => win6_2 | 3 => win6_3 | 4 => win6_4 | 5 => win6_5 | 6 => win6_6 | 7 => win6_7 | 8 => win6_8 | 9 => win6_9 | 10 => win6_10 | ⟨_ + 11, h⟩ => absurd h (Nat.not_lt.2 (Nat.le_add_left _ _))
abbrev spec6 : Fin 11 → Pipeline.WinSpec sig grid6.rank := fun w => (win6 w).toWinSpec

abbrev win7_0 : Pipeline.Window sig grid7 :=
  Pipeline.Window.ofSpec (Memref.whole main_v85_0) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg4) S64x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v100) S1x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v101) S5000x64.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v92) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v99) S5000x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_arg8) S64x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_arg4) S64x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v26) S5000x1.size cc8_transform_4 reads8_4 false false 2 stage8_4 sem8_4
    hrank8 hreads8_4 hinb8_4 nbuf8_4 (Memref.isWhole_whole _) hwx8_4 hstage8_4

abbrev win8_5 : Pipeline.Window sig grid8 :=
  Pipeline.Window.ofSpec (Memref.whole main_v102) S5000x128.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v85_0) S2000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v85_1) S2000x64.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v101) S2000x64.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v107) S2000x64.size cc9_transform_3 reads9_3 false false 2 stage9_3 sem9_3
    hrank9 hreads9_3 hinb9_3 nbuf9_3 (Memref.isWhole_whole _) hwx9_3 hstage9_3

abbrev win9_4 : Pipeline.Window sig grid9 :=
  Pipeline.Window.ofSpec (Memref.whole main_v109) S2000x64.size cc9_transform_4 reads9_4 false false 2 stage9_4 sem9_4
    hrank9 hreads9_4 hinb9_4 nbuf9_4 (Memref.isWhole_whole _) hwx9_4 hstage9_4

abbrev win9_5 : Pipeline.Window sig grid9 :=
  Pipeline.Window.ofSpec (Memref.whole main_v28) S2000x1.size cc9_transform_5 reads9_5 false false 2 stage9_5 sem9_5
    hrank9 hreads9_5 hinb9_5 nbuf9_5 (Memref.isWhole_whole _) hwx9_5 hstage9_5

abbrev win9_6 : Pipeline.Window sig grid9 :=
  Pipeline.Window.ofSpec (Memref.whole main_v110) S1x64.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_arg6) S64x64.size cc9_transform_7 reads9_7 false true 1 stage9_7 sem9_7
    hrank9 hreads9_7 hinb9_7 nbuf9_7 (Memref.isWhole_whole _) hwx9_7 hstage9_7

abbrev win9_8 : Pipeline.Window sig grid9 :=
  Pipeline.Window.ofSpec (Memref.whole main_v111) S1x64.size cc9_transform_8 reads9_8 false true 1 stage9_8 sem9_8
    hrank9 hreads9_8 hinb9_8 nbuf9_8 (Memref.isWhole_whole _) hwx9_8 hstage9_8

abbrev win9_9 : Pipeline.Window sig grid9 :=
  Pipeline.Window.ofSpec (Memref.whole main_v112_0) S2000x64.size cc9_transform_9 reads9_9 true false 2 stage9_9 sem9_9
    hrank9 hreads9_9 hinb9_9 nbuf9_9 (Memref.isWhole_whole _) hwx9_9 hstage9_9

abbrev win9_10 : Pipeline.Window sig grid9 :=
  Pipeline.Window.ofSpec (Memref.whole main_v112_1) S2000x64.size cc9_transform_10 reads9_10 true false 2 stage9_10 sem9_10
    hrank9 hreads9_10 hinb9_10 nbuf9_10 (Memref.isWhole_whole _) hwx9_10 hstage9_10

abbrev win9 : Fin 11 → Pipeline.Window sig grid9 := fun | 0 => win9_0 | 1 => win9_1 | 2 => win9_2 | 3 => win9_3 | 4 => win9_4 | 5 => win9_5 | 6 => win9_6 | 7 => win9_7 | 8 => win9_8 | 9 => win9_9 | 10 => win9_10 | ⟨_ + 11, h⟩ => absurd h (Nat.not_lt.2 (Nat.le_add_left _ _))
abbrev spec9 : Fin 11 → Pipeline.WinSpec sig grid9.rank := fun w => (win9 w).toWinSpec

abbrev win10_0 : Pipeline.Window sig grid10 :=
  Pipeline.Window.ofSpec (Memref.whole main_v112_0) S5000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg4) S64x64.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v127) S1x64.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v128) S5000x64.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_v119) S5000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v126) S5000x64.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_arg8) S64x64.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_arg4) S64x64.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v26) S5000x1.size cc11_transform_4 reads11_4 false false 2 stage11_4 sem11_4
    hrank11 hreads11_4 hinb11_4 nbuf11_4 (Memref.isWhole_whole _) hwx11_4 hstage11_4

abbrev win11_5 : Pipeline.Window sig grid11 :=
  Pipeline.Window.ofSpec (Memref.whole main_v129) S5000x128.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_v112_0) S2000x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v112_1) S2000x64.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v128) S2000x64.size cc12_transform_2 reads12_2 false false 2 stage12_2 sem12_2
    hrank12 hreads12_2 hinb12_2 nbuf12_2 (Memref.isWhole_whole _) hwx12_2 hstage12_2

abbrev win12_3 : Pipeline.Window sig grid12 :=
  Pipeline.Window.ofSpec (Memref.whole main_v134) S2000x64.size cc12_transform_3 reads12_3 false false 2 stage12_3 sem12_3
    hrank12 hreads12_3 hinb12_3 nbuf12_3 (Memref.isWhole_whole _) hwx12_3 hstage12_3

abbrev win12_4 : Pipeline.Window sig grid12 :=
  Pipeline.Window.ofSpec (Memref.whole main_v136) S2000x64.size cc12_transform_4 reads12_4 false false 2 stage12_4 sem12_4
    hrank12 hreads12_4 hinb12_4 nbuf12_4 (Memref.isWhole_whole _) hwx12_4 hstage12_4

abbrev win12_5 : Pipeline.Window sig grid12 :=
  Pipeline.Window.ofSpec (Memref.whole main_v28) S2000x1.size cc12_transform_5 reads12_5 false false 2 stage12_5 sem12_5
    hrank12 hreads12_5 hinb12_5 nbuf12_5 (Memref.isWhole_whole _) hwx12_5 hstage12_5

abbrev win12_6 : Pipeline.Window sig grid12 :=
  Pipeline.Window.ofSpec (Memref.whole main_v137) S1x64.size cc12_transform_6 reads12_6 false true 1 stage12_6 sem12_6
    hrank12 hreads12_6 hinb12_6 nbuf12_6 (Memref.isWhole_whole _) hwx12_6 hstage12_6

abbrev win12_7 : Pipeline.Window sig grid12 :=
  Pipeline.Window.ofSpec (Memref.whole main_arg6) S64x64.size cc12_transform_7 reads12_7 false true 1 stage12_7 sem12_7
    hrank12 hreads12_7 hinb12_7 nbuf12_7 (Memref.isWhole_whole _) hwx12_7 hstage12_7

abbrev win12_8 : Pipeline.Window sig grid12 :=
  Pipeline.Window.ofSpec (Memref.whole main_v138) S1x64.size cc12_transform_8 reads12_8 false true 1 stage12_8 sem12_8
    hrank12 hreads12_8 hinb12_8 nbuf12_8 (Memref.isWhole_whole _) hwx12_8 hstage12_8

abbrev win12_9 : Pipeline.Window sig grid12 :=
  Pipeline.Window.ofSpec (Memref.whole main_v139_0) S2000x64.size cc12_transform_9 reads12_9 true false 2 stage12_9 sem12_9
    hrank12 hreads12_9 hinb12_9 nbuf12_9 (Memref.isWhole_whole _) hwx12_9 hstage12_9

abbrev win12_10 : Pipeline.Window sig grid12 :=
  Pipeline.Window.ofSpec (Memref.whole main_v139_1) S2000x64.size cc12_transform_10 reads12_10 true false 2 stage12_10 sem12_10
    hrank12 hreads12_10 hinb12_10 nbuf12_10 (Memref.isWhole_whole _) hwx12_10 hstage12_10

abbrev win12 : Fin 11 → Pipeline.Window sig grid12 := fun | 0 => win12_0 | 1 => win12_1 | 2 => win12_2 | 3 => win12_3 | 4 => win12_4 | 5 => win12_5 | 6 => win12_6 | 7 => win12_7 | 8 => win12_8 | 9 => win12_9 | 10 => win12_10 | ⟨_ + 11, h⟩ => absurd h (Nat.not_lt.2 (Nat.le_add_left _ _))
abbrev spec12 : Fin 11 → Pipeline.WinSpec sig grid12.rank := fun w => (win12 w).toWinSpec

abbrev win13_0 : Pipeline.Window sig grid13 :=
  Pipeline.Window.ofSpec (Memref.whole main_v139_0) S5000x64.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_arg10) S64x40.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v140) S1x40.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v141) S5000x40.size cc13_transform_3 reads13_3 true false 2 stage13_3 sem13_3
    hrank13 hreads13_3 hinb13_3 nbuf13_3 (Memref.isWhole_whole _) hwx13_3 hstage13_3

abbrev win13 : Fin 4 → Pipeline.Window sig grid13 := fun | 0 => win13_0 | 1 => win13_1 | 2 => win13_2 | 3 => win13_3 | ⟨_ + 4, h⟩ => absurd h (Nat.not_lt.2 (Nat.le_add_left _ _))
abbrev spec13 : Fin 4 → Pipeline.WinSpec sig grid13.rank := fun w => (win13 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S_ : Shape := ⟨0, ![]⟩
abbrev S64x40 : Shape := ⟨2, ![64, 40]⟩
abbrev S40 : Shape := ⟨1, ![40]⟩
abbrev S1x800000 : Shape := ⟨2, ![1, 800000]⟩
abbrev S800000 : Shape := ⟨1, ![800000]⟩
abbrev S50000 : Shape := ⟨1, ![50000]⟩
abbrev S800000x1 : Shape := ⟨2, ![800000, 1]⟩
abbrev S50000x1 : Shape := ⟨2, ![50000, 1]⟩
abbrev S50000x64 : Shape := ⟨2, ![50000, 64]⟩
abbrev S1x64 : Shape := ⟨2, ![1, 64]⟩
abbrev S800000x64 : Shape := ⟨2, ![800000, 64]⟩
abbrev S50000x40 : Shape := ⟨2, ![50000, 40]⟩
abbrev S1x40 : Shape := ⟨2, ![1, 40]⟩

abbrev nBuf : Space → Nat
  | .hbm => 371
  | .vmem => 0
  | .smem => 0
  | _ => 0

abbrev hbmTy0_0 (i : Nat) : BufTy := match i % 128 with
  | 0 => ⟨S50000x128, .f32⟩
  | 1 => ⟨S2x800000, .i32⟩
  | 2 => ⟨S128x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x64, .f32⟩
  | 9 => ⟨S_, .f32⟩
  | 10 => ⟨S64x40, .f32⟩
  | 11 => ⟨S40, .f32⟩
  | 12 => ⟨S1x800000, .i32⟩
  | 13 => ⟨S800000, .i32⟩
  | 14 => ⟨S1x800000, .i32⟩
  | 15 => ⟨S800000, .i32⟩
  | 16 => ⟨S_, .f32⟩
  | 17 => ⟨S800000, .f32⟩
  | 18 => ⟨S_, .f32⟩
  | 19 => ⟨S50000, .f32⟩
  | 20 => ⟨S800000x1, .i32⟩
  | 21 => ⟨S50000, .f32⟩
  | 22 => ⟨S_, .f32⟩
  | 23 => ⟨S50000, .f32⟩
  | 24 => ⟨S50000, .f32⟩
  | 25 => ⟨S50000, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000, .f32⟩
  | 44 => ⟨S800000, .f32⟩
  | 45 => ⟨S800000x1, .f32⟩
  | 46 => ⟨S50000, .f32⟩
  | 47 => ⟨S50000x1, .f32⟩
  | 48 => ⟨S50000x64, .f32⟩
  | 49 => ⟨S1x64, .f32⟩
  | 50 => ⟨S50000x64, .f32⟩
  | 51 => ⟨S50000x64, .f32⟩
  | 52 => ⟨S_, .f32⟩
  | 53 => ⟨S50000x64, .f32⟩
  | 54 => ⟨S50000x64, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x64, .f32⟩
  | 64 => ⟨S_, .i32⟩
  | 65 => ⟨S800000, .i32⟩
  | 66 => ⟨S800000, .i1⟩
  | 67 => ⟨S_, .i32⟩
  | 68 => ⟨S800000, .i32⟩
  | 69 => ⟨S800000, .i32⟩
  | 70 => ⟨S800000, .i32⟩
  | 71 => ⟨S800000x1, .i32⟩
  | 72 => ⟨S800000x64, .f32⟩
  | 73 => ⟨S800000x64, .f32⟩
  | 74 => ⟨S800000x64, .f32⟩
  | 75 => ⟨S_, .f32⟩
  | 76 => ⟨S800000x64, .f32⟩
  | 77 => ⟨S800000x64, .f32⟩
  | 78 => ⟨S800000x64, .f32⟩
  | 79 => ⟨S_, .f32⟩
  | 80 => ⟨S50000x64, .f32⟩
  | 81 => ⟨S800000x1, .i32⟩
  | 82 => ⟨S50000x64, .f32⟩
  | 83 => ⟨S50000x64, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000x64, .f32⟩
  | 93 => ⟨S800000x64, .f32⟩
  | 94 => ⟨S800000x64, .f32⟩
  | 95 => ⟨S_, .f32⟩
  | 96 => ⟨S50000x64, .f32⟩
  | 97 => ⟨S800000x1, .i32⟩
  | 98 => ⟨S50000x64, .f32⟩
  | 99 => ⟨S50000x64, .f32⟩
  | 100 => ⟨S50000x64, .f32⟩
  | 101 => ⟨S50000x64, .f32⟩
  | 102 => ⟨S1x64, .f32⟩
  | 103 => ⟨S50000x64, .f32⟩
  | 104 => ⟨S50000x64, .f32⟩
  | 105 => ⟨S50000x64, .f32⟩
  | 106 => ⟨S1x64, .f32⟩
  | 107 => ⟨S50000x64, .f32⟩
  | 108 => ⟨S50000x64, .f32⟩
  | 109 => ⟨S50000x64, .f32⟩
  | 110 => ⟨S50000x64, .f32⟩
  | 111 => ⟨S_, .f32⟩
  | 112 => ⟨S50000x64, .f32⟩
  | 113 => ⟨S50000x64, .f32⟩
  | 114 => ⟨S_, .f32⟩
  | 115 => ⟨S50000x64, .f32⟩
  | 116 => ⟨S50000x64, .f32⟩
  | 117 => ⟨S50000x64, .f32⟩
  | 118 => ⟨S_, .f32⟩
  | 119 => ⟨S50000x64, .f32⟩
  | 120 => ⟨S50000x64, .f32⟩
  | 121 => ⟨S50000x64, .f32⟩
  | 122 => ⟨S_, .f32⟩
  | 123 => ⟨S50000x64, .f32⟩
  | 124 => ⟨S50000x64, .f32⟩
  | 125 => ⟨S50000x64, .f32⟩
  | 126 => ⟨S50000x64, .f32⟩
  | 127 => ⟨S50000x64, .f32⟩
  | _ => ⟨S50000x128, .f32⟩

abbrev hbmTy0_1 (i : Nat) : BufTy := match i % 128 with
  | 0 => ⟨S50000x64, .f32⟩
  | 1 => ⟨S_, .f32⟩
  | 2 => ⟨S50000x64, .f32⟩
  | 3 => ⟨S50000x64, .f32⟩
  | 4 => ⟨S50000x64, .f32⟩
  | 5 => ⟨S_, .i32⟩
  | 6 => ⟨S800000, .i32⟩
  | 7 => ⟨S800000, .i1⟩
  | 8 => ⟨S_, .i32⟩
  | 9 => ⟨S800000, .i32⟩
  | 10 => ⟨S800000, .i32⟩
  | 11 => ⟨S800000, .i32⟩
  | 12 => ⟨S800000x1, .i32⟩
  | 13 => ⟨S800000x64, .f32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S800000x64, .f32⟩
  | 23 => ⟨S800000x64, .f32⟩
  | 24 => ⟨S800000x64, .f32⟩
  | 25 => ⟨S_, .f32⟩
  | 26 => ⟨S800000x64, .f32⟩
  | 27 => ⟨S800000x64, .f32⟩
  | 28 => ⟨S800000x64, .f32⟩
  | 29 => ⟨S_, .f32⟩
  | 30 => ⟨S50000x64, .f32⟩
  | 31 => ⟨S800000x1, .i32⟩
  | 32 => ⟨S50000x64, .f32⟩
  | 33 => ⟨S50000x64, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000x64, .f32⟩
  | 43 => ⟨S800000x64, .f32⟩
  | 44 => ⟨S800000x64, .f32⟩
  | 45 => ⟨S_, .f32⟩
  | 46 => ⟨S50000x64, .f32⟩
  | 47 => ⟨S800000x1, .i32⟩
  | 48 => ⟨S50000x64, .f32⟩
  | 49 => ⟨S50000x64, .f32⟩
  | 50 => ⟨S50000x64, .f32⟩
  | 51 => ⟨S50000x64, .f32⟩
  | 52 => ⟨S1x64, .f32⟩
  | 53 => ⟨S50000x64, .f32⟩
  | 54 => ⟨S50000x64, .f32⟩
  | 55 => ⟨S50000x64, .f32⟩
  | 56 => ⟨S1x64, .f32⟩
  | 57 => ⟨S50000x64, .f32⟩
  | 58 => ⟨S50000x64, .f32⟩
  | 59 => ⟨S50000x64, .f32⟩
  | 60 => ⟨S50000x64, .f32⟩
  | 61 => ⟨S_, .f32⟩
  | 62 => ⟨S50000x64, .f32⟩
  | 63 => ⟨S50000x64, .f32⟩
  | 64 => ⟨S_, .f32⟩
  | 65 => ⟨S50000x64, .f32⟩
  | 66 => ⟨S50000x64, .f32⟩
  | 67 => ⟨S50000x64, .f32⟩
  | 68 => ⟨S_, .f32⟩
  | 69 => ⟨S50000x64, .f32⟩
  | 70 => ⟨S50000x64, .f32⟩
  | 71 => ⟨S50000x64, .f32⟩
  | 72 => ⟨S_, .f32⟩
  | 73 => ⟨S50000x64, .f32⟩
  | 74 => ⟨S50000x64, .f32⟩
  | 75 => ⟨S50000x64, .f32⟩
  | 76 => ⟨S50000x64, .f32⟩
  | 77 => ⟨S50000x64, .f32⟩
  | 78 => ⟨S50000x64, .f32⟩
  | 79 => ⟨S_, .f32⟩
  | 80 => ⟨S50000x64, .f32⟩
  | 81 => ⟨S50000x64, .f32⟩
  | 82 => ⟨S50000x64, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000x64, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000x64, .f32⟩
  | 101 => ⟨S800000x64, .f32⟩
  | 102 => ⟨S800000x64, .f32⟩
  | 103 => ⟨S_, .f32⟩
  | 104 => ⟨S800000x64, .f32⟩
  | 105 => ⟨S800000x64, .f32⟩
  | 106 => ⟨S800000x64, .f32⟩
  | 107 => ⟨S_, .f32⟩
  | 108 => ⟨S50000x64, .f32⟩
  | 109 => ⟨S800000x1, .i32⟩
  | 110 => ⟨S50000x64, .f32⟩
  | 111 => ⟨S50000x64, .f32⟩
  | 112 => ⟨S_, .i32⟩
  | 113 => ⟨S800000, .i32⟩
  | 114 => ⟨S800000, .i1⟩
  | 115 => ⟨S_, .i32⟩
  | 116 => ⟨S800000, .i32⟩
  | 117 => ⟨S800000, .i32⟩
  | 118 => ⟨S800000, .i32⟩
  | 119 => ⟨S800000x1, .i32⟩
  | 120 => ⟨S800000x64, .f32⟩
  | 121 => ⟨S800000x64, .f32⟩
  | 122 => ⟨S800000x64, .f32⟩
  | 123 => ⟨S_, .f32⟩
  | 124 => ⟨S50000x64, .f32⟩
  | 125 => ⟨S800000x1, .i32⟩
  | 126 => ⟨S50000x64, .f32⟩
  | 127 => ⟨S50000x64, .f32⟩
  | _ => ⟨S50000x128, .f32⟩

abbrev hbmTy0_2 (i : Nat) : BufTy := match i % 128 with
  | 0 => ⟨S50000x64, .f32⟩
  | 1 => ⟨S50000x64, .f32⟩
  | 2 => ⟨S1x64, .f32⟩
  | 3 => ⟨S50000x64, .f32⟩
  | 4 => ⟨S50000x64, .f32⟩
  | 5 => ⟨S50000x64, .f32⟩
  | 6 => ⟨S1x64, .f32⟩
  | 7 => ⟨S50000x64, .f32⟩
  | 8 => ⟨S50000x64, .f32⟩
  | 9 => ⟨S50000x64, .f32⟩
  | 10 => ⟨S50000x64, .f32⟩
  | 11 => ⟨S_, .f32⟩
  | 12 => ⟨S50000x64, .f32⟩
  | 13 => ⟨S50000x64, .f32⟩
  | 14 => ⟨S_, .f32⟩
  | 15 => ⟨S50000x64, .f32⟩
  | 16 => ⟨S50000x64, .f32⟩
  | 17 => ⟨S50000x64, .f32⟩
  | 18 => ⟨S_, .f32⟩
  | 19 => ⟨S50000x64, .f32⟩
  | 20 => ⟨S50000x64, .f32⟩
  | 21 => ⟨S50000x64, .f32⟩
  | 22 => ⟨S_, .f32⟩
  | 23 => ⟨S50000x64, .f32⟩
  | 24 => ⟨S50000x64, .f32⟩
  | 25 => ⟨S50000x64, .f32⟩
  | 26 => ⟨S50000x64, .f32⟩
  | 27 => ⟨S50000x64, .f32⟩
  | 28 => ⟨S50000x64, .f32⟩
  | 29 => ⟨S_, .f32⟩
  | 30 => ⟨S50000x64, .f32⟩
  | 31 => ⟨S50000x64, .f32⟩
  | 32 => ⟨S50000x64, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000x64, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000x64, .f32⟩
  | 51 => ⟨S800000x64, .f32⟩
  | 52 => ⟨S800000x64, .f32⟩
  | 53 => ⟨S_, .f32⟩
  | 54 => ⟨S800000x64, .f32⟩
  | 55 => ⟨S800000x64, .f32⟩
  | 56 => ⟨S800000x64, .f32⟩
  | 57 => ⟨S_, .f32⟩
  | 58 => ⟨S50000x64, .f32⟩
  | 59 => ⟨S800000x1, .i32⟩
  | 60 => ⟨S50000x64, .f32⟩
  | 61 => ⟨S50000x64, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000x64, .f32⟩
  | 71 => ⟨S800000x64, .f32⟩
  | 72 => ⟨S800000x64, .f32⟩
  | 73 => ⟨S_, .f32⟩
  | 74 => ⟨S50000x64, .f32⟩
  | 75 => ⟨S800000x1, .i32⟩
  | 76 => ⟨S50000x64, .f32⟩
  | 77 => ⟨S50000x64, .f32⟩
  | 78 => ⟨S50000x64, .f32⟩
  | 79 => ⟨S50000x64, .f32⟩
  | 80 => ⟨S1x64, .f32⟩
  | 81 => ⟨S50000x64, .f32⟩
  | 82 => ⟨S50000x64, .f32⟩
  | 83 => ⟨S50000x64, .f32⟩
  | 84 => ⟨S1x64, .f32⟩
  | 85 => ⟨S50000x64, .f32⟩
  | 86 => ⟨S50000x64, .f32⟩
  | 87 => ⟨S50000x64, .f32⟩
  | 88 => ⟨S50000x64, .f32⟩
  | 89 => ⟨S_, .f32⟩
  | 90 => ⟨S50000x64, .f32⟩
  | 91 => ⟨S50000x64, .f32⟩
  | 92 => ⟨S_, .f32⟩
  | 93 => ⟨S50000x64, .f32⟩
  | 94 => ⟨S50000x64, .f32⟩
  | 95 => ⟨S50000x64, .f32⟩
  | 96 => ⟨S_, .f32⟩
  | 97 => ⟨S50000x64, .f32⟩
  | 98 => ⟨S50000x64, .f32⟩
  | 99 => ⟨S50000x64, .f32⟩
  | 100 => ⟨S_, .f32⟩
  | 101 => ⟨S50000x64, .f32⟩
  | 102 => ⟨S50000x64, .f32⟩
  | 103 => ⟨S50000x64, .f32⟩
  | 104 => ⟨S50000x64, .f32⟩
  | 105 => ⟨S50000x64, .f32⟩
  | 106 => ⟨S50000x64, .f32⟩
  | 107 => ⟨S_, .f32⟩
  | 108 => ⟨S50000x64, .f32⟩
  | 109 => ⟨S50000x64, .f32⟩
  | 110 => ⟨S50000x64, .f32⟩
  | 111 => ⟨S50000x40, .f32⟩
  | 112 => ⟨S1x40, .f32⟩
  | 113 => ⟨S50000x40, .f32⟩
  | 114 => ⟨S50000x40, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c : Ref sig .tc := ⟨.hbm, 26, rfl⟩
abbrev main_v11 : Ref sig .tc := ⟨.hbm, 27, rfl⟩
abbrev main_v12 : Ref sig .tc := ⟨.hbm, 28, rfl⟩
abbrev main_c_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call0_cst : Ref sig .tc := ⟨.hbm, 52, rfl⟩
abbrev main_call0_v0 : Ref sig .tc := ⟨.hbm, 53, rfl⟩
abbrev main_v33 : Ref sig .tc := ⟨.hbm, 54, rfl⟩
abbrev main_c_5 : Ref sig .tc := ⟨.hbm, 55, rfl⟩
abbrev main_v34 : Ref sig .tc := ⟨.hbm, 56, rfl⟩
abbrev main_v35 : Ref sig .tc := ⟨.hbm, 57, rfl⟩
abbrev main_c_6 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_c_7 : Ref sig .tc := ⟨.hbm, 64, rfl⟩
abbrev main_v41 : Ref sig .tc := ⟨.hbm, 65, rfl⟩
abbrev main_v42 : Ref sig .tc := ⟨.hbm, 66, rfl⟩
abbrev main_c_8 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_call1_cst : Ref sig .tc := ⟨.hbm, 75, rfl⟩
abbrev main_call1_v0 : Ref sig .tc := ⟨.hbm, 76, rfl⟩
abbrev main_v50 : Ref sig .tc := ⟨.hbm, 77, rfl⟩
abbrev main_v51 : Ref sig .tc := ⟨.hbm, 78, rfl⟩
abbrev main_cst_9 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_c_10 : Ref sig .tc := ⟨.hbm, 84, rfl⟩
abbrev main_v56 : Ref sig .tc := ⟨.hbm, 85, rfl⟩
abbrev main_v57 : Ref sig .tc := ⟨.hbm, 86, rfl⟩
abbrev main_c_11 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_12 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_call2_cst : Ref sig .tc := ⟨.hbm, 111, rfl⟩
abbrev main_call2_v0 : Ref sig .tc := ⟨.hbm, 112, rfl⟩
abbrev main_v80 : Ref sig .tc := ⟨.hbm, 113, rfl⟩
abbrev main_cst_13 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_14 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_15 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_16 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_c_17 : Ref sig .tc := ⟨.hbm, 133, rfl⟩
abbrev main_v96 : Ref sig .tc := ⟨.hbm, 134, rfl⟩
abbrev main_v97 : Ref sig .tc := ⟨.hbm, 135, rfl⟩
abbrev main_c_18 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_c_19 : Ref sig .tc := ⟨.hbm, 142, rfl⟩
abbrev main_v103 : Ref sig .tc := ⟨.hbm, 143, rfl⟩
abbrev main_v104 : Ref sig .tc := ⟨.hbm, 144, rfl⟩
abbrev main_c_20 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_call3_cst : Ref sig .tc := ⟨.hbm, 153, rfl⟩
abbrev main_call3_v0 : Ref sig .tc := ⟨.hbm, 154, rfl⟩
abbrev main_v112 : Ref sig .tc := ⟨.hbm, 155, rfl⟩
abbrev main_v113 : Ref sig .tc := ⟨.hbm, 156, rfl⟩
abbrev main_cst_21 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_c_22 : Ref sig .tc := ⟨.hbm, 162, rfl⟩
abbrev main_v118 : Ref sig .tc := ⟨.hbm, 163, rfl⟩
abbrev main_v119 : Ref sig .tc := ⟨.hbm, 164, rfl⟩
abbrev main_c_23 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_cst_24 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_call4_cst : Ref sig .tc := ⟨.hbm, 189, rfl⟩
abbrev main_call4_v0 : Ref sig .tc := ⟨.hbm, 190, rfl⟩
abbrev main_v142 : Ref sig .tc := ⟨.hbm, 191, rfl⟩
abbrev main_cst_25 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_cst_26 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_cst_27 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_cst_28 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_c_29 : Ref sig .tc := ⟨.hbm, 211, rfl⟩
abbrev main_v158 : Ref sig .tc := ⟨.hbm, 212, rfl⟩
abbrev main_v159 : Ref sig .tc := ⟨.hbm, 213, rfl⟩
abbrev main_c_30 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_c_31 : Ref sig .tc := ⟨.hbm, 220, rfl⟩
abbrev main_v165 : Ref sig .tc := ⟨.hbm, 221, rfl⟩
abbrev main_v166 : Ref sig .tc := ⟨.hbm, 222, rfl⟩
abbrev main_c_32 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_v172 : Ref sig .tc := ⟨.hbm, 229, rfl⟩
abbrev main_v173 : Ref sig .tc := ⟨.hbm, 230, rfl⟩
abbrev main_call5_cst : Ref sig .tc := ⟨.hbm, 231, rfl⟩
abbrev main_call5_v0 : Ref sig .tc := ⟨.hbm, 232, rfl⟩
abbrev main_v174 : Ref sig .tc := ⟨.hbm, 233, rfl⟩
abbrev main_v175 : Ref sig .tc := ⟨.hbm, 234, rfl⟩
abbrev main_cst_33 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_c_34 : Ref sig .tc := ⟨.hbm, 240, rfl⟩
abbrev main_v180 : Ref sig .tc := ⟨.hbm, 241, rfl⟩
abbrev main_v181 : Ref sig .tc := ⟨.hbm, 242, rfl⟩
abbrev main_c_35 : Ref sig .tc := ⟨.hbm, 243, rfl⟩
abbrev main_v182 : Ref sig .tc := ⟨.hbm, 244, rfl⟩
abbrev main_v183 : Ref sig .tc := ⟨.hbm, 245, rfl⟩
abbrev main_v184 : Ref sig .tc := ⟨.hbm, 246, rfl⟩
abbrev main_v185 : Ref sig .tc := ⟨.hbm, 247, rfl⟩
abbrev main_v186 : Ref sig .tc := ⟨.hbm, 248, rfl⟩
abbrev main_v187 : Ref sig .tc := ⟨.hbm, 249, rfl⟩
abbrev main_v188 : Ref sig .tc := ⟨.hbm, 250, rfl⟩
abbrev main_cst_36 : Ref sig .tc := ⟨.hbm, 251, rfl⟩
abbrev main_v189 : Ref sig .tc := ⟨.hbm, 252, rfl⟩
abbrev main_v190 : Ref sig .tc := ⟨.hbm, 253, rfl⟩
abbrev main_v191 : Ref sig .tc := ⟨.hbm, 254, rfl⟩
abbrev main_v192 : Ref sig .tc := ⟨.hbm, 255, rfl⟩
abbrev main_v193 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩
abbrev main_v197 : Ref sig .tc := ⟨.hbm, 260, rfl⟩
abbrev main_v198 : Ref sig .tc := ⟨.hbm, 261, rfl⟩
abbrev main_v199 : Ref sig .tc := ⟨.hbm, 262, rfl⟩
abbrev main_v200 : Ref sig .tc := ⟨.hbm, 263, rfl⟩
abbrev main_v201 : Ref sig .tc := ⟨.hbm, 264, rfl⟩
abbrev main_v202 : Ref sig .tc := ⟨.hbm, 265, rfl⟩
abbrev main_v203 : Ref sig .tc := ⟨.hbm, 266, rfl⟩
abbrev main_call6_cst : Ref sig .tc := ⟨.hbm, 267, rfl⟩
abbrev main_call6_v0 : Ref sig .tc := ⟨.hbm, 268, rfl⟩
abbrev main_v204 : Ref sig .tc := ⟨.hbm, 269, rfl⟩
abbrev main_cst_37 : Ref sig .tc := ⟨.hbm, 270, rfl⟩
abbrev main_v205 : Ref sig .tc := ⟨.hbm, 271, rfl⟩
abbrev main_v206 : Ref sig .tc := ⟨.hbm, 272, rfl⟩
abbrev main_v207 : Ref sig .tc := ⟨.hbm, 273, rfl⟩
abbrev main_cst_38 : Ref sig .tc := ⟨.hbm, 274, rfl⟩
abbrev main_v208 : Ref sig .tc := ⟨.hbm, 275, rfl⟩
abbrev main_v209 : Ref sig .tc := ⟨.hbm, 276, rfl⟩
abbrev main_v210 : Ref sig .tc := ⟨.hbm, 277, rfl⟩
abbrev main_cst_39 : Ref sig .tc := ⟨.hbm, 278, rfl⟩
abbrev main_v211 : Ref sig .tc := ⟨.hbm, 279, rfl⟩
abbrev main_v212 : Ref sig .tc := ⟨.hbm, 280, rfl⟩
abbrev main_v213 : Ref sig .tc := ⟨.hbm, 281, rfl⟩
abbrev main_v214 : Ref sig .tc := ⟨.hbm, 282, rfl⟩
abbrev main_v215 : Ref sig .tc := ⟨.hbm, 283, rfl⟩
abbrev main_v216 : Ref sig .tc := ⟨.hbm, 284, rfl⟩
abbrev main_cst_40 : Ref sig .tc := ⟨.hbm, 285, rfl⟩
abbrev main_v217 : Ref sig .tc := ⟨.hbm, 286, rfl⟩
abbrev main_v218 : Ref sig .tc := ⟨.hbm, 287, rfl⟩
abbrev main_v219 : Ref sig .tc := ⟨.hbm, 288, rfl⟩
abbrev main_c_41 : Ref sig .tc := ⟨.hbm, 289, rfl⟩
abbrev main_v220 : Ref sig .tc := ⟨.hbm, 290, rfl⟩
abbrev main_v221 : Ref sig .tc := ⟨.hbm, 291, rfl⟩
abbrev main_c_42 : Ref sig .tc := ⟨.hbm, 292, rfl⟩
abbrev main_v222 : Ref sig .tc := ⟨.hbm, 293, rfl⟩
abbrev main_v223 : Ref sig .tc := ⟨.hbm, 294, rfl⟩
abbrev main_v224 : Ref sig .tc := ⟨.hbm, 295, rfl⟩
abbrev main_v225 : Ref sig .tc := ⟨.hbm, 296, rfl⟩
abbrev main_v226 : Ref sig .tc := ⟨.hbm, 297, rfl⟩
abbrev main_c_43 : Ref sig .tc := ⟨.hbm, 298, rfl⟩
abbrev main_v227 : Ref sig .tc := ⟨.hbm, 299, rfl⟩
abbrev main_v228 : Ref sig .tc := ⟨.hbm, 300, rfl⟩
abbrev main_c_44 : Ref sig .tc := ⟨.hbm, 301, rfl⟩
abbrev main_v229 : Ref sig .tc := ⟨.hbm, 302, rfl⟩
abbrev main_v230 : Ref sig .tc := ⟨.hbm, 303, rfl⟩
abbrev main_v231 : Ref sig .tc := ⟨.hbm, 304, rfl⟩
abbrev main_v232 : Ref sig .tc := ⟨.hbm, 305, rfl⟩
abbrev main_v233 : Ref sig .tc := ⟨.hbm, 306, rfl⟩
abbrev main_v234 : Ref sig .tc := ⟨.hbm, 307, rfl⟩
abbrev main_v235 : Ref sig .tc := ⟨.hbm, 308, rfl⟩
abbrev main_call7_cst : Ref sig .tc := ⟨.hbm, 309, rfl⟩
abbrev main_call7_v0 : Ref sig .tc := ⟨.hbm, 310, rfl⟩
abbrev main_v236 : Ref sig .tc := ⟨.hbm, 311, rfl⟩
abbrev main_v237 : Ref sig .tc := ⟨.hbm, 312, rfl⟩
abbrev main_cst_45 : Ref sig .tc := ⟨.hbm, 313, rfl⟩
abbrev main_v238 : Ref sig .tc := ⟨.hbm, 314, rfl⟩
abbrev main_v239 : Ref sig .tc := ⟨.hbm, 315, rfl⟩
abbrev main_v240 : Ref sig .tc := ⟨.hbm, 316, rfl⟩
abbrev main_v241 : Ref sig .tc := ⟨.hbm, 317, rfl⟩
abbrev main_c_46 : Ref sig .tc := ⟨.hbm, 318, rfl⟩
abbrev main_v242 : Ref sig .tc := ⟨.hbm, 319, rfl⟩
abbrev main_v243 : Ref sig .tc := ⟨.hbm, 320, rfl⟩
abbrev main_c_47 : Ref sig .tc := ⟨.hbm, 321, rfl⟩
abbrev main_v244 : Ref sig .tc := ⟨.hbm, 322, rfl⟩
abbrev main_v245 : Ref sig .tc := ⟨.hbm, 323, rfl⟩
abbrev main_v246 : Ref sig .tc := ⟨.hbm, 324, rfl⟩
abbrev main_v247 : Ref sig .tc := ⟨.hbm, 325, rfl⟩
abbrev main_v248 : Ref sig .tc := ⟨.hbm, 326, rfl⟩
abbrev main_v249 : Ref sig .tc := ⟨.hbm, 327, rfl⟩
abbrev main_v250 : Ref sig .tc := ⟨.hbm, 328, rfl⟩
abbrev main_cst_48 : Ref sig .tc := ⟨.hbm, 329, rfl⟩
abbrev main_v251 : Ref sig .tc := ⟨.hbm, 330, rfl⟩
abbrev main_v252 : Ref sig .tc := ⟨.hbm, 331, rfl⟩
abbrev main_v253 : Ref sig .tc := ⟨.hbm, 332, rfl⟩
abbrev main_v254 : Ref sig .tc := ⟨.hbm, 333, rfl⟩
abbrev main_v255 : Ref sig .tc := ⟨.hbm, 334, rfl⟩
abbrev main_v256 : Ref sig .tc := ⟨.hbm, 335, rfl⟩
abbrev main_v257 : Ref sig .tc := ⟨.hbm, 336, rfl⟩
abbrev main_v258 : Ref sig .tc := ⟨.hbm, 337, rfl⟩
abbrev main_v259 : Ref sig .tc := ⟨.hbm, 338, rfl⟩
abbrev main_v260 : Ref sig .tc := ⟨.hbm, 339, rfl⟩
abbrev main_v261 : Ref sig .tc := ⟨.hbm, 340, rfl⟩
abbrev main_v262 : Ref sig .tc := ⟨.hbm, 341, rfl⟩
abbrev main_v263 : Ref sig .tc := ⟨.hbm, 342, rfl⟩
abbrev main_v264 : Ref sig .tc := ⟨.hbm, 343, rfl⟩
abbrev main_v265 : Ref sig .tc := ⟨.hbm, 344, rfl⟩
abbrev main_call8_cst : Ref sig .tc := ⟨.hbm, 345, rfl⟩
abbrev main_call8_v0 : Ref sig .tc := ⟨.hbm, 346, rfl⟩
abbrev main_v266 : Ref sig .tc := ⟨.hbm, 347, rfl⟩
abbrev main_cst_49 : Ref sig .tc := ⟨.hbm, 348, rfl⟩
abbrev main_v267 : Ref sig .tc := ⟨.hbm, 349, rfl⟩
abbrev main_v268 : Ref sig .tc := ⟨.hbm, 350, rfl⟩
abbrev main_v269 : Ref sig .tc := ⟨.hbm, 351, rfl⟩
abbrev main_cst_50 : Ref sig .tc := ⟨.hbm, 352, rfl⟩
abbrev main_v270 : Ref sig .tc := ⟨.hbm, 353, rfl⟩
abbrev main_v271 : Ref sig .tc := ⟨.hbm, 354, rfl⟩
abbrev main_v272 : Ref sig .tc := ⟨.hbm, 355, rfl⟩
abbrev main_cst_51 : Ref sig .tc := ⟨.hbm, 356, rfl⟩
abbrev main_v273 : Ref sig .tc := ⟨.hbm, 357, rfl⟩
abbrev main_v274 : Ref sig .tc := ⟨.hbm, 358, rfl⟩
abbrev main_v275 : Ref sig .tc := ⟨.hbm, 359, rfl⟩
abbrev main_v276 : Ref sig .tc := ⟨.hbm, 360, rfl⟩
abbrev main_v277 : Ref sig .tc := ⟨.hbm, 361, rfl⟩
abbrev main_v278 : Ref sig .tc := ⟨.hbm, 362, rfl⟩
abbrev main_cst_52 : Ref sig .tc := ⟨.hbm, 363, rfl⟩
abbrev main_v279 : Ref sig .tc := ⟨.hbm, 364, rfl⟩
abbrev main_v280 : Ref sig .tc := ⟨.hbm, 365, rfl⟩
abbrev main_v281 : Ref sig .tc := ⟨.hbm, 366, rfl⟩
abbrev main_v282 : Ref sig .tc := ⟨.hbm, 367, rfl⟩
abbrev main_v283 : Ref sig .tc := ⟨.hbm, 368, rfl⟩
abbrev main_v284 : Ref sig .tc := ⟨.hbm, 369, rfl⟩
abbrev main_v285 : Ref sig .tc := ⟨.hbm, 370, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S_S800000x64 : S_.BroadcastsInDim S800000x64 (![] : Fin 0 → Fin S800000x64.rank)
  bcast_S800000x1_S800000x64_0_1 : S800000x1.BroadcastsInDim S800000x64 (![0, 1] : Fin 2 → Fin S800000x64.rank)
  bcast_S50000x1_S50000x64_0_1 : S50000x1.BroadcastsInDim S50000x64 (![0, 1] : Fin 2 → Fin S50000x64.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  dot_S800000x64_S64x64_S800000x64_1_0_0_1_n_n_wf : DotDims.WF S800000x64 S64x64 S800000x64 [1] [0] [0] [1] [] []
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  dot_S50000x64_S64x40_S50000x40_1_0_0_1_n_n_wf : DotDims.WF S50000x64 S64x40 S50000x40 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x40_S50000x40_1_0_0_1_n_n : DotDims S50000x64 S64x40 S50000x40 where
  lhsContracting := [1]
  rhsContracting := [0]
  lhsNonContracting := [0]
  rhsNonContracting := [1]
  lhsBatch := []
  rhsBatch := []
  wf := dot_S50000x64_S64x40_S50000x40_1_0_0_1_n_n_wf

class Facts : Prop extends Facts₀ where

variable [Facts]
-- ==== Proof.K.R0.lean ====
import proofs.«147510_j18107582120779_2_alg».proof.Proof.Gen.Kernel.Launch
import proofs.«147510_j18107582120779_2_alg».proof.Proof.Gen.Kernel.Skeleton
import proofs.«147510_j18107582120779_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x128 := Rect.unit (s := S5000x128) ![0, 0] S5000x128.size inb_S5000x128_S5000x128_0_0
abbrev r0_1 : Rect S128x64 := Rect.unit (s := S128x64) ![0, 0] S128x64.size inb_S128x64_S128x64_0_0
abbrev r0_2 : Rect S1x64 := Rect.unit (s := S1x64) ![0, 0] S1x64.size inb_S1x64_S1x64_0_0
abbrev r0_3 : Rect S5000x64 := Rect.unit (s := S5000x64) ![0, 0] S5000x64.size inb_S5000x64_S5000x64_0_0

def out0_3 (x0 : Vec F S5000x128 .f32) (x1 : Vec F S128x64 .f32) (x2 : Vec F S1x64 .f32) : Vec F S5000x64 .f32 :=
  View.canon [⟨r0_3, k0_pay1 (View.ld x0 r0_0) (View.ld x1 r0_1) (View.ld x2 r0_2)⟩]

theorem cover0_3 (p0 : Vec F S5000x64 .f32) (y : S5000x64.Idx) :
    ∃ pc ∈ ([⟨r0_3, p0⟩] : List (View.Piece (Elt F) S5000x64 .f32)), y ∈ pc.1.set :=
  View.cover_of_tiled [⟨r0_3, p0⟩] S5000x64.size (by rfl) y

set_option maxHeartbeats 1000000 in
theorem sound_kernel0 (c : Dev nD) (E : Set ℕ) (i : grid0.Coords) (arg1 : Memref sig .tc .vmem S5000x128 .f32) (harg1 : arg1.IsWhole) (arg2 : Memref sig .tc .vmem S128x64 .f32) (harg2 : arg2.IsWhole) (arg3 : Memref sig .tc .vmem S1x64 .f32) (harg3 : arg3.IsWhole) (arg4 : Memref sig .tc .vmem S5000x64 .f32) (harg4 : arg4.IsWhole)
    (x0 : Vec F S5000x128 .f32) (x1 : Vec F S128x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl

theorem body_obligation0 (c : Dev nD) : BodyObligation (dat0 (F := F) V c) (defs₀ (F := F)) Variants.none () Set.univ := fun t => by
  rw [bigSep_W0, bigSep_W0]
  simp only [before0_0, before0_1, before0_2]
  dsimp only [dat0]
  change _ ⊢ wp _ _ _ (bodyAt0 t) _
  unfold bodyAt0
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  iframe H0 H1 H2
  isplitl [H3]; · iexists _; iexact H3
  iintro ⟨H0, H1, H2, H3⟩
  iframe
  iexact Ho

end Cert.Kernel.Hand
-- ==== Proof.K.R1.lean ====
import proofs.«147510_j18107582120779_2_alg».proof.Proof.Gen.Kernel.Launch
import proofs.«147510_j18107582120779_2_alg».proof.Proof.Gen.Kernel.Skeleton
import proofs.«147510_j18107582120779_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S5000x64 := Rect.unit (s := S5000x64) ![0, 0] S5000x64.size inb_S5000x64_S5000x64_0_0
abbrev r1_1 : Rect S64x64 := Rect.unit (s := S64x64) ![0, 0] S64x64.size inb_S64x64_S64x64_0_0
abbrev r1_2 : Rect S1x64 := Rect.unit (s := S1x64) ![0, 0] S1x64.size inb_S1x64_S1x64_0_0
abbrev r1_3 : Rect S5000x64 := Rect.unit (s := S5000x64) ![0, 0] S5000x64.size inb_S5000x64_S5000x64_0_0

def out1_3 (x0 : Vec F S5000x64 .f32) (x1 : Vec F S64x64 .f32) (x2 : Vec F S1x64 .f32) : Vec F S5000x64 .f32 :=
  View.canon [⟨r1_3, k1_pay1 (View.ld x0 r1_0) (View.ld x1 r1_1) (View.ld x2 r1_2)⟩]

theorem cover1_3 (p0 : Vec F S5000x64 .f32) (y : S5000x64.Idx) :
    ∃ pc ∈ ([⟨r1_3, p0⟩] : List (View.Piece (Elt F) S5000x64 .f32)), y ∈ pc.1.set :=
  View.cover_of_tiled [⟨r1_3, p0⟩] S5000x64.size (by rfl) y

set_option maxHeartbeats 1000000 in
theorem sound_kernel1 (c : Dev nD) (E : Set ℕ) (i : grid1.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole)
    (x0 : Vec F S5000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl

theorem body_obligation1 (c : Dev nD) : BodyObligation (dat1 (F := F) V c) (defs₀ (F := F)) Variants.none () Set.univ := fun t => by
  rw [bigSep_W1, bigSep_W1]
  simp only [before1_0, before1_1, before1_2]
  dsimp only [dat1]
  change _ ⊢ wp _ _ _ (bodyAt1 t) _
  unfold bodyAt1
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  iframe H0 H1 H2
  isplitl [H3]; · iexists _; iexact H3
  iintro ⟨H0, H1, H2, H3⟩
  iframe
  iexact Ho

end Cert.Kernel.Hand
-- ==== Proof.K.R2.lean ====
import proofs.«147510_j18107582120779_2_alg».proof.Proof.Gen.Kernel.Launch
import proofs.«147510_j18107582120779_2_alg».proof.Proof.Gen.Kernel.Skeleton
import proofs.«147510_j18107582120779_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S5000x64 := Rect.unit (s := S5000x64) ![0, 0] S5000x64.size inb_S5000x64_S5000x64_0_0
abbrev r2_1 : Rect S64x64 := Rect.unit (s := S64x64) ![0, 0] S64x64.size inb_S64x64_S64x64_0_0
abbrev r2_2 : Rect S5000x1 := Rect.unit (s := S5000x1) ![0, 0] S5000x1.size inb_S5000x1_S5000x1_0_0
abbrev r2_3 : Rect S5000x128 := Rect.unit (s := S5000x128) ![0, 0] S5000x128.size inb_S5000x128_S5000x128_0_0

def out2_5 (x0 : Vec F S5000x64 .f32) (x1 : Vec F S5000x64 .f32) (x2 : Vec F S64x64 .f32) (x3 : Vec F S64x64 .f32) (x4 : Vec F S5000x1 .f32) : Vec F S5000x128 .f32 :=
  View.canon [⟨r2_3, k2_pay1 (View.ld x0 r2_0) (View.ld x1 r2_0) (View.ld x2 r2_1) (View.ld x3 r2_1) (View.ld x4 r2_2)⟩]

theorem cover2_5 (p0 : Vec F S5000x128 .f32) (y : S5000x128.Idx) :
    ∃ pc ∈ ([⟨r2_3, p0⟩] : List (View.Piece (Elt F) S5000x128 .f32)), y ∈ pc.1.set :=
  View.cover_of_tiled [⟨r2_3, p0⟩] S5000x128.size (by rfl) y

set_option maxHeartbeats 1000000 in
theorem sound_kernel2 (c : Dev nD) (E : Set ℕ) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S5000x1 .f32) (harg5 : arg5.IsWhole) (arg6 : Memref sig .tc .vmem S5000x128 .f32) (harg6 : arg6.IsWhole)
    (x0 : Vec F S5000x64 .f32) (x1 : Vec F S5000x64 .f32) (x2 : Vec F S64x64 .f32) (x3 : Vec F S64x64 .f32) (x4 : Vec F S5000x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__edge_fused_kernel i arg1 harg1 arg2 harg2 arg3 harg3 arg4 harg4 arg5 harg5 arg6 harg6) K := by
  simp only [cc2__edge_fused_kernel_eq_skeleton]; unfold cc2__edge_fused_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun _ => rfl) t d).trans rfl

theorem body_obligation2 (c : Dev nD) : BodyObligation (dat2 (F := F) V c) (defs₀ (F := F)) Variants.none () Set.univ := fun t => by
  rw [bigSep_W2, bigSep_W2]
  simp only [before2_0, before2_1, before2_2, before2_3, before2_4]
  dsimp only [dat2]
  change _ ⊢ wp _ _ _ (bodyAt2 t) _
  unfold bodyAt2
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  iframe H0 H1 H2 H3 H4
  isplitl [H5]; · iexists _; iexact H5
  iintro ⟨H0, H1, H2, H3, H4, H5⟩
  iframe
  iexact Ho

end Cert.Kernel.Hand
-- ==== Proof.K.R6.lean ====
import proofs.«147510_j18107582120779_2_alg».proof.Proof.Gen.Kernel.Launch
import proofs.«147510_j18107582120779_2_alg».proof.Proof.Gen.Kernel.Skeleton
import proofs.«147510_j18107582120779_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region6
variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S2000x64 := Rect.unit (s := S2000x64) ![0, 0] S2000x64.size inb_S2000x64_S2000x64_0_0
abbrev r6_1 : Rect S2000x1 := Rect.unit (s := S2000x1) ![0, 0] S2000x1.size inb_S2000x1_S2000x1_0_0
abbrev r6_2 : Rect S1x64 := Rect.unit (s := S1x64) ![0, 0] S1x64.size inb_S1x64_S1x64_0_0
abbrev r6_3 : Rect S64x64 := Rect.unit (s := S64x64) ![0, 0] S64x64.size inb_S64x64_S64x64_0_0

def out6_10 (x0 : Vec F S2000x64 .f32) (x1 : Vec F S2000x64 .f32) (x2 : Vec F S2000x64 .f32) (x3 : Vec F S2000x64 .f32) (x4 : Vec F S2000x64 .f32) (x5 : Vec F S2000x1 .f32) (x6 : Vec F S1x64 .f32) (x7 : Vec F S64x64 .f32) (x8 : Vec F S1x64 .f32) : Vec F S2000x64 .f32 :=
  View.canon [⟨r6_0, k6_pay1 (k6_pay3 (View.ld x1 r6_0)) (k6_pay5 (View.ld x2 r6_0) (View.ld x7 r6_3) (View.ld x8 r6_2) (View.ld x3 r6_0) (View.ld x5 r6_1) (View.ld x6 r6_2) (View.ld x1 r6_0) (View.ld x0 r6_0)) k6_pay6⟩]

def out6_9 (x0 : Vec F S2000x64 .f32) (x1 : Vec F S2000x64 .f32) (x2 : Vec F S2000x64 .f32) (x3 : Vec F S2000x64 .f32) (x4 : Vec F S2000x64 .f32) (x5 : Vec F S2000x1 .f32) (x6 : Vec F S1x64 .f32) (x7 : Vec F S64x64 .f32) (x8 : Vec F S1x64 .f32) : Vec F S2000x64 .f32 :=
  View.canon [⟨r6_0, k6_pay2 (k6_pay3 (View.ld x1 r6_0)) (k6_pay4 (View.ld x0 r6_0)) (k6_pay5 (View.ld x2 r6_0) (View.ld x7 r6_3) (View.ld x8 r6_2) (View.ld x3 r6_0) (View.ld x5 r6_1) (View.ld x6 r6_2) (View.ld x1 r6_0) (View.ld x0 r6_0)) k6_pay6 (View.ld x4 r6_0)⟩]

theorem cover6_9 (p0 : Vec F S2000x64 .f32) (y : S2000x64.Idx) :
    ∃ pc ∈ ([⟨r6_0, p0⟩] : List (View.Piece (Elt F) S2000x64 .f32)), y ∈ pc.1.set :=
  View.cover_of_tiled [⟨r6_0, p0⟩] S2000x64.size (by rfl) y

theorem cover6_10 (p0 : Vec F S2000x64 .f32) (y : S2000x64.Idx) :
    ∃ pc ∈ ([⟨r6_0, p0⟩] : List (View.Piece (Elt F) S2000x64 .f32)), y ∈ pc.1.set :=
  View.cover_of_tiled [⟨r6_0, p0⟩] S2000x64.size (by rfl) y

set_option maxHeartbeats 4000000 in
theorem sound_kernel6 (c : Dev nD) (E : Set ℕ) (i : grid6.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S2000x1 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S2000x64 .f32) (harg10 : arg10.IsWhole) (arg11 : Memref sig .tc .vmem S2000x64 .f32) (harg11 : arg11.IsWhole)
    (x0 : Vec F S2000x64 .f32) (x1 : Vec F S2000x64 .f32) (x2 : Vec F S2000x64 .f32) (x3 : Vec F S2000x64 .f32) (x4 : Vec F S2000x64 .f32) (x5 : Vec F S2000x1 .f32) (x6 : Vec F S1x64 .f32) (x7 : Vec F S64x64 .f32) (x8 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out6_9 x0 x1 x2 x3 x4 x5 x6 x7 x8) ∗ owns (c : Thread nD τ) arg11 fullShare (out6_10 x0 x1 x2 x3 x4 x5 x6 x7 x8)) -∗ K ⟨⟩))
      ⊢ wp frame (wpE (defs₀ (F := F)) Variants.none c none) E (cc6__node_update_kernel i arg1 harg1 arg2 harg2 arg3 harg3 arg4 harg4 arg5 harg5 arg6 harg6 arg7 harg7 arg8 harg8 arg9 harg9 arg10 harg10 arg11 harg11) K := by
  simp only [cc6__node_update_kernel_eq_skeleton]; unfold cc6__node_update_kernel_skel
  simp only [k6_part1_eq_skeleton]; unfold k6_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover6_9 _)
  iexists _; isplitr
  swap; · iexact H10
  ipureintro
  exact View.read_writes_eq_canon _ _ _ (cover6_10 _)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => iblk6 V c 8 t
    | ⟨9, _⟩ => out6_9 (iblk6 V c 0 t) (iblk6 V c 1 t) (iblk6 V c 2 t) (iblk6 V c 3 t) (iblk6 V c 4 t) (iblk6 V c 5 t) (iblk6 V c 6 t) (iblk6 V c 7 t) (iblk6 V c 8 t)
    | ⟨10, _⟩ => out6_10 (iblk6 V c 0 t) (iblk6 V c 1 t) (iblk6 V c 2 t) (iblk6 V c 3 t) (iblk6 V c 4 t) (iblk6 V c 5 t) (iblk6 V c 6 t) (iblk6 V c 7 t) (iblk6 V c 8 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_9 (c : Dev nD) (t : Fin cfg6.N) : (dat6 V c).after 9 t = out6_9 (iblk6 V c 0 t) (iblk6 V c 1 t) (iblk6 V c 2 t) (iblk6 V c 3 t) (iblk6 V c 4 t) (iblk6 V c 5 t) (iblk6 V c 6 t) (iblk6 V c 7 t) (iblk6 V c 8 t) := by dsimp only [dat6]
theorem after6_10 (c : Dev nD) (t : Fin cfg6.N) : (dat6 V c).after 10 t = out6_10 (iblk6 V c 0 t) (iblk6 V c 1 t) (iblk6 V c 2 t) (iblk6 V c 3 t) (iblk6 V c 4 t) (iblk6 V c 5 t) (iblk6 V c 6 t) (iblk6 V c 7 t) (iblk6 V c 8 t) := by dsimp only [dat6]

theorem before6_0 (c : Dev nD) (t : Fin cfg6.N) (d) : (dat6 V c).before 0 t d = iblk6 V c 0 t :=
  ((dat6 V c).before_in_eq_fetched 0 rfl (fun _ => rfl) (fun _ _ _ => rfl) (fun _ => rfl) t d).trans rfl
theorem before6_1 (c : Dev nD) (t : Fin cfg6.N) (d) : (dat6 V c).before 1 t d = iblk6 V c 1 t :=
  ((dat6 V c).before_in_eq_fetched 1 rfl (fun _ => rfl) (fun _ _ _ => rfl) (fun _ => rfl) t d).trans rfl
theorem before6_2 (c : Dev nD) (t : Fin cfg6.N) (d) : (dat6 V c).before 2 t d = iblk6 V c 2 t :=
  ((dat6 V c).before_in_eq_fetched 2 rfl (fun _ => rfl) (fun _ _ _ => rfl) (fun _ => rfl) t d).trans rfl
theorem before6_3 (c : Dev nD) (t : Fin cfg6.N) (d) : (dat6 V c).before 3 t d = iblk6 V c 3 t :=
  ((dat6 V c).before_in_eq_fetched 3 rfl (fun _ => rfl) (fun _ _ _ => rfl) (fun _ => rfl) t d).trans rfl
theorem before6_4 (c : Dev nD) (t : Fin cfg6.N) (d) : (dat6 V c).before 4 t d = iblk6 V c 4 t :=
  ((dat6 V c).before_in_eq_fetched 4 rfl (fun _ => rfl) (fun _ _ _ => rfl) (fun _ => rfl) t d).trans rfl
theorem before6_5 (c : Dev nD) (t : Fin cfg6.N) (d) : (dat6 V c).before 5 t d = iblk6 V c 5 t :=
  ((dat6 V c).before_in_eq_fetched 5 rfl (fun _ => rfl) (fun _ _ _ => rfl) (fun _ => rfl) t d).trans rfl
theorem before6_6 (c : Dev nD) (t : Fin cfg6.N) (d) : (dat6 V c).before 6 t d = iblk6 V c 6 t :=
  ((dat6 V c).before_in_eq_fetched 6 rfl (fun _ => rfl) (fun _ _ _ => rfl) (fun _ => rfl) t d).trans rfl
theorem before6_7 (c : Dev nD) (t : Fin cfg6.N) (d) : (dat6 V c).before 7 t d = iblk6 V c 7 t :=
  ((dat6 V c).before_in_eq_fetched 7 rfl (fun _ => rfl) (fun _ _ _ => rfl) (fun _ => rfl) t d).trans rfl
theorem before6_8 (c : Dev nD) (t : Fin cfg6.N) (d) : (dat6 V c).before 8 t d = iblk6 V c 8 t :=
  ((dat6 V c).before_in_eq_fetched 8 rfl (fun _ => rfl) (fun _ _ _ => rfl) (fun _ => rfl) t d).trans rfl

theorem body_obligation6 (c : Dev nD) : BodyObligation (dat6 (F := F) V c) (defs₀ (F := F)) Variants.none () Set.univ := fun t => by
  rw [bigSep_W6, bigSep_W6]
  simp only [before6_0, before6_1, before6_2, before6_3, before6_4, before6_5, before6_6, before6_7, before6_8]
  dsimp only [dat6]
  change _ ⊢ wp _ _ _ (bodyAt6 t) _
  unfold bodyAt6
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel6 c Set.univ _ _ _ _ _ _ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) (iblk6 V c 7 t) (iblk6 V c 8 t) _)
  iframe H0 H1 H2 H3 H4 H5 H6 H7 H8
  isplitl [H9]; · iexists _; iexact H9
  isplitl [H10]; · iexists _; iexact H10
  iintro ⟨H0, H1, H2, H3, H4, H5, H6, H7, H8, H9, H10⟩
  iframe
  iexact Ho

end Region6

end Cert.Kernel.Hand
-- ==== Proof.K.R3.lean ====
import proofs.«147510_j18107582120779_2_alg».proof.Proof.K.R6

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => out6_9 (iblk3 V c 0 t) (iblk3 V c 1 t) (iblk3 V c 2 t) (iblk3 V c 3 t) (iblk3 V c 4 t) (iblk3 V c 5 t) (iblk3 V c 6 t) (iblk3 V c 7 t) (iblk3 V c 8 t)
    | ⟨10, _⟩ => out6_10 (iblk3 V c 0 t) (iblk3 V c 1 t) (iblk3 V c 2 t) (iblk3 V c 3 t) (iblk3 V c 4 t) (iblk3 V c 5 t) (iblk3 V c 6 t) (iblk3 V c 7 t) (iblk3 V c 8 t)
  Φ _ := Pipeline.ΦA spec3 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
  owed _ := 0

theorem share3_0 (c : Dev nD) : (dat3 V c).share 0 = fullShare.left := by
  unfold Dat.share; rw [if_neg (by decide)]; dsimp only [dat3]
theorem share3_1 (c : Dev nD) : (dat3 V c).share 1 = fullShare.right := by
  unfold Dat.share; rw [if_neg (by decide)]; dsimp only [dat3]
theorem share3_ge (c : Dev nD) (w : Fin cfg3.W) (hw : 2 ≤ w.val) : (dat3 V c).share w = fullShare := by
  unfold Dat.share; split
  · rfl
  · match w, hw with
    | ⟨2, _⟩, _ => dsimp only [dat3]
    | ⟨3, _⟩, _ => dsimp only [dat3]
    | ⟨4, _⟩, _ => dsimp only [dat3]
    | ⟨5, _⟩, _ => dsimp only [dat3]
    | ⟨6, _⟩, _ => dsimp only [dat3]
    | ⟨7, _⟩, _ => dsimp only [dat3]
    | ⟨8, _⟩, _ => dsimp only [dat3]
    | ⟨9, _⟩, _ => dsimp only [dat3]
    | ⟨10, _⟩, _ => dsimp only [dat3]

theorem A_eq3 (c : Dev nD) (w : Fin cfg3.W) : (dat3 V c).A w = V c (Pipeline.arrRef spec3 w) := by
  dsimp only [dat3]

theorem after3_9 (c : Dev nD) (t : Fin cfg3.N) : (dat3 V c).after 9 t = out6_9 (iblk3 V c 0 t) (iblk3 V c 1 t) (iblk3 V c 2 t) (iblk3 V c 3 t) (iblk3 V c 4 t) (iblk3 V c 5 t) (iblk3 V c 6 t) (iblk3 V c 7 t) (iblk3 V c 8 t) := by dsimp only [dat3]
theorem after3_10 (c : Dev nD) (t : Fin cfg3.N) : (dat3 V c).after 10 t = out6_10 (iblk3 V c 0 t) (iblk3 V c 1 t) (iblk3 V c 2 t) (iblk3 V c 3 t) (iblk3 V c 4 t) (iblk3 V c 5 t) (iblk3 V c 6 t) (iblk3 V c 7 t) (iblk3 V c 8 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl
theorem before3_3 (c : Dev nD) (t : Fin cfg3.N) (d) : (dat3 V c).before 3 t d = iblk3 V c 3 t :=
  ((dat3 V c).before_in_eq_fetched 3 rfl (fun _ => rfl) (fun _ _ _ => rfl) (fun _ => rfl) t d).trans rfl
theorem before3_4 (c : Dev nD) (t : Fin cfg3.N) (d) : (dat3 V c).before 4 t d = iblk3 V c 4 t :=
  ((dat3 V c).before_in_eq_fetched 4 rfl (fun _ => rfl) (fun _ _ _ => rfl) (fun _ => rfl) t d).trans rfl
theorem before3_5 (c : Dev nD) (t : Fin cfg3.N) (d) : (dat3 V c).before 5 t d = iblk3 V c 5 t :=
  ((dat3 V c).before_in_eq_fetched 5 rfl (fun _ => rfl) (fun _ _ _ => rfl) (fun _ => rfl) t d).trans rfl
theorem before3_6 (c : Dev nD) (t : Fin cfg3.N) (d) : (dat3 V c).before 6 t d = iblk3 V c 6 t :=
  ((dat3 V c).before_in_eq_fetched 6 rfl (fun _ => rfl) (fun _ _ _ => rfl) (fun _ => rfl) t d).trans rfl
theorem before3_7 (c : Dev nD) (t : Fin cfg3.N) (d) : (dat3 V c).before 7 t d = iblk3 V c 7 t :=
  ((dat3 V c).before_in_eq_fetched 7 rfl (fun _ => rfl) (fun _ _ _ => rfl) (fun _ => rfl) t d).trans rfl
theorem before3_8 (c : Dev nD) (t : Fin cfg3.N) (d) : (dat3 V c).before 8 t d = iblk3 V c 8 t :=
  ((dat3 V c).before_in_eq_fetched 8 rfl (fun _ => rfl) (fun _ _ _ => rfl) (fun _ => rfl) t d).trans rfl

theorem body_obligation3 (c : Dev nD) : BodyObligation (dat3 (F := F) V c) (defs₀ (F := F)) Variants.none () Set.univ := fun t => by
  rw [bigSep_W3, bigSep_W3]
  simp only [before3_0, before3_1, before3_2, before3_3, before3_4, before3_5, before3_6, before3_7, before3_8]
  dsimp only [dat3]
  change _ ⊢ wp _ _ _ (bodyAt3 t) _
  unfold bodyAt3
  rw [show cc3__node_update_kernel (F := F) = cc6__node_update_kernel from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel6 c Set.univ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) _)
  iframe H0 H1 H2 H3 H4 H5 H6 H7 H8
  isplitl [H9]; · iexists _; iexact H9
  isplitl [H10]; · iexists _; iexact H10
  iintro ⟨H0, H1, H2, H3, H4, H5, H6, H7, H8, H9, H10⟩
  iframe
  iexact Ho

end Region3

end Cert.Kernel.Hand
-- ==== Proof.K.R4.lean ====
import proofs.«147510_j18107582120779_2_alg».proof.Proof.K.R1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out1_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_3 (c : Dev nD) (t : Fin cfg4.N) : (dat4 V c).after 3 t = out1_3 (iblk4 V c 0 t) (iblk4 V c 1 t) (iblk4 V c 2 t) := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl
theorem before4_2 (c : Dev nD) (t : Fin cfg4.N) (d) : (dat4 V c).before 2 t d = iblk4 V c 2 t :=
  ((dat4 V c).before_in_eq_fetched 2 rfl (fun _ => rfl) (fun _ _ _ => rfl) (fun _ => rfl) t d).trans rfl

theorem body_obligation4 (c : Dev nD) : BodyObligation (dat4 (F := F) V c) (defs₀ (F := F)) Variants.none () Set.univ := fun t => by
  rw [bigSep_W4, bigSep_W4]
  simp only [before4_0, before4_1, before4_2]
  dsimp only [dat4]
  change _ ⊢ wp _ _ _ (bodyAt4 t) _
  unfold bodyAt4
  rw [show cc4__linear_kernel (F := F) = cc1__linear_kernel from rfl]
  iintro ⟨HΦ, Ho, ⟨%d0, H0⟩, ⟨%d1, H1⟩, ⟨%d2, H2⟩, ⟨%d3, H3⟩⟩
  iapply (sound_kernel1 c Set.univ (grid4.coords t) _ _ _ _ _ _ _ _ (iblk4 V c 0 t) (iblk4 V c 1 t) (iblk4 V c 2 t) _)
  iframe H0 H1 H2
  isplitl [H3]; · iexists _; iexact H3
  iintro ⟨H0, H1, H2, H3⟩
  iframe
  iexact Ho

end Cert.Kernel.Hand
-- ==== Proof.K.R5.lean ====
import proofs.«147510_j18107582120779_2_alg».proof.Proof.K.R2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out2_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_5 (c : Dev nD) (t : Fin cfg5.N) : (dat5 V c).after 5 t = out2_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun _ => rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun _ => rfl) t d).trans rfl
theorem before5_2 (c : Dev nD) (t : Fin cfg5.N) (d) : (dat5 V c).before 2 t d = iblk5 V c 2 t :=
  ((dat5 V c).before_in_eq_fetched 2 rfl (fun _ => rfl) (fun _ _ _ => rfl) (fun _ => rfl) t d).trans rfl
theorem before5_3 (c : Dev nD) (t : Fin cfg5.N) (d) : (dat5 V c).before 3 t d = iblk5 V c 3 t :=
  ((dat5 V c).before_in_eq_fetched 3 rfl (fun _ => rfl) (fun _ _ _ => rfl) (fun _ => rfl) t d).trans rfl
theorem before5_4 (c : Dev nD) (t : Fin cfg5.N) (d) : (dat5 V c).before 4 t d = iblk5 V c 4 t :=
  ((dat5 V c).before_in_eq_fetched 4 rfl (fun _ => rfl) (fun _ _ _ => rfl) (fun _ => rfl) t d).trans rfl

theorem body_obligation5 (c : Dev nD) : BodyObligation (dat5 (F := F) V c) (defs₀ (F := F)) Variants.none () Set.univ := fun t => by
  rw [bigSep_W5, bigSep_W5]
  simp only [before5_0, before5_1, before5_2, before5_3, before5_4]
  dsimp only [dat5]
  change _ ⊢ wp _ _ _ (bodyAt5 t) _
  unfold bodyAt5
  rw [show cc5__edge_fused_kernel (F := F) = cc2__edge_fused_kernel from rfl]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk5 V c 0 t) (iblk5 V c 1 t) (iblk5 V c 2 t) (iblk5 V c 3 t) (iblk5 V c 4 t) _)
  iframe H0 H1 H2 H3 H4
  isplitl [H5]; · iexists _; iexact H5
  iintro ⟨H0, H1, H2, H3, H4, H5⟩
  iframe
  iexact Ho

end Cert.Kernel.Hand
-- ==== Proof.K.R7.lean ====
import proofs.«147510_j18107582120779_2_alg».proof.Proof.K.R1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out1_3 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_3 (c : Dev nD) (t : Fin cfg7.N) : (dat7 V c).after 3 t = out1_3 (iblk7 V c 0 t) (iblk7 V c 1 t) (iblk7 V c 2 t) := by dsimp only [dat7]

theorem before7_0 (c : Dev nD) (t : Fin cfg7.N) (d) : (dat7 V c).before 0 t d = iblk7 V c 0 t :=
  ((dat7 V c).before_in_eq_fetched 0 rfl (fun _ => rfl) (fun _ _ _ => rfl) (fun _ => rfl) t d).trans rfl
theorem before7_1 (c : Dev nD) (t : Fin cfg7.N) (d) : (dat7 V c).before 1 t d = iblk7 V c 1 t :=
  ((dat7 V c).before_in_eq_fetched 1 rfl (fun _ => rfl) (fun _ _ _ => rfl) (fun _ => rfl) t d).trans rfl
theorem before7_2 (c : Dev nD) (t : Fin cfg7.N) (d) : (dat7 V c).before 2 t d = iblk7 V c 2 t :=
  ((dat7 V c).before_in_eq_fetched 2 rfl (fun _ => rfl) (fun _ _ _ => rfl) (fun _ => rfl) t d).trans rfl

theorem body_obligation7 (c : Dev nD) : BodyObligation (dat7 (F := F) V c) (defs₀ (F := F)) Variants.none () Set.univ := fun t => by
  rw [bigSep_W7, bigSep_W7]
  simp only [before7_0, before7_1, before7_2]
  dsimp only [dat7]
  change _ ⊢ wp _ _ _ (bodyAt7 t) _
  unfold bodyAt7
  rw [show cc7__linear_kernel (F := F) = cc1__linear_kernel from rfl]
  iintro ⟨HΦ, Ho, ⟨%d0, H0⟩, ⟨%d1, H1⟩, ⟨%d2, H2⟩, ⟨%d3, H3⟩⟩
  iapply (sound_kernel1 c Set.univ (grid7.coords t) _ _ _ _ _ _ _ _ (iblk7 V c 0 t) (iblk7 V c 1 t) (iblk7 V c 2 t) _)
  iframe H0 H1 H2
  isplitl [H3]; · iexists _; iexact H3
  iintro ⟨H0, H1, H2, H3⟩
  iframe
  iexact Ho

end Cert.Kernel.Hand
-- ==== Proof.K.R8.lean ====
import proofs.«147510_j18107582120779_2_alg».proof.Proof.K.R2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out2_5 (iblk8 V c 0 t) (iblk8 V c 1 t) (iblk8 V c 2 t) (iblk8 V c 3 t) (iblk8 V c 4 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_5 (c : Dev nD) (t : Fin cfg8.N) : (dat8 V c).after 5 t = out2_5 (iblk8 V c 0 t) (iblk8 V c 1 t) (iblk8 V c 2 t) (iblk8 V c 3 t) (iblk8 V c 4 t) := by dsimp only [dat8]

theorem before8_0 (c : Dev nD) (t : Fin cfg8.N) (d) : (dat8 V c).before 0 t d = iblk8 V c 0 t :=
  ((dat8 V c).before_in_eq_fetched 0 rfl (fun _ => rfl) (fun _ _ _ => rfl) (fun _ => rfl) t d).trans rfl
theorem before8_1 (c : Dev nD) (t : Fin cfg8.N) (d) : (dat8 V c).before 1 t d = iblk8 V c 1 t :=
  ((dat8 V c).before_in_eq_fetched 1 rfl (fun _ => rfl) (fun _ _ _ => rfl) (fun _ => rfl) t d).trans rfl
theorem before8_2 (c : Dev nD) (t : Fin cfg8.N) (d) : (dat8 V c).before 2 t d = iblk8 V c 2 t :=
  ((dat8 V c).before_in_eq_fetched 2 rfl (fun _ => rfl) (fun _ _ _ => rfl) (fun _ => rfl) t d).trans rfl
theorem before8_3 (c : Dev nD) (t : Fin cfg8.N) (d) : (dat8 V c).before 3 t d = iblk8 V c 3 t :=
  ((dat8 V c).before_in_eq_fetched 3 rfl (fun _ => rfl) (fun _ _ _ => rfl) (fun _ => rfl) t d).trans rfl
theorem before8_4 (c : Dev nD) (t : Fin cfg8.N) (d) : (dat8 V c).before 4 t d = iblk8 V c 4 t :=
  ((dat8 V c).before_in_eq_fetched 4 rfl (fun _ => rfl) (fun _ _ _ => rfl) (fun _ => rfl) t d).trans rfl

theorem body_obligation8 (c : Dev nD) : BodyObligation (dat8 (F := F) V c) (defs₀ (F := F)) Variants.none () Set.univ := fun t => by
  rw [bigSep_W8, bigSep_W8]
  simp only [before8_0, before8_1, before8_2, before8_3, before8_4]
  dsimp only [dat8]
  change _ ⊢ wp _ _ _ (bodyAt8 t) _
  unfold bodyAt8
  rw [show cc8__edge_fused_kernel (F := F) = cc2__edge_fused_kernel from rfl]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk8 V c 0 t) (iblk8 V c 1 t) (iblk8 V c 2 t) (iblk8 V c 3 t) (iblk8 V c 4 t) _)
  iframe H0 H1 H2 H3 H4
  isplitl [H5]; · iexists _; iexact H5
  iintro ⟨H0, H1, H2, H3, H4, H5⟩
  iframe
  iexact Ho

end Cert.Kernel.Hand
-- ==== Proof.K.R9.lean ====
import proofs.«147510_j18107582120779_2_alg».proof.Proof.K.R6

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region9
variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => iblk9 V c 6 t
    | ⟨7, _⟩ => iblk9 V c 7 t
    | ⟨8, _⟩ => iblk9 V c 8 t
    | ⟨9, _⟩ => out6_9 (iblk9 V c 0 t) (iblk9 V c 1 t) (iblk9 V c 2 t) (iblk9 V c 3 t) (iblk9 V c 4 t) (iblk9 V c 5 t) (iblk9 V c 6 t) (iblk9 V c 7 t) (iblk9 V c 8 t)
    | ⟨10, _⟩ => out6_10 (iblk9 V c 0 t) (iblk9 V c 1 t) (iblk9 V c 2 t) (iblk9 V c 3 t) (iblk9 V c 4 t) (iblk9 V c 5 t) (iblk9 V c 6 t) (iblk9 V c 7 t) (iblk9 V c 8 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_9 (c : Dev nD) (t : Fin cfg9.N) : (dat9 V c).after 9 t = out6_9 (iblk9 V c 0 t) (iblk9 V c 1 t) (iblk9 V c 2 t) (iblk9 V c 3 t) (iblk9 V c 4 t) (iblk9 V c 5 t) (iblk9 V c 6 t) (iblk9 V c 7 t) (iblk9 V c 8 t) := by dsimp only [dat9]
theorem after9_10 (c : Dev nD) (t : Fin cfg9.N) : (dat9 V c).after 10 t = out6_10 (iblk9 V c 0 t) (iblk9 V c 1 t) (iblk9 V c 2 t) (iblk9 V c 3 t) (iblk9 V c 4 t) (iblk9 V c 5 t) (iblk9 V c 6 t) (iblk9 V c 7 t) (iblk9 V c 8 t) := by dsimp only [dat9]

theorem before9_0 (c : Dev nD) (t : Fin cfg9.N) (d) : (dat9 V c).before 0 t d = iblk9 V c 0 t :=
  ((dat9 V c).before_in_eq_fetched 0 rfl (fun _ => rfl) (fun _ _ _ => rfl) (fun _ => rfl) t d).trans rfl
theorem before9_1 (c : Dev nD) (t : Fin cfg9.N) (d) : (dat9 V c).before 1 t d = iblk9 V c 1 t :=
  ((dat9 V c).before_in_eq_fetched 1 rfl (fun _ => rfl) (fun _ _ _ => rfl) (fun _ => rfl) t d).trans rfl
theorem before9_2 (c : Dev nD) (t : Fin cfg9.N) (d) : (dat9 V c).before 2 t d = iblk9 V c 2 t :=
  ((dat9 V c).before_in_eq_fetched 2 rfl (fun _ => rfl) (fun _ _ _ => rfl) (fun _ => rfl) t d).trans rfl
theorem before9_3 (c : Dev nD) (t : Fin cfg9.N) (d) : (dat9 V c).before 3 t d = iblk9 V c 3 t :=
  ((dat9 V c).before_in_eq_fetched 3 rfl (fun _ => rfl) (fun _ _ _ => rfl) (fun _ => rfl) t d).trans rfl
theorem before9_4 (c : Dev nD) (t : Fin cfg9.N) (d) : (dat9 V c).before 4 t d = iblk9 V c 4 t :=
  ((dat9 V c).before_in_eq_fetched 4 rfl (fun _ => rfl) (fun _ _ _ => rfl) (fun _ => rfl) t d).trans rfl
theorem before9_5 (c : Dev nD) (t : Fin cfg9.N) (d) : (dat9 V c).before 5 t d = iblk9 V c 5 t :=
  ((dat9 V c).before_in_eq_fetched 5 rfl (fun _ => rfl) (fun _ _ _ => rfl) (fun _ => rfl) t d).trans rfl
theorem before9_6 (c : Dev nD) (t : Fin cfg9.N) (d) : (dat9 V c).before 6 t d = iblk9 V c 6 t :=
  ((dat9 V c).before_in_eq_fetched 6 rfl (fun _ => rfl) (fun _ _ _ => rfl) (fun _ => rfl) t d).trans rfl
theorem before9_7 (c : Dev nD) (t : Fin cfg9.N) (d) : (dat9 V c).before 7 t d = iblk9 V c 7 t :=
  ((dat9 V c).before_in_eq_fetched 7 rfl (fun _ => rfl) (fun _ _ _ => rfl) (fun _ => rfl) t d).trans rfl
theorem before9_8 (c : Dev nD) (t : Fin cfg9.N) (d) : (dat9 V c).before 8 t d = iblk9 V c 8 t :=
  ((dat9 V c).before_in_eq_fetched 8 rfl (fun _ => rfl) (fun _ _ _ => rfl) (fun _ => rfl) t d).trans rfl

theorem body_obligation9 (c : Dev nD) : BodyObligation (dat9 (F := F) V c) (defs₀ (F := F)) Variants.none () Set.univ := fun t => by
  rw [bigSep_W9, bigSep_W9]
  simp only [before9_0, before9_1, before9_2, before9_3, before9_4, before9_5, before9_6, before9_7, before9_8]
  dsimp only [dat9]
  change _ ⊢ wp _ _ _ (bodyAt9 t) _
  unfold bodyAt9
  rw [show cc9__node_update_kernel (F := F) = cc6__node_update_kernel from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel6 c Set.univ _ _ _ _ _ _ _ _ _ _ _ _ _ _ _ _ _ _ _ _ _ _ _ (iblk9 V c 0 t) (iblk9 V c 1 t) (iblk9 V c 2 t) (iblk9 V c 3 t) (iblk9 V c 4 t) (iblk9 V c 5 t) (iblk9 V c 6 t) (iblk9 V c 7 t) (iblk9 V c 8 t) _)
  iframe H0 H1 H2 H3 H4 H5 H6 H7 H8
  isplitl [H9]; · iexists _; iexact H9
  isplitl [H10]; · iexists _; iexact H10
  iintro ⟨H0, H1, H2, H3, H4, H5, H6, H7, H8, H9, H10⟩
  iframe
  iexact Ho

end Region9

end Cert.Kernel.Hand
-- ==== Proof.K.R10.lean ====
import proofs.«147510_j18107582120779_2_alg».proof.Proof.K.R1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => out1_3 (iblk10 V c 0 t) (iblk10 V c 1 t) (iblk10 V c 2 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_3 (c : Dev nD) (t : Fin cfg10.N) : (dat10 V c).after 3 t = out1_3 (iblk10 V c 0 t) (iblk10 V c 1 t) (iblk10 V c 2 t) := by dsimp only [dat10]

theorem before10_0 (c : Dev nD) (t : Fin cfg10.N) (d) : (dat10 V c).before 0 t d = iblk10 V c 0 t :=
  ((dat10 V c).before_in_eq_fetched 0 rfl (fun _ => rfl) (fun _ _ _ => rfl) (fun _ => rfl) t d).trans rfl
theorem before10_1 (c : Dev nD) (t : Fin cfg10.N) (d) : (dat10 V c).before 1 t d = iblk10 V c 1 t :=
  ((dat10 V c).before_in_eq_fetched 1 rfl (fun _ => rfl) (fun _ _ _ => rfl) (fun _ => rfl) t d).trans rfl
theorem before10_2 (c : Dev nD) (t : Fin cfg10.N) (d) : (dat10 V c).before 2 t d = iblk10 V c 2 t :=
  ((dat10 V c).before_in_eq_fetched 2 rfl (fun _ => rfl) (fun _ _ _ => rfl) (fun _ => rfl) t d).trans rfl

theorem body_obligation10 (c : Dev nD) : BodyObligation (dat10 (F := F) V c) (defs₀ (F := F)) Variants.none () Set.univ := fun t => by
  rw [bigSep_W10, bigSep_W10]
  simp only [before10_0, before10_1, before10_2]
  dsimp only [dat10]
  change _ ⊢ wp _ _ _ (bodyAt10 t) _
  unfold bodyAt10
  rw [show cc10__linear_kernel (F := F) = cc1__linear_kernel from rfl]
  iintro ⟨HΦ, Ho, ⟨%d0, H0⟩, ⟨%d1, H1⟩, ⟨%d2, H2⟩, ⟨%d3, H3⟩⟩
  iapply (sound_kernel1 c Set.univ (grid10.coords t) _ _ _ _ _ _ _ _ (iblk10 V c 0 t) (iblk10 V c 1 t) (iblk10 V c 2 t) _)
  iframe H0 H1 H2
  isplitl [H3]; · iexists _; iexact H3
  iintro ⟨H0, H1, H2, H3⟩
  iframe
  iexact Ho

end Cert.Kernel.Hand
-- ==== Proof.K.R11.lean ====
import proofs.«147510_j18107582120779_2_alg».proof.Proof.K.R2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => out2_5 (iblk11 V c 0 t) (iblk11 V c 1 t) (iblk11 V c 2 t) (iblk11 V c 3 t) (iblk11 V c 4 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_5 (c : Dev nD) (t : Fin cfg11.N) : (dat11 V c).after 5 t = out2_5 (iblk11 V c 0 t) (iblk11 V c 1 t) (iblk11 V c 2 t) (iblk11 V c 3 t) (iblk11 V c 4 t) := by dsimp only [dat11]

theorem before11_0 (c : Dev nD) (t : Fin cfg11.N) (d) : (dat11 V c).before 0 t d = iblk11 V c 0 t :=
  ((dat11 V c).before_in_eq_fetched 0 rfl (fun _ => rfl) (fun _ _ _ => rfl) (fun _ => rfl) t d).trans rfl
theorem before11_1 (c : Dev nD) (t : Fin cfg11.N) (d) : (dat11 V c).before 1 t d = iblk11 V c 1 t :=
  ((dat11 V c).before_in_eq_fetched 1 rfl (fun _ => rfl) (fun _ _ _ => rfl) (fun _ => rfl) t d).trans rfl
theorem before11_2 (c : Dev nD) (t : Fin cfg11.N) (d) : (dat11 V c).before 2 t d = iblk11 V c 2 t :=
  ((dat11 V c).before_in_eq_fetched 2 rfl (fun _ => rfl) (fun _ _ _ => rfl) (fun _ => rfl) t d).trans rfl
theorem before11_3 (c : Dev nD) (t : Fin cfg11.N) (d) : (dat11 V c).before 3 t d = iblk11 V c 3 t :=
  ((dat11 V c).before_in_eq_fetched 3 rfl (fun _ => rfl) (fun _ _ _ => rfl) (fun _ => rfl) t d).trans rfl
theorem before11_4 (c : Dev nD) (t : Fin cfg11.N) (d) : (dat11 V c).before 4 t d = iblk11 V c 4 t :=
  ((dat11 V c).before_in_eq_fetched 4 rfl (fun _ => rfl) (fun _ _ _ => rfl) (fun _ => rfl) t d).trans rfl

theorem body_obligation11 (c : Dev nD) : BodyObligation (dat11 (F := F) V c) (defs₀ (F := F)) Variants.none () Set.univ := fun t => by
  rw [bigSep_W11, bigSep_W11]
  simp only [before11_0, before11_1, before11_2, before11_3, before11_4]
  dsimp only [dat11]
  change _ ⊢ wp _ _ _ (bodyAt11 t) _
  unfold bodyAt11
  rw [show cc11__edge_fused_kernel (F := F) = cc2__edge_fused_kernel from rfl]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk11 V c 0 t) (iblk11 V c 1 t) (iblk11 V c 2 t) (iblk11 V c 3 t) (iblk11 V c 4 t) _)
  iframe H0 H1 H2 H3 H4
  isplitl [H5]; · iexists _; iexact H5
  iintro ⟨H0, H1, H2, H3, H4, H5⟩
  iframe
  iexact Ho

end Cert.Kernel.Hand
-- ==== Proof.K.R12.lean ====
import proofs.«147510_j18107582120779_2_alg».proof.Proof.K.R6

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region12
variable (V : (c : Dev nD) → (b : Ref sig .tc) → Buf (Elt F) ((c : Thread nD τ).loc b))

def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => iblk12 V c 5 t
    | ⟨6, _⟩ => iblk12 V c 6 t
    | ⟨7, _⟩ => iblk12 V c 7 t
    | ⟨8, _⟩ => iblk12 V c 8 t
    | ⟨9, _⟩ => out6_9 (iblk12 V c 0 t) (iblk12 V c 1 t) (iblk12 V c 2 t) (iblk12 V c 3 t) (iblk12 V c 4 t) (iblk12 V c 5 t) (iblk12 V c 6 t) (iblk12 V c 7 t) (iblk12 V c 8 t)
    | ⟨10, _⟩ => out6_10 (iblk12 V c 0 t) (iblk12 V c 1 t) (iblk12 V c 2 t) (iblk12 V c 3 t) (iblk12 V c 4 t) (iblk12 V c 5 t) (iblk12 V c 6 t) (iblk12 V c 7 t) (iblk12 V c 8 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_9 (c : Dev nD) (t : Fin cfg12.N) : (dat12 V c).after 9 t = out6_9 (iblk12 V c 0 t) (iblk12 V c 1 t) (iblk12 V c 2 t) (iblk12 V c 3 t) (iblk12 V c 4 t) (iblk12 V c 5 t) (iblk12 V c 6 t) (iblk12 V c 7 t) (iblk12 V c 8 t) := by dsimp only [dat12]
theorem after12_10 (c : Dev nD) (t : Fin cfg12.N) : (dat12 V c).after 10 t = out6_10 (iblk12 V c 0 t) (iblk12 V c 1 t) (iblk12 V c 2 t) (iblk12 V c 3 t) (iblk12 V c 4 t) (iblk12 V c 5 t) (iblk12 V c 6 t) (iblk12 V c 7 t) (iblk12 V c 8 t) := by dsimp only [dat12]

theorem before12_0 (c : Dev nD) (t : Fin cfg12.N) (d) : (dat12 V c).before 0 t d = iblk12 V c 0 t :=
  ((dat12 V c).before_in_eq_fetched 0 rfl (fun _ => rfl) (fun _ _ _ => rfl) (fun _ => rfl) t d).trans rfl
theorem before12_1 (c : Dev nD) (t : Fin cfg12.N) (d) : (dat12 V c).before 1 t d = iblk12 V c 1 t :=
  ((dat12 V c).before_in_eq_fetched 1 rfl (fun _ => rfl) (fun _ _ _ => rfl) (fun _ => rfl) t d).trans rfl
theorem before12_2 (c : Dev nD) (t : Fin cfg12.N) (d) : (dat12 V c).before 2 t d = iblk12 V c 2 t :=
  ((dat12 V c).before_in_eq_fetched 2 rfl (fun _ => rfl) (fun _ _ _ => rfl) (fun _ => rfl) t d).trans rfl
theorem before12_3 (c : Dev nD) (t : Fin cfg12.N) (d) : (dat12 V c).before 3 t d = iblk12 V c 3 t :=
  ((dat12 V c).before_in_eq_fetched 3 rfl (fun _ => rfl) (fun _ _ _ => rfl) (fun _ => rfl) t d).trans rfl
theorem before12_4 (c : Dev nD) (t : Fin cfg12.N) (d) : (dat12 V c).before 4 t d = iblk12 V c 4 t :=
  ((dat12 V c).before_in_eq_fetched 4 rfl (fun _ => rfl) (fun _ _ _ => rfl) (fun _ => rfl) t d).trans rfl
theorem before12_5 (c : Dev nD) (t : Fin cfg12.N) (d) : (dat12 V c).before 5 t d = iblk12 V c 5 t :=
  ((dat12 V c).before_in_eq_fetched 5 rfl (fun _ => rfl) (fun _ _ _ => rfl) (fun _ => rfl) t d).trans rfl
theorem before12_6 (c : Dev nD) (t : Fin cfg12.N) (d) : (dat12 V c).before 6 t d = iblk12 V c 6 t :=
  ((dat12 V c).before_in_eq_fetched 6 rfl (fun _ => rfl) (fun _ _ _ => rfl) (fun _ => rfl) t d).trans rfl
theorem before12_7 (c : Dev nD) (t : Fin cfg12.N) (d) : (dat12 V c).before 7 t d = iblk12 V c 7 t :=
  ((dat12 V c).before_in_eq_fetched 7 rfl (fun _ => rfl) (fun _ _ _ => rfl) (fun _ => rfl) t d).trans rfl
theorem before12_8 (c : Dev nD) (t : Fin cfg12.N) (d) : (dat12 V c).before 8 t d = iblk12 V c 8 t :=
  ((dat12 V c).before_in_eq_fetched 8 rfl (fun _ => rfl) (fun _ _ _ => rfl) (fun _ => rfl) t d).trans rfl

theorem body_obligation12 (c : Dev nD) : BodyObligation (dat12 (F := F) V c) (defs₀ (F := F)) Variants.none () Set.univ := fun t => by
  rw [bigSep_W12, bigSep_W12]
  simp only [before12_0, before12_1, before12_2, before12_3, before12_4, before12_5, before12_6, before12_7, before12_8]
  dsimp only [dat12]
  change _ ⊢ wp _ _ _ (bodyAt12 t) _
  unfold bodyAt12
  rw [show cc12__node_update_kernel (F := F) = cc6__node_update_kernel from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel6 c Set.univ _ _ _ _ _ _ _ _ _ _ _ _ _ _ _ _ _ _ _ _ _ _ _ (iblk12 V c 0 t) (iblk12 V c 1 t) (iblk12 V c 2 t) (iblk12 V c 3 t) (iblk12 V c 4 t) (iblk12 V c 5 t) (iblk12 V c 6 t) (iblk12 V c 7 t) (iblk12 V c 8 t) _)
  iframe H0 H1 H2 H3 H4 H5 H6 H7 H8
  isplitl [H9]; · iexists _; iexact H9
  isplitl [H10]; · iexists _; iexact H10
  iintro ⟨H0, H1, H2, H3, H4, H5, H6, H7, H8, H9, H10⟩
  iframe
  iexact Ho

end Region12

end Cert.Kernel.Hand
-- ==== Proof.K.R13.lean ====
import proofs.«147510_j18107582120779_2_alg».proof.Proof.Gen.Kernel.Launch
import proofs.«147510_j18107582120779_2_alg».proof.Proof.Gen.Kernel.Skeleton
import proofs.«147510_j18107582120779_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

abbrev r13_0 : Rect S5000x64 := Rect.unit (s := S5000x64) ![0, 0] S5000x64.size inb_S5000x64_S5000x64_0_0
abbrev r13_1 : Rect S64x40 := Rect.unit (s := S64x40) ![0, 0] S64x40.size inb_S64x40_S64x40_0_0
abbrev r13_2 : Rect S1x40 := Rect.unit (s := S1x40) ![0, 0] S1x40.size inb_S1x40_S1x40_0_0
abbrev r13_3 : Rect S5000x40 := Rect.unit (s := S5000x40) ![0, 0] S5000x40.size inb_S5000x40_S5000x40_0_0

def out13_3 (x0 : Vec F S5000x64 .f32) (x1 : Vec F S64x40 .f32) (x2 : Vec F S1x40 .f32) : Vec F S5000x40 .f32 :=
  View.canon [⟨r13_3, k13_pay1 (View.ld x0 r13_0) (View.ld x1 r13_1) (View.ld x2 r13_2)⟩]

theorem cover13_3 (p0 : Vec F S5000x40 .f32) (y : S5000x40.Idx) :
    ∃ pc ∈ ([⟨r13_3, p0⟩] : List (View.Piece (Elt F) S5000x40 .f32)), y ∈ pc.1.set :=
  View.cover_of_tiled [⟨r13_3, p0⟩] S5000x40.size (by rfl) y

set_option maxHeartbeats 1000000 in
theorem sound_kernel13 (c : Dev nD) (E : Set ℕ) (i : grid13.Coords) (arg1 : Memref sig .tc .vmem S5000x64 .f32) (harg1 : arg1.IsWhole) (arg2 : Memref sig .tc .vmem S64x40 .f32) (harg2 : arg2.IsWhole) (arg3 : Memref sig .tc .vmem S1x40 .f32) (harg3 : arg3.IsWhole) (arg4 : Memref sig .tc .vmem S5000x40 .f32) (harg4 : arg4.IsWhole)
    (x0 : Vec F S5000x64 .f32) (x1 : Vec F S64x40 .f32) (x2 : Vec F S1x40 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out13_3 x0 x1 x2)) -∗ K ⟨⟩))
      ⊢ wp frame (wpE (defs₀ (F := F)) Variants.none c none) E (cc13__linear_kernel i arg1 harg1 arg2 harg2 arg3 harg3 arg4 harg4) K := by
  simp only [cc13__linear_kernel_eq_skeleton]; unfold cc13__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover13_3 _)

def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => out13_3 (iblk13 V c 0 t) (iblk13 V c 1 t) (iblk13 V c 2 t)
  Φ _ := Pipeline.ΦA spec13 c
  q _ := fullShare
  owed _ := 0

theorem A_eq13 (c : Dev nD) (w : Fin cfg13.W) : (dat13 V c).A w = V c (Pipeline.arrRef spec13 w) := by
  dsimp only [dat13]

theorem after13_3 (c : Dev nD) (t : Fin cfg13.N) : (dat13 V c).after 3 t = out13_3 (iblk13 V c 0 t) (iblk13 V c 1 t) (iblk13 V c 2 t) := by dsimp only [dat13]

theorem before13_0 (c : Dev nD) (t : Fin cfg13.N) (d) : (dat13 V c).before 0 t d = iblk13 V c 0 t :=
  ((dat13 V c).before_in_eq_fetched 0 rfl (fun _ => rfl) (fun _ _ _ => rfl) (fun _ => rfl) t d).trans rfl
theorem before13_1 (c : Dev nD) (t : Fin cfg13.N) (d) : (dat13 V c).before 1 t d = iblk13 V c 1 t :=
  ((dat13 V c).before_in_eq_fetched 1 rfl (fun _ => rfl) (fun _ _ _ => rfl) (fun _ => rfl) t d).trans rfl
theorem before13_2 (c : Dev nD) (t : Fin cfg13.N) (d) : (dat13 V c).before 2 t d = iblk13 V c 2 t :=
  ((dat13 V c).before_in_eq_fetched 2 rfl (fun _ => rfl) (fun _ _ _ => rfl) (fun _ => rfl) t d).trans rfl

theorem body_obligation13 (c : Dev nD) : BodyObligation (dat13 (F := F) V c) (defs₀ (F := F)) Variants.none () Set.univ := fun t => by
  rw [bigSep_W13, bigSep_W13]
  simp only [before13_0, before13_1, before13_2]
  dsimp only [dat13]
  change _ ⊢ wp _ _ _ (bodyAt13 t) _
  unfold bodyAt13
  iintro ⟨HΦ, Ho, ⟨%d0, H0⟩, ⟨%d1, H1⟩, ⟨%d2, H2⟩, ⟨%d3, H3⟩⟩
  iapply (sound_kernel13 c Set.univ (grid13.coords t) _ _ _ _ _ _ _ _ (iblk13 V c 0 t) (iblk13 V c 1 t) (iblk13 V c 2 t) _)
  iframe H0 H1 H2
  isplitl [H3]; · iexists _; iexact H3
  iintro ⟨H0, H1, H2, H3⟩
  iframe
  iexact Ho

end Cert.Kernel.Hand
-- ==== Proof.K.Fold.lean ====
import proofs.«147510_j18107582120779_2_alg».proof.Proof.K.R0
import proofs.«147510_j18107582120779_2_alg».proof.Proof.K.R1
import proofs.«147510_j18107582120779_2_alg».proof.Proof.K.R2
import proofs.«147510_j18107582120779_2_alg».proof.Proof.K.R3
import proofs.«147510_j18107582120779_2_alg».proof.Proof.K.R4
import proofs.«147510_j18107582120779_2_alg».proof.Proof.K.R5
import proofs.«147510_j18107582120779_2_alg».proof.Proof.K.R6
import proofs.«147510_j18107582120779_2_alg».proof.Proof.K.R7
import proofs.«147510_j18107582120779_2_alg».proof.Proof.K.R8
import proofs.«147510_j18107582120779_2_alg».proof.Proof.K.R9
import proofs.«147510_j18107582120779_2_alg».proof.Proof.K.R10
import proofs.«147510_j18107582120779_2_alg».proof.Proof.K.R11
import proofs.«147510_j18107582120779_2_alg».proof.Proof.K.R12
import proofs.«147510_j18107582120779_2_alg».proof.Proof.K.R13
import proofs.«147510_j18107582120779_2_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (m : (ℓ : Loc nD τ sig) → Buf (Elt F) ℓ)

abbrev tcOf (W : Dev nD → Valuation τ sig (Elt F)) : (c : Dev nD) → (b : Ref sig .tc) → Buf (Elt F) ((c : Thread nD τ).loc b) :=
  fun c b => W c b

abbrev U1 (c : Dev nD) : Valuation τ sig (Elt F) := Gen.V1 m c

def U2 (c : Dev nD) : Valuation τ sig (Elt F) :=
  Function.update (U1 m c) main_v31 ((dat0 (tcOf (U1 m)) c).arrAt 3 cfg0.N)
theorem U2_main_v31 (c : Dev nD) : U2 m c main_v31 = (dat0 (tcOf (U1 m)) c).arrAt 3 cfg0.N := by
  unfold U2; exact Function.update_self ..
theorem U2_of (c : Dev nD) (r : Ref sig .tc) (h : r ≠ main_v31) : U2 m c r = U1 m c r := by
  unfold U2; exact Function.update_of_ne (StableHlo.devRef_ne_of_ne h) ..

theorem hF0_in (c : Dev nD) (w : Fin cfg0.W) (hin : (cfg0.win w).isOut = false) (h0 : Pipeline.arrRef spec0 w ≠ main_v31) :
    (dat0 (tcOf (U1 m)) c).arrAt w cfg0.N = tcOf (U2 m) c (Pipeline.arrRef spec0 w) :=
  (((dat0 (tcOf (U1 m)) c).arrAt_in w hin _).trans (A_eq0 (tcOf (U1 m)) c w)).trans (U2_of m c _ h0).symm

theorem hF0 (c : Dev nD) (w : Fin cfg0.W) :
    (dat0 (tcOf (U1 m)) c).arrAt w cfg0.N = tcOf (U2 m) c (Pipeline.arrRef spec0 w) :=
  match w with
  | ⟨0, _⟩ => hF0_in m c 0 rfl (by decide)
  | ⟨1, _⟩ => hF0_in m c 1 rfl (by decide)
  | ⟨2, _⟩ => hF0_in m c 2 rfl (by decide)
  | ⟨3, _⟩ => (U2_main_v31 m c).symm
  | ⟨_ + 4, h⟩ => absurd h (Nat.not_lt.2 (Nat.le_add_left _ _))

theorem hrest0 (c : Dev nD) : ∀ b, b ∉ Finset.univ.image (Pipeline.arrRef spec0) → tcOf (U2 m) c b = tcOf (U1 m) c b :=
  fun b hb => U2_of m c b (fun e => hb (Finset.mem_image.mpr ⟨3, Finset.mem_univ _, e.symm⟩))

abbrev U3 (c : Dev nD) : Valuation τ sig (Elt F) := StableHlo.after hostOps1 (U2 m c)

def U4 (c : Dev nD) : Valuation τ sig (Elt F) :=
  Function.update (U3 m c) main_v47 ((dat1 (tcOf (U3 m)) c).arrAt 3 cfg1.N)
theorem U4_main_v47 (c : Dev nD) : U4 m c main_v47 = (dat1 (tcOf (U3 m)) c).arrAt 3 cfg1.N := by
  unfold U4; exact Function.update_self ..
theorem U4_of (c : Dev nD) (r : Ref sig .tc) (h : r ≠ main_v47) : U4 m c r = U3 m c r := by
  unfold U4; exact Function.update_of_ne (StableHlo.devRef_ne_of_ne h) ..

theorem hF1_in (c : Dev nD) (w : Fin cfg1.W) (hin : (cfg1.win w).isOut = false) (h0 : Pipeline.arrRef spec1 w ≠ main_v47) :
    (dat1 (tcOf (U3 m)) c).arrAt w cfg1.N = tcOf (U4 m) c (Pipeline.arrRef spec1 w) :=
  (((dat1 (tcOf (U3 m)) c).arrAt_in w hin _).trans (A_eq1 (tcOf (U3 m)) c w)).trans (U4_of m c _ h0).symm

theorem hF1 (c : Dev nD) (w : Fin cfg1.W) :
    (dat1 (tcOf (U3 m)) c).arrAt w cfg1.N = tcOf (U4 m) c (Pipeline.arrRef spec1 w) :=
  match w with
  | ⟨0, _⟩ => hF1_in m c 0 rfl (by decide)
  | ⟨1, _⟩ => hF1_in m c 1 rfl (by decide)
  | ⟨2, _⟩ => hF1_in m c 2 rfl (by decide)
  | ⟨3, _⟩ => (U4_main_v47 m c).symm
  | ⟨_ + 4, h⟩ => absurd h (Nat.not_lt.2 (Nat.le_add_left _ _))

theorem hrest1 (c : Dev nD) : ∀ b, b ∉ Finset.univ.image (Pipeline.arrRef spec1) → tcOf (U4 m) c b = tcOf (U3 m) c b :=
  fun b hb => U4_of m c b (fun e => hb (Finset.mem_image.mpr ⟨3, Finset.mem_univ _, e.symm⟩))

def U5 (c : Dev nD) : Valuation τ sig (Elt F) :=
  Function.update (U4 m c) main_v48 ((dat2 (tcOf (U4 m)) c).arrAt 5 cfg2.N)
theorem U5_main_v48 (c : Dev nD) : U5 m c main_v48 = (dat2 (tcOf (U4 m)) c).arrAt 5 cfg2.N := by
  unfold U5; exact Function.update_self ..
theorem U5_of (c : Dev nD) (r : Ref sig .tc) (h : r ≠ main_v48) : U5 m c r = U4 m c r := by
  unfold U5; exact Function.update_of_ne (StableHlo.devRef_ne_of_ne h) ..

theorem hF2_in (c : Dev nD) (w : Fin cfg2.W) (hin : (cfg2.win w).isOut = false) (h0 : Pipeline.arrRef spec2 w ≠ main_v48) :
    (dat2 (tcOf (U4 m)) c).arrAt w cfg2.N = tcOf (U5 m) c (Pipeline.arrRef spec2 w) :=
  (((dat2 (tcOf (U4 m)) c).arrAt_in w hin _).trans (A_eq2 (tcOf (U4 m)) c w)).trans (U5_of m c _ h0).symm

theorem hF2 (c : Dev nD) (w : Fin cfg2.W) :
    (dat2 (tcOf (U4 m)) c).arrAt w cfg2.N = tcOf (U5 m) c (Pipeline.arrRef spec2 w) :=
  match w with
  | ⟨0, _⟩ => hF2_in m c 0 rfl (by decide)
  | ⟨1, _⟩ => hF2_in m c 1 rfl (by decide)
  | ⟨2, _⟩ => hF2_in m c 2 rfl (by decide)
  | ⟨3, _⟩ => hF2_in m c 3 rfl (by decide)
  | ⟨4, _⟩ => hF2_in m c 4 rfl (by decide)
  | ⟨5, _⟩ => (U5_main_v48 m c).symm
  | ⟨_ + 6, h⟩ => absurd h (Nat.not_lt.2 (Nat.le_add_left _ _))

theorem hrest2 (c : Dev nD) : ∀ b, b ∉ Finset.univ.image (Pipeline.arrRef spec2) → tcOf (U5 m) c b = tcOf (U4 m) c b :=
  fun b hb => U5_of m c b (fun e => hb (Finset.mem_image.mpr ⟨5, Finset.mem_univ _, e.symm⟩))

abbrev U6 (c : Dev nD) : Valuation τ sig (Elt F) := StableHlo.after hostOps3 (U5 m c)

def U7 (c : Dev nD) : Valuation τ sig (Elt F) :=
  Function.update (Function.update (U6 m c) main_v58_0 ((dat3 (tcOf (U6 m)) c).arrAt 9 cfg3.N)) main_v58_1 ((dat3 (tcOf (U6 m)) c).arrAt 10 cfg3.N)
theorem U7_main_v58_1 (c : Dev nD) : U7 m c main_v58_1 = (dat3 (tcOf (U6 m)) c).arrAt 10 cfg3.N := by
  unfold U7; exact Function.update_self ..
theorem U7_main_v58_0 (c : Dev nD) : U7 m c main_v58_0 = (dat3 (tcOf (U6 m)) c).arrAt 9 cfg3.N := by
  unfold U7
  exact (Function.update_of_ne (StableHlo.devRef_ne_of_ne (by decide)) ..).trans (Function.update_self ..)
theorem U7_of (c : Dev nD) (r : Ref sig .tc) (h0 : r ≠ main_v58_0) (h1 : r ≠ main_v58_1) : U7 m c r = U6 m c r := by
  unfold U7
  exact (Function.update_of_ne (StableHlo.devRef_ne_of_ne h1) ..).trans (Function.update_of_ne (StableHlo.devRef_ne_of_ne h0) ..)

theorem hF3_in (c : Dev nD) (w : Fin cfg3.W) (hin : (cfg3.win w).isOut = false) (h0 : Pipeline.arrRef spec3 w ≠ main_v58_0) (h1 : Pipeline.arrRef spec3 w ≠ main_v58_1) :
    (dat3 (tcOf (U6 m)) c).arrAt w cfg3.N = tcOf (U7 m) c (Pipeline.arrRef spec3 w) :=
  (((dat3 (tcOf (U6 m)) c).arrAt_in w hin _).trans (A_eq3 (tcOf (U6 m)) c w)).trans (U7_of m c _ h0 h1).symm

theorem hin3 : ∀ w : Fin cfg3.W, (cfg3.win w).isOut = false → Pipeline.arrRef spec3 w ≠ main_v58_0 ∧ Pipeline.arrRef spec3 w ≠ main_v58_1 := by decide
theorem hout3 : ∀ w : Fin cfg3.W, (cfg3.win w).isOut = true → w = 9 ∨ w = 10 := by decide

theorem hF3 (c : Dev nD) (w : Fin cfg3.W) :
    (dat3 (tcOf (U6 m)) c).arrAt w cfg3.N = tcOf (U7 m) c (Pipeline.arrRef spec3 w) := by
  cases h : (cfg3.win w).isOut
  · exact hF3_in m c w h (hin3 w h).1 (hin3 w h).2
  · obtain rfl | rfl := hout3 w h
    · exact (U7_main_v58_0 m c).symm
    · exact (U7_main_v58_1 m c).symm

theorem hrest3 (c : Dev nD) : ∀ b, b ∉ Finset.univ.image (Pipeline.arrRef spec3) → tcOf (U7 m) c b = tcOf (U6 m) c b :=
  fun b hb => U7_of m c b (fun e => hb (Finset.mem_image.mpr ⟨9, Finset.mem_univ _, e.symm⟩)) (fun e => hb (Finset.mem_image.mpr ⟨10, Finset.mem_univ _, e.symm⟩))

abbrev U8 (c : Dev nD) : Valuation τ sig (Elt F) := StableHlo.after hostOps4 (U7 m c)

def U9 (c : Dev nD) : Valuation τ sig (Elt F) :=
  Function.update (U8 m c) main_v74 ((dat4 (tcOf (U8 m)) c).arrAt 3 cfg4.N)
theorem U9_main_v74 (c : Dev nD) : U9 m c main_v74 = (dat4 (tcOf (U8 m)) c).arrAt 3 cfg4.N := by
  unfold U9; exact Function.update_self ..
theorem U9_of (c : Dev nD) (r : Ref sig .tc) (h : r ≠ main_v74) : U9 m c r = U8 m c r := by
  unfold U9; exact Function.update_of_ne (StableHlo.devRef_ne_of_ne h) ..

theorem hF4_in (c : Dev nD) (w : Fin cfg4.W) (hin : (cfg4.win w).isOut = false) (h0 : Pipeline.arrRef spec4 w ≠ main_v74) :
    (dat4 (tcOf (U8 m)) c).arrAt w cfg4.N = tcOf (U9 m) c (Pipeline.arrRef spec4 w) :=
  (((dat4 (tcOf (U8 m)) c).arrAt_in w hin _).trans (A_eq4 (tcOf (U8 m)) c w)).trans (U9_of m c _ h0).symm

theorem hF4 (c : Dev nD) (w : Fin cfg4.W) :
    (dat4 (tcOf (U8 m)) c).arrAt w cfg4.N = tcOf (U9 m) c (Pipeline.arrRef spec4 w) :=
  match w with
  | ⟨0, _⟩ => hF4_in m c 0 rfl (by decide)
  | ⟨1, _⟩ => hF4_in m c 1 rfl (by decide)
  | ⟨2, _⟩ => hF4_in m c 2 rfl (by decide)
  | ⟨3, _⟩ => (U9_main_v74 m c).symm
  | ⟨_ + 4, h⟩ => absurd h (Nat.not_lt.2 (Nat.le_add_left _ _))

theorem hrest4 (c : Dev nD) : ∀ b, b ∉ Finset.univ.image (Pipeline.arrRef spec4) → tcOf (U9 m) c b = tcOf (U8 m) c b :=
  fun b hb => U9_of m c b (fun e => hb (Finset.mem_image.mpr ⟨3, Finset.mem_univ _, e.symm⟩))

def U10 (c : Dev nD) : Valuation τ sig (Elt F) :=
  Function.update (U9 m c) main_v75 ((dat5 (tcOf (U9 m)) c).arrAt 5 cfg5.N)
theorem U10_main_v75 (c : Dev nD) : U10 m c main_v75 = (dat5 (tcOf (U9 m)) c).arrAt 5 cfg5.N := by
  unfold U10; exact Function.update_self ..
theorem U10_of (c : Dev nD) (r : Ref sig .tc) (h : r ≠ main_v75) : U10 m c r = U9 m c r := by
  unfold U10; exact Function.update_of_ne (StableHlo.devRef_ne_of_ne h) ..

theorem hF5_in (c : Dev nD) (w : Fin cfg5.W) (hin : (cfg5.win w).isOut = false) (h0 : Pipeline.arrRef spec5 w ≠ main_v75) :
    (dat5 (tcOf (U9 m)) c).arrAt w cfg5.N = tcOf (U10 m) c (Pipeline.arrRef spec5 w) :=
  (((dat5 (tcOf (U9 m)) c).arrAt_in w hin _).trans (A_eq5 (tcOf (U9 m)) c w)).trans (U10_of m c _ h0).symm

theorem hF5 (c : Dev nD) (w : Fin cfg5.W) :
    (dat5 (tcOf (U9 m)) c).arrAt w cfg5.N = tcOf (U10 m) c (Pipeline.arrRef spec5 w) :=
  match w with
  | ⟨0, _⟩ => hF5_in m c 0 rfl (by decide)
  | ⟨1, _⟩ => hF5_in m c 1 rfl (by decide)
  | ⟨2, _⟩ => hF5_in m c 2 rfl (by decide)
  | ⟨3, _⟩ => hF5_in m c 3 rfl (by decide)
  | ⟨4, _⟩ => hF5_in m c 4 rfl (by decide)
  | ⟨5, _⟩ => (U10_main_v75 m c).symm
  | ⟨_ + 6, h⟩ => absurd h (Nat.not_lt.2 (Nat.le_add_left _ _))

theorem hrest5 (c : Dev nD) : ∀ b, b ∉ Finset.univ.image (Pipeline.arrRef spec5) → tcOf (U10 m) c b = tcOf (U9 m) c b :=
  fun b hb => U10_of m c b (fun e => hb (Finset.mem_image.mpr ⟨5, Finset.mem_univ _, e.symm⟩))

abbrev U11 (c : Dev nD) : Valuation τ sig (Elt F) := StableHlo.after hostOps6 (U10 m c)

def U12 (c : Dev nD) : Valuation τ sig (Elt F) :=
  Function.update (Function.update (U11 m c) main_v85_0 ((dat6 (tcOf (U11 m)) c).arrAt 9 cfg6.N)) main_v85_1 ((dat6 (tcOf (U11 m)) c).arrAt 10 cfg6.N)
theorem U12_main_v85_1 (c : Dev nD) : U12 m c main_v85_1 = (dat6 (tcOf (U11 m)) c).arrAt 10 cfg6.N := by
  unfold U12; exact Function.update_self ..
theorem U12_main_v85_0 (c : Dev nD) : U12 m c main_v85_0 = (dat6 (tcOf (U11 m)) c).arrAt 9 cfg6.N := by
  unfold U12
  exact (Function.update_of_ne (StableHlo.devRef_ne_of_ne (by decide)) ..).trans (Function.update_self ..)
theorem U12_of (c : Dev nD) (r : Ref sig .tc) (h0 : r ≠ main_v85_0) (h1 : r ≠ main_v85_1) : U12 m c r = U11 m c r := by
  unfold U12
  exact (Function.update_of_ne (StableHlo.devRef_ne_of_ne h1) ..).trans (Function.update_of_ne (StableHlo.devRef_ne_of_ne h0) ..)

theorem hF6_in (c : Dev nD) (w : Fin cfg6.W) (hin : (cfg6.win w).isOut = false) (h0 : Pipeline.arrRef spec6 w ≠ main_v85_0) (h1 : Pipeline.arrRef spec6 w ≠ main_v85_1) :
    (dat6 (tcOf (U11 m)) c).arrAt w cfg6.N = tcOf (U12 m) c (Pipeline.arrRef spec6 w) :=
  (((dat6 (tcOf (U11 m)) c).arrAt_in w hin _).trans (A_eq6 (tcOf (U11 m)) c w)).trans (U12_of m c _ h0 h1).symm

theorem hin6 : ∀ w : Fin cfg6.W, (cfg6.win w).isOut = false → Pipeline.arrRef spec6 w ≠ main_v85_0 ∧ Pipeline.arrRef spec6 w ≠ main_v85_1 := by decide
theorem hout6 : ∀ w : Fin cfg6.W, (cfg6.win w).isOut = true → w = 9 ∨ w = 10 := by decide

theorem hF6 (c : Dev nD) (w : Fin cfg6.W) :
    (dat6 (tcOf (U11 m)) c).arrAt w cfg6.N = tcOf (U12 m) c (Pipeline.arrRef spec6 w) := by
  cases h : (cfg6.win w).isOut
  · exact hF6_in m c w h (hin6 w h).1 (hin6 w h).2
  · obtain rfl | rfl := hout6 w h
    · exact (U12_main_v85_0 m c).symm
    · exact (U12_main_v85_1 m c).symm

theorem hrest6 (c : Dev nD) : ∀ b, b ∉ Finset.univ.image (Pipeline.arrRef spec6) → tcOf (U12 m) c b = tcOf (U11 m) c b :=
  fun b hb => U12_of m c b (fun e => hb (Finset.mem_image.mpr ⟨9, Finset.mem_univ _, e.symm⟩)) (fun e => hb (Finset.mem_image.mpr ⟨10, Finset.mem_univ _, e.symm⟩))

abbrev U13 (c : Dev nD) : Valuation τ sig (Elt F) := StableHlo.after hostOps7 (U12 m c)

def U14 (c : Dev nD) : Valuation τ sig (Elt F) :=
  Function.update (U13 m c) main_v101 ((dat7 (tcOf (U13 m)) c).arrAt 3 cfg7.N)
theorem U14_main_v101 (c : Dev nD) : U14 m c main_v101 = (dat7 (tcOf (U13 m)) c).arrAt 3 cfg7.N := by
  unfold U14; exact Function.update_self ..
theorem U14_of (c : Dev nD) (r : Ref sig .tc) (h : r ≠ main_v101) : U14 m c r = U13 m c r := by
  unfold U14; exact Function.update_of_ne (StableHlo.devRef_ne_of_ne h) ..

theorem hF7_in (c : Dev nD) (w : Fin cfg7.W) (hin : (cfg7.win w).isOut = false) (h0 : Pipeline.arrRef spec7 w ≠ main_v101) :
    (dat7 (tcOf (U13 m)) c).arrAt w cfg7.N = tcOf (U14 m) c (Pipeline.arrRef spec7 w) :=
  (((dat7 (tcOf (U13 m)) c).arrAt_in w hin _).trans (A_eq7 (tcOf (U13 m)) c w)).trans (U14_of m c _ h0).symm

theorem hF7 (c : Dev nD) (w : Fin cfg7.W) :
    (dat7 (tcOf (U13 m)) c).arrAt w cfg7.N = tcOf (U14 m) c (Pipeline.arrRef spec7 w) :=
  match w with
  | ⟨0, _⟩ => hF7_in m c 0 rfl (by decide)
  | ⟨1, _⟩ => hF7_in m c 1 rfl (by decide)
  | ⟨2, _⟩ => hF7_in m c 2 rfl (by decide)
  | ⟨3, _⟩ => (U14_main_v101 m c).symm
  | ⟨_ + 4, h⟩ => absurd h (Nat.not_lt.2 (Nat.le_add_left _ _))

theorem hrest7 (c : Dev nD) : ∀ b, b ∉ Finset.univ.image (Pipeline.arrRef spec7) → tcOf (U14 m) c b = tcOf (U13 m) c b :=
  fun b hb => U14_of m c b (fun e => hb (Finset.mem_image.mpr ⟨3, Finset.mem_univ _, e.symm⟩))

def U15 (c : Dev nD) : Valuation τ sig (Elt F) :=
  Function.update (U14 m c) main_v102 ((dat8 (tcOf (U14 m)) c).arrAt 5 cfg8.N)
theorem U15_main_v102 (c : Dev nD) : U15 m c main_v102 = (dat8 (tcOf (U14 m)) c).arrAt 5 cfg8.N := by
  unfold U15; exact Function.update_self ..
theorem U15_of (c : Dev nD) (r : Ref sig .tc) (h : r ≠ main_v102) : U15 m c r = U14 m c r := by
  unfold U15; exact Function.update_of_ne (StableHlo.devRef_ne_of_ne h) ..

theorem hF8_in (c : Dev nD) (w : Fin cfg8.W) (hin : (cfg8.win w).isOut = false) (h0 : Pipeline.arrRef spec8 w ≠ main_v102) :
    (dat8 (tcOf (U14 m)) c).arrAt w cfg8.N = tcOf (U15 m) c (Pipeline.arrRef spec8 w) :=
  (((dat8 (tcOf (U14 m)) c).arrAt_in w hin _).trans (A_eq8 (tcOf (U14 m)) c w)).trans (U15_of m c _ h0).symm

theorem hF8 (c : Dev nD) (w : Fin cfg8.W) :
    (dat8 (tcOf (U14 m)) c).arrAt w cfg8.N = tcOf (U15 m) c (Pipeline.arrRef spec8 w) :=
  match w with
  | ⟨0, _⟩ => hF8_in m c 0 rfl (by decide)
  | ⟨1, _⟩ => hF8_in m c 1 rfl (by decide)
  | ⟨2, _⟩ => hF8_in m c 2 rfl (by decide)
  | ⟨3, _⟩ => hF8_in m c 3 rfl (by decide)
  | ⟨4, _⟩ => hF8_in m c 4 rfl (by decide)
  | ⟨5, _⟩ => (U15_main_v102 m c).symm
  | ⟨_ + 6, h⟩ => absurd h (Nat.not_lt.2 (Nat.le_add_left _ _))

theorem hrest8 (c : Dev nD) : ∀ b, b ∉ Finset.univ.image (Pipeline.arrRef spec8) → tcOf (U15 m) c b = tcOf (U14 m) c b :=
  fun b hb => U15_of m c b (fun e => hb (Finset.mem_image.mpr ⟨5, Finset.mem_univ _, e.symm⟩))

abbrev U16 (c : Dev nD) : Valuation τ sig (Elt F) := StableHlo.after hostOps9 (U15 m c)

def U17 (c : Dev nD) : Valuation τ sig (Elt F) :=
  Function.update (Function.update (U16 m c) main_v112_0 ((dat9 (tcOf (U16 m)) c).arrAt 9 cfg9.N)) main_v112_1 ((dat9 (tcOf (U16 m)) c).arrAt 10 cfg9.N)
theorem U17_main_v112_1 (c : Dev nD) : U17 m c main_v112_1 = (dat9 (tcOf (U16 m)) c).arrAt 10 cfg9.N := by
  unfold U17; exact Function.update_self ..
theorem U17_main_v112_0 (c : Dev nD) : U17 m c main_v112_0 = (dat9 (tcOf (U16 m)) c).arrAt 9 cfg9.N := by
  unfold U17
  exact (Function.update_of_ne (StableHlo.devRef_ne_of_ne (by decide)) ..).trans (Function.update_self ..)
theorem U17_of (c : Dev nD) (r : Ref sig .tc) (h0 : r ≠ main_v112_0) (h1 : r ≠ main_v112_1) : U17 m c r = U16 m c r := by
  unfold U17
  exact (Function.update_of_ne (StableHlo.devRef_ne_of_ne h1) ..).trans (Function.update_of_ne (StableHlo.devRef_ne_of_ne h0) ..)

theorem hF9_in (c : Dev nD) (w : Fin cfg9.W) (hin : (cfg9.win w).isOut = false) (h0 : Pipeline.arrRef spec9 w ≠ main_v112_0) (h1 : Pipeline.arrRef spec9 w ≠ main_v112_1) :
    (dat9 (tcOf (U16 m)) c).arrAt w cfg9.N = tcOf (U17 m) c (Pipeline.arrRef spec9 w) :=
  (((dat9 (tcOf (U16 m)) c).arrAt_in w hin _).trans (A_eq9 (tcOf (U16 m)) c w)).trans (U17_of m c _ h0 h1).symm

theorem hin9 : ∀ w : Fin cfg9.W, (cfg9.win w).isOut = false → Pipeline.arrRef spec9 w ≠ main_v112_0 ∧ Pipeline.arrRef spec9 w ≠ main_v112_1 := by decide
theorem hout9 : ∀ w : Fin cfg9.W, (cfg9.win w).isOut = true → w = 9 ∨ w = 10 := by decide

theorem hF9 (c : Dev nD) (w : Fin cfg9.W) :
    (dat9 (tcOf (U16 m)) c).arrAt w cfg9.N = tcOf (U17 m) c (Pipeline.arrRef spec9 w) := by
  cases h : (cfg9.win w).isOut
  · exact hF9_in m c w h (hin9 w h).1 (hin9 w h).2
  · obtain rfl | rfl := hout9 w h
    · exact (U17_main_v112_0 m c).symm
    · exact (U17_main_v112_1 m c).symm

theorem hrest9 (c : Dev nD) : ∀ b, b ∉ Finset.univ.image (Pipeline.arrRef spec9) → tcOf (U17 m) c b = tcOf (U16 m) c b :=
  fun b hb => U17_of m c b (fun e => hb (Finset.mem_image.mpr ⟨9, Finset.mem_univ _, e.symm⟩)) (fun e => hb (Finset.mem_image.mpr ⟨10, Finset.mem_univ _, e.symm⟩))

abbrev U18 (c : Dev nD) : Valuation τ sig (Elt F) := StableHlo.after hostOps10 (U17 m c)

def U19 (c : Dev nD) : Valuation τ sig (Elt F) :=
  Function.update (U18 m c) main_v128 ((dat10 (tcOf (U18 m)) c).arrAt 3 cfg10.N)
theorem U19_main_v128 (c : Dev nD) : U19 m c main_v128 = (dat10 (tcOf (U18 m)) c).arrAt 3 cfg10.N := by
  unfold U19; exact Function.update_self ..
theorem U19_of (c : Dev nD) (r : Ref sig .tc) (h : r ≠ main_v128) : U19 m c r = U18 m c r := by
  unfold U19; exact Function.update_of_ne (StableHlo.devRef_ne_of_ne h) ..

theorem hF10_in (c : Dev nD) (w : Fin cfg10.W) (hin : (cfg10.win w).isOut = false) (h0 : Pipeline.arrRef spec10 w ≠ main_v128) :
    (dat10 (tcOf (U18 m)) c).arrAt w cfg10.N = tcOf (U19 m) c (Pipeline.arrRef spec10 w) :=
  (((dat10 (tcOf (U18 m)) c).arrAt_in w hin _).trans (A_eq10 (tcOf (U18 m)) c w)).trans (U19_of m c _ h0).symm

theorem hF10 (c : Dev nD) (w : Fin cfg10.W) :
    (dat10 (tcOf (U18 m)) c).arrAt w cfg10.N = tcOf (U19 m) c (Pipeline.arrRef spec10 w) :=
  match w with
  | ⟨0, _⟩ => hF10_in m c 0 rfl (by decide)
  | ⟨1, _⟩ => hF10_in m c 1 rfl (by decide)
  | ⟨2, _⟩ => hF10_in m c 2 rfl (by decide)
  | ⟨3, _⟩ => (U19_main_v128 m c).symm
  | ⟨_ + 4, h⟩ => absurd h (Nat.not_lt.2 (Nat.le_add_left _ _))

theorem hrest10 (c : Dev nD) : ∀ b, b ∉ Finset.univ.image (Pipeline.arrRef spec10) → tcOf (U19 m) c b = tcOf (U18 m) c b :=
  fun b hb => U19_of m c b (fun e => hb (Finset.mem_image.mpr ⟨3, Finset.mem_univ _, e.symm⟩))

def U20 (c : Dev nD) : Valuation τ sig (Elt F) :=
  Function.update (U19 m c) main_v129 ((dat11 (tcOf (U19 m)) c).arrAt 5 cfg11.N)
theorem U20_main_v129 (c : Dev nD) : U20 m c main_v129 = (dat11 (tcOf (U19 m)) c).arrAt 5 cfg11.N := by
  unfold U20; exact Function.update_self ..
theorem U20_of (c : Dev nD) (r : Ref sig .tc) (h : r ≠ main_v129) : U20 m c r = U19 m c r := by
  unfold U20; exact Function.update_of_ne (StableHlo.devRef_ne_of_ne h) ..

theorem hF11_in (c : Dev nD) (w : Fin cfg11.W) (hin : (cfg11.win w).isOut = false) (h0 : Pipeline.arrRef spec11 w ≠ main_v129) :
    (dat11 (tcOf (U19 m)) c).arrAt w cfg11.N = tcOf (U20 m) c (Pipeline.arrRef spec11 w) :=
  (((dat11 (tcOf (U19 m)) c).arrAt_in w hin _).trans (A_eq11 (tcOf (U19 m)) c w)).trans (U20_of m c _ h0).symm

theorem hF11 (c : Dev nD) (w : Fin cfg11.W) :
    (dat11 (tcOf (U19 m)) c).arrAt w cfg11.N = tcOf (U20 m) c (Pipeline.arrRef spec11 w) :=
  match w with
  | ⟨0, _⟩ => hF11_in m c 0 rfl (by decide)
  | ⟨1, _⟩ => hF11_in m c 1 rfl (by decide)
  | ⟨2, _⟩ => hF11_in m c 2 rfl (by decide)
  | ⟨3, _⟩ => hF11_in m c 3 rfl (by decide)
  | ⟨4, _⟩ => hF11_in m c 4 rfl (by decide)
  | ⟨5, _⟩ => (U20_main_v129 m c).symm
  | ⟨_ + 6, h⟩ => absurd h (Nat.not_lt.2 (Nat.le_add_left _ _))

theorem hrest11 (c : Dev nD) : ∀ b, b ∉ Finset.univ.image (Pipeline.arrRef spec11) → tcOf (U20 m) c b = tcOf (U19 m) c b :=
  fun b hb => U20_of m c b (fun e => hb (Finset.mem_image.mpr ⟨5, Finset.mem_univ _, e.symm⟩))

abbrev U21 (c : Dev nD) : Valuation τ sig (Elt F) := StableHlo.after hostOps12 (U20 m c)

def U22 (c : Dev nD) : Valuation τ sig (Elt F) :=
  Function.update (Function.update (U21 m c) main_v139_0 ((dat12 (tcOf (U21 m)) c).arrAt 9 cfg12.N)) main_v139_1 ((dat12 (tcOf (U21 m)) c).arrAt 10 cfg12.N)
theorem U22_main_v139_1 (c : Dev nD) : U22 m c main_v139_1 = (dat12 (tcOf (U21 m)) c).arrAt 10 cfg12.N := by
  unfold U22; exact Function.update_self ..
theorem U22_main_v139_0 (c : Dev nD) : U22 m c main_v139_0 = (dat12 (tcOf (U21 m)) c).arrAt 9 cfg12.N := by
  unfold U22
  exact (Function.update_of_ne (StableHlo.devRef_ne_of_ne (by decide)) ..).trans (Function.update_self ..)
theorem U22_of (c : Dev nD) (r : Ref sig .tc) (h0 : r ≠ main_v139_0) (h1 : r ≠ main_v139_1) : U22 m c r = U21 m c r := by
  unfold U22
  exact (Function.update_of_ne (StableHlo.devRef_ne_of_ne h1) ..).trans (Function.update_of_ne (StableHlo.devRef_ne_of_ne h0) ..)

theorem hF12_in (c : Dev nD) (w : Fin cfg12.W) (hin : (cfg12.win w).isOut = false) (h0 : Pipeline.arrRef spec12 w ≠ main_v139_0) (h1 : Pipeline.arrRef spec12 w ≠ main_v139_1) :
    (dat12 (tcOf (U21 m)) c).arrAt w cfg12.N = tcOf (U22 m) c (Pipeline.arrRef spec12 w) :=
  (((dat12 (tcOf (U21 m)) c).arrAt_in w hin _).trans (A_eq12 (tcOf (U21 m)) c w)).trans (U22_of m c _ h0 h1).symm

theorem hin12 : ∀ w : Fin cfg12.W, (cfg12.win w).isOut = false → Pipeline.arrRef spec12 w ≠ main_v139_0 ∧ Pipeline.arrRef spec12 w ≠ main_v139_1 := by decide
theorem hout12 : ∀ w : Fin cfg12.W, (cfg12.win w).isOut = true → w = 9 ∨ w = 10 := by decide

theorem hF12 (c : Dev nD) (w : Fin cfg12.W) :
    (dat12 (tcOf (U21 m)) c).arrAt w cfg12.N = tcOf (U22 m) c (Pipeline.arrRef spec12 w) := by
  cases h : (cfg12.win w).isOut
  · exact hF12_in m c w h (hin12 w h).1 (hin12 w h).2
  · obtain rfl | rfl := hout12 w h
    · exact (U22_main_v139_0 m c).symm
    · exact (U22_main_v139_1 m c).symm

theorem hrest12 (c : Dev nD) : ∀ b, b ∉ Finset.univ.image (Pipeline.arrRef spec12) → tcOf (U22 m) c b = tcOf (U21 m) c b :=
  fun b hb => U22_of m c b (fun e => hb (Finset.mem_image.mpr ⟨9, Finset.mem_univ _, e.symm⟩)) (fun e => hb (Finset.mem_image.mpr ⟨10, Finset.mem_univ _, e.symm⟩))

abbrev U23 (c : Dev nD) : Valuation τ sig (Elt F) := StableHlo.after hostOps13 (U22 m c)

def U24 (c : Dev nD) : Valuation τ sig (Elt F) :=
  Function.update (U23 m c) main_v141 ((dat13 (tcOf (U23 m)) c).arrAt 3 cfg13.N)
theorem U24_main_v141 (c : Dev nD) : U24 m c main_v141 = (dat13 (tcOf (U23 m)) c).arrAt 3 cfg13.N := by
  unfold U24; exact Function.update_self ..
theorem U24_of (c : Dev nD) (r : Ref sig .tc) (h : r ≠ main_v141) : U24 m c r = U23 m c r := by
  unfold U24; exact Function.update_of_ne (StableHlo.devRef_ne_of_ne h) ..

theorem hF13_in (c : Dev nD) (w : Fin cfg13.W) (hin : (cfg13.win w).isOut = false) (h0 : Pipeline.arrRef spec13 w ≠ main_v141) :
    (dat13 (tcOf (U23 m)) c).arrAt w cfg13.N = tcOf (U24 m) c (Pipeline.arrRef spec13 w) :=
  (((dat13 (tcOf (U23 m)) c).arrAt_in w hin _).trans (A_eq13 (tcOf (U23 m)) c w)).trans (U24_of m c _ h0).symm

theorem hF13 (c : Dev nD) (w : Fin cfg13.W) :
    (dat13 (tcOf (U23 m)) c).arrAt w cfg13.N = tcOf (U24 m) c (Pipeline.arrRef spec13 w) :=
  match w with
  | ⟨0, _⟩ => hF13_in m c 0 rfl (by decide)
  | ⟨1, _⟩ => hF13_in m c 1 rfl (by decide)
  | ⟨2, _⟩ => hF13_in m c 2 rfl (by decide)
  | ⟨3, _⟩ => (U24_main_v141 m c).symm
  | ⟨_ + 4, h⟩ => absurd h (Nat.not_lt.2 (Nat.le_add_left _ _))

theorem hrest13 (c : Dev nD) : ∀ b, b ∉ Finset.univ.image (Pipeline.arrRef spec13) → tcOf (U24 m) c b = tcOf (U23 m) c b :=
  fun b hb => U24_of m c b (fun e => hb (Finset.mem_image.mpr ⟨3, Finset.mem_univ _, e.symm⟩))

def outs : Gen.Outs (F := F) := fun J r c =>
  match J with
  | 2 => U2 m c r
  | 4 => U4 m c r
  | 5 => U5 m c r
  | 7 => U7 m c r
  | 9 => U9 m c r
  | 10 => U10 m c r
  | 12 => U12 m c r
  | 14 => U14 m c r
  | 15 => U15 m c r
  | 17 => U17 m c r
  | 19 => U19 m c r
  | 20 => U20 m c r
  | 22 => U22 m c r
  | 24 => U24 m c r
  | _ => U1 m c r

theorem V1_eq (c : Dev nD) : Gen.V1 m c = U1 m c := rfl
theorem V2_eq (c : Dev nD) : Gen.V2 m (outs m) c = U2 m c := by
  show Function.update (Gen.V1 m c) main_v31 (U2 m c main_v31) = U2 m c
  rw [V1_eq, U2_main_v31]; rfl
theorem V3_eq (c : Dev nD) : Gen.V3 m (outs m) c = U3 m c := by
  show StableHlo.after hostOps1 (Gen.V2 m (outs m) c) = _
  rw [V2_eq]
theorem V4_eq (c : Dev nD) : Gen.V4 m (outs m) c = U4 m c := by
  show Function.update (Gen.V3 m (outs m) c) main_v47 (U4 m c main_v47) = U4 m c
  rw [V3_eq, U4_main_v47]; rfl
theorem V5_eq (c : Dev nD) : Gen.V5 m (outs m) c = U5 m c := by
  show Function.update (Gen.V4 m (outs m) c) main_v48 (U5 m c main_v48) = U5 m c
  rw [V4_eq, U5_main_v48]; rfl
theorem V6_eq (c : Dev nD) : Gen.V6 m (outs m) c = U6 m c := by
  show StableHlo.after hostOps3 (Gen.V5 m (outs m) c) = _
  rw [V5_eq]
theorem V7_eq (c : Dev nD) : Gen.V7 m (outs m) c = U7 m c := by
  show Function.update (Function.update (Gen.V6 m (outs m) c) main_v58_0 (U7 m c main_v58_0)) main_v58_1 (U7 m c main_v58_1) = U7 m c
  rw [V6_eq, U7_main_v58_0, U7_main_v58_1]; rfl
theorem V8_eq (c : Dev nD) : Gen.V8 m (outs m) c = U8 m c := by
  show StableHlo.after hostOps4 (Gen.V7 m (outs m) c) = _
  rw [V7_eq]
theorem V9_eq (c : Dev nD) : Gen.V9 m (outs m) c = U9 m c := by
  show Function.update (Gen.V8 m (outs m) c) main_v74 (U9 m c main_v74) = U9 m c
  rw [V8_eq, U9_main_v74]; rfl
theorem V10_eq (c : Dev nD) : Gen.V10 m (outs m) c = U10 m c := by
  show Function.update (Gen.V9 m (outs m) c) main_v75 (U10 m c main_v75) = U10 m c
  rw [V9_eq, U10_main_v75]; rfl
theorem V11_eq (c : Dev nD) : Gen.V11 m (outs m) c = U11 m c := by
  show StableHlo.after hostOps6 (Gen.V10 m (outs m) c) = _
  rw [V10_eq]
theorem V12_eq (c : Dev nD) : Gen.V12 m (outs m) c = U12 m c := by
  show Function.update (Function.update (Gen.V11 m (outs m) c) main_v85_0 (U12 m c main_v85_0)) main_v85_1 (U12 m c main_v85_1) = U12 m c
  rw [V11_eq, U12_main_v85_0, U12_main_v85_1]; rfl
theorem V13_eq (c : Dev nD) : Gen.V13 m (outs m) c = U13 m c := by
  show StableHlo.after hostOps7 (Gen.V12 m (outs m) c) = _
  rw [V12_eq]
theorem V14_eq (c : Dev nD) : Gen.V14 m (outs m) c = U14 m c := by
  show Function.update (Gen.V13 m (outs m) c) main_v101 (U14 m c main_v101) = U14 m c
  rw [V13_eq, U14_main_v101]; rfl
theorem V15_eq (c : Dev nD) : Gen.V15 m (outs m) c = U15 m c := by
  show Function.update (Gen.V14 m (outs m) c) main_v102 (U15 m c main_v102) = U15 m c
  rw [V14_eq, U15_main_v102]; rfl
theorem V16_eq (c : Dev nD) : Gen.V16 m (outs m) c = U16 m c := by
  show StableHlo.after hostOps9 (Gen.V15 m (outs m) c) = _
  rw [V15_eq]
theorem V17_eq (c : Dev nD) : Gen.V17 m (outs m) c = U17 m c := by
  show Function.update (Function.update (Gen.V16 m (outs m) c) main_v112_0 (U17 m c main_v112_0)) main_v112_1 (U17 m c main_v112_1) = U17 m c
  rw [V16_eq, U17_main_v112_0, U17_main_v112_1]; rfl
theorem V18_eq (c : Dev nD) : Gen.V18 m (outs m) c = U18 m c := by
  show StableHlo.after hostOps10 (Gen.V17 m (outs m) c) = _
  rw [V17_eq]
theorem V19_eq (c : Dev nD) : Gen.V19 m (outs m) c = U19 m c := by
  show Function.update (Gen.V18 m (outs m) c) main_v128 (U19 m c main_v128) = U19 m c
  rw [V18_eq, U19_main_v128]; rfl
theorem V20_eq (c : Dev nD) : Gen.V20 m (outs m) c = U20 m c := by
  show Function.update (Gen.V19 m (outs m) c) main_v129 (U20 m c main_v129) = U20 m c
  rw [V19_eq, U20_main_v129]; rfl
theorem V21_eq (c : Dev nD) : Gen.V21 m (outs m) c = U21 m c := by
  show StableHlo.after hostOps12 (Gen.V20 m (outs m) c) = _
  rw [V20_eq]
theorem V22_eq (c : Dev nD) : Gen.V22 m (outs m) c = U22 m c := by
  show Function.update (Function.update (Gen.V21 m (outs m) c) main_v139_0 (U22 m c main_v139_0)) main_v139_1 (U22 m c main_v139_1) = U22 m c
  rw [V21_eq, U22_main_v139_0, U22_main_v139_1]; rfl
theorem V23_eq (c : Dev nD) : Gen.V23 m (outs m) c = U23 m c := by
  show StableHlo.after hostOps13 (Gen.V22 m (outs m) c) = _
  rw [V22_eq]
theorem V24_eq (c : Dev nD) : Gen.V24 m (outs m) c = U24 m c := by
  show Function.update (Gen.V23 m (outs m) c) main_v141 (U24 m c main_v141) = U24 m c
  rw [V23_eq, U24_main_v141]; rfl

def pdats : (p : Fin 14) → (c : Dev nD) → Dat τ (Elt F) Unit ℕ (UR sig nD τ) ℕ (Pipeline.pin (pcfgs (F := F)) adm p) c
  | ⟨0, _⟩ => fun c => dat0 (tcOf (U1 m)) c
  | ⟨1, _⟩ => fun c => dat1 (tcOf (U3 m)) c
  | ⟨2, _⟩ => fun c => dat2 (tcOf (U4 m)) c
  | ⟨3, _⟩ => fun c => dat3 (tcOf (U6 m)) c
  | ⟨4, _⟩ => fun c => dat4 (tcOf (U8 m)) c
  | ⟨5, _⟩ => fun c => dat5 (tcOf (U9 m)) c
  | ⟨6, _⟩ => fun c => dat6 (tcOf (U11 m)) c
  | ⟨7, _⟩ => fun c => dat7 (tcOf (U13 m)) c
  | ⟨8, _⟩ => fun c => dat8 (tcOf (U14 m)) c
  | ⟨9, _⟩ => fun c => dat9 (tcOf (U16 m)) c
  | ⟨10, _⟩ => fun c => dat10 (tcOf (U18 m)) c
  | ⟨11, _⟩ => fun c => dat11 (tcOf (U19 m)) c
  | ⟨12, _⟩ => fun c => dat12 (tcOf (U21 m)) c
  | ⟨13, _⟩ => fun c => dat13 (tcOf (U23 m)) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.K.RegOf.lean ====
import proofs.«147510_j18107582120779_2_alg».proof.Proof.K.Fold

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (m : (ℓ : Loc nD τ sig) → Buf (Elt F) ℓ)

set_option backward.isDefEq.respectTransparency.types false in
/-- A region whose windows stage distinct whole arrays: its arrays leave the unscoped buffers at `Uin` and rejoin them at `Uout`. -/
def regOf (p : Fin 14) (lf : Pipeline.LaunchFacts (nD := nD) (τ := τ) cfgs p)
    (Uin Uout : Dev nD → Valuation τ sig (Elt F))
    (hbody : ∀ c, Pipeline.BodyObligationLoose (pdats m p c) defs₀ 𝒱₀ () Set.univ)
    (howed : ∀ c t, (pdats m p c).owed t = 0) (hrec : ∀ c t, (pdats m p c).recorded t = Set.univ)
    (hq : ∀ c w, (pdats m p c).q w = fullShare)
    (hA : ∀ c w, (pdats m p c).A w = tcOf Uin c (Pipeline.arrRef (cfgs p).spec w))
    (hΦ : ∀ c i, (pdats m p c).Φ i = Pipeline.ΦA (cfgs p).spec c)
    (hF : ∀ c w, (pdats m p c).arrAt w (cfgs p).N = tcOf Uout c (Pipeline.arrRef (cfgs p).spec w))
    (hrest : ∀ c b, b ∉ Finset.univ.image (Pipeline.arrRef (cfgs p).spec) → tcOf Uout c b = tcOf Uin c b) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Uin c) ∗ R c)
  post c := iprop(StableHlo.held (c : Thread nD τ) (Pipeline.ucRefs τ sig) (Uout c) ∗ R c)
  X c := iprop(∃ r, prngReg c r)
  Y c := iprop(∃ r, prngReg c r)
  Z c := Pipeline.unscopedRest (Ix := Unit) (Name := ℕ) (U := UR sig nD τ) (Lvl := ℕ) (cfgs p).spec c (tcOf Uin c)
  hentry c := by
    rw [Pipeline.ownSems0_none]
    have hsplit := Pipeline.arrays_of_unscopedBufs (p := p) (pcfgs (F := F)) adm (pdats m) lf.win lf.arr_whole c
      ((pdats m p c).share_full (hq c)) (tcOf Uin c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [howed c 0, hrec c 0]
      icases HO with ⟨%W, HO⟩; iexists W; isplitr; · ipureintro; exact fun _ _ => Or.inl trivial
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (tcOf Uin c) (tcOf Uout c) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

def reg0 : Pipeline.RegionSeg (pcfgs (F := F)) adm (pdats m) () defs₀ 𝒱₀ L lv 0 :=
  regOf m 0 launch0 (U1 m) (U2 m) (fun c => (body_obligation0 (tcOf (U1 m)) c).loose) (fun _ _ => rfl) (fun _ _ => rfl)
    (fun _ _ => rfl) (fun _ _ => rfl) (fun _ _ => rfl) (hF0 m) (hrest0 m)

def reg1 : Pipeline.RegionSeg (pcfgs (F := F)) adm (pdats m) () defs₀ 𝒱₀ L lv 1 :=
  regOf m 1 launch1 (U3 m) (U4 m) (fun c => (body_obligation1 (tcOf (U3 m)) c).loose) (fun _ _ => rfl) (fun _ _ => rfl)
    (fun _ _ => rfl) (fun _ _ => rfl) (fun _ _ => rfl) (hF1 m) (hrest1 m)

def reg2 : Pipeline.RegionSeg (pcfgs (F := F)) adm (pdats m) () defs₀ 𝒱₀ L lv 2 :=
  regOf m 2 launch2 (U4 m) (U5 m) (fun c => (body_obligation2 (tcOf (U4 m)) c).loose) (fun _ _ => rfl) (fun _ _ => rfl)
    (fun _ _ => rfl) (fun _ _ => rfl) (fun _ _ => rfl) (hF2 m) (hrest2 m)

def reg4 : Pipeline.RegionSeg (pcfgs (F := F)) adm (pdats m) () defs₀ 𝒱₀ L lv 4 :=
  regOf m 4 launch4 (U8 m) (U9 m) (fun c => (body_obligation4 (tcOf (U8 m)) c).loose) (fun _ _ => rfl) (fun _ _ => rfl)
    (fun _ _ => rfl) (fun _ _ => rfl) (fun _ _ => rfl) (hF4 m) (hrest4 m)

def reg5 : Pipeline.RegionSeg (pcfgs (F := F)) adm (pdats m) () defs₀ 𝒱₀ L lv 5 :=
  regOf m 5 launch5 (U9 m) (U10 m) (fun c => (body_obligation5 (tcOf (U9 m)) c).loose) (fun _ _ => rfl) (fun _ _ => rfl)
    (fun _ _ => rfl) (fun _ _ => rfl) (fun _ _ => rfl) (hF5 m) (hrest5 m)

def reg6 : Pipeline.RegionSeg (pcfgs (F := F)) adm (pdats m) () defs₀ 𝒱₀ L lv 6 :=
  regOf m 6 launch6 (U11 m) (U12 m) (fun c => (body_obligation6 (tcOf (U11 m)) c).loose) (fun _ _ => rfl) (fun _ _ => rfl)
    (fun _ _ => rfl) (fun _ _ => rfl) (fun _ _ => rfl) (hF6 m) (hrest6 m)

def reg7 : Pipeline.RegionSeg (pcfgs (F := F)) adm (pdats m) () defs₀ 𝒱₀ L lv 7 :=
  regOf m 7 launch7 (U13 m) (U14 m) (fun c => (body_obligation7 (tcOf (U13 m)) c).loose) (fun _ _ => rfl) (fun _ _ => rfl)
    (fun _ _ => rfl) (fun _ _ => rfl) (fun _ _ => rfl) (hF7 m) (hrest7 m)

def reg8 : Pipeline.RegionSeg (pcfgs (F := F)) adm (pdats m) () defs₀ 𝒱₀ L lv 8 :=
  regOf m 8 launch8 (U14 m) (U15 m) (fun c => (body_obligation8 (tcOf (U14 m)) c).loose) (fun _ _ => rfl) (fun _ _ => rfl)
    (fun _ _ => rfl) (fun _ _ => rfl) (fun _ _ => rfl) (hF8 m) (hrest8 m)

def reg9 : Pipeline.RegionSeg (pcfgs (F := F)) adm (pdats m) () defs₀ 𝒱₀ L lv 9 :=
  regOf m 9 launch9 (U16 m) (U17 m) (fun c => (body_obligation9 (tcOf (U16 m)) c).loose) (fun _ _ => rfl) (fun _ _ => rfl)
    (fun _ _ => rfl) (fun _ _ => rfl) (fun _ _ => rfl) (hF9 m) (hrest9 m)

def reg10 : Pipeline.RegionSeg (pcfgs (F := F)) adm (pdats m) () defs₀ 𝒱₀ L lv 10 :=
  regOf m 10 launch10 (U18 m) (U19 m) (fun c => (body_obligation10 (tcOf (U18 m)) c).loose) (fun _ _ => rfl) (fun _ _ => rfl)
    (fun _ _ => rfl) (fun _ _ => rfl) (fun _ _ => rfl) (hF10 m) (hrest10 m)

def reg11 : Pipeline.RegionSeg (pcfgs (F := F)) adm (pdats m) () defs₀ 𝒱₀ L lv 11 :=
  regOf m 11 launch11 (U19 m) (U20 m) (fun c => (body_obligation11 (tcOf (U19 m)) c).loose) (fun _ _ => rfl) (fun _ _ => rfl)
    (fun _ _ => rfl) (fun _ _ => rfl) (fun _ _ => rfl) (hF11 m) (hrest11 m)

def reg12 : Pipeline.RegionSeg (pcfgs (F := F)) adm (pdats m) () defs₀ 𝒱₀ L lv 12 :=
  regOf m 12 launch12 (U21 m) (U22 m) (fun c => (body_obligation12 (tcOf (U21 m)) c).loose) (fun _ _ => rfl) (fun _ _ => rfl)
    (fun _ _ => rfl) (fun _ _ => rfl) (fun _ _ => rfl) (hF12 m) (hrest12 m)

def reg13 : Pipeline.RegionSeg (pcfgs (F := F)) adm (pdats m) () defs₀ 𝒱₀ L lv 13 :=
  regOf m 13 launch13 (U23 m) (U24 m) (fun c => (body_obligation13 (tcOf (U23 m)) c).loose) (fun _ _ => rfl) (fun _ _ => rfl)
    (fun _ _ => rfl) (fun _ _ => rfl) (fun _ _ => rfl) (hF13 m) (hrest13 m)

end Cert.Kernel.Hand

end
-- ==== Proof.K.Reg3.lean ====
import proofs.«147510_j18107582120779_2_alg».proof.Proof.K.Fold
import Idealize.ShloMosaic.Lib.Pipeline.Kit
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem arrImage3 : (Finset.univ.image (Pipeline.arrRef spec3) : Finset (Ref sig .tc))
    = ([main_v31, main_v47, main_v53, main_v55, main_v28, main_v56, main_arg6, main_v57, main_v58_0, main_v58_1] : List (Ref sig .tc)).toFinset := by decide

theorem arrList3_nodup : ([main_v31, main_v47, main_v53, main_v55, main_v28, main_v56, main_arg6, main_v57, main_v58_0, main_v58_1] : List (Ref sig .tc)).Nodup := by decide

theorem arrBufs3_eq (c : Dev nD) (V : (b : Ref sig .tc) → Buf (Elt F) ((c : Thread nD τ).loc b)) :
    (Pipeline.arrBufs spec3 c V : sProp 𝕄)
      = iprop((((c : Thread nD τ).loc main_v31) ↦{fullShare} V main_v31)
          ∗ (((c : Thread nD τ).loc main_v47) ↦{fullShare} V main_v47)
          ∗ (((c : Thread nD τ).loc main_v53) ↦{fullShare} V main_v53)
          ∗ (((c : Thread nD τ).loc main_v55) ↦{fullShare} V main_v55)
          ∗ (((c : Thread nD τ).loc main_v28) ↦{fullShare} V main_v28)
          ∗ (((c : Thread nD τ).loc main_v56) ↦{fullShare} V main_v56)
          ∗ (((c : Thread nD τ).loc main_arg6) ↦{fullShare} V main_arg6)
          ∗ (((c : Thread nD τ).loc main_v57) ↦{fullShare} V main_v57)
          ∗ (((c : Thread nD τ).loc main_v58_0) ↦{fullShare} V main_v58_0)
          ∗ (((c : Thread nD τ).loc main_v58_1) ↦{fullShare} V main_v58_1)) := by
  unfold Pipeline.arrBufs
  exact bigSep_eq_bigSepL_of_eq _ arrImage3 arrList3_nodup _

theorem arrays3_whole (c : Dev nD) (dat : Dat τ (Elt F) Unit ℕ (UR sig nD τ) ℕ cfg3 c)
    (V : (b : Ref sig .tc) → Buf (Elt F) ((c : Thread nD τ).loc b))
    (G : (w : Fin cfg3.W) → Buf (Elt F) ((cfg3.win w).arr.view.loc (c : Thread nD τ)))
    (hG : ∀ w, G w = V (Pipeline.arrRef spec3 w)) :
    (dat.arrays G : sProp 𝕄) = bigSep Finset.univ fun w : Fin 11 =>
      ((((c : Thread nD τ).loc (Pipeline.arrRef spec3 w)) ↦{dat.share w} V (Pipeline.arrRef spec3 w)) : sProp 𝕄) := by
  unfold Dat.arrays
  exact bigSep_congr fun w _ => by rw [(arr_whole3 w).set_eq_univ, hG w]

theorem sep_assoc_eq (P Q R : sProp 𝕄) : (iprop((P ∗ Q) ∗ R) : sProp 𝕄) = iprop(P ∗ Q ∗ R) := by
  have h : (iprop((P ∗ Q) ∗ R) : sProp 𝕄) ⊣⊢ iprop(P ∗ Q ∗ R) := sep_assoc
  exact BI.equiv_iff.mp ⟨h.1, h.2⟩

theorem arrays3_eq (c : Dev nD) (dat : Dat τ (Elt F) Unit ℕ (UR sig nD τ) ℕ cfg3 c)
    (hs0 : dat.share (0 : Fin 11) = fullShare.left) (hs1 : dat.share (1 : Fin 11) = fullShare.right)
    (hs : ∀ w : Fin 11, 2 ≤ w.val → dat.share w = fullShare)
    (V : (b : Ref sig .tc) → Buf (Elt F) ((c : Thread nD τ).loc b))
    (G : (w : Fin cfg3.W) → Buf (Elt F) ((cfg3.win w).arr.view.loc (c : Thread nD τ)))
    (hG : ∀ w, G w = V (Pipeline.arrRef spec3 w)) :
    (Pipeline.arrBufs spec3 c V : sProp 𝕄) = dat.arrays G := by
  have hsplit : ((((c : Thread nD τ).loc main_v31) ↦{fullShare} V main_v31) : sProp 𝕄)
      = iprop((((c : Thread nD τ).loc main_v31) ↦{fullShare.left} V main_v31) ∗ (((c : Thread nD τ).loc main_v31) ↦{fullShare.right} V main_v31)) :=
    BI.equiv_iff.mp ⟨(pointsTo_share (PosShare.mem_left_op_right fullShare)).1, (pointsTo_share (PosShare.mem_left_op_right fullShare)).2⟩
  rw [arrBufs3_eq, arrays3_whole c dat V G hG, bigSep_W3, hs0, hs1, hs 2 (by decide), hs 3 (by decide), hs 4 (by decide),
    hs 5 (by decide), hs 6 (by decide), hs 7 (by decide), hs 8 (by decide), hs 9 (by decide), hs 10 (by decide), hsplit]
  show iprop(((((c : Thread nD τ).loc main_v31) ↦{fullShare.left} V main_v31) ∗ (((c : Thread nD τ).loc main_v31) ↦{fullShare.right} V main_v31))
          ∗ (((c : Thread nD τ).loc main_v47) ↦{fullShare} V main_v47)
          ∗ (((c : Thread nD τ).loc main_v53) ↦{fullShare} V main_v53)
          ∗ (((c : Thread nD τ).loc main_v55) ↦{fullShare} V main_v55)
          ∗ (((c : Thread nD τ).loc main_v28) ↦{fullShare} V main_v28)
          ∗ (((c : Thread nD τ).loc main_v56) ↦{fullShare} V main_v56)
          ∗ (((c : Thread nD τ).loc main_arg6) ↦{fullShare} V main_arg6)
          ∗ (((c : Thread nD τ).loc main_v57) ↦{fullShare} V main_v57)
          ∗ (((c : Thread nD τ).loc main_v58_0) ↦{fullShare} V main_v58_0)
          ∗ (((c : Thread nD τ).loc main_v58_1) ↦{fullShare} V main_v58_1))
      = iprop((((c : Thread nD τ).loc main_v31) ↦{fullShare.left} V main_v31) ∗ (((c : Thread nD τ).loc main_v31) ↦{fullShare.right} V main_v31)
          ∗ (((c : Thread nD τ).loc main_v47) ↦{fullShare} V main_v47)
          ∗ (((c : Thread nD τ).loc main_v53) ↦{fullShare} V main_v53)
          ∗ (((c : Thread nD τ).loc main_v55) ↦{fullShare} V main_v55)
          ∗ (((c : Thread nD τ).loc main_v28) ↦{fullShare} V main_v28)
          ∗ (((c : Thread nD τ).loc main_v56) ↦{fullShare} V main_v56)
          ∗ (((c : Thread nD τ).loc main_arg6) ↦{fullShare} V main_arg6)
          ∗ (((c : Thread nD τ).loc main_v57) ↦{fullShare} V main_v57)
          ∗ (((c : Thread nD τ).loc main_v58_0) ↦{fullShare} V main_v58_0)
          ∗ (((c : Thread nD τ).loc main_v58_1) ↦{fullShare} V main_v58_1))
  exact sep_assoc_eq _ _ _

section Arrays3
variable (Vin Vout : (c : Dev nD) → (b : Ref sig .tc) → Buf (Elt F) ((c : Thread nD τ).loc b))

theorem arrays3_of_unscopedBufs (c : Dev nD) :
    (unscopedBufs c (Vin c) : sProp 𝕄)
      ⊢ iprop((dat3 Vin c).arrays ((dat3 Vin c).arrAt · 0) ∗ Pipeline.unscopedRest spec3 c (Vin c)) := by
  rw [Pipeline.unscopedBufs_split₀ cfgs 3 winFacts₀3.arr_unscoped c (Vin c)]
  exact sep_mono (Entails.of_eq (arrays3_eq c (dat3 Vin c) (share3_0 Vin c) (share3_1 Vin c)
    (share3_ge Vin c) (Vin c) _ (fun w => A_eq3 Vin c w))) .rfl

theorem unscopedBufs_of_arrays3 (c : Dev nD)
    (hF : ∀ w, (dat3 Vin c).arrAt w cfg3.N = Vout c (Pipeline.arrRef spec3 w))
    (hrest : ∀ b, b ∉ Finset.univ.image (Pipeline.arrRef spec3) → Vout c b = Vin c b) :
    iprop((dat3 Vin c).arrays ((dat3 Vin c).arrAt · cfg3.N) ∗ Pipeline.unscopedRest spec3 c (Vin c))
      ⊢ (unscopedBufs c (Vout c) : sProp 𝕄) := by
  rw [Pipeline.unscopedBufs_split₀ cfgs 3 winFacts₀3.arr_unscoped c (Vout c)]
  refine sep_mono (Entails.of_eq (arrays3_eq c (dat3 Vin c) (share3_0 Vin c) (share3_1 Vin c)
    (share3_ge Vin c) (Vout c) _ hF).symm) (Entails.of_eq ?_)
  unfold Pipeline.unscopedRest
  exact bigSep_congr fun b hb => by rw [hrest b (Finset.mem_sdiff.mp hb).2]

end Arrays3

section Reg3
variable (m : (ℓ : Loc nD τ sig) → Buf (Elt F) ℓ)

set_option backward.isDefEq.respectTransparency.types false in
def reg3 : Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (body_obligation3 (tcOf (U6 m)) c).loose
  hwaits := Pipeline.hwaits_of_owed_zero _ _ _ _ L lv 3 fun _ _ => rfl
  pre c := iprop(StableHlo.held (c : Thread nD τ) (Pipeline.ucRefs τ sig) (U6 m c) ∗ R c)
  post c := iprop(StableHlo.held (c : Thread nD τ) (Pipeline.ucRefs τ sig) (U7 m c) ∗ R c)
  X c := iprop(∃ r, prngReg c r)
  Y c := iprop(∃ r, prngReg c r)
  Z c := Pipeline.unscopedRest (Ix := Unit) (Name := ℕ) (U := UR sig nD τ) (Lvl := ℕ) spec3 c (tcOf (U6 m) c)
  hentry c := by
    rw [Pipeline.ownSems0_none]
    have hsplit := arrays3_of_unscopedBufs (F := F) (tcOf (U6 m)) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := unscopedBufs_of_arrays3 (F := F) (tcOf (U6 m)) (tcOf (U7 m)) c (hF3 m c) (hrest3 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Reg3

end Cert.Kernel.Hand

end
-- ==== Proof.K.Frame.lean ====
import proofs.«147510_j18107582120779_2_alg».proof.Proof.K.RegOf
import proofs.«147510_j18107582120779_2_alg».proof.Proof.K.Reg3
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (m : (ℓ : Loc nD τ sig) → Buf (Elt F) ℓ) (ρ : Dev nD → PrngReg)

theorem hpre0 (c : Dev nD) : iprop(StableHlo.held (c : Thread nD τ) (Pipeline.ucRefs τ sig) (Gen.V1 m c) ∗ R c) ⊢ (reg0 m).pre c := by
  rw [V1_eq]; exact .rfl
theorem hpost0 (c : Dev nD) : (reg0 m).post c ⊢ iprop(StableHlo.held (c : Thread nD τ) (Pipeline.ucRefs τ sig) (Gen.V2 m (outs m) c) ∗ R c) := by
  rw [V2_eq]; exact .rfl
theorem hpre1 (c : Dev nD) : iprop(StableHlo.held (c : Thread nD τ) (Pipeline.ucRefs τ sig) (Gen.V3 m (outs m) c) ∗ R c) ⊢ (reg1 m).pre c := by
  rw [V3_eq]; exact .rfl
theorem hpost1 (c : Dev nD) : (reg1 m).post c ⊢ iprop(StableHlo.held (c : Thread nD τ) (Pipeline.ucRefs τ sig) (Gen.V4 m (outs m) c) ∗ R c) := by
  rw [V4_eq]; exact .rfl
theorem hpre2 (c : Dev nD) : iprop(StableHlo.held (c : Thread nD τ) (Pipeline.ucRefs τ sig) (Gen.V4 m (outs m) c) ∗ R c) ⊢ (reg2 m).pre c := by
  rw [V4_eq]; exact .rfl
theorem hpost2 (c : Dev nD) : (reg2 m).post c ⊢ iprop(StableHlo.held (c : Thread nD τ) (Pipeline.ucRefs τ sig) (Gen.V5 m (outs m) c) ∗ R c) := by
  rw [V5_eq]; exact .rfl
theorem hpre3 (c : Dev nD) : iprop(StableHlo.held (c : Thread nD τ) (Pipeline.ucRefs τ sig) (Gen.V6 m (outs m) c) ∗ R c) ⊢ (reg3 m).pre c := by
  rw [V6_eq]; exact .rfl
theorem hpost3 (c : Dev nD) : (reg3 m).post c ⊢ iprop(StableHlo.held (c : Thread nD τ) (Pipeline.ucRefs τ sig) (Gen.V7 m (outs m) c) ∗ R c) := by
  rw [V7_eq]; exact .rfl
theorem hpre4 (c : Dev nD) : iprop(StableHlo.held (c : Thread nD τ) (Pipeline.ucRefs τ sig) (Gen.V8 m (outs m) c) ∗ R c) ⊢ (reg4 m).pre c := by
  rw [V8_eq]; exact .rfl
theorem hpost4 (c : Dev nD) : (reg4 m).post c ⊢ iprop(StableHlo.held (c : Thread nD τ) (Pipeline.ucRefs τ sig) (Gen.V9 m (outs m) c) ∗ R c) := by
  rw [V9_eq]; exact .rfl
theorem hpre5 (c : Dev nD) : iprop(StableHlo.held (c : Thread nD τ) (Pipeline.ucRefs τ sig) (Gen.V9 m (outs m) c) ∗ R c) ⊢ (reg5 m).pre c := by
  rw [V9_eq]; exact .rfl
theorem hpost5 (c : Dev nD) : (reg5 m).post c ⊢ iprop(StableHlo.held (c : Thread nD τ) (Pipeline.ucRefs τ sig) (Gen.V10 m (outs m) c) ∗ R c) := by
  rw [V10_eq]; exact .rfl
theorem hpre6 (c : Dev nD) : iprop(StableHlo.held (c : Thread nD τ) (Pipeline.ucRefs τ sig) (Gen.V11 m (outs m) c) ∗ R c) ⊢ (reg6 m).pre c := by
  rw [V11_eq]; exact .rfl
theorem hpost6 (c : Dev nD) : (reg6 m).post c ⊢ iprop(StableHlo.held (c : Thread nD τ) (Pipeline.ucRefs τ sig) (Gen.V12 m (outs m) c) ∗ R c) := by
  rw [V12_eq]; exact .rfl
theorem hpre7 (c : Dev nD) : iprop(StableHlo.held (c : Thread nD τ) (Pipeline.ucRefs τ sig) (Gen.V13 m (outs m) c) ∗ R c) ⊢ (reg7 m).pre c := by
  rw [V13_eq]; exact .rfl
theorem hpost7 (c : Dev nD) : (reg7 m).post c ⊢ iprop(StableHlo.held (c : Thread nD τ) (Pipeline.ucRefs τ sig) (Gen.V14 m (outs m) c) ∗ R c) := by
  rw [V14_eq]; exact .rfl
theorem hpre8 (c : Dev nD) : iprop(StableHlo.held (c : Thread nD τ) (Pipeline.ucRefs τ sig) (Gen.V14 m (outs m) c) ∗ R c) ⊢ (reg8 m).pre c := by
  rw [V14_eq]; exact .rfl
theorem hpost8 (c : Dev nD) : (reg8 m).post c ⊢ iprop(StableHlo.held (c : Thread nD τ) (Pipeline.ucRefs τ sig) (Gen.V15 m (outs m) c) ∗ R c) := by
  rw [V15_eq]; exact .rfl
theorem hpre9 (c : Dev nD) : iprop(StableHlo.held (c : Thread nD τ) (Pipeline.ucRefs τ sig) (Gen.V16 m (outs m) c) ∗ R c) ⊢ (reg9 m).pre c := by
  rw [V16_eq]; exact .rfl
theorem hpost9 (c : Dev nD) : (reg9 m).post c ⊢ iprop(StableHlo.held (c : Thread nD τ) (Pipeline.ucRefs τ sig) (Gen.V17 m (outs m) c) ∗ R c) := by
  rw [V17_eq]; exact .rfl
theorem hpre10 (c : Dev nD) : iprop(StableHlo.held (c : Thread nD τ) (Pipeline.ucRefs τ sig) (Gen.V18 m (outs m) c) ∗ R c) ⊢ (reg10 m).pre c := by
  rw [V18_eq]; exact .rfl
theorem hpost10 (c : Dev nD) : (reg10 m).post c ⊢ iprop(StableHlo.held (c : Thread nD τ) (Pipeline.ucRefs τ sig) (Gen.V19 m (outs m) c) ∗ R c) := by
  rw [V19_eq]; exact .rfl
theorem hpre11 (c : Dev nD) : iprop(StableHlo.held (c : Thread nD τ) (Pipeline.ucRefs τ sig) (Gen.V19 m (outs m) c) ∗ R c) ⊢ (reg11 m).pre c := by
  rw [V19_eq]; exact .rfl
theorem hpost11 (c : Dev nD) : (reg11 m).post c ⊢ iprop(StableHlo.held (c : Thread nD τ) (Pipeline.ucRefs τ sig) (Gen.V20 m (outs m) c) ∗ R c) := by
  rw [V20_eq]; exact .rfl
theorem hpre12 (c : Dev nD) : iprop(StableHlo.held (c : Thread nD τ) (Pipeline.ucRefs τ sig) (Gen.V21 m (outs m) c) ∗ R c) ⊢ (reg12 m).pre c := by
  rw [V21_eq]; exact .rfl
theorem hpost12 (c : Dev nD) : (reg12 m).post c ⊢ iprop(StableHlo.held (c : Thread nD τ) (Pipeline.ucRefs τ sig) (Gen.V22 m (outs m) c) ∗ R c) := by
  rw [V22_eq]; exact .rfl
theorem hpre13 (c : Dev nD) : iprop(StableHlo.held (c : Thread nD τ) (Pipeline.ucRefs τ sig) (Gen.V23 m (outs m) c) ∗ R c) ⊢ (reg13 m).pre c := by
  rw [V23_eq]; exact .rfl
theorem hpost13 (c : Dev nD) : (reg13 m).post c ⊢ iprop(StableHlo.held (c : Thread nD τ) (Pipeline.ucRefs τ sig) (Gen.V24 m (outs m) c) ∗ R c) := by
  rw [V24_eq]; exact .rfl

theorem hu₀ : (ownU (initOf (Pipeline.cells cfgs cellOf_inj) (Pipeline.launchToks cfgs cellOf_inj)) : sProp 𝕄)
    ⊢ |={Set.univ}=> iprop(BI.own ((emb₁ : Emb (UR sig nD τ) 𝕄) (initOf (Pipeline.cells cfgs cellOf_inj) (Pipeline.launchToks cfgs cellOf_inj)))
        ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own ((emb₁ : Emb (UR sig nD τ) 𝕄) (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄))) ∗ levAts L lv)
    ⊢ (|={Set.univ}=> bigSep Finset.univ (fun c : Dev nD => R c) : sProp 𝕄) := by
  refine Pipeline.initEach L lv fun c => ?_
  iintro ⟨⟨-, HO, -, Hp, -⟩, -⟩
  imodintro
  isplitl [Hp]; · iexists _; iexact Hp
  iexists ∅; iexact HO

theorem hE14 (c : Dev nD) : R c ⊢ (iprop(∃ W, owes (c : Thread nD τ) (0 : CellTallies nD τ sig Unit) W) : sProp 𝕄) := by
  iintro ⟨-, H⟩; iexact H

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Gen.frame_cond m (Ix := Unit) (U := UR sig nD τ) (Lvl := ℕ) emb₁ () 𝒱₀ L lv (fun _ _ => rfl) ρ (outs m) (pdats m)
    0 (fun _ => iprop(emp)) (initOf (Pipeline.cells cfgs cellOf_inj) (Pipeline.launchToks cfgs cellOf_inj)) hu₀
    (fun _ c => R c) (hE0 ρ) hE14
    (reg0 m) (hpre0 m) (hpost0 m)
    (reg1 m) (hpre1 m) (hpost1 m)
    (reg2 m) (hpre2 m) (hpost2 m)
    (reg3 m) (hpre3 m) (hpost3 m)
    (reg4 m) (hpre4 m) (hpost4 m)
    (reg5 m) (hpre5 m) (hpost5 m)
    (reg6 m) (hpre6 m) (hpost6 m)
    (reg7 m) (hpre7 m) (hpost7 m)
    (reg8 m) (hpre8 m) (hpost8 m)
    (reg9 m) (hpre9 m) (hpost9 m)
    (reg10 m) (hpre10 m) (hpost10 m)
    (reg11 m) (hpre11 m) (hpost11 m)
    (reg12 m) (hpre12 m) (hpost12 m)
    (reg13 m) (hpre13 m) (hpost13 m)

end Cert.Kernel.Hand

end
-- ==== Proof.KI.R0.lean ====
import proofs.«147510_j18107582120779_2_alg».proof.Proof.Gen.KernelIdeal.Launch
import proofs.«147510_j18107582120779_2_alg».proof.Proof.Gen.KernelIdeal.Skeleton
import proofs.«147510_j18107582120779_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S5000x128 := Rect.unit (s := S5000x128) ![0, 0] S5000x128.size inb_S5000x128_S5000x128_0_0
abbrev r0_1 : Rect S128x64 := Rect.unit (s := S128x64) ![0, 0] S128x64.size inb_S128x64_S128x64_0_0
abbrev r0_2 : Rect S1x64 := Rect.unit (s := S1x64) ![0, 0] S1x64.size inb_S1x64_S1x64_0_0
abbrev r0_3 : Rect S5000x64 := Rect.unit (s := S5000x64) ![0, 0] S5000x64.size inb_S5000x64_S5000x64_0_0

def out0_3 (x0 : Vec F S5000x128 .f32) (x1 : Vec F S128x64 .f32) (x2 : Vec F S1x64 .f32) : Vec F S5000x64 .f32 :=
  View.canon [⟨r0_3, k0_pay1 (View.ld x0 r0_0) (View.ld x1 r0_1) (View.ld x2 r0_2)⟩]

theorem cover0_3 (p0 : Vec F S5000x64 .f32) (y : S5000x64.Idx) :
    ∃ pc ∈ ([⟨r0_3, p0⟩] : List (View.Piece (Elt F) S5000x64 .f32)), y ∈ pc.1.set :=
  View.cover_of_tiled [⟨r0_3, p0⟩] S5000x64.size (by rfl) y

set_option maxHeartbeats 1000000 in
theorem sound_kernel0 (c : Dev nD) (E : Set ℕ) (i : grid0.Coords) (arg1 : Memref sig .tc .vmem S5000x128 .f32) (harg1 : arg1.IsWhole) (arg2 : Memref sig .tc .vmem S128x64 .f32) (harg2 : arg2.IsWhole) (arg3 : Memref sig .tc .vmem S1x64 .f32) (harg3 : arg3.IsWhole) (arg4 : Memref sig .tc .vmem S5000x64 .f32) (harg4 : arg4.IsWhole)
    (x0 : Vec F S5000x128 .f32) (x1 : Vec F S128x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl

theorem body_obligation0 (c : Dev nD) : BodyObligation (dat0 (F := F) V c) (defs₀ (F := F)) Variants.none () Set.univ := fun t => by
  rw [bigSep_W0, bigSep_W0]
  simp only [before0_0, before0_1, before0_2]
  dsimp only [dat0]
  change _ ⊢ wp _ _ _ (bodyAt0 t) _
  unfold bodyAt0
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  iframe H0 H1 H2
  isplitl [H3]; · iexists _; iexact H3
  iintro ⟨H0, H1, H2, H3⟩
  iframe
  iexact Ho

end Cert.KernelIdeal.Hand
-- ==== Proof.KI.R1.lean ====
import proofs.«147510_j18107582120779_2_alg».proof.Proof.Gen.KernelIdeal.Launch
import proofs.«147510_j18107582120779_2_alg».proof.Proof.Gen.KernelIdeal.Skeleton
import proofs.«147510_j18107582120779_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S5000x64 := Rect.unit (s := S5000x64) ![0, 0] S5000x64.size inb_S5000x64_S5000x64_0_0
abbrev r1_1 : Rect S64x64 := Rect.unit (s := S64x64) ![0, 0] S64x64.size inb_S64x64_S64x64_0_0
abbrev r1_2 : Rect S1x64 := Rect.unit (s := S1x64) ![0, 0] S1x64.size inb_S1x64_S1x64_0_0
abbrev r1_3 : Rect S5000x64 := Rect.unit (s := S5000x64) ![0, 0] S5000x64.size inb_S5000x64_S5000x64_0_0

def out1_3 (x0 : Vec F S5000x64 .f32) (x1 : Vec F S64x64 .f32) (x2 : Vec F S1x64 .f32) : Vec F S5000x64 .f32 :=
  View.canon [⟨r1_3, k1_pay1 (View.ld x0 r1_0) (View.ld x1 r1_1) (View.ld x2 r1_2)⟩]

theorem cover1_3 (p0 : Vec F S5000x64 .f32) (y : S5000x64.Idx) :
    ∃ pc ∈ ([⟨r1_3, p0⟩] : List (View.Piece (Elt F) S5000x64 .f32)), y ∈ pc.1.set :=
  View.cover_of_tiled [⟨r1_3, p0⟩] S5000x64.size (by rfl) y

set_option maxHeartbeats 1000000 in
theorem sound_kernel1 (c : Dev nD) (E : Set ℕ) (i : grid1.Coords) (arg1 : Memref sig .tc .vmem S5000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S5000x64 .f32) (harg4 : arg4.IsWhole)
    (x0 : Vec F S5000x64 .f32) (x1 : Vec F S64x64 .f32) (x2 : Vec F S1x64 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl

theorem body_obligation1 (c : Dev nD) : BodyObligation (dat1 (F := F) V c) (defs₀ (F := F)) Variants.none () Set.univ := fun t => by
  rw [bigSep_W1, bigSep_W1]
  simp only [before1_0, before1_1, before1_2]
  dsimp only [dat1]
  change _ ⊢ wp _ _ _ (bodyAt1 t) _
  unfold bodyAt1
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  iframe H0 H1 H2
  isplitl [H3]; · iexists _; iexact H3
  iintro ⟨H0, H1, H2, H3⟩
  iframe
  iexact Ho

end Cert.KernelIdeal.Hand
-- ==== Proof.KI.R2.lean ====
import proofs.«147510_j18107582120779_2_alg».proof.Proof.Gen.KernelIdeal.Launch
import proofs.«147510_j18107582120779_2_alg».proof.Proof.Gen.KernelIdeal.Skeleton
import proofs.«147510_j18107582120779_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S5000x64 := Rect.unit (s := S5000x64) ![0, 0] S5000x64.size inb_S5000x64_S5000x64_0_0
abbrev r2_1 : Rect S64x64 := Rect.unit (s := S64x64) ![0, 0] S64x64.size inb_S64x64_S64x64_0_0
abbrev r2_2 : Rect S5000x1 := Rect.unit (s := S5000x1) ![0, 0] S5000x1.size inb_S5000x1_S5000x1_0_0
abbrev r2_3 : Rect S5000x128 := Rect.unit (s := S5000x128) ![0, 0] S5000x128.size inb_S5000x128_S5000x128_0_0

def out2_5 (x0 : Vec F S5000x64 .f32) (x1 : Vec F S5000x64 .f32) (x2 : Vec F S64x64 .f32) (x3 : Vec F S64x64 .f32) (x4 : Vec F S5000x1 .f32) : Vec F S5000x128 .f32 :=
  View.canon [⟨r2_3, k2_pay1 (View.ld x0 r2_0) (View.ld x1 r2_0) (View.ld x2 r2_1) (View.ld x3 r2_1) (View.ld x4 r2_2)⟩]

theorem cover2_5 (p0 : Vec F S5000x128 .f32) (y : S5000x128.Idx) :
    ∃ pc ∈ ([⟨r2_3, p0⟩] : List (View.Piece (Elt F) S5000x128 .f32)), y ∈ pc.1.set :=
  View.cover_of_tiled [⟨r2_3, p0⟩] S5000x128.size (by rfl) y

set_option maxHeartbeats 1000000 in
theorem sound_kernel2 (c : Dev nD) (E : Set ℕ) (i : grid2.Coords) (arg1 : Memref sig .tc .vmem S5000x64 .f32) (harg1 : arg1.IsWhole) (arg2 : Memref sig .tc .vmem S5000x64 .f32) (harg2 : arg2.IsWhole) (arg3 : Memref sig .tc .vmem S64x64 .f32) (harg3 : arg3.IsWhole) (arg4 : Memref sig .tc .vmem S64x64 .f32) (harg4 : arg4.IsWhole) (arg5 : Memref sig .tc .vmem S5000x1 .f32) (harg5 : arg5.IsWhole) (arg6 : Memref sig .tc .vmem S5000x128 .f32) (harg6 : arg6.IsWhole)
    (x0 : Vec F S5000x64 .f32) (x1 : Vec F S5000x64 .f32) (x2 : Vec F S64x64 .f32) (x3 : Vec F S64x64 .f32) (x4 : Vec F S5000x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__edge_fused_kernel i arg1 harg1 arg2 harg2 arg3 harg3 arg4 harg4 arg5 harg5 arg6 harg6) K := by
  simp only [cc2__edge_fused_kernel_eq_skeleton]; unfold cc2__edge_fused_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun _ => rfl) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun _ => rfl) t d).trans rfl

theorem body_obligation2 (c : Dev nD) : BodyObligation (dat2 (F := F) V c) (defs₀ (F := F)) Variants.none () Set.univ := fun t => by
  rw [bigSep_W2, bigSep_W2]
  simp only [before2_0, before2_1, before2_2, before2_3, before2_4]
  dsimp only [dat2]
  change _ ⊢ wp _ _ _ (bodyAt2 t) _
  unfold bodyAt2
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  iframe H0 H1 H2 H3 H4
  isplitl [H5]; · iexists _; iexact H5
  iintro ⟨H0, H1, H2, H3, H4, H5⟩
  iframe
  iexact Ho

end Cert.KernelIdeal.Hand
-- ==== Proof.KI.R6.lean ====
import proofs.«147510_j18107582120779_2_alg».proof.Proof.Gen.KernelIdeal.Launch
import proofs.«147510_j18107582120779_2_alg».proof.Proof.Gen.KernelIdeal.Skeleton
import proofs.«147510_j18107582120779_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region6
variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_0 : Rect S2000x64 := Rect.unit (s := S2000x64) ![0, 0] S2000x64.size inb_S2000x64_S2000x64_0_0
abbrev r6_1 : Rect S2000x1 := Rect.unit (s := S2000x1) ![0, 0] S2000x1.size inb_S2000x1_S2000x1_0_0
abbrev r6_2 : Rect S1x64 := Rect.unit (s := S1x64) ![0, 0] S1x64.size inb_S1x64_S1x64_0_0
abbrev r6_3 : Rect S64x64 := Rect.unit (s := S64x64) ![0, 0] S64x64.size inb_S64x64_S64x64_0_0

def out6_10 (x0 : Vec F S2000x64 .f32) (x1 : Vec F S2000x64 .f32) (x2 : Vec F S2000x64 .f32) (x3 : Vec F S2000x64 .f32) (x4 : Vec F S2000x64 .f32) (x5 : Vec F S2000x1 .f32) (x6 : Vec F S1x64 .f32) (x7 : Vec F S64x64 .f32) (x8 : Vec F S1x64 .f32) : Vec F S2000x64 .f32 :=
  View.canon [⟨r6_0, k6_pay1 (k6_pay3 (View.ld x1 r6_0)) (k6_pay5 (View.ld x2 r6_0) (View.ld x7 r6_3) (View.ld x8 r6_2) (View.ld x3 r6_0) (View.ld x5 r6_1) (View.ld x6 r6_2) (View.ld x1 r6_0) (View.ld x0 r6_0)) k6_pay6⟩]

def out6_9 (x0 : Vec F S2000x64 .f32) (x1 : Vec F S2000x64 .f32) (x2 : Vec F S2000x64 .f32) (x3 : Vec F S2000x64 .f32) (x4 : Vec F S2000x64 .f32) (x5 : Vec F S2000x1 .f32) (x6 : Vec F S1x64 .f32) (x7 : Vec F S64x64 .f32) (x8 : Vec F S1x64 .f32) : Vec F S2000x64 .f32 :=
  View.canon [⟨r6_0, k6_pay2 (k6_pay3 (View.ld x1 r6_0)) (k6_pay4 (View.ld x0 r6_0)) (k6_pay5 (View.ld x2 r6_0) (View.ld x7 r6_3) (View.ld x8 r6_2) (View.ld x3 r6_0) (View.ld x5 r6_1) (View.ld x6 r6_2) (View.ld x1 r6_0) (View.ld x0 r6_0)) k6_pay6 (View.ld x4 r6_0)⟩]

theorem cover6_9 (p0 : Vec F S2000x64 .f32) (y : S2000x64.Idx) :
    ∃ pc ∈ ([⟨r6_0, p0⟩] : List (View.Piece (Elt F) S2000x64 .f32)), y ∈ pc.1.set :=
  View.cover_of_tiled [⟨r6_0, p0⟩] S2000x64.size (by rfl) y

theorem cover6_10 (p0 : Vec F S2000x64 .f32) (y : S2000x64.Idx) :
    ∃ pc ∈ ([⟨r6_0, p0⟩] : List (View.Piece (Elt F) S2000x64 .f32)), y ∈ pc.1.set :=
  View.cover_of_tiled [⟨r6_0, p0⟩] S2000x64.size (by rfl) y

set_option maxHeartbeats 4000000 in
theorem sound_kernel6 (c : Dev nD) (E : Set ℕ) (i : grid6.Coords) (arg1 : Memref sig .tc .vmem S2000x64 .f32) (harg1 : arg1.IsWhole) (arg2 : Memref sig .tc .vmem S2000x64 .f32) (harg2 : arg2.IsWhole) (arg3 : Memref sig .tc .vmem S2000x64 .f32) (harg3 : arg3.IsWhole) (arg4 : Memref sig .tc .vmem S2000x64 .f32) (harg4 : arg4.IsWhole) (arg5 : Memref sig .tc .vmem S2000x64 .f32) (harg5 : arg5.IsWhole) (arg6 : Memref sig .tc .vmem S2000x1 .f32) (harg6 : arg6.IsWhole) (arg7 : Memref sig .tc .vmem S1x64 .f32) (harg7 : arg7.IsWhole) (arg8 : Memref sig .tc .vmem S64x64 .f32) (harg8 : arg8.IsWhole) (arg9 : Memref sig .tc .vmem S1x64 .f32) (harg9 : arg9.IsWhole) (arg10 : Memref sig .tc .vmem S2000x64 .f32) (harg10 : arg10.IsWhole) (arg11 : Memref sig .tc .vmem S2000x64 .f32) (harg11 : arg11.IsWhole)
    (x0 : Vec F S2000x64 .f32) (x1 : Vec F S2000x64 .f32) (x2 : Vec F S2000x64 .f32) (x3 : Vec F S2000x64 .f32) (x4 : Vec F S2000x64 .f32) (x5 : Vec F S2000x1 .f32) (x6 : Vec F S1x64 .f32) (x7 : Vec F S64x64 .f32) (x8 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out6_9 x0 x1 x2 x3 x4 x5 x6 x7 x8) ∗ owns (c : Thread nD τ) arg11 fullShare (out6_10 x0 x1 x2 x3 x4 x5 x6 x7 x8)) -∗ K ⟨⟩))
      ⊢ wp frame (wpE (defs₀ (F := F)) Variants.none c none) E (cc6__node_update_kernel i arg1 harg1 arg2 harg2 arg3 harg3 arg4 harg4 arg5 harg5 arg6 harg6 arg7 harg7 arg8 harg8 arg9 harg9 arg10 harg10 arg11 harg11) K := by
  simp only [cc6__node_update_kernel_eq_skeleton]; unfold cc6__node_update_kernel_skel
  simp only [k6_part1_eq_skeleton]; unfold k6_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover6_9 _)
  iexists _; isplitr
  swap; · iexact H10
  ipureintro
  exact View.read_writes_eq_canon _ _ _ (cover6_10 _)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => iblk6 V c 7 t
    | ⟨8, _⟩ => iblk6 V c 8 t
    | ⟨9, _⟩ => out6_9 (iblk6 V c 0 t) (iblk6 V c 1 t) (iblk6 V c 2 t) (iblk6 V c 3 t) (iblk6 V c 4 t) (iblk6 V c 5 t) (iblk6 V c 6 t) (iblk6 V c 7 t) (iblk6 V c 8 t)
    | ⟨10, _⟩ => out6_10 (iblk6 V c 0 t) (iblk6 V c 1 t) (iblk6 V c 2 t) (iblk6 V c 3 t) (iblk6 V c 4 t) (iblk6 V c 5 t) (iblk6 V c 6 t) (iblk6 V c 7 t) (iblk6 V c 8 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_9 (c : Dev nD) (t : Fin cfg6.N) : (dat6 V c).after 9 t = out6_9 (iblk6 V c 0 t) (iblk6 V c 1 t) (iblk6 V c 2 t) (iblk6 V c 3 t) (iblk6 V c 4 t) (iblk6 V c 5 t) (iblk6 V c 6 t) (iblk6 V c 7 t) (iblk6 V c 8 t) := by dsimp only [dat6]
theorem after6_10 (c : Dev nD) (t : Fin cfg6.N) : (dat6 V c).after 10 t = out6_10 (iblk6 V c 0 t) (iblk6 V c 1 t) (iblk6 V c 2 t) (iblk6 V c 3 t) (iblk6 V c 4 t) (iblk6 V c 5 t) (iblk6 V c 6 t) (iblk6 V c 7 t) (iblk6 V c 8 t) := by dsimp only [dat6]

theorem before6_0 (c : Dev nD) (t : Fin cfg6.N) (d) : (dat6 V c).before 0 t d = iblk6 V c 0 t :=
  ((dat6 V c).before_in_eq_fetched 0 rfl (fun _ => rfl) (fun _ _ _ => rfl) (fun _ => rfl) t d).trans rfl
theorem before6_1 (c : Dev nD) (t : Fin cfg6.N) (d) : (dat6 V c).before 1 t d = iblk6 V c 1 t :=
  ((dat6 V c).before_in_eq_fetched 1 rfl (fun _ => rfl) (fun _ _ _ => rfl) (fun _ => rfl) t d).trans rfl
theorem before6_2 (c : Dev nD) (t : Fin cfg6.N) (d) : (dat6 V c).before 2 t d = iblk6 V c 2 t :=
  ((dat6 V c).before_in_eq_fetched 2 rfl (fun _ => rfl) (fun _ _ _ => rfl) (fun _ => rfl) t d).trans rfl
theorem before6_3 (c : Dev nD) (t : Fin cfg6.N) (d) : (dat6 V c).before 3 t d = iblk6 V c 3 t :=
  ((dat6 V c).before_in_eq_fetched 3 rfl (fun _ => rfl) (fun _ _ _ => rfl) (fun _ => rfl) t d).trans rfl
theorem before6_4 (c : Dev nD) (t : Fin cfg6.N) (d) : (dat6 V c).before 4 t d = iblk6 V c 4 t :=
  ((dat6 V c).before_in_eq_fetched 4 rfl (fun _ => rfl) (fun _ _ _ => rfl) (fun _ => rfl) t d).trans rfl
theorem before6_5 (c : Dev nD) (t : Fin cfg6.N) (d) : (dat6 V c).before 5 t d = iblk6 V c 5 t :=
  ((dat6 V c).before_in_eq_fetched 5 rfl (fun _ => rfl) (fun _ _ _ => rfl) (fun _ => rfl) t d).trans rfl
theorem before6_6 (c : Dev nD) (t : Fin cfg6.N) (d) : (dat6 V c).before 6 t d = iblk6 V c 6 t :=
  ((dat6 V c).before_in_eq_fetched 6 rfl (fun _ => rfl) (fun _ _ _ => rfl) (fun _ => rfl) t d).trans rfl
theorem before6_7 (c : Dev nD) (t : Fin cfg6.N) (d) : (dat6 V c).before 7 t d = iblk6 V c 7 t :=
  ((dat6 V c).before_in_eq_fetched 7 rfl (fun _ => rfl) (fun _ _ _ => rfl) (fun _ => rfl) t d).trans rfl
theorem before6_8 (c : Dev nD) (t : Fin cfg6.N) (d) : (dat6 V c).before 8 t d = iblk6 V c 8 t :=
  ((dat6 V c).before_in_eq_fetched 8 rfl (fun _ => rfl) (fun _ _ _ => rfl) (fun _ => rfl) t d).trans rfl

theorem body_obligation6 (c : Dev nD) : BodyObligation (dat6 (F := F) V c) (defs₀ (F := F)) Variants.none () Set.univ := fun t => by
  rw [bigSep_W6, bigSep_W6]
  simp only [before6_0, before6_1, before6_2, before6_3, before6_4, before6_5, before6_6, before6_7, before6_8]
  dsimp only [dat6]
  change _ ⊢ wp _ _ _ (bodyAt6 t) _
  unfold bodyAt6
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel6 c Set.univ _ _ _ _ _ _ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) (iblk6 V c 7 t) (iblk6 V c 8 t) _)
  iframe H0 H1 H2 H3 H4 H5 H6 H7 H8
  isplitl [H9]; · iexists _; iexact H9
  isplitl [H10]; · iexists _; iexact H10
  iintro ⟨H0, H1, H2, H3, H4, H5, H6, H7, H8, H9, H10⟩
  iframe
  iexact Ho

end Region6

end Cert.KernelIdeal.Hand
-- ==== Proof.KI.R3.lean ====
import proofs.«147510_j18107582120779_2_alg».proof.Proof.KI.R6

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => out6_9 (iblk3 V c 0 t) (iblk3 V c 1 t) (iblk3 V c 2 t) (iblk3 V c 3 t) (iblk3 V c 4 t) (iblk3 V c 5 t) (iblk3 V c 6 t) (iblk3 V c 7 t) (iblk3 V c 8 t)
    | ⟨10, _⟩ => out6_10 (iblk3 V c 0 t) (iblk3 V c 1 t) (iblk3 V c 2 t) (iblk3 V c 3 t) (iblk3 V c 4 t) (iblk3 V c 5 t) (iblk3 V c 6 t) (iblk3 V c 7 t) (iblk3 V c 8 t)
  Φ _ := Pipeline.ΦA spec3 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
  owed _ := 0

theorem share3_0 (c : Dev nD) : (dat3 V c).share 0 = fullShare.left := by
  unfold Dat.share; rw [if_neg (by decide)]; dsimp only [dat3]
theorem share3_1 (c : Dev nD) : (dat3 V c).share 1 = fullShare.right := by
  unfold Dat.share; rw [if_neg (by decide)]; dsimp only [dat3]
theorem share3_ge (c : Dev nD) (w : Fin cfg3.W) (hw : 2 ≤ w.val) : (dat3 V c).share w = fullShare := by
  unfold Dat.share; split
  · rfl
  · match w, hw with
    | ⟨2, _⟩, _ => dsimp only [dat3]
    | ⟨3, _⟩, _ => dsimp only [dat3]
    | ⟨4, _⟩, _ => dsimp only [dat3]
    | ⟨5, _⟩, _ => dsimp only [dat3]
    | ⟨6, _⟩, _ => dsimp only [dat3]
    | ⟨7, _⟩, _ => dsimp only [dat3]
    | ⟨8, _⟩, _ => dsimp only [dat3]
    | ⟨9, _⟩, _ => dsimp only [dat3]
    | ⟨10, _⟩, _ => dsimp only [dat3]

theorem A_eq3 (c : Dev nD) (w : Fin cfg3.W) : (dat3 V c).A w = V c (Pipeline.arrRef spec3 w) := by
  dsimp only [dat3]

theorem after3_9 (c : Dev nD) (t : Fin cfg3.N) : (dat3 V c).after 9 t = out6_9 (iblk3 V c 0 t) (iblk3 V c 1 t) (iblk3 V c 2 t) (iblk3 V c 3 t) (iblk3 V c 4 t) (iblk3 V c 5 t) (iblk3 V c 6 t) (iblk3 V c 7 t) (iblk3 V c 8 t) := by dsimp only [dat3]
theorem after3_10 (c : Dev nD) (t : Fin cfg3.N) : (dat3 V c).after 10 t = out6_10 (iblk3 V c 0 t) (iblk3 V c 1 t) (iblk3 V c 2 t) (iblk3 V c 3 t) (iblk3 V c 4 t) (iblk3 V c 5 t) (iblk3 V c 6 t) (iblk3 V c 7 t) (iblk3 V c 8 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun _ => rfl) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun _ => rfl) t d).trans rfl
theorem before3_3 (c : Dev nD) (t : Fin cfg3.N) (d) : (dat3 V c).before 3 t d = iblk3 V c 3 t :=
  ((dat3 V c).before_in_eq_fetched 3 rfl (fun _ => rfl) (fun _ _ _ => rfl) (fun _ => rfl) t d).trans rfl
theorem before3_4 (c : Dev nD) (t : Fin cfg3.N) (d) : (dat3 V c).before 4 t d = iblk3 V c 4 t :=
  ((dat3 V c).before_in_eq_fetched 4 rfl (fun _ => rfl) (fun _ _ _ => rfl) (fun _ => rfl) t d).trans rfl
theorem before3_5 (c : Dev nD) (t : Fin cfg3.N) (d) : (dat3 V c).before 5 t d = iblk3 V c 5 t :=
  ((dat3 V c).before_in_eq_fetched 5 rfl (fun _ => rfl) (fun _ _ _ => rfl) (fun _ => rfl) t d).trans rfl
theorem before3_6 (c : Dev nD) (t : Fin cfg3.N) (d) : (dat3 V c).before 6 t d = iblk3 V c 6 t :=
  ((dat3 V c).before_in_eq_fetched 6 rfl (fun _ => rfl) (fun _ _ _ => rfl) (fun _ => rfl) t d).trans rfl
theorem before3_7 (c : Dev nD) (t : Fin cfg3.N) (d) : (dat3 V c).before 7 t d = iblk3 V c 7 t :=
  ((dat3 V c).before_in_eq_fetched 7 rfl (fun _ => rfl) (fun _ _ _ => rfl) (fun _ => rfl) t d).trans rfl
theorem before3_8 (c : Dev nD) (t : Fin cfg3.N) (d) : (dat3 V c).before 8 t d = iblk3 V c 8 t :=
  ((dat3 V c).before_in_eq_fetched 8 rfl (fun _ => rfl) (fun _ _ _ => rfl) (fun _ => rfl) t d).trans rfl

theorem body_obligation3 (c : Dev nD) : BodyObligation (dat3 (F := F) V c) (defs₀ (F := F)) Variants.none () Set.univ := fun t => by
  rw [bigSep_W3, bigSep_W3]
  simp only [before3_0, before3_1, before3_2, before3_3, before3_4, before3_5, before3_6, before3_7, before3_8]
  dsimp only [dat3]
  change _ ⊢ wp _ _ _ (bodyAt3 t) _
  unfold bodyAt3
  rw [show cc3__node_update_kernel (F := F) = cc6__node_update_kernel from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel6 c Set.univ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) _)
  iframe H0 H1 H2 H3 H4 H5 H6 H7 H8
  isplitl [H9]; · iexists _; iexact H9
  isplitl [H10]; · iexists _; iexact H10
  iintro ⟨H0, H1, H2, H3, H4, H5, H6, H7, H8, H9, H10⟩
  iframe
  iexact Ho

end Region3

end Cert.KernelIdeal.Hand
-- ==== Proof.KI.R4.lean ====
import proofs.«147510_j18107582120779_2_alg».proof.Proof.KI.R1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out1_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_3 (c : Dev nD) (t : Fin cfg4.N) : (dat4 V c).after 3 t = out1_3 (iblk4 V c 0 t) (iblk4 V c 1 t) (iblk4 V c 2 t) := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 V c).before 1 t d = iblk4 V c 1 t :=
  ((dat4 V c).before_in_eq_fetched 1 rfl (fun _ => rfl) (fun _ _ _ => rfl) (fun _ => rfl) t d).trans rfl
theorem before4_2 (c : Dev nD) (t : Fin cfg4.N) (d) : (dat4 V c).before 2 t d = iblk4 V c 2 t :=
  ((dat4 V c).before_in_eq_fetched 2 rfl (fun _ => rfl) (fun _ _ _ => rfl) (fun _ => rfl) t d).trans rfl

theorem body_obligation4 (c : Dev nD) : BodyObligation (dat4 (F := F) V c) (defs₀ (F := F)) Variants.none () Set.univ := fun t => by
  rw [bigSep_W4, bigSep_W4]
  simp only [before4_0, before4_1, before4_2]
  dsimp only [dat4]
  change _ ⊢ wp _ _ _ (bodyAt4 t) _
  unfold bodyAt4
  rw [show cc4__linear_kernel (F := F) = cc1__linear_kernel from rfl]
  iintro ⟨HΦ, Ho, ⟨%d0, H0⟩, ⟨%d1, H1⟩, ⟨%d2, H2⟩, ⟨%d3, H3⟩⟩
  iapply (sound_kernel1 c Set.univ (grid4.coords t) _ _ _ _ _ _ _ _ (iblk4 V c 0 t) (iblk4 V c 1 t) (iblk4 V c 2 t) _)
  iframe H0 H1 H2
  isplitl [H3]; · iexists _; iexact H3
  iintro ⟨H0, H1, H2, H3⟩
  iframe
  iexact Ho

end Cert.KernelIdeal.Hand
-- ==== Proof.KI.R5.lean ====
import proofs.«147510_j18107582120779_2_alg».proof.Proof.KI.R2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out2_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_5 (c : Dev nD) (t : Fin cfg5.N) : (dat5 V c).after 5 t = out2_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  ((dat5 V c).before_in_eq_fetched 0 rfl (fun _ => rfl) (fun _ _ _ => rfl) (fun _ => rfl) t d).trans rfl
theorem before5_1 (c : Dev nD) (t : Fin cfg5.N) (d) : (dat5 V c).before 1 t d = iblk5 V c 1 t :=
  ((dat5 V c).before_in_eq_fetched 1 rfl (fun _ => rfl) (fun _ _ _ => rfl) (fun _ => rfl) t d).trans rfl
theorem before5_2 (c : Dev nD) (t : Fin cfg5.N) (d) : (dat5 V c).before 2 t d = iblk5 V c 2 t :=
  ((dat5 V c).before_in_eq_fetched 2 rfl (fun _ => rfl) (fun _ _ _ => rfl) (fun _ => rfl) t d).trans rfl
theorem before5_3 (c : Dev nD) (t : Fin cfg5.N) (d) : (dat5 V c).before 3 t d = iblk5 V c 3 t :=
  ((dat5 V c).before_in_eq_fetched 3 rfl (fun _ => rfl) (fun _ _ _ => rfl) (fun _ => rfl) t d).trans rfl
theorem before5_4 (c : Dev nD) (t : Fin cfg5.N) (d) : (dat5 V c).before 4 t d = iblk5 V c 4 t :=
  ((dat5 V c).before_in_eq_fetched 4 rfl (fun _ => rfl) (fun _ _ _ => rfl) (fun _ => rfl) t d).trans rfl

theorem body_obligation5 (c : Dev nD) : BodyObligation (dat5 (F := F) V c) (defs₀ (F := F)) Variants.none () Set.univ := fun t => by
  rw [bigSep_W5, bigSep_W5]
  simp only [before5_0, before5_1, before5_2, before5_3, before5_4]
  dsimp only [dat5]
  change _ ⊢ wp _ _ _ (bodyAt5 t) _
  unfold bodyAt5
  rw [show cc5__edge_fused_kernel (F := F) = cc2__edge_fused_kernel from rfl]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk5 V c 0 t) (iblk5 V c 1 t) (iblk5 V c 2 t) (iblk5 V c 3 t) (iblk5 V c 4 t) _)
  iframe H0 H1 H2 H3 H4
  isplitl [H5]; · iexists _; iexact H5
  iintro ⟨H0, H1, H2, H3, H4, H5⟩
  iframe
  iexact Ho

end Cert.KernelIdeal.Hand
-- ==== Proof.KI.R7.lean ====
import proofs.«147510_j18107582120779_2_alg».proof.Proof.KI.R1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out1_3 (iblk7 V c 0 t) (iblk7 V c 1 t) (iblk7 V c 2 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_3 (c : Dev nD) (t : Fin cfg7.N) : (dat7 V c).after 3 t = out1_3 (iblk7 V c 0 t) (iblk7 V c 1 t) (iblk7 V c 2 t) := by dsimp only [dat7]

theorem before7_0 (c : Dev nD) (t : Fin cfg7.N) (d) : (dat7 V c).before 0 t d = iblk7 V c 0 t :=
  ((dat7 V c).before_in_eq_fetched 0 rfl (fun _ => rfl) (fun _ _ _ => rfl) (fun _ => rfl) t d).trans rfl
theorem before7_1 (c : Dev nD) (t : Fin cfg7.N) (d) : (dat7 V c).before 1 t d = iblk7 V c 1 t :=
  ((dat7 V c).before_in_eq_fetched 1 rfl (fun _ => rfl) (fun _ _ _ => rfl) (fun _ => rfl) t d).trans rfl
theorem before7_2 (c : Dev nD) (t : Fin cfg7.N) (d) : (dat7 V c).before 2 t d = iblk7 V c 2 t :=
  ((dat7 V c).before_in_eq_fetched 2 rfl (fun _ => rfl) (fun _ _ _ => rfl) (fun _ => rfl) t d).trans rfl

theorem body_obligation7 (c : Dev nD) : BodyObligation (dat7 (F := F) V c) (defs₀ (F := F)) Variants.none () Set.univ := fun t => by
  rw [bigSep_W7, bigSep_W7]
  simp only [before7_0, before7_1, before7_2]
  dsimp only [dat7]
  change _ ⊢ wp _ _ _ (bodyAt7 t) _
  unfold bodyAt7
  rw [show cc7__linear_kernel (F := F) = cc1__linear_kernel from rfl]
  iintro ⟨HΦ, Ho, ⟨%d0, H0⟩, ⟨%d1, H1⟩, ⟨%d2, H2⟩, ⟨%d3, H3⟩⟩
  iapply (sound_kernel1 c Set.univ (grid7.coords t) _ _ _ _ _ _ _ _ (iblk7 V c 0 t) (iblk7 V c 1 t) (iblk7 V c 2 t) _)
  iframe H0 H1 H2
  isplitl [H3]; · iexists _; iexact H3
  iintro ⟨H0, H1, H2, H3⟩
  iframe
  iexact Ho

end Cert.KernelIdeal.Hand
-- ==== Proof.KI.R8.lean ====
import proofs.«147510_j18107582120779_2_alg».proof.Proof.KI.R2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => out2_5 (iblk8 V c 0 t) (iblk8 V c 1 t) (iblk8 V c 2 t) (iblk8 V c 3 t) (iblk8 V c 4 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_5 (c : Dev nD) (t : Fin cfg8.N) : (dat8 V c).after 5 t = out2_5 (iblk8 V c 0 t) (iblk8 V c 1 t) (iblk8 V c 2 t) (iblk8 V c 3 t) (iblk8 V c 4 t) := by dsimp only [dat8]

theorem before8_0 (c : Dev nD) (t : Fin cfg8.N) (d) : (dat8 V c).before 0 t d = iblk8 V c 0 t :=
  ((dat8 V c).before_in_eq_fetched 0 rfl (fun _ => rfl) (fun _ _ _ => rfl) (fun _ => rfl) t d).trans rfl
theorem before8_1 (c : Dev nD) (t : Fin cfg8.N) (d) : (dat8 V c).before 1 t d = iblk8 V c 1 t :=
  ((dat8 V c).before_in_eq_fetched 1 rfl (fun _ => rfl) (fun _ _ _ => rfl) (fun _ => rfl) t d).trans rfl
theorem before8_2 (c : Dev nD) (t : Fin cfg8.N) (d) : (dat8 V c).before 2 t d = iblk8 V c 2 t :=
  ((dat8 V c).before_in_eq_fetched 2 rfl (fun _ => rfl) (fun _ _ _ => rfl) (fun _ => rfl) t d).trans rfl
theorem before8_3 (c : Dev nD) (t : Fin cfg8.N) (d) : (dat8 V c).before 3 t d = iblk8 V c 3 t :=
  ((dat8 V c).before_in_eq_fetched 3 rfl (fun _ => rfl) (fun _ _ _ => rfl) (fun _ => rfl) t d).trans rfl
theorem before8_4 (c : Dev nD) (t : Fin cfg8.N) (d) : (dat8 V c).before 4 t d = iblk8 V c 4 t :=
  ((dat8 V c).before_in_eq_fetched 4 rfl (fun _ => rfl) (fun _ _ _ => rfl) (fun _ => rfl) t d).trans rfl

theorem body_obligation8 (c : Dev nD) : BodyObligation (dat8 (F := F) V c) (defs₀ (F := F)) Variants.none () Set.univ := fun t => by
  rw [bigSep_W8, bigSep_W8]
  simp only [before8_0, before8_1, before8_2, before8_3, before8_4]
  dsimp only [dat8]
  change _ ⊢ wp _ _ _ (bodyAt8 t) _
  unfold bodyAt8
  rw [show cc8__edge_fused_kernel (F := F) = cc2__edge_fused_kernel from rfl]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk8 V c 0 t) (iblk8 V c 1 t) (iblk8 V c 2 t) (iblk8 V c 3 t) (iblk8 V c 4 t) _)
  iframe H0 H1 H2 H3 H4
  isplitl [H5]; · iexists _; iexact H5
  iintro ⟨H0, H1, H2, H3, H4, H5⟩
  iframe
  iexact Ho

end Cert.KernelIdeal.Hand
-- ==== Proof.KI.R9.lean ====
import proofs.«147510_j18107582120779_2_alg».proof.Proof.KI.R6

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region9
variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => iblk9 V c 6 t
    | ⟨7, _⟩ => iblk9 V c 7 t
    | ⟨8, _⟩ => iblk9 V c 8 t
    | ⟨9, _⟩ => out6_9 (iblk9 V c 0 t) (iblk9 V c 1 t) (iblk9 V c 2 t) (iblk9 V c 3 t) (iblk9 V c 4 t) (iblk9 V c 5 t) (iblk9 V c 6 t) (iblk9 V c 7 t) (iblk9 V c 8 t)
    | ⟨10, _⟩ => out6_10 (iblk9 V c 0 t) (iblk9 V c 1 t) (iblk9 V c 2 t) (iblk9 V c 3 t) (iblk9 V c 4 t) (iblk9 V c 5 t) (iblk9 V c 6 t) (iblk9 V c 7 t) (iblk9 V c 8 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_9 (c : Dev nD) (t : Fin cfg9.N) : (dat9 V c).after 9 t = out6_9 (iblk9 V c 0 t) (iblk9 V c 1 t) (iblk9 V c 2 t) (iblk9 V c 3 t) (iblk9 V c 4 t) (iblk9 V c 5 t) (iblk9 V c 6 t) (iblk9 V c 7 t) (iblk9 V c 8 t) := by dsimp only [dat9]
theorem after9_10 (c : Dev nD) (t : Fin cfg9.N) : (dat9 V c).after 10 t = out6_10 (iblk9 V c 0 t) (iblk9 V c 1 t) (iblk9 V c 2 t) (iblk9 V c 3 t) (iblk9 V c 4 t) (iblk9 V c 5 t) (iblk9 V c 6 t) (iblk9 V c 7 t) (iblk9 V c 8 t) := by dsimp only [dat9]

theorem before9_0 (c : Dev nD) (t : Fin cfg9.N) (d) : (dat9 V c).before 0 t d = iblk9 V c 0 t :=
  ((dat9 V c).before_in_eq_fetched 0 rfl (fun _ => rfl) (fun _ _ _ => rfl) (fun _ => rfl) t d).trans rfl
theorem before9_1 (c : Dev nD) (t : Fin cfg9.N) (d) : (dat9 V c).before 1 t d = iblk9 V c 1 t :=
  ((dat9 V c).before_in_eq_fetched 1 rfl (fun _ => rfl) (fun _ _ _ => rfl) (fun _ => rfl) t d).trans rfl
theorem before9_2 (c : Dev nD) (t : Fin cfg9.N) (d) : (dat9 V c).before 2 t d = iblk9 V c 2 t :=
  ((dat9 V c).before_in_eq_fetched 2 rfl (fun _ => rfl) (fun _ _ _ => rfl) (fun _ => rfl) t d).trans rfl
theorem before9_3 (c : Dev nD) (t : Fin cfg9.N) (d) : (dat9 V c).before 3 t d = iblk9 V c 3 t :=
  ((dat9 V c).before_in_eq_fetched 3 rfl (fun _ => rfl) (fun _ _ _ => rfl) (fun _ => rfl) t d).trans rfl
theorem before9_4 (c : Dev nD) (t : Fin cfg9.N) (d) : (dat9 V c).before 4 t d = iblk9 V c 4 t :=
  ((dat9 V c).before_in_eq_fetched 4 rfl (fun _ => rfl) (fun _ _ _ => rfl) (fun _ => rfl) t d).trans rfl
theorem before9_5 (c : Dev nD) (t : Fin cfg9.N) (d) : (dat9 V c).before 5 t d = iblk9 V c 5 t :=
  ((dat9 V c).before_in_eq_fetched 5 rfl (fun _ => rfl) (fun _ _ _ => rfl) (fun _ => rfl) t d).trans rfl
theorem before9_6 (c : Dev nD) (t : Fin cfg9.N) (d) : (dat9 V c).before 6 t d = iblk9 V c 6 t :=
  ((dat9 V c).before_in_eq_fetched 6 rfl (fun _ => rfl) (fun _ _ _ => rfl) (fun _ => rfl) t d).trans rfl
theorem before9_7 (c : Dev nD) (t : Fin cfg9.N) (d) : (dat9 V c).before 7 t d = iblk9 V c 7 t :=
  ((dat9 V c).before_in_eq_fetched 7 rfl (fun _ => rfl) (fun _ _ _ => rfl) (fun _ => rfl) t d).trans rfl
theorem before9_8 (c : Dev nD) (t : Fin cfg9.N) (d) : (dat9 V c).before 8 t d = iblk9 V c 8 t :=
  ((dat9 V c).before_in_eq_fetched 8 rfl (fun _ => rfl) (fun _ _ _ => rfl) (fun _ => rfl) t d).trans rfl

theorem body_obligation9 (c : Dev nD) : BodyObligation (dat9 (F := F) V c) (defs₀ (F := F)) Variants.none () Set.univ := fun t => by
  rw [bigSep_W9, bigSep_W9]
  simp only [before9_0, before9_1, before9_2, before9_3, before9_4, before9_5, before9_6, before9_7, before9_8]
  dsimp only [dat9]
  change _ ⊢ wp _ _ _ (bodyAt9 t) _
  unfold bodyAt9
  rw [show cc9__node_update_kernel (F := F) = cc6__node_update_kernel from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel6 c Set.univ _ _ _ _ _ _ _ _ _ _ _ _ _ _ _ _ _ _ _ _ _ _ _ (iblk9 V c 0 t) (iblk9 V c 1 t) (iblk9 V c 2 t) (iblk9 V c 3 t) (iblk9 V c 4 t) (iblk9 V c 5 t) (iblk9 V c 6 t) (iblk9 V c 7 t) (iblk9 V c 8 t) _)
  iframe H0 H1 H2 H3 H4 H5 H6 H7 H8
  isplitl [H9]; · iexists _; iexact H9
  isplitl [H10]; · iexists _; iexact H10
  iintro ⟨H0, H1, H2, H3, H4, H5, H6, H7, H8, H9, H10⟩
  iframe
  iexact Ho

end Region9

end Cert.KernelIdeal.Hand
-- ==== Proof.KI.R10.lean ====
import proofs.«147510_j18107582120779_2_alg».proof.Proof.KI.R1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => out1_3 (iblk10 V c 0 t) (iblk10 V c 1 t) (iblk10 V c 2 t)
  Φ _ := Pipeline.ΦA spec10 c
  q _ := fullShare
  owed _ := 0

theorem A_eq10 (c : Dev nD) (w : Fin cfg10.W) : (dat10 V c).A w = V c (Pipeline.arrRef spec10 w) := by
  dsimp only [dat10]

theorem after10_3 (c : Dev nD) (t : Fin cfg10.N) : (dat10 V c).after 3 t = out1_3 (iblk10 V c 0 t) (iblk10 V c 1 t) (iblk10 V c 2 t) := by dsimp only [dat10]

theorem before10_0 (c : Dev nD) (t : Fin cfg10.N) (d) : (dat10 V c).before 0 t d = iblk10 V c 0 t :=
  ((dat10 V c).before_in_eq_fetched 0 rfl (fun _ => rfl) (fun _ _ _ => rfl) (fun _ => rfl) t d).trans rfl
theorem before10_1 (c : Dev nD) (t : Fin cfg10.N) (d) : (dat10 V c).before 1 t d = iblk10 V c 1 t :=
  ((dat10 V c).before_in_eq_fetched 1 rfl (fun _ => rfl) (fun _ _ _ => rfl) (fun _ => rfl) t d).trans rfl
theorem before10_2 (c : Dev nD) (t : Fin cfg10.N) (d) : (dat10 V c).before 2 t d = iblk10 V c 2 t :=
  ((dat10 V c).before_in_eq_fetched 2 rfl (fun _ => rfl) (fun _ _ _ => rfl) (fun _ => rfl) t d).trans rfl

theorem body_obligation10 (c : Dev nD) : BodyObligation (dat10 (F := F) V c) (defs₀ (F := F)) Variants.none () Set.univ := fun t => by
  rw [bigSep_W10, bigSep_W10]
  simp only [before10_0, before10_1, before10_2]
  dsimp only [dat10]
  change _ ⊢ wp _ _ _ (bodyAt10 t) _
  unfold bodyAt10
  rw [show cc10__linear_kernel (F := F) = cc1__linear_kernel from rfl]
  iintro ⟨HΦ, Ho, ⟨%d0, H0⟩, ⟨%d1, H1⟩, ⟨%d2, H2⟩, ⟨%d3, H3⟩⟩
  iapply (sound_kernel1 c Set.univ (grid10.coords t) _ _ _ _ _ _ _ _ (iblk10 V c 0 t) (iblk10 V c 1 t) (iblk10 V c 2 t) _)
  iframe H0 H1 H2
  isplitl [H3]; · iexists _; iexact H3
  iintro ⟨H0, H1, H2, H3⟩
  iframe
  iexact Ho

end Cert.KernelIdeal.Hand
-- ==== Proof.KI.R11.lean ====
import proofs.«147510_j18107582120779_2_alg».proof.Proof.KI.R2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => out2_5 (iblk11 V c 0 t) (iblk11 V c 1 t) (iblk11 V c 2 t) (iblk11 V c 3 t) (iblk11 V c 4 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_5 (c : Dev nD) (t : Fin cfg11.N) : (dat11 V c).after 5 t = out2_5 (iblk11 V c 0 t) (iblk11 V c 1 t) (iblk11 V c 2 t) (iblk11 V c 3 t) (iblk11 V c 4 t) := by dsimp only [dat11]

theorem before11_0 (c : Dev nD) (t : Fin cfg11.N) (d) : (dat11 V c).before 0 t d = iblk11 V c 0 t :=
  ((dat11 V c).before_in_eq_fetched 0 rfl (fun _ => rfl) (fun _ _ _ => rfl) (fun _ => rfl) t d).trans rfl
theorem before11_1 (c : Dev nD) (t : Fin cfg11.N) (d) : (dat11 V c).before 1 t d = iblk11 V c 1 t :=
  ((dat11 V c).before_in_eq_fetched 1 rfl (fun _ => rfl) (fun _ _ _ => rfl) (fun _ => rfl) t d).trans rfl
theorem before11_2 (c : Dev nD) (t : Fin cfg11.N) (d) : (dat11 V c).before 2 t d = iblk11 V c 2 t :=
  ((dat11 V c).before_in_eq_fetched 2 rfl (fun _ => rfl) (fun _ _ _ => rfl) (fun _ => rfl) t d).trans rfl
theorem before11_3 (c : Dev nD) (t : Fin cfg11.N) (d) : (dat11 V c).before 3 t d = iblk11 V c 3 t :=
  ((dat11 V c).before_in_eq_fetched 3 rfl (fun _ => rfl) (fun _ _ _ => rfl) (fun _ => rfl) t d).trans rfl
theorem before11_4 (c : Dev nD) (t : Fin cfg11.N) (d) : (dat11 V c).before 4 t d = iblk11 V c 4 t :=
  ((dat11 V c).before_in_eq_fetched 4 rfl (fun _ => rfl) (fun _ _ _ => rfl) (fun _ => rfl) t d).trans rfl

theorem body_obligation11 (c : Dev nD) : BodyObligation (dat11 (F := F) V c) (defs₀ (F := F)) Variants.none () Set.univ := fun t => by
  rw [bigSep_W11, bigSep_W11]
  simp only [before11_0, before11_1, before11_2, before11_3, before11_4]
  dsimp only [dat11]
  change _ ⊢ wp _ _ _ (bodyAt11 t) _
  unfold bodyAt11
  rw [show cc11__edge_fused_kernel (F := F) = cc2__edge_fused_kernel from rfl]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk11 V c 0 t) (iblk11 V c 1 t) (iblk11 V c 2 t) (iblk11 V c 3 t) (iblk11 V c 4 t) _)
  iframe H0 H1 H2 H3 H4
  isplitl [H5]; · iexists _; iexact H5
  iintro ⟨H0, H1, H2, H3, H4, H5⟩
  iframe
  iexact Ho

end Cert.KernelIdeal.Hand
-- ==== Proof.KI.R12.lean ====
import proofs.«147510_j18107582120779_2_alg».proof.Proof.KI.R6

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region12
variable (V : (c : Dev nD) → (b : Ref sig .tc) → Buf (Elt F) ((c : Thread nD τ).loc b))

def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => iblk12 V c 5 t
    | ⟨6, _⟩ => iblk12 V c 6 t
    | ⟨7, _⟩ => iblk12 V c 7 t
    | ⟨8, _⟩ => iblk12 V c 8 t
    | ⟨9, _⟩ => out6_9 (iblk12 V c 0 t) (iblk12 V c 1 t) (iblk12 V c 2 t) (iblk12 V c 3 t) (iblk12 V c 4 t) (iblk12 V c 5 t) (iblk12 V c 6 t) (iblk12 V c 7 t) (iblk12 V c 8 t)
    | ⟨10, _⟩ => out6_10 (iblk12 V c 0 t) (iblk12 V c 1 t) (iblk12 V c 2 t) (iblk12 V c 3 t) (iblk12 V c 4 t) (iblk12 V c 5 t) (iblk12 V c 6 t) (iblk12 V c 7 t) (iblk12 V c 8 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_9 (c : Dev nD) (t : Fin cfg12.N) : (dat12 V c).after 9 t = out6_9 (iblk12 V c 0 t) (iblk12 V c 1 t) (iblk12 V c 2 t) (iblk12 V c 3 t) (iblk12 V c 4 t) (iblk12 V c 5 t) (iblk12 V c 6 t) (iblk12 V c 7 t) (iblk12 V c 8 t) := by dsimp only [dat12]
theorem after12_10 (c : Dev nD) (t : Fin cfg12.N) : (dat12 V c).after 10 t = out6_10 (iblk12 V c 0 t) (iblk12 V c 1 t) (iblk12 V c 2 t) (iblk12 V c 3 t) (iblk12 V c 4 t) (iblk12 V c 5 t) (iblk12 V c 6 t) (iblk12 V c 7 t) (iblk12 V c 8 t) := by dsimp only [dat12]

theorem before12_0 (c : Dev nD) (t : Fin cfg12.N) (d) : (dat12 V c).before 0 t d = iblk12 V c 0 t :=
  ((dat12 V c).before_in_eq_fetched 0 rfl (fun _ => rfl) (fun _ _ _ => rfl) (fun _ => rfl) t d).trans rfl
theorem before12_1 (c : Dev nD) (t : Fin cfg12.N) (d) : (dat12 V c).before 1 t d = iblk12 V c 1 t :=
  ((dat12 V c).before_in_eq_fetched 1 rfl (fun _ => rfl) (fun _ _ _ => rfl) (fun _ => rfl) t d).trans rfl
theorem before12_2 (c : Dev nD) (t : Fin cfg12.N) (d) : (dat12 V c).before 2 t d = iblk12 V c 2 t :=
  ((dat12 V c).before_in_eq_fetched 2 rfl (fun _ => rfl) (fun _ _ _ => rfl) (fun _ => rfl) t d).trans rfl
theorem before12_3 (c : Dev nD) (t : Fin cfg12.N) (d) : (dat12 V c).before 3 t d = iblk12 V c 3 t :=
  ((dat12 V c).before_in_eq_fetched 3 rfl (fun _ => rfl) (fun _ _ _ => rfl) (fun _ => rfl) t d).trans rfl
theorem before12_4 (c : Dev nD) (t : Fin cfg12.N) (d) : (dat12 V c).before 4 t d = iblk12 V c 4 t :=
  ((dat12 V c).before_in_eq_fetched 4 rfl (fun _ => rfl) (fun _ _ _ => rfl) (fun _ => rfl) t d).trans rfl
theorem before12_5 (c : Dev nD) (t : Fin cfg12.N) (d) : (dat12 V c).before 5 t d = iblk12 V c 5 t :=
  ((dat12 V c).before_in_eq_fetched 5 rfl (fun _ => rfl) (fun _ _ _ => rfl) (fun _ => rfl) t d).trans rfl
theorem before12_6 (c : Dev nD) (t : Fin cfg12.N) (d) : (dat12 V c).before 6 t d = iblk12 V c 6 t :=
  ((dat12 V c).before_in_eq_fetched 6 rfl (fun _ => rfl) (fun _ _ _ => rfl) (fun _ => rfl) t d).trans rfl
theorem before12_7 (c : Dev nD) (t : Fin cfg12.N) (d) : (dat12 V c).before 7 t d = iblk12 V c 7 t :=
  ((dat12 V c).before_in_eq_fetched 7 rfl (fun _ => rfl) (fun _ _ _ => rfl) (fun _ => rfl) t d).trans rfl
theorem before12_8 (c : Dev nD) (t : Fin cfg12.N) (d) : (dat12 V c).before 8 t d = iblk12 V c 8 t :=
  ((dat12 V c).before_in_eq_fetched 8 rfl (fun _ => rfl) (fun _ _ _ => rfl) (fun _ => rfl) t d).trans rfl

theorem body_obligation12 (c : Dev nD) : BodyObligation (dat12 (F := F) V c) (defs₀ (F := F)) Variants.none () Set.univ := fun t => by
  rw [bigSep_W12, bigSep_W12]
  simp only [before12_0, before12_1, before12_2, before12_3, before12_4, before12_5, before12_6, before12_7, before12_8]
  dsimp only [dat12]
  change _ ⊢ wp _ _ _ (bodyAt12 t) _
  unfold bodyAt12
  rw [show cc12__node_update_kernel (F := F) = cc6__node_update_kernel from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel6 c Set.univ _ _ _ _ _ _ _ _ _ _ _ _ _ _ _ _ _ _ _ _ _ _ _ (iblk12 V c 0 t) (iblk12 V c 1 t) (iblk12 V c 2 t) (iblk12 V c 3 t) (iblk12 V c 4 t) (iblk12 V c 5 t) (iblk12 V c 6 t) (iblk12 V c 7 t) (iblk12 V c 8 t) _)
  iframe H0 H1 H2 H3 H4 H5 H6 H7 H8
  isplitl [H9]; · iexists _; iexact H9
  isplitl [H10]; · iexists _; iexact H10
  iintro ⟨H0, H1, H2, H3, H4, H5, H6, H7, H8, H9, H10⟩
  iframe
  iexact Ho

end Region12

end Cert.KernelIdeal.Hand
-- ==== Proof.KI.R13.lean ====
import proofs.«147510_j18107582120779_2_alg».proof.Proof.Gen.KernelIdeal.Launch
import proofs.«147510_j18107582120779_2_alg».proof.Proof.Gen.KernelIdeal.Skeleton
import proofs.«147510_j18107582120779_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

abbrev r13_0 : Rect S5000x64 := Rect.unit (s := S5000x64) ![0, 0] S5000x64.size inb_S5000x64_S5000x64_0_0
abbrev r13_1 : Rect S64x40 := Rect.unit (s := S64x40) ![0, 0] S64x40.size inb_S64x40_S64x40_0_0
abbrev r13_2 : Rect S1x40 := Rect.unit (s := S1x40) ![0, 0] S1x40.size inb_S1x40_S1x40_0_0
abbrev r13_3 : Rect S5000x40 := Rect.unit (s := S5000x40) ![0, 0] S5000x40.size inb_S5000x40_S5000x40_0_0

def out13_3 (x0 : Vec F S5000x64 .f32) (x1 : Vec F S64x40 .f32) (x2 : Vec F S1x40 .f32) : Vec F S5000x40 .f32 :=
  View.canon [⟨r13_3, k13_pay1 (View.ld x0 r13_0) (View.ld x1 r13_1) (View.ld x2 r13_2)⟩]

theorem cover13_3 (p0 : Vec F S5000x40 .f32) (y : S5000x40.Idx) :
    ∃ pc ∈ ([⟨r13_3, p0⟩] : List (View.Piece (Elt F) S5000x40 .f32)), y ∈ pc.1.set :=
  View.cover_of_tiled [⟨r13_3, p0⟩] S5000x40.size (by rfl) y

set_option maxHeartbeats 1000000 in
theorem sound_kernel13 (c : Dev nD) (E : Set ℕ) (i : grid13.Coords) (arg1 : Memref sig .tc .vmem S5000x64 .f32) (harg1 : arg1.IsWhole) (arg2 : Memref sig .tc .vmem S64x40 .f32) (harg2 : arg2.IsWhole) (arg3 : Memref sig .tc .vmem S1x40 .f32) (harg3 : arg3.IsWhole) (arg4 : Memref sig .tc .vmem S5000x40 .f32) (harg4 : arg4.IsWhole)
    (x0 : Vec F S5000x64 .f32) (x1 : Vec F S64x40 .f32) (x2 : Vec F S1x40 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out13_3 x0 x1 x2)) -∗ K ⟨⟩))
      ⊢ wp frame (wpE (defs₀ (F := F)) Variants.none c none) E (cc13__linear_kernel i arg1 harg1 arg2 harg2 arg3 harg3 arg4 harg4) K := by
  simp only [cc13__linear_kernel_eq_skeleton]; unfold cc13__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover13_3 _)

def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => out13_3 (iblk13 V c 0 t) (iblk13 V c 1 t) (iblk13 V c 2 t)
  Φ _ := Pipeline.ΦA spec13 c
  q _ := fullShare
  owed _ := 0

theorem A_eq13 (c : Dev nD) (w : Fin cfg13.W) : (dat13 V c).A w = V c (Pipeline.arrRef spec13 w) := by
  dsimp only [dat13]

theorem after13_3 (c : Dev nD) (t : Fin cfg13.N) : (dat13 V c).after 3 t = out13_3 (iblk13 V c 0 t) (iblk13 V c 1 t) (iblk13 V c 2 t) := by dsimp only [dat13]

theorem before13_0 (c : Dev nD) (t : Fin cfg13.N) (d) : (dat13 V c).before 0 t d = iblk13 V c 0 t :=
  ((dat13 V c).before_in_eq_fetched 0 rfl (fun _ => rfl) (fun _ _ _ => rfl) (fun _ => rfl) t d).trans rfl
theorem before13_1 (c : Dev nD) (t : Fin cfg13.N) (d) : (dat13 V c).before 1 t d = iblk13 V c 1 t :=
  ((dat13 V c).before_in_eq_fetched 1 rfl (fun _ => rfl) (fun _ _ _ => rfl) (fun _ => rfl) t d).trans rfl
theorem before13_2 (c : Dev nD) (t : Fin cfg13.N) (d) : (dat13 V c).before 2 t d = iblk13 V c 2 t :=
  ((dat13 V c).before_in_eq_fetched 2 rfl (fun _ => rfl) (fun _ _ _ => rfl) (fun _ => rfl) t d).trans rfl

theorem body_obligation13 (c : Dev nD) : BodyObligation (dat13 (F := F) V c) (defs₀ (F := F)) Variants.none () Set.univ := fun t => by
  rw [bigSep_W13, bigSep_W13]
  simp only [before13_0, before13_1, before13_2]
  dsimp only [dat13]
  change _ ⊢ wp _ _ _ (bodyAt13 t) _
  unfold bodyAt13
  iintro ⟨HΦ, Ho, ⟨%d0, H0⟩, ⟨%d1, H1⟩, ⟨%d2, H2⟩, ⟨%d3, H3⟩⟩
  iapply (sound_kernel13 c Set.univ (grid13.coords t) _ _ _ _ _ _ _ _ (iblk13 V c 0 t) (iblk13 V c 1 t) (iblk13 V c 2 t) _)
  iframe H0 H1 H2
  isplitl [H3]; · iexists _; iexact H3
  iintro ⟨H0, H1, H2, H3⟩
  iframe
  iexact Ho

end Cert.KernelIdeal.Hand
-- ==== Proof.KI.Fold.lean ====
import proofs.«147510_j18107582120779_2_alg».proof.Proof.KI.R0
import proofs.«147510_j18107582120779_2_alg».proof.Proof.KI.R1
import proofs.«147510_j18107582120779_2_alg».proof.Proof.KI.R2
import proofs.«147510_j18107582120779_2_alg».proof.Proof.KI.R3
import proofs.«147510_j18107582120779_2_alg».proof.Proof.KI.R4
import proofs.«147510_j18107582120779_2_alg».proof.Proof.KI.R5
import proofs.«147510_j18107582120779_2_alg».proof.Proof.KI.R6
import proofs.«147510_j18107582120779_2_alg».proof.Proof.KI.R7
import proofs.«147510_j18107582120779_2_alg».proof.Proof.KI.R8
import proofs.«147510_j18107582120779_2_alg».proof.Proof.KI.R9
import proofs.«147510_j18107582120779_2_alg».proof.Proof.KI.R10
import proofs.«147510_j18107582120779_2_alg».proof.Proof.KI.R11
import proofs.«147510_j18107582120779_2_alg».proof.Proof.KI.R12
import proofs.«147510_j18107582120779_2_alg».proof.Proof.KI.R13
import proofs.«147510_j18107582120779_2_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (m : (ℓ : Loc nD τ sig) → Buf (Elt F) ℓ)

abbrev tcOf (W : Dev nD → Valuation τ sig (Elt F)) : (c : Dev nD) → (b : Ref sig .tc) → Buf (Elt F) ((c : Thread nD τ).loc b) :=
  fun c b => W c b

abbrev U1 (c : Dev nD) : Valuation τ sig (Elt F) := Gen.V1 m c

def U2 (c : Dev nD) : Valuation τ sig (Elt F) :=
  Function.update (U1 m c) main_v31 ((dat0 (tcOf (U1 m)) c).arrAt 3 cfg0.N)
theorem U2_main_v31 (c : Dev nD) : U2 m c main_v31 = (dat0 (tcOf (U1 m)) c).arrAt 3 cfg0.N := by
  unfold U2; exact Function.update_self ..
theorem U2_of (c : Dev nD) (r : Ref sig .tc) (h : r ≠ main_v31) : U2 m c r = U1 m c r := by
  unfold U2; exact Function.update_of_ne (StableHlo.devRef_ne_of_ne h) ..

theorem hF0_in (c : Dev nD) (w : Fin cfg0.W) (hin : (cfg0.win w).isOut = false) (h0 : Pipeline.arrRef spec0 w ≠ main_v31) :
    (dat0 (tcOf (U1 m)) c).arrAt w cfg0.N = tcOf (U2 m) c (Pipeline.arrRef spec0 w) :=
  (((dat0 (tcOf (U1 m)) c).arrAt_in w hin _).trans (A_eq0 (tcOf (U1 m)) c w)).trans (U2_of m c _ h0).symm

theorem hF0 (c : Dev nD) (w : Fin cfg0.W) :
    (dat0 (tcOf (U1 m)) c).arrAt w cfg0.N = tcOf (U2 m) c (Pipeline.arrRef spec0 w) :=
  match w with
  | ⟨0, _⟩ => hF0_in m c 0 rfl (by decide)
  | ⟨1, _⟩ => hF0_in m c 1 rfl (by decide)
  | ⟨2, _⟩ => hF0_in m c 2 rfl (by decide)
  | ⟨3, _⟩ => (U2_main_v31 m c).symm
  | ⟨_ + 4, h⟩ => absurd h (Nat.not_lt.2 (Nat.le_add_left _ _))

theorem hrest0 (c : Dev nD) : ∀ b, b ∉ Finset.univ.image (Pipeline.arrRef spec0) → tcOf (U2 m) c b = tcOf (U1 m) c b :=
  fun b hb => U2_of m c b (fun e => hb (Finset.mem_image.mpr ⟨3, Finset.mem_univ _, e.symm⟩))

abbrev U3 (c : Dev nD) : Valuation τ sig (Elt F) := StableHlo.after hostOps1 (U2 m c)

def U4 (c : Dev nD) : Valuation τ sig (Elt F) :=
  Function.update (U3 m c) main_v47 ((dat1 (tcOf (U3 m)) c).arrAt 3 cfg1.N)
theorem U4_main_v47 (c : Dev nD) : U4 m c main_v47 = (dat1 (tcOf (U3 m)) c).arrAt 3 cfg1.N := by
  unfold U4; exact Function.update_self ..
theorem U4_of (c : Dev nD) (r : Ref sig .tc) (h : r ≠ main_v47) : U4 m c r = U3 m c r := by
  unfold U4; exact Function.update_of_ne (StableHlo.devRef_ne_of_ne h) ..

theorem hF1_in (c : Dev nD) (w : Fin cfg1.W) (hin : (cfg1.win w).isOut = false) (h0 : Pipeline.arrRef spec1 w ≠ main_v47) :
    (dat1 (tcOf (U3 m)) c).arrAt w cfg1.N = tcOf (U4 m) c (Pipeline.arrRef spec1 w) :=
  (((dat1 (tcOf (U3 m)) c).arrAt_in w hin _).trans (A_eq1 (tcOf (U3 m)) c w)).trans (U4_of m c _ h0).symm

theorem hF1 (c : Dev nD) (w : Fin cfg1.W) :
    (dat1 (tcOf (U3 m)) c).arrAt w cfg1.N = tcOf (U4 m) c (Pipeline.arrRef spec1 w) :=
  match w with
  | ⟨0, _⟩ => hF1_in m c 0 rfl (by decide)
  | ⟨1, _⟩ => hF1_in m c 1 rfl (by decide)
  | ⟨2, _⟩ => hF1_in m c 2 rfl (by decide)
  | ⟨3, _⟩ => (U4_main_v47 m c).symm
  | ⟨_ + 4, h⟩ => absurd h (Nat.not_lt.2 (Nat.le_add_left _ _))

theorem hrest1 (c : Dev nD) : ∀ b, b ∉ Finset.univ.image (Pipeline.arrRef spec1) → tcOf (U4 m) c b = tcOf (U3 m) c b :=
  fun b hb => U4_of m c b (fun e => hb (Finset.mem_image.mpr ⟨3, Finset.mem_univ _, e.symm⟩))

def U5 (c : Dev nD) : Valuation τ sig (Elt F) :=
  Function.update (U4 m c) main_v48 ((dat2 (tcOf (U4 m)) c).arrAt 5 cfg2.N)
theorem U5_main_v48 (c : Dev nD) : U5 m c main_v48 = (dat2 (tcOf (U4 m)) c).arrAt 5 cfg2.N := by
  unfold U5; exact Function.update_self ..
theorem U5_of (c : Dev nD) (r : Ref sig .tc) (h : r ≠ main_v48) : U5 m c r = U4 m c r := by
  unfold U5; exact Function.update_of_ne (StableHlo.devRef_ne_of_ne h) ..

theorem hF2_in (c : Dev nD) (w : Fin cfg2.W) (hin : (cfg2.win w).isOut = false) (h0 : Pipeline.arrRef spec2 w ≠ main_v48) :
    (dat2 (tcOf (U4 m)) c).arrAt w cfg2.N = tcOf (U5 m) c (Pipeline.arrRef spec2 w) :=
  (((dat2 (tcOf (U4 m)) c).arrAt_in w hin _).trans (A_eq2 (tcOf (U4 m)) c w)).trans (U5_of m c _ h0).symm

theorem hF2 (c : Dev nD) (w : Fin cfg2.W) :
    (dat2 (tcOf (U4 m)) c).arrAt w cfg2.N = tcOf (U5 m) c (Pipeline.arrRef spec2 w) :=
  match w with
  | ⟨0, _⟩ => hF2_in m c 0 rfl (by decide)
  | ⟨1, _⟩ => hF2_in m c 1 rfl (by decide)
  | ⟨2, _⟩ => hF2_in m c 2 rfl (by decide)
  | ⟨3, _⟩ => hF2_in m c 3 rfl (by decide)
  | ⟨4, _⟩ => hF2_in m c 4 rfl (by decide)
  | ⟨5, _⟩ => (U5_main_v48 m c).symm
  | ⟨_ + 6, h⟩ => absurd h (Nat.not_lt.2 (Nat.le_add_left _ _))

theorem hrest2 (c : Dev nD) : ∀ b, b ∉ Finset.univ.image (Pipeline.arrRef spec2) → tcOf (U5 m) c b = tcOf (U4 m) c b :=
  fun b hb => U5_of m c b (fun e => hb (Finset.mem_image.mpr ⟨5, Finset.mem_univ _, e.symm⟩))

abbrev U6 (c : Dev nD) : Valuation τ sig (Elt F) := StableHlo.after hostOps3 (U5 m c)

def U7 (c : Dev nD) : Valuation τ sig (Elt F) :=
  Function.update (Function.update (U6 m c) main_v58_0 ((dat3 (tcOf (U6 m)) c).arrAt 9 cfg3.N)) main_v58_1 ((dat3 (tcOf (U6 m)) c).arrAt 10 cfg3.N)
theorem U7_main_v58_1 (c : Dev nD) : U7 m c main_v58_1 = (dat3 (tcOf (U6 m)) c).arrAt 10 cfg3.N := by
  unfold U7; exact Function.update_self ..
theorem U7_main_v58_0 (c : Dev nD) : U7 m c main_v58_0 = (dat3 (tcOf (U6 m)) c).arrAt 9 cfg3.N := by
  unfold U7
  exact (Function.update_of_ne (StableHlo.devRef_ne_of_ne (by decide)) ..).trans (Function.update_self ..)
theorem U7_of (c : Dev nD) (r : Ref sig .tc) (h0 : r ≠ main_v58_0) (h1 : r ≠ main_v58_1) : U7 m c r = U6 m c r := by
  unfold U7
  exact (Function.update_of_ne (StableHlo.devRef_ne_of_ne h1) ..).trans (Function.update_of_ne (StableHlo.devRef_ne_of_ne h0) ..)

theorem hF3_in (c : Dev nD) (w : Fin cfg3.W) (hin : (cfg3.win w).isOut = false) (h0 : Pipeline.arrRef spec3 w ≠ main_v58_0) (h1 : Pipeline.arrRef spec3 w ≠ main_v58_1) :
    (dat3 (tcOf (U6 m)) c).arrAt w cfg3.N = tcOf (U7 m) c (Pipeline.arrRef spec3 w) :=
  (((dat3 (tcOf (U6 m)) c).arrAt_in w hin _).trans (A_eq3 (tcOf (U6 m)) c w)).trans (U7_of m c _ h0 h1).symm

theorem hin3 : ∀ w : Fin cfg3.W, (cfg3.win w).isOut = false → Pipeline.arrRef spec3 w ≠ main_v58_0 ∧ Pipeline.arrRef spec3 w ≠ main_v58_1 := by decide
theorem hout3 : ∀ w : Fin cfg3.W, (cfg3.win w).isOut = true → w = 9 ∨ w = 10 := by decide

theorem hF3 (c : Dev nD) (w : Fin cfg3.W) :
    (dat3 (tcOf (U6 m)) c).arrAt w cfg3.N = tcOf (U7 m) c (Pipeline.arrRef spec3 w) := by
  cases h : (cfg3.win w).isOut
  · exact hF3_in m c w h (hin3 w h).1 (hin3 w h).2
  · obtain rfl | rfl := hout3 w h
    · exact (U7_main_v58_0 m c).symm
    · exact (U7_main_v58_1 m c).symm

theorem hrest3 (c : Dev nD) : ∀ b, b ∉ Finset.univ.image (Pipeline.arrRef spec3) → tcOf (U7 m) c b = tcOf (U6 m) c b :=
  fun b hb => U7_of m c b (fun e => hb (Finset.mem_image.mpr ⟨9, Finset.mem_univ _, e.symm⟩)) (fun e => hb (Finset.mem_image.mpr ⟨10, Finset.mem_univ _, e.symm⟩))

abbrev U8 (c : Dev nD) : Valuation τ sig (Elt F) := StableHlo.after hostOps4 (U7 m c)

def U9 (c : Dev nD) : Valuation τ sig (Elt F) :=
  Function.update (U8 m c) main_v74 ((dat4 (tcOf (U8 m)) c).arrAt 3 cfg4.N)
theorem U9_main_v74 (c : Dev nD) : U9 m c main_v74 = (dat4 (tcOf (U8 m)) c).arrAt 3 cfg4.N := by
  unfold U9; exact Function.update_self ..
theorem U9_of (c : Dev nD) (r : Ref sig .tc) (h : r ≠ main_v74) : U9 m c r = U8 m c r := by
  unfold U9; exact Function.update_of_ne (StableHlo.devRef_ne_of_ne h) ..

theorem hF4_in (c : Dev nD) (w : Fin cfg4.W) (hin : (cfg4.win w).isOut = false) (h0 : Pipeline.arrRef spec4 w ≠ main_v74) :
    (dat4 (tcOf (U8 m)) c).arrAt w cfg4.N = tcOf (U9 m) c (Pipeline.arrRef spec4 w) :=
  (((dat4 (tcOf (U8 m)) c).arrAt_in w hin _).trans (A_eq4 (tcOf (U8 m)) c w)).trans (U9_of m c _ h0).symm

theorem hF4 (c : Dev nD) (w : Fin cfg4.W) :
    (dat4 (tcOf (U8 m)) c).arrAt w cfg4.N = tcOf (U9 m) c (Pipeline.arrRef spec4 w) :=
  match w with
  | ⟨0, _⟩ => hF4_in m c 0 rfl (by decide)
  | ⟨1, _⟩ => hF4_in m c 1 rfl (by decide)
  | ⟨2, _⟩ => hF4_in m c 2 rfl (by decide)
  | ⟨3, _⟩ => (U9_main_v74 m c).symm
  | ⟨_ + 4, h⟩ => absurd h (Nat.not_lt.2 (Nat.le_add_left _ _))

theorem hrest4 (c : Dev nD) : ∀ b, b ∉ Finset.univ.image (Pipeline.arrRef spec4) → tcOf (U9 m) c b = tcOf (U8 m) c b :=
  fun b hb => U9_of m c b (fun e => hb (Finset.mem_image.mpr ⟨3, Finset.mem_univ _, e.symm⟩))

def U10 (c : Dev nD) : Valuation τ sig (Elt F) :=
  Function.update (U9 m c) main_v75 ((dat5 (tcOf (U9 m)) c).arrAt 5 cfg5.N)
theorem U10_main_v75 (c : Dev nD) : U10 m c main_v75 = (dat5 (tcOf (U9 m)) c).arrAt 5 cfg5.N := by
  unfold U10; exact Function.update_self ..
theorem U10_of (c : Dev nD) (r : Ref sig .tc) (h : r ≠ main_v75) : U10 m c r = U9 m c r := by
  unfold U10; exact Function.update_of_ne (StableHlo.devRef_ne_of_ne h) ..

theorem hF5_in (c : Dev nD) (w : Fin cfg5.W) (hin : (cfg5.win w).isOut = false) (h0 : Pipeline.arrRef spec5 w ≠ main_v75) :
    (dat5 (tcOf (U9 m)) c).arrAt w cfg5.N = tcOf (U10 m) c (Pipeline.arrRef spec5 w) :=
  (((dat5 (tcOf (U9 m)) c).arrAt_in w hin _).trans (A_eq5 (tcOf (U9 m)) c w)).trans (U10_of m c _ h0).symm

theorem hF5 (c : Dev nD) (w : Fin cfg5.W) :
    (dat5 (tcOf (U9 m)) c).arrAt w cfg5.N = tcOf (U10 m) c (Pipeline.arrRef spec5 w) :=
  match w with
  | ⟨0, _⟩ => hF5_in m c 0 rfl (by decide)
  | ⟨1, _⟩ => hF5_in m c 1 rfl (by decide)
  | ⟨2, _⟩ => hF5_in m c 2 rfl (by decide)
  | ⟨3, _⟩ => hF5_in m c 3 rfl (by decide)
  | ⟨4, _⟩ => hF5_in m c 4 rfl (by decide)
  | ⟨5, _⟩ => (U10_main_v75 m c).symm
  | ⟨_ + 6, h⟩ => absurd h (Nat.not_lt.2 (Nat.le_add_left _ _))

theorem hrest5 (c : Dev nD) : ∀ b, b ∉ Finset.univ.image (Pipeline.arrRef spec5) → tcOf (U10 m) c b = tcOf (U9 m) c b :=
  fun b hb => U10_of m c b (fun e => hb (Finset.mem_image.mpr ⟨5, Finset.mem_univ _, e.symm⟩))

abbrev U11 (c : Dev nD) : Valuation τ sig (Elt F) := StableHlo.after hostOps6 (U10 m c)

def U12 (c : Dev nD) : Valuation τ sig (Elt F) :=
  Function.update (Function.update (U11 m c) main_v85_0 ((dat6 (tcOf (U11 m)) c).arrAt 9 cfg6.N)) main_v85_1 ((dat6 (tcOf (U11 m)) c).arrAt 10 cfg6.N)
theorem U12_main_v85_1 (c : Dev nD) : U12 m c main_v85_1 = (dat6 (tcOf (U11 m)) c).arrAt 10 cfg6.N := by
  unfold U12; exact Function.update_self ..
theorem U12_main_v85_0 (c : Dev nD) : U12 m c main_v85_0 = (dat6 (tcOf (U11 m)) c).arrAt 9 cfg6.N := by
  unfold U12
  exact (Function.update_of_ne (StableHlo.devRef_ne_of_ne (by decide)) ..).trans (Function.update_self ..)
theorem U12_of (c : Dev nD) (r : Ref sig .tc) (h0 : r ≠ main_v85_0) (h1 : r ≠ main_v85_1) : U12 m c r = U11 m c r := by
  unfold U12
  exact (Function.update_of_ne (StableHlo.devRef_ne_of_ne h1) ..).trans (Function.update_of_ne (StableHlo.devRef_ne_of_ne h0) ..)

theorem hF6_in (c : Dev nD) (w : Fin cfg6.W) (hin : (cfg6.win w).isOut = false) (h0 : Pipeline.arrRef spec6 w ≠ main_v85_0) (h1 : Pipeline.arrRef spec6 w ≠ main_v85_1) :
    (dat6 (tcOf (U11 m)) c).arrAt w cfg6.N = tcOf (U12 m) c (Pipeline.arrRef spec6 w) :=
  (((dat6 (tcOf (U11 m)) c).arrAt_in w hin _).trans (A_eq6 (tcOf (U11 m)) c w)).trans (U12_of m c _ h0 h1).symm

theorem hin6 : ∀ w : Fin cfg6.W, (cfg6.win w).isOut = false → Pipeline.arrRef spec6 w ≠ main_v85_0 ∧ Pipeline.arrRef spec6 w ≠ main_v85_1 := by decide
theorem hout6 : ∀ w : Fin cfg6.W, (cfg6.win w).isOut = true → w = 9 ∨ w = 10 := by decide

theorem hF6 (c : Dev nD) (w : Fin cfg6.W) :
    (dat6 (tcOf (U11 m)) c).arrAt w cfg6.N = tcOf (U12 m) c (Pipeline.arrRef spec6 w) := by
  cases h : (cfg6.win w).isOut
  · exact hF6_in m c w h (hin6 w h).1 (hin6 w h).2
  · obtain rfl | rfl := hout6 w h
    · exact (U12_main_v85_0 m c).symm
    · exact (U12_main_v85_1 m c).symm

theorem hrest6 (c : Dev nD) : ∀ b, b ∉ Finset.univ.image (Pipeline.arrRef spec6) → tcOf (U12 m) c b = tcOf (U11 m) c b :=
  fun b hb => U12_of m c b (fun e => hb (Finset.mem_image.mpr ⟨9, Finset.mem_univ _, e.symm⟩)) (fun e => hb (Finset.mem_image.mpr ⟨10, Finset.mem_univ _, e.symm⟩))

abbrev U13 (c : Dev nD) : Valuation τ sig (Elt F) := StableHlo.after hostOps7 (U12 m c)

def U14 (c : Dev nD) : Valuation τ sig (Elt F) :=
  Function.update (U13 m c) main_v101 ((dat7 (tcOf (U13 m)) c).arrAt 3 cfg7.N)
theorem U14_main_v101 (c : Dev nD) : U14 m c main_v101 = (dat7 (tcOf (U13 m)) c).arrAt 3 cfg7.N := by
  unfold U14; exact Function.update_self ..
theorem U14_of (c : Dev nD) (r : Ref sig .tc) (h : r ≠ main_v101) : U14 m c r = U13 m c r := by
  unfold U14; exact Function.update_of_ne (StableHlo.devRef_ne_of_ne h) ..

theorem hF7_in (c : Dev nD) (w : Fin cfg7.W) (hin : (cfg7.win w).isOut = false) (h0 : Pipeline.arrRef spec7 w ≠ main_v101) :
    (dat7 (tcOf (U13 m)) c).arrAt w cfg7.N = tcOf (U14 m) c (Pipeline.arrRef spec7 w) :=
  (((dat7 (tcOf (U13 m)) c).arrAt_in w hin _).trans (A_eq7 (tcOf (U13 m)) c w)).trans (U14_of m c _ h0).symm

theorem hF7 (c : Dev nD) (w : Fin cfg7.W) :
    (dat7 (tcOf (U13 m)) c).arrAt w cfg7.N = tcOf (U14 m) c (Pipeline.arrRef spec7 w) :=
  match w with
  | ⟨0, _⟩ => hF7_in m c 0 rfl (by decide)
  | ⟨1, _⟩ => hF7_in m c 1 rfl (by decide)
  | ⟨2, _⟩ => hF7_in m c 2 rfl (by decide)
  | ⟨3, _⟩ => (U14_main_v101 m c).symm
  | ⟨_ + 4, h⟩ => absurd h (Nat.not_lt.2 (Nat.le_add_left _ _))

theorem hrest7 (c : Dev nD) : ∀ b, b ∉ Finset.univ.image (Pipeline.arrRef spec7) → tcOf (U14 m) c b = tcOf (U13 m) c b :=
  fun b hb => U14_of m c b (fun e => hb (Finset.mem_image.mpr ⟨3, Finset.mem_univ _, e.symm⟩))

def U15 (c : Dev nD) : Valuation τ sig (Elt F) :=
  Function.update (U14 m c) main_v102 ((dat8 (tcOf (U14 m)) c).arrAt 5 cfg8.N)
theorem U15_main_v102 (c : Dev nD) : U15 m c main_v102 = (dat8 (tcOf (U14 m)) c).arrAt 5 cfg8.N := by
  unfold U15; exact Function.update_self ..
theorem U15_of (c : Dev nD) (r : Ref sig .tc) (h : r ≠ main_v102) : U15 m c r = U14 m c r := by
  unfold U15; exact Function.update_of_ne (StableHlo.devRef_ne_of_ne h) ..

theorem hF8_in (c : Dev nD) (w : Fin cfg8.W) (hin : (cfg8.win w).isOut = false) (h0 : Pipeline.arrRef spec8 w ≠ main_v102) :
    (dat8 (tcOf (U14 m)) c).arrAt w cfg8.N = tcOf (U15 m) c (Pipeline.arrRef spec8 w) :=
  (((dat8 (tcOf (U14 m)) c).arrAt_in w hin _).trans (A_eq8 (tcOf (U14 m)) c w)).trans (U15_of m c _ h0).symm

theorem hF8 (c : Dev nD) (w : Fin cfg8.W) :
    (dat8 (tcOf (U14 m)) c).arrAt w cfg8.N = tcOf (U15 m) c (Pipeline.arrRef spec8 w) :=
  match w with
  | ⟨0, _⟩ => hF8_in m c 0 rfl (by decide)
  | ⟨1, _⟩ => hF8_in m c 1 rfl (by decide)
  | ⟨2, _⟩ => hF8_in m c 2 rfl (by decide)
  | ⟨3, _⟩ => hF8_in m c 3 rfl (by decide)
  | ⟨4, _⟩ => hF8_in m c 4 rfl (by decide)
  | ⟨5, _⟩ => (U15_main_v102 m c).symm
  | ⟨_ + 6, h⟩ => absurd h (Nat.not_lt.2 (Nat.le_add_left _ _))

theorem hrest8 (c : Dev nD) : ∀ b, b ∉ Finset.univ.image (Pipeline.arrRef spec8) → tcOf (U15 m) c b = tcOf (U14 m) c b :=
  fun b hb => U15_of m c b (fun e => hb (Finset.mem_image.mpr ⟨5, Finset.mem_univ _, e.symm⟩))

abbrev U16 (c : Dev nD) : Valuation τ sig (Elt F) := StableHlo.after hostOps9 (U15 m c)

def U17 (c : Dev nD) : Valuation τ sig (Elt F) :=
  Function.update (Function.update (U16 m c) main_v112_0 ((dat9 (tcOf (U16 m)) c).arrAt 9 cfg9.N)) main_v112_1 ((dat9 (tcOf (U16 m)) c).arrAt 10 cfg9.N)
theorem U17_main_v112_1 (c : Dev nD) : U17 m c main_v112_1 = (dat9 (tcOf (U16 m)) c).arrAt 10 cfg9.N := by
  unfold U17; exact Function.update_self ..
theorem U17_main_v112_0 (c : Dev nD) : U17 m c main_v112_0 = (dat9 (tcOf (U16 m)) c).arrAt 9 cfg9.N := by
  unfold U17
  exact (Function.update_of_ne (StableHlo.devRef_ne_of_ne (by decide)) ..).trans (Function.update_self ..)
theorem U17_of (c : Dev nD) (r : Ref sig .tc) (h0 : r ≠ main_v112_0) (h1 : r ≠ main_v112_1) : U17 m c r = U16 m c r := by
  unfold U17
  exact (Function.update_of_ne (StableHlo.devRef_ne_of_ne h1) ..).trans (Function.update_of_ne (StableHlo.devRef_ne_of_ne h0) ..)

theorem hF9_in (c : Dev nD) (w : Fin cfg9.W) (hin : (cfg9.win w).isOut = false) (h0 : Pipeline.arrRef spec9 w ≠ main_v112_0) (h1 : Pipeline.arrRef spec9 w ≠ main_v112_1) :
    (dat9 (tcOf (U16 m)) c).arrAt w cfg9.N = tcOf (U17 m) c (Pipeline.arrRef spec9 w) :=
  (((dat9 (tcOf (U16 m)) c).arrAt_in w hin _).trans (A_eq9 (tcOf (U16 m)) c w)).trans (U17_of m c _ h0 h1).symm

theorem hin9 : ∀ w : Fin cfg9.W, (cfg9.win w).isOut = false → Pipeline.arrRef spec9 w ≠ main_v112_0 ∧ Pipeline.arrRef spec9 w ≠ main_v112_1 := by decide
theorem hout9 : ∀ w : Fin cfg9.W, (cfg9.win w).isOut = true → w = 9 ∨ w = 10 := by decide

theorem hF9 (c : Dev nD) (w : Fin cfg9.W) :
    (dat9 (tcOf (U16 m)) c).arrAt w cfg9.N = tcOf (U17 m) c (Pipeline.arrRef spec9 w) := by
  cases h : (cfg9.win w).isOut
  · exact hF9_in m c w h (hin9 w h).1 (hin9 w h).2
  · obtain rfl | rfl := hout9 w h
    · exact (U17_main_v112_0 m c).symm
    · exact (U17_main_v112_1 m c).symm

theorem hrest9 (c : Dev nD) : ∀ b, b ∉ Finset.univ.image (Pipeline.arrRef spec9) → tcOf (U17 m) c b = tcOf (U16 m) c b :=
  fun b hb => U17_of m c b (fun e => hb (Finset.mem_image.mpr ⟨9, Finset.mem_univ _, e.symm⟩)) (fun e => hb (Finset.mem_image.mpr ⟨10, Finset.mem_univ _, e.symm⟩))

abbrev U18 (c : Dev nD) : Valuation τ sig (Elt F) := StableHlo.after hostOps10 (U17 m c)

def U19 (c : Dev nD) : Valuation τ sig (Elt F) :=
  Function.update (U18 m c) main_v128 ((dat10 (tcOf (U18 m)) c).arrAt 3 cfg10.N)
theorem U19_main_v128 (c : Dev nD) : U19 m c main_v128 = (dat10 (tcOf (U18 m)) c).arrAt 3 cfg10.N := by
  unfold U19; exact Function.update_self ..
theorem U19_of (c : Dev nD) (r : Ref sig .tc) (h : r ≠ main_v128) : U19 m c r = U18 m c r := by
  unfold U19; exact Function.update_of_ne (StableHlo.devRef_ne_of_ne h) ..

theorem hF10_in (c : Dev nD) (w : Fin cfg10.W) (hin : (cfg10.win w).isOut = false) (h0 : Pipeline.arrRef spec10 w ≠ main_v128) :
    (dat10 (tcOf (U18 m)) c).arrAt w cfg10.N = tcOf (U19 m) c (Pipeline.arrRef spec10 w) :=
  (((dat10 (tcOf (U18 m)) c).arrAt_in w hin _).trans (A_eq10 (tcOf (U18 m)) c w)).trans (U19_of m c _ h0).symm

theorem hF10 (c : Dev nD) (w : Fin cfg10.W) :
    (dat10 (tcOf (U18 m)) c).arrAt w cfg10.N = tcOf (U19 m) c (Pipeline.arrRef spec10 w) :=
  match w with
  | ⟨0, _⟩ => hF10_in m c 0 rfl (by decide)
  | ⟨1, _⟩ => hF10_in m c 1 rfl (by decide)
  | ⟨2, _⟩ => hF10_in m c 2 rfl (by decide)
  | ⟨3, _⟩ => (U19_main_v128 m c).symm
  | ⟨_ + 4, h⟩ => absurd h (Nat.not_lt.2 (Nat.le_add_left _ _))

theorem hrest10 (c : Dev nD) : ∀ b, b ∉ Finset.univ.image (Pipeline.arrRef spec10) → tcOf (U19 m) c b = tcOf (U18 m) c b :=
  fun b hb => U19_of m c b (fun e => hb (Finset.mem_image.mpr ⟨3, Finset.mem_univ _, e.symm⟩))

def U20 (c : Dev nD) : Valuation τ sig (Elt F) :=
  Function.update (U19 m c) main_v129 ((dat11 (tcOf (U19 m)) c).arrAt 5 cfg11.N)
theorem U20_main_v129 (c : Dev nD) : U20 m c main_v129 = (dat11 (tcOf (U19 m)) c).arrAt 5 cfg11.N := by
  unfold U20; exact Function.update_self ..
theorem U20_of (c : Dev nD) (r : Ref sig .tc) (h : r ≠ main_v129) : U20 m c r = U19 m c r := by
  unfold U20; exact Function.update_of_ne (StableHlo.devRef_ne_of_ne h) ..

theorem hF11_in (c : Dev nD) (w : Fin cfg11.W) (hin : (cfg11.win w).isOut = false) (h0 : Pipeline.arrRef spec11 w ≠ main_v129) :
    (dat11 (tcOf (U19 m)) c).arrAt w cfg11.N = tcOf (U20 m) c (Pipeline.arrRef spec11 w) :=
  (((dat11 (tcOf (U19 m)) c).arrAt_in w hin _).trans (A_eq11 (tcOf (U19 m)) c w)).trans (U20_of m c _ h0).symm

theorem hF11 (c : Dev nD) (w : Fin cfg11.W) :
    (dat11 (tcOf (U19 m)) c).arrAt w cfg11.N = tcOf (U20 m) c (Pipeline.arrRef spec11 w) :=
  match w with
  | ⟨0, _⟩ => hF11_in m c 0 rfl (by decide)
  | ⟨1, _⟩ => hF11_in m c 1 rfl (by decide)
  | ⟨2, _⟩ => hF11_in m c 2 rfl (by decide)
  | ⟨3, _⟩ => hF11_in m c 3 rfl (by decide)
  | ⟨4, _⟩ => hF11_in m c 4 rfl (by decide)
  | ⟨5, _⟩ => (U20_main_v129 m c).symm
  | ⟨_ + 6, h⟩ => absurd h (Nat.not_lt.2 (Nat.le_add_left _ _))

theorem hrest11 (c : Dev nD) : ∀ b, b ∉ Finset.univ.image (Pipeline.arrRef spec11) → tcOf (U20 m) c b = tcOf (U19 m) c b :=
  fun b hb => U20_of m c b (fun e => hb (Finset.mem_image.mpr ⟨5, Finset.mem_univ _, e.symm⟩))

abbrev U21 (c : Dev nD) : Valuation τ sig (Elt F) := StableHlo.after hostOps12 (U20 m c)

def U22 (c : Dev nD) : Valuation τ sig (Elt F) :=
  Function.update (Function.update (U21 m c) main_v139_0 ((dat12 (tcOf (U21 m)) c).arrAt 9 cfg12.N)) main_v139_1 ((dat12 (tcOf (U21 m)) c).arrAt 10 cfg12.N)
theorem U22_main_v139_1 (c : Dev nD) : U22 m c main_v139_1 = (dat12 (tcOf (U21 m)) c).arrAt 10 cfg12.N := by
  unfold U22; exact Function.update_self ..
theorem U22_main_v139_0 (c : Dev nD) : U22 m c main_v139_0 = (dat12 (tcOf (U21 m)) c).arrAt 9 cfg12.N := by
  unfold U22
  exact (Function.update_of_ne (StableHlo.devRef_ne_of_ne (by decide)) ..).trans (Function.update_self ..)
theorem U22_of (c : Dev nD) (r : Ref sig .tc) (h0 : r ≠ main_v139_0) (h1 : r ≠ main_v139_1) : U22 m c r = U21 m c r := by
  unfold U22
  exact (Function.update_of_ne (StableHlo.devRef_ne_of_ne h1) ..).trans (Function.update_of_ne (StableHlo.devRef_ne_of_ne h0) ..)

theorem hF12_in (c : Dev nD) (w : Fin cfg12.W) (hin : (cfg12.win w).isOut = false) (h0 : Pipeline.arrRef spec12 w ≠ main_v139_0) (h1 : Pipeline.arrRef spec12 w ≠ main_v139_1) :
    (dat12 (tcOf (U21 m)) c).arrAt w cfg12.N = tcOf (U22 m) c (Pipeline.arrRef spec12 w) :=
  (((dat12 (tcOf (U21 m)) c).arrAt_in w hin _).trans (A_eq12 (tcOf (U21 m)) c w)).trans (U22_of m c _ h0 h1).symm

theorem hin12 : ∀ w : Fin cfg12.W, (cfg12.win w).isOut = false → Pipeline.arrRef spec12 w ≠ main_v139_0 ∧ Pipeline.arrRef spec12 w ≠ main_v139_1 := by decide
theorem hout12 : ∀ w : Fin cfg12.W, (cfg12.win w).isOut = true → w = 9 ∨ w = 10 := by decide

theorem hF12 (c : Dev nD) (w : Fin cfg12.W) :
    (dat12 (tcOf (U21 m)) c).arrAt w cfg12.N = tcOf (U22 m) c (Pipeline.arrRef spec12 w) := by
  cases h : (cfg12.win w).isOut
  · exact hF12_in m c w h (hin12 w h).1 (hin12 w h).2
  · obtain rfl | rfl := hout12 w h
    · exact (U22_main_v139_0 m c).symm
    · exact (U22_main_v139_1 m c).symm

theorem hrest12 (c : Dev nD) : ∀ b, b ∉ Finset.univ.image (Pipeline.arrRef spec12) → tcOf (U22 m) c b = tcOf (U21 m) c b :=
  fun b hb => U22_of m c b (fun e => hb (Finset.mem_image.mpr ⟨9, Finset.mem_univ _, e.symm⟩)) (fun e => hb (Finset.mem_image.mpr ⟨10, Finset.mem_univ _, e.symm⟩))

abbrev U23 (c : Dev nD) : Valuation τ sig (Elt F) := StableHlo.after hostOps13 (U22 m c)

def U24 (c : Dev nD) : Valuation τ sig (Elt F) :=
  Function.update (U23 m c) main_v141 ((dat13 (tcOf (U23 m)) c).arrAt 3 cfg13.N)
theorem U24_main_v141 (c : Dev nD) : U24 m c main_v141 = (dat13 (tcOf (U23 m)) c).arrAt 3 cfg13.N := by
  unfold U24; exact Function.update_self ..
theorem U24_of (c : Dev nD) (r : Ref sig .tc) (h : r ≠ main_v141) : U24 m c r = U23 m c r := by
  unfold U24; exact Function.update_of_ne (StableHlo.devRef_ne_of_ne h) ..

theorem hF13_in (c : Dev nD) (w : Fin cfg13.W) (hin : (cfg13.win w).isOut = false) (h0 : Pipeline.arrRef spec13 w ≠ main_v141) :
    (dat13 (tcOf (U23 m)) c).arrAt w cfg13.N = tcOf (U24 m) c (Pipeline.arrRef spec13 w) :=
  (((dat13 (tcOf (U23 m)) c).arrAt_in w hin _).trans (A_eq13 (tcOf (U23 m)) c w)).trans (U24_of m c _ h0).symm

theorem hF13 (c : Dev nD) (w : Fin cfg13.W) :
    (dat13 (tcOf (U23 m)) c).arrAt w cfg13.N = tcOf (U24 m) c (Pipeline.arrRef spec13 w) :=
  match w with
  | ⟨0, _⟩ => hF13_in m c 0 rfl (by decide)
  | ⟨1, _⟩ => hF13_in m c 1 rfl (by decide)
  | ⟨2, _⟩ => hF13_in m c 2 rfl (by decide)
  | ⟨3, _⟩ => (U24_main_v141 m c).symm
  | ⟨_ + 4, h⟩ => absurd h (Nat.not_lt.2 (Nat.le_add_left _ _))

theorem hrest13 (c : Dev nD) : ∀ b, b ∉ Finset.univ.image (Pipeline.arrRef spec13) → tcOf (U24 m) c b = tcOf (U23 m) c b :=
  fun b hb => U24_of m c b (fun e => hb (Finset.mem_image.mpr ⟨3, Finset.mem_univ _, e.symm⟩))

def outs : Gen.Outs (F := F) := fun J r c =>
  match J with
  | 2 => U2 m c r
  | 4 => U4 m c r
  | 5 => U5 m c r
  | 7 => U7 m c r
  | 9 => U9 m c r
  | 10 => U10 m c r
  | 12 => U12 m c r
  | 14 => U14 m c r
  | 15 => U15 m c r
  | 17 => U17 m c r
  | 19 => U19 m c r
  | 20 => U20 m c r
  | 22 => U22 m c r
  | 24 => U24 m c r
  | _ => U1 m c r

theorem V1_eq (c : Dev nD) : Gen.V1 m c = U1 m c := rfl
theorem V2_eq (c : Dev nD) : Gen.V2 m (outs m) c = U2 m c := by
  show Function.update (Gen.V1 m c) main_v31 (U2 m c main_v31) = U2 m c
  rw [V1_eq, U2_main_v31]; rfl
theorem V3_eq (c : Dev nD) : Gen.V3 m (outs m) c = U3 m c := by
  show StableHlo.after hostOps1 (Gen.V2 m (outs m) c) = _
  rw [V2_eq]
theorem V4_eq (c : Dev nD) : Gen.V4 m (outs m) c = U4 m c := by
  show Function.update (Gen.V3 m (outs m) c) main_v47 (U4 m c main_v47) = U4 m c
  rw [V3_eq, U4_main_v47]; rfl
theorem V5_eq (c : Dev nD) : Gen.V5 m (outs m) c = U5 m c := by
  show Function.update (Gen.V4 m (outs m) c) main_v48 (U5 m c main_v48) = U5 m c
  rw [V4_eq, U5_main_v48]; rfl
theorem V6_eq (c : Dev nD) : Gen.V6 m (outs m) c = U6 m c := by
  show StableHlo.after hostOps3 (Gen.V5 m (outs m) c) = _
  rw [V5_eq]
theorem V7_eq (c : Dev nD) : Gen.V7 m (outs m) c = U7 m c := by
  show Function.update (Function.update (Gen.V6 m (outs m) c) main_v58_0 (U7 m c main_v58_0)) main_v58_1 (U7 m c main_v58_1) = U7 m c
  rw [V6_eq, U7_main_v58_0, U7_main_v58_1]; rfl
theorem V8_eq (c : Dev nD) : Gen.V8 m (outs m) c = U8 m c := by
  show StableHlo.after hostOps4 (Gen.V7 m (outs m) c) = _
  rw [V7_eq]
theorem V9_eq (c : Dev nD) : Gen.V9 m (outs m) c = U9 m c := by
  show Function.update (Gen.V8 m (outs m) c) main_v74 (U9 m c main_v74) = U9 m c
  rw [V8_eq, U9_main_v74]; rfl
theorem V10_eq (c : Dev nD) : Gen.V10 m (outs m) c = U10 m c := by
  show Function.update (Gen.V9 m (outs m) c) main_v75 (U10 m c main_v75) = U10 m c
  rw [V9_eq, U10_main_v75]; rfl
theorem V11_eq (c : Dev nD) : Gen.V11 m (outs m) c = U11 m c := by
  show StableHlo.after hostOps6 (Gen.V10 m (outs m) c) = _
  rw [V10_eq]
theorem V12_eq (c : Dev nD) : Gen.V12 m (outs m) c = U12 m c := by
  show Function.update (Function.update (Gen.V11 m (outs m) c) main_v85_0 (U12 m c main_v85_0)) main_v85_1 (U12 m c main_v85_1) = U12 m c
  rw [V11_eq, U12_main_v85_0, U12_main_v85_1]; rfl
theorem V13_eq (c : Dev nD) : Gen.V13 m (outs m) c = U13 m c := by
  show StableHlo.after hostOps7 (Gen.V12 m (outs m) c) = _
  rw [V12_eq]
theorem V14_eq (c : Dev nD) : Gen.V14 m (outs m) c = U14 m c := by
  show Function.update (Gen.V13 m (outs m) c) main_v101 (U14 m c main_v101) = U14 m c
  rw [V13_eq, U14_main_v101]; rfl
theorem V15_eq (c : Dev nD) : Gen.V15 m (outs m) c = U15 m c := by
  show Function.update (Gen.V14 m (outs m) c) main_v102 (U15 m c main_v102) = U15 m c
  rw [V14_eq, U15_main_v102]; rfl
theorem V16_eq (c : Dev nD) : Gen.V16 m (outs m) c = U16 m c := by
  show StableHlo.after hostOps9 (Gen.V15 m (outs m) c) = _
  rw [V15_eq]
theorem V17_eq (c : Dev nD) : Gen.V17 m (outs m) c = U17 m c := by
  show Function.update (Function.update (Gen.V16 m (outs m) c) main_v112_0 (U17 m c main_v112_0)) main_v112_1 (U17 m c main_v112_1) = U17 m c
  rw [V16_eq, U17_main_v112_0, U17_main_v112_1]; rfl
theorem V18_eq (c : Dev nD) : Gen.V18 m (outs m) c = U18 m c := by
  show StableHlo.after hostOps10 (Gen.V17 m (outs m) c) = _
  rw [V17_eq]
theorem V19_eq (c : Dev nD) : Gen.V19 m (outs m) c = U19 m c := by
  show Function.update (Gen.V18 m (outs m) c) main_v128 (U19 m c main_v128) = U19 m c
  rw [V18_eq, U19_main_v128]; rfl
theorem V20_eq (c : Dev nD) : Gen.V20 m (outs m) c = U20 m c := by
  show Function.update (Gen.V19 m (outs m) c) main_v129 (U20 m c main_v129) = U20 m c
  rw [V19_eq, U20_main_v129]; rfl
theorem V21_eq (c : Dev nD) : Gen.V21 m (outs m) c = U21 m c := by
  show StableHlo.after hostOps12 (Gen.V20 m (outs m) c) = _
  rw [V20_eq]
theorem V22_eq (c : Dev nD) : Gen.V22 m (outs m) c = U22 m c := by
  show Function.update (Function.update (Gen.V21 m (outs m) c) main_v139_0 (U22 m c main_v139_0)) main_v139_1 (U22 m c main_v139_1) = U22 m c
  rw [V21_eq, U22_main_v139_0, U22_main_v139_1]; rfl
theorem V23_eq (c : Dev nD) : Gen.V23 m (outs m) c = U23 m c := by
  show StableHlo.after hostOps13 (Gen.V22 m (outs m) c) = _
  rw [V22_eq]
theorem V24_eq (c : Dev nD) : Gen.V24 m (outs m) c = U24 m c := by
  show Function.update (Gen.V23 m (outs m) c) main_v141 (U24 m c main_v141) = U24 m c
  rw [V23_eq, U24_main_v141]; rfl

def pdats : (p : Fin 14) → (c : Dev nD) → Dat τ (Elt F) Unit ℕ (UR sig nD τ) ℕ (Pipeline.pin (pcfgs (F := F)) adm p) c
  | ⟨0, _⟩ => fun c => dat0 (tcOf (U1 m)) c
  | ⟨1, _⟩ => fun c => dat1 (tcOf (U3 m)) c
  | ⟨2, _⟩ => fun c => dat2 (tcOf (U4 m)) c
  | ⟨3, _⟩ => fun c => dat3 (tcOf (U6 m)) c
  | ⟨4, _⟩ => fun c => dat4 (tcOf (U8 m)) c
  | ⟨5, _⟩ => fun c => dat5 (tcOf (U9 m)) c
  | ⟨6, _⟩ => fun c => dat6 (tcOf (U11 m)) c
  | ⟨7, _⟩ => fun c => dat7 (tcOf (U13 m)) c
  | ⟨8, _⟩ => fun c => dat8 (tcOf (U14 m)) c
  | ⟨9, _⟩ => fun c => dat9 (tcOf (U16 m)) c
  | ⟨10, _⟩ => fun c => dat10 (tcOf (U18 m)) c
  | ⟨11, _⟩ => fun c => dat11 (tcOf (U19 m)) c
  | ⟨12, _⟩ => fun c => dat12 (tcOf (U21 m)) c
  | ⟨13, _⟩ => fun c => dat13 (tcOf (U23 m)) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.KI.RegOf.lean ====
import proofs.«147510_j18107582120779_2_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (m : (ℓ : Loc nD τ sig) → Buf (Elt F) ℓ)

set_option backward.isDefEq.respectTransparency.types false in
/-- A region whose windows stage distinct whole arrays: its arrays leave the unscoped buffers at `Uin` and rejoin them at `Uout`. -/
def regOf (p : Fin 14) (lf : Pipeline.LaunchFacts (nD := nD) (τ := τ) cfgs p)
    (Uin Uout : Dev nD → Valuation τ sig (Elt F))
    (hbody : ∀ c, Pipeline.BodyObligationLoose (pdats m p c) defs₀ 𝒱₀ () Set.univ)
    (howed : ∀ c t, (pdats m p c).owed t = 0) (hrec : ∀ c t, (pdats m p c).recorded t = Set.univ)
    (hq : ∀ c w, (pdats m p c).q w = fullShare)
    (hA : ∀ c w, (pdats m p c).A w = tcOf Uin c (Pipeline.arrRef (cfgs p).spec w))
    (hΦ : ∀ c i, (pdats m p c).Φ i = Pipeline.ΦA (cfgs p).spec c)
    (hF : ∀ c w, (pdats m p c).arrAt w (cfgs p).N = tcOf Uout c (Pipeline.arrRef (cfgs p).spec w))
    (hrest : ∀ c b, b ∉ Finset.univ.image (Pipeline.arrRef (cfgs p).spec) → tcOf Uout c b = tcOf Uin c b) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Uin c) ∗ R c)
  post c := iprop(StableHlo.held (c : Thread nD τ) (Pipeline.ucRefs τ sig) (Uout c) ∗ R c)
  X c := iprop(∃ r, prngReg c r)
  Y c := iprop(∃ r, prngReg c r)
  Z c := Pipeline.unscopedRest (Ix := Unit) (Name := ℕ) (U := UR sig nD τ) (Lvl := ℕ) (cfgs p).spec c (tcOf Uin c)
  hentry c := by
    rw [Pipeline.ownSems0_none]
    have hsplit := Pipeline.arrays_of_unscopedBufs (p := p) (pcfgs (F := F)) adm (pdats m) lf.win lf.arr_whole c
      ((pdats m p c).share_full (hq c)) (tcOf Uin c) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [howed c 0, hrec c 0]
      icases HO with ⟨%W, HO⟩; iexists W; isplitr; · ipureintro; exact fun _ _ => Or.inl trivial
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (tcOf Uin c) (tcOf Uout c) ((pdats m p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

def reg0 : Pipeline.RegionSeg (pcfgs (F := F)) adm (pdats m) () defs₀ 𝒱₀ L lv 0 :=
  regOf m 0 launch0 (U1 m) (U2 m) (fun c => (body_obligation0 (tcOf (U1 m)) c).loose) (fun _ _ => rfl) (fun _ _ => rfl)
    (fun _ _ => rfl) (fun _ _ => rfl) (fun _ _ => rfl) (hF0 m) (hrest0 m)

def reg1 : Pipeline.RegionSeg (pcfgs (F := F)) adm (pdats m) () defs₀ 𝒱₀ L lv 1 :=
  regOf m 1 launch1 (U3 m) (U4 m) (fun c => (body_obligation1 (tcOf (U3 m)) c).loose) (fun _ _ => rfl) (fun _ _ => rfl)
    (fun _ _ => rfl) (fun _ _ => rfl) (fun _ _ => rfl) (hF1 m) (hrest1 m)

def reg2 : Pipeline.RegionSeg (pcfgs (F := F)) adm (pdats m) () defs₀ 𝒱₀ L lv 2 :=
  regOf m 2 launch2 (U4 m) (U5 m) (fun c => (body_obligation2 (tcOf (U4 m)) c).loose) (fun _ _ => rfl) (fun _ _ => rfl)
    (fun _ _ => rfl) (fun _ _ => rfl) (fun _ _ => rfl) (hF2 m) (hrest2 m)

def reg4 : Pipeline.RegionSeg (pcfgs (F := F)) adm (pdats m) () defs₀ 𝒱₀ L lv 4 :=
  regOf m 4 launch4 (U8 m) (U9 m) (fun c => (body_obligation4 (tcOf (U8 m)) c).loose) (fun _ _ => rfl) (fun _ _ => rfl)
    (fun _ _ => rfl) (fun _ _ => rfl) (fun _ _ => rfl) (hF4 m) (hrest4 m)

def reg5 : Pipeline.RegionSeg (pcfgs (F := F)) adm (pdats m) () defs₀ 𝒱₀ L lv 5 :=
  regOf m 5 launch5 (U9 m) (U10 m) (fun c => (body_obligation5 (tcOf (U9 m)) c).loose) (fun _ _ => rfl) (fun _ _ => rfl)
    (fun _ _ => rfl) (fun _ _ => rfl) (fun _ _ => rfl) (hF5 m) (hrest5 m)

def reg6 : Pipeline.RegionSeg (pcfgs (F := F)) adm (pdats m) () defs₀ 𝒱₀ L lv 6 :=
  regOf m 6 launch6 (U11 m) (U12 m) (fun c => (body_obligation6 (tcOf (U11 m)) c).loose) (fun _ _ => rfl) (fun _ _ => rfl)
    (fun _ _ => rfl) (fun _ _ => rfl) (fun _ _ => rfl) (hF6 m) (hrest6 m)

def reg7 : Pipeline.RegionSeg (pcfgs (F := F)) adm (pdats m) () defs₀ 𝒱₀ L lv 7 :=
  regOf m 7 launch7 (U13 m) (U14 m) (fun c => (body_obligation7 (tcOf (U13 m)) c).loose) (fun _ _ => rfl) (fun _ _ => rfl)
    (fun _ _ => rfl) (fun _ _ => rfl) (fun _ _ => rfl) (hF7 m) (hrest7 m)

def reg8 : Pipeline.RegionSeg (pcfgs (F := F)) adm (pdats m) () defs₀ 𝒱₀ L lv 8 :=
  regOf m 8 launch8 (U14 m) (U15 m) (fun c => (body_obligation8 (tcOf (U14 m)) c).loose) (fun _ _ => rfl) (fun _ _ => rfl)
    (fun _ _ => rfl) (fun _ _ => rfl) (fun _ _ => rfl) (hF8 m) (hrest8 m)

def reg9 : Pipeline.RegionSeg (pcfgs (F := F)) adm (pdats m) () defs₀ 𝒱₀ L lv 9 :=
  regOf m 9 launch9 (U16 m) (U17 m) (fun c => (body_obligation9 (tcOf (U16 m)) c).loose) (fun _ _ => rfl) (fun _ _ => rfl)
    (fun _ _ => rfl) (fun _ _ => rfl) (fun _ _ => rfl) (hF9 m) (hrest9 m)

def reg10 : Pipeline.RegionSeg (pcfgs (F := F)) adm (pdats m) () defs₀ 𝒱₀ L lv 10 :=
  regOf m 10 launch10 (U18 m) (U19 m) (fun c => (body_obligation10 (tcOf (U18 m)) c).loose) (fun _ _ => rfl) (fun _ _ => rfl)
    (fun _ _ => rfl) (fun _ _ => rfl) (fun _ _ => rfl) (hF10 m) (hrest10 m)

def reg11 : Pipeline.RegionSeg (pcfgs (F := F)) adm (pdats m) () defs₀ 𝒱₀ L lv 11 :=
  regOf m 11 launch11 (U19 m) (U20 m) (fun c => (body_obligation11 (tcOf (U19 m)) c).loose) (fun _ _ => rfl) (fun _ _ => rfl)
    (fun _ _ => rfl) (fun _ _ => rfl) (fun _ _ => rfl) (hF11 m) (hrest11 m)

def reg12 : Pipeline.RegionSeg (pcfgs (F := F)) adm (pdats m) () defs₀ 𝒱₀ L lv 12 :=
  regOf m 12 launch12 (U21 m) (U22 m) (fun c => (body_obligation12 (tcOf (U21 m)) c).loose) (fun _ _ => rfl) (fun _ _ => rfl)
    (fun _ _ => rfl) (fun _ _ => rfl) (fun _ _ => rfl) (hF12 m) (hrest12 m)

def reg13 : Pipeline.RegionSeg (pcfgs (F := F)) adm (pdats m) () defs₀ 𝒱₀ L lv 13 :=
  regOf m 13 launch13 (U23 m) (U24 m) (fun c => (body_obligation13 (tcOf (U23 m)) c).loose) (fun _ _ => rfl) (fun _ _ => rfl)
    (fun _ _ => rfl) (fun _ _ => rfl) (fun _ _ => rfl) (hF13 m) (hrest13 m)

end Cert.KernelIdeal.Hand

end
-- ==== Proof.KI.Reg3.lean ====
import proofs.«147510_j18107582120779_2_alg».proof.Proof.KI.Fold
import Idealize.ShloMosaic.Lib.Pipeline.Kit
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem arrImage3 : (Finset.univ.image (Pipeline.arrRef spec3) : Finset (Ref sig .tc))
    = ([main_v31, main_v47, main_v53, main_v55, main_v28, main_v56, main_arg6, main_v57, main_v58_0, main_v58_1] : List (Ref sig .tc)).toFinset := by decide

theorem arrList3_nodup : ([main_v31, main_v47, main_v53, main_v55, main_v28, main_v56, main_arg6, main_v57, main_v58_0, main_v58_1] : List (Ref sig .tc)).Nodup := by decide

theorem arrBufs3_eq (c : Dev nD) (V : (b : Ref sig .tc) → Buf (Elt F) ((c : Thread nD τ).loc b)) :
    (Pipeline.arrBufs spec3 c V : sProp 𝕄)
      = iprop((((c : Thread nD τ).loc main_v31) ↦{fullShare} V main_v31)
          ∗ (((c : Thread nD τ).loc main_v47) ↦{fullShare} V main_v47)
          ∗ (((c : Thread nD τ).loc main_v53) ↦{fullShare} V main_v53)
          ∗ (((c : Thread nD τ).loc main_v55) ↦{fullShare} V main_v55)
          ∗ (((c : Thread nD τ).loc main_v28) ↦{fullShare} V main_v28)
          ∗ (((c : Thread nD τ).loc main_v56) ↦{fullShare} V main_v56)
          ∗ (((c : Thread nD τ).loc main_arg6) ↦{fullShare} V main_arg6)
          ∗ (((c : Thread nD τ).loc main_v57) ↦{fullShare} V main_v57)
          ∗ (((c : Thread nD τ).loc main_v58_0) ↦{fullShare} V main_v58_0)
          ∗ (((c : Thread nD τ).loc main_v58_1) ↦{fullShare} V main_v58_1)) := by
  unfold Pipeline.arrBufs
  exact bigSep_eq_bigSepL_of_eq _ arrImage3 arrList3_nodup _

theorem arrays3_whole (c : Dev nD) (dat : Dat τ (Elt F) Unit ℕ (UR sig nD τ) ℕ cfg3 c)
    (V : (b : Ref sig .tc) → Buf (Elt F) ((c : Thread nD τ).loc b))
    (G : (w : Fin cfg3.W) → Buf (Elt F) ((cfg3.win w).arr.view.loc (c : Thread nD τ)))
    (hG : ∀ w, G w = V (Pipeline.arrRef spec3 w)) :
    (dat.arrays G : sProp 𝕄) = bigSep Finset.univ fun w : Fin 11 =>
      ((((c : Thread nD τ).loc (Pipeline.arrRef spec3 w)) ↦{dat.share w} V (Pipeline.arrRef spec3 w)) : sProp 𝕄) := by
  unfold Dat.arrays
  exact bigSep_congr fun w _ => by rw [(arr_whole3 w).set_eq_univ, hG w]

theorem sep_assoc_eq (P Q R : sProp 𝕄) : (iprop((P ∗ Q) ∗ R) : sProp 𝕄) = iprop(P ∗ Q ∗ R) := by
  have h : (iprop((P ∗ Q) ∗ R) : sProp 𝕄) ⊣⊢ iprop(P ∗ Q ∗ R) := sep_assoc
  exact BI.equiv_iff.mp ⟨h.1, h.2⟩

theorem arrays3_eq (c : Dev nD) (dat : Dat τ (Elt F) Unit ℕ (UR sig nD τ) ℕ cfg3 c)
    (hs0 : dat.share (0 : Fin 11) = fullShare.left) (hs1 : dat.share (1 : Fin 11) = fullShare.right)
    (hs : ∀ w : Fin 11, 2 ≤ w.val → dat.share w = fullShare)
    (V : (b : Ref sig .tc) → Buf (Elt F) ((c : Thread nD τ).loc b))
    (G : (w : Fin cfg3.W) → Buf (Elt F) ((cfg3.win w).arr.view.loc (c : Thread nD τ)))
    (hG : ∀ w, G w = V (Pipeline.arrRef spec3 w)) :
    (Pipeline.arrBufs spec3 c V : sProp 𝕄) = dat.arrays G := by
  have hsplit : ((((c : Thread nD τ).loc main_v31) ↦{fullShare} V main_v31) : sProp 𝕄)
      = iprop((((c : Thread nD τ).loc main_v31) ↦{fullShare.left} V main_v31) ∗ (((c : Thread nD τ).loc main_v31) ↦{fullShare.right} V main_v31)) :=
    BI.equiv_iff.mp ⟨(pointsTo_share (PosShare.mem_left_op_right fullShare)).1, (pointsTo_share (PosShare.mem_left_op_right fullShare)).2⟩
  rw [arrBufs3_eq, arrays3_whole c dat V G hG, bigSep_W3, hs0, hs1, hs 2 (by decide), hs 3 (by decide), hs 4 (by decide),
    hs 5 (by decide), hs 6 (by decide), hs 7 (by decide), hs 8 (by decide), hs 9 (by decide), hs 10 (by decide), hsplit]
  show iprop(((((c : Thread nD τ).loc main_v31) ↦{fullShare.left} V main_v31) ∗ (((c : Thread nD τ).loc main_v31) ↦{fullShare.right} V main_v31))
          ∗ (((c : Thread nD τ).loc main_v47) ↦{fullShare} V main_v47)
          ∗ (((c : Thread nD τ).loc main_v53) ↦{fullShare} V main_v53)
          ∗ (((c : Thread nD τ).loc main_v55) ↦{fullShare} V main_v55)
          ∗ (((c : Thread nD τ).loc main_v28) ↦{fullShare} V main_v28)
          ∗ (((c : Thread nD τ).loc main_v56) ↦{fullShare} V main_v56)
          ∗ (((c : Thread nD τ).loc main_arg6) ↦{fullShare} V main_arg6)
          ∗ (((c : Thread nD τ).loc main_v57) ↦{fullShare} V main_v57)
          ∗ (((c : Thread nD τ).loc main_v58_0) ↦{fullShare} V main_v58_0)
          ∗ (((c : Thread nD τ).loc main_v58_1) ↦{fullShare} V main_v58_1))
      = iprop((((c : Thread nD τ).loc main_v31) ↦{fullShare.left} V main_v31) ∗ (((c : Thread nD τ).loc main_v31) ↦{fullShare.right} V main_v31)
          ∗ (((c : Thread nD τ).loc main_v47) ↦{fullShare} V main_v47)
          ∗ (((c : Thread nD τ).loc main_v53) ↦{fullShare} V main_v53)
          ∗ (((c : Thread nD τ).loc main_v55) ↦{fullShare} V main_v55)
          ∗ (((c : Thread nD τ).loc main_v28) ↦{fullShare} V main_v28)
          ∗ (((c : Thread nD τ).loc main_v56) ↦{fullShare} V main_v56)
          ∗ (((c : Thread nD τ).loc main_arg6) ↦{fullShare} V main_arg6)
          ∗ (((c : Thread nD τ).loc main_v57) ↦{fullShare} V main_v57)
          ∗ (((c : Thread nD τ).loc main_v58_0) ↦{fullShare} V main_v58_0)
          ∗ (((c : Thread nD τ).loc main_v58_1) ↦{fullShare} V main_v58_1))
  exact sep_assoc_eq _ _ _

section Arrays3
variable (Vin Vout : (c : Dev nD) → (b : Ref sig .tc) → Buf (Elt F) ((c : Thread nD τ).loc b))

theorem arrays3_of_unscopedBufs (c : Dev nD) :
    (unscopedBufs c (Vin c) : sProp 𝕄)
      ⊢ iprop((dat3 Vin c).arrays ((dat3 Vin c).arrAt · 0) ∗ Pipeline.unscopedRest spec3 c (Vin c)) := by
  rw [Pipeline.unscopedBufs_split₀ cfgs 3 winFacts₀3.arr_unscoped c (Vin c)]
  exact sep_mono (Entails.of_eq (arrays3_eq c (dat3 Vin c) (share3_0 Vin c) (share3_1 Vin c)
    (share3_ge Vin c) (Vin c) _ (fun w => A_eq3 Vin c w))) .rfl

theorem unscopedBufs_of_arrays3 (c : Dev nD)
    (hF : ∀ w, (dat3 Vin c).arrAt w cfg3.N = Vout c (Pipeline.arrRef spec3 w))
    (hrest : ∀ b, b ∉ Finset.univ.image (Pipeline.arrRef spec3) → Vout c b = Vin c b) :
    iprop((dat3 Vin c).arrays ((dat3 Vin c).arrAt · cfg3.N) ∗ Pipeline.unscopedRest spec3 c (Vin c))
      ⊢ (unscopedBufs c (Vout c) : sProp 𝕄) := by
  rw [Pipeline.unscopedBufs_split₀ cfgs 3 winFacts₀3.arr_unscoped c (Vout c)]
  refine sep_mono (Entails.of_eq (arrays3_eq c (dat3 Vin c) (share3_0 Vin c) (share3_1 Vin c)
    (share3_ge Vin c) (Vout c) _ hF).symm) (Entails.of_eq ?_)
  unfold Pipeline.unscopedRest
  exact bigSep_congr fun b hb => by rw [hrest b (Finset.mem_sdiff.mp hb).2]

end Arrays3

section Reg3
variable (m : (ℓ : Loc nD τ sig) → Buf (Elt F) ℓ)

set_option backward.isDefEq.respectTransparency.types false in
def reg3 : Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (body_obligation3 (tcOf (U6 m)) c).loose
  hwaits := Pipeline.hwaits_of_owed_zero _ _ _ _ L lv 3 fun _ _ => rfl
  pre c := iprop(StableHlo.held (c : Thread nD τ) (Pipeline.ucRefs τ sig) (U6 m c) ∗ R c)
  post c := iprop(StableHlo.held (c : Thread nD τ) (Pipeline.ucRefs τ sig) (U7 m c) ∗ R c)
  X c := iprop(∃ r, prngReg c r)
  Y c := iprop(∃ r, prngReg c r)
  Z c := Pipeline.unscopedRest (Ix := Unit) (Name := ℕ) (U := UR sig nD τ) (Lvl := ℕ) spec3 c (tcOf (U6 m) c)
  hentry c := by
    rw [Pipeline.ownSems0_none]
    have hsplit := arrays3_of_unscopedBufs (F := F) (tcOf (U6 m)) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := unscopedBufs_of_arrays3 (F := F) (tcOf (U6 m)) (tcOf (U7 m)) c (hF3 m c) (hrest3 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Reg3

end Cert.KernelIdeal.Hand

end
-- ==== Proof.KI.Frame.lean ====
import proofs.«147510_j18107582120779_2_alg».proof.Proof.KI.RegOf
import proofs.«147510_j18107582120779_2_alg».proof.Proof.KI.Reg3
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (m : (ℓ : Loc nD τ sig) → Buf (Elt F) ℓ) (ρ : Dev nD → PrngReg)

theorem hpre0 (c : Dev nD) : iprop(StableHlo.held (c : Thread nD τ) (Pipeline.ucRefs τ sig) (Gen.V1 m c) ∗ R c) ⊢ (reg0 m).pre c := by
  rw [V1_eq]; exact .rfl
theorem hpost0 (c : Dev nD) : (reg0 m).post c ⊢ iprop(StableHlo.held (c : Thread nD τ) (Pipeline.ucRefs τ sig) (Gen.V2 m (outs m) c) ∗ R c) := by
  rw [V2_eq]; exact .rfl
theorem hpre1 (c : Dev nD) : iprop(StableHlo.held (c : Thread nD τ) (Pipeline.ucRefs τ sig) (Gen.V3 m (outs m) c) ∗ R c) ⊢ (reg1 m).pre c := by
  rw [V3_eq]; exact .rfl
theorem hpost1 (c : Dev nD) : (reg1 m).post c ⊢ iprop(StableHlo.held (c : Thread nD τ) (Pipeline.ucRefs τ sig) (Gen.V4 m (outs m) c) ∗ R c) := by
  rw [V4_eq]; exact .rfl
theorem hpre2 (c : Dev nD) : iprop(StableHlo.held (c : Thread nD τ) (Pipeline.ucRefs τ sig) (Gen.V4 m (outs m) c) ∗ R c) ⊢ (reg2 m).pre c := by
  rw [V4_eq]; exact .rfl
theorem hpost2 (c : Dev nD) : (reg2 m).post c ⊢ iprop(StableHlo.held (c : Thread nD τ) (Pipeline.ucRefs τ sig) (Gen.V5 m (outs m) c) ∗ R c) := by
  rw [V5_eq]; exact .rfl
theorem hpre3 (c : Dev nD) : iprop(StableHlo.held (c : Thread nD τ) (Pipeline.ucRefs τ sig) (Gen.V6 m (outs m) c) ∗ R c) ⊢ (reg3 m).pre c := by
  rw [V6_eq]; exact .rfl
theorem hpost3 (c : Dev nD) : (reg3 m).post c ⊢ iprop(StableHlo.held (c : Thread nD τ) (Pipeline.ucRefs τ sig) (Gen.V7 m (outs m) c) ∗ R c) := by
  rw [V7_eq]; exact .rfl
theorem hpre4 (c : Dev nD) : iprop(StableHlo.held (c : Thread nD τ) (Pipeline.ucRefs τ sig) (Gen.V8 m (outs m) c) ∗ R c) ⊢ (reg4 m).pre c := by
  rw [V8_eq]; exact .rfl
theorem hpost4 (c : Dev nD) : (reg4 m).post c ⊢ iprop(StableHlo.held (c : Thread nD τ) (Pipeline.ucRefs τ sig) (Gen.V9 m (outs m) c) ∗ R c) := by
  rw [V9_eq]; exact .rfl
theorem hpre5 (c : Dev nD) : iprop(StableHlo.held (c : Thread nD τ) (Pipeline.ucRefs τ sig) (Gen.V9 m (outs m) c) ∗ R c) ⊢ (reg5 m).pre c := by
  rw [V9_eq]; exact .rfl
theorem hpost5 (c : Dev nD) : (reg5 m).post c ⊢ iprop(StableHlo.held (c : Thread nD τ) (Pipeline.ucRefs τ sig) (Gen.V10 m (outs m) c) ∗ R c) := by
  rw [V10_eq]; exact .rfl
theorem hpre6 (c : Dev nD) : iprop(StableHlo.held (c : Thread nD τ) (Pipeline.ucRefs τ sig) (Gen.V11 m (outs m) c) ∗ R c) ⊢ (reg6 m).pre c := by
  rw [V11_eq]; exact .rfl
theorem hpost6 (c : Dev nD) : (reg6 m).post c ⊢ iprop(StableHlo.held (c : Thread nD τ) (Pipeline.ucRefs τ sig) (Gen.V12 m (outs m) c) ∗ R c) := by
  rw [V12_eq]; exact .rfl
theorem hpre7 (c : Dev nD) : iprop(StableHlo.held (c : Thread nD τ) (Pipeline.ucRefs τ sig) (Gen.V13 m (outs m) c) ∗ R c) ⊢ (reg7 m).pre c := by
  rw [V13_eq]; exact .rfl
theorem hpost7 (c : Dev nD) : (reg7 m).post c ⊢ iprop(StableHlo.held (c : Thread nD τ) (Pipeline.ucRefs τ sig) (Gen.V14 m (outs m) c) ∗ R c) := by
  rw [V14_eq]; exact .rfl
theorem hpre8 (c : Dev nD) : iprop(StableHlo.held (c : Thread nD τ) (Pipeline.ucRefs τ sig) (Gen.V14 m (outs m) c) ∗ R c) ⊢ (reg8 m).pre c := by
  rw [V14_eq]; exact .rfl
theorem hpost8 (c : Dev nD) : (reg8 m).post c ⊢ iprop(StableHlo.held (c : Thread nD τ) (Pipeline.ucRefs τ sig) (Gen.V15 m (outs m) c) ∗ R c) := by
  rw [V15_eq]; exact .rfl
theorem hpre9 (c : Dev nD) : iprop(StableHlo.held (c : Thread nD τ) (Pipeline.ucRefs τ sig) (Gen.V16 m (outs m) c) ∗ R c) ⊢ (reg9 m).pre c := by
  rw [V16_eq]; exact .rfl
theorem hpost9 (c : Dev nD) : (reg9 m).post c ⊢ iprop(StableHlo.held (c : Thread nD τ) (Pipeline.ucRefs τ sig) (Gen.V17 m (outs m) c) ∗ R c) := by
  rw [V17_eq]; exact .rfl
theorem hpre10 (c : Dev nD) : iprop(StableHlo.held (c : Thread nD τ) (Pipeline.ucRefs τ sig) (Gen.V18 m (outs m) c) ∗ R c) ⊢ (reg10 m).pre c := by
  rw [V18_eq]; exact .rfl
theorem hpost10 (c : Dev nD) : (reg10 m).post c ⊢ iprop(StableHlo.held (c : Thread nD τ) (Pipeline.ucRefs τ sig) (Gen.V19 m (outs m) c) ∗ R c) := by
  rw [V19_eq]; exact .rfl
theorem hpre11 (c : Dev nD) : iprop(StableHlo.held (c : Thread nD τ) (Pipeline.ucRefs τ sig) (Gen.V19 m (outs m) c) ∗ R c) ⊢ (reg11 m).pre c := by
  rw [V19_eq]; exact .rfl
theorem hpost11 (c : Dev nD) : (reg11 m).post c ⊢ iprop(StableHlo.held (c : Thread nD τ) (Pipeline.ucRefs τ sig) (Gen.V20 m (outs m) c) ∗ R c) := by
  rw [V20_eq]; exact .rfl
theorem hpre12 (c : Dev nD) : iprop(StableHlo.held (c : Thread nD τ) (Pipeline.ucRefs τ sig) (Gen.V21 m (outs m) c) ∗ R c) ⊢ (reg12 m).pre c := by
  rw [V21_eq]; exact .rfl
theorem hpost12 (c : Dev nD) : (reg12 m).post c ⊢ iprop(StableHlo.held (c : Thread nD τ) (Pipeline.ucRefs τ sig) (Gen.V22 m (outs m) c) ∗ R c) := by
  rw [V22_eq]; exact .rfl
theorem hpre13 (c : Dev nD) : iprop(StableHlo.held (c : Thread nD τ) (Pipeline.ucRefs τ sig) (Gen.V23 m (outs m) c) ∗ R c) ⊢ (reg13 m).pre c := by
  rw [V23_eq]; exact .rfl
theorem hpost13 (c : Dev nD) : (reg13 m).post c ⊢ iprop(StableHlo.held (c : Thread nD τ) (Pipeline.ucRefs τ sig) (Gen.V24 m (outs m) c) ∗ R c) := by
  rw [V24_eq]; exact .rfl

theorem hu₀ : (ownU (initOf (Pipeline.cells cfgs cellOf_inj) (Pipeline.launchToks cfgs cellOf_inj)) : sProp 𝕄)
    ⊢ |={Set.univ}=> iprop(BI.own ((emb₁ : Emb (UR sig nD τ) 𝕄) (initOf (Pipeline.cells cfgs cellOf_inj) (Pipeline.launchToks cfgs cellOf_inj)))
        ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own ((emb₁ : Emb (UR sig nD τ) 𝕄) (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄))) ∗ levAts L lv)
    ⊢ (|={Set.univ}=> bigSep Finset.univ (fun c : Dev nD => R c) : sProp 𝕄) := by
  refine Pipeline.initEach L lv fun c => ?_
  iintro ⟨⟨-, HO, -, Hp, -⟩, -⟩
  imodintro
  isplitl [Hp]; · iexists _; iexact Hp
  iexists ∅; iexact HO

theorem hE14 (c : Dev nD) : R c ⊢ (iprop(∃ W, owes (c : Thread nD τ) (0 : CellTallies nD τ sig Unit) W) : sProp 𝕄) := by
  iintro ⟨-, H⟩; iexact H

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Gen.frame_cond m (Ix := Unit) (U := UR sig nD τ) (Lvl := ℕ) emb₁ () 𝒱₀ L lv (fun _ _ => rfl) ρ (outs m) (pdats m)
    0 (fun _ => iprop(emp)) (initOf (Pipeline.cells cfgs cellOf_inj) (Pipeline.launchToks cfgs cellOf_inj)) hu₀
    (fun _ c => R c) (hE0 ρ) hE14
    (reg0 m) (hpre0 m) (hpost0 m)
    (reg1 m) (hpre1 m) (hpost1 m)
    (reg2 m) (hpre2 m) (hpost2 m)
    (reg3 m) (hpre3 m) (hpost3 m)
    (reg4 m) (hpre4 m) (hpost4 m)
    (reg5 m) (hpre5 m) (hpost5 m)
    (reg6 m) (hpre6 m) (hpost6 m)
    (reg7 m) (hpre7 m) (hpost7 m)
    (reg8 m) (hpre8 m) (hpost8 m)
    (reg9 m) (hpre9 m) (hpost9 m)
    (reg10 m) (hpre10 m) (hpost10 m)
    (reg11 m) (hpre11 m) (hpost11 m)
    (reg12 m) (hpre12 m) (hpost12 m)
    (reg13 m) (hpre13 m) (hpost13 m)

end Cert.KernelIdeal.Hand

end
-- ==== Proof.KI.RunValue.lean ====
import proofs.«147510_j18107582120779_2_alg».proof.Proof.KI.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (m : (ℓ : Loc nD τ sig) → Buf (Elt F) ℓ) (ρ : Dev nD → PrngReg)

set_option backward.isDefEq.respectTransparency.types false in
theorem run_value : θ_run defs (onTc (τ := τ) (main (F := F))) ⟨m, fun _ => 0, ρ⟩ (fun r => ∀ c : Dev nD,
      r.2.mem ((c.tc : Thread nD τ).loc main_v141) = U24 m c main_v141
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) := by
  refine Pipeline.θ_run_regions_kit_dev (pcfgs (F := F)) adm (pdats m) () cellOf_inj (emb₁ : Emb (UR sig nD τ) 𝕄) defs₀ 𝒱₀ L lv m ρ main
    (Gen.segs m (outs m) 𝒱₀ L lv (fun _ c => R c) () (pdats m) (reg0 m) (reg1 m) (reg2 m) (reg3 m) (reg4 m) (reg5 m) (reg6 m) (reg7 m) (reg8 m) (reg9 m) (reg10 m) (reg11 m) (reg12 m) (reg13 m))
    (fun c Q => by
      rewrite [main_chain c, Pipeline.Seg.run_eq_chain,
        show (Gen.segs m (outs m) 𝒱₀ L lv (fun _ c => R c) () (pdats m) (reg0 m) (reg1 m) (reg2 m) (reg3 m) (reg4 m) (reg5 m) (reg6 m) (reg7 m) (reg8 m) (reg9 m) (reg10 m) (reg11 m) (reg12 m) (reg13 m) c).map Pipeline.Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          StableHlo.seq hostOps4,
          Prog.lift (.customCall (Pipeline.entry 4) ()),
          Prog.lift (.customCall (Pipeline.entry 5) ()),
          StableHlo.seq hostOps6,
          Prog.lift (.customCall (Pipeline.entry 6) ()),
          StableHlo.seq hostOps7,
          Prog.lift (.customCall (Pipeline.entry 7) ()),
          Prog.lift (.customCall (Pipeline.entry 8) ()),
          StableHlo.seq hostOps9,
          Prog.lift (.customCall (Pipeline.entry 9) ()),
          StableHlo.seq hostOps10,
          Prog.lift (.customCall (Pipeline.entry 10) ()),
          Prog.lift (.customCall (Pipeline.entry 11) ()),
          StableHlo.seq hostOps12,
          Prog.lift (.customCall (Pipeline.entry 12) ()),
          StableHlo.seq hostOps13,
          Prog.lift (.customCall (Pipeline.entry 13) ()) ] from rfl]
      exact .rfl)
    (fun c => by simp only [Gen.segs, Pipeline.Seg.pipes_host, Pipeline.Seg.pipes_region, Pipeline.Seg.pipes_nil]; decide)
    (0 : Dev nD → CellTallies nD τ sig Unit) (fun _ _ => rfl) (fun _ => iprop(emp))
    (initOf (Pipeline.cells cfgs cellOf_inj) (Pipeline.launchToks cfgs cellOf_inj)) hu₀
    (T₀ := fun c => iprop(StableHlo.held (c : Thread nD τ) (Pipeline.ucRefs τ sig) (Gen.V0 m c) ∗ R c))
    (Tₙ := fun c => StableHlo.held (c : Thread nD τ) (Pipeline.ucRefs τ sig) (Gen.V24 m (outs m) c))
    (hch := fun c => ⟨.rfl, hpre0 m c, hpost0 m c, hpre1 m c, (hpost1 m c).trans (hpre2 m c), hpost2 m c, hpre3 m c, hpost3 m c, hpre4 m c, (hpost4 m c).trans (hpre5 m c), hpost5 m c, hpre6 m c, hpost6 m c, hpre7 m c, (hpost7 m c).trans (hpre8 m c), hpost8 m c, hpre9 m c, hpost9 m c, hpre10 m c, (hpost10 m c).trans (hpre11 m c), hpost11 m c, hpre12 m c, hpost12 m c, hpre13 m c, (hpost13 m c).trans (sep_mono .rfl (hE14 c))⟩)
    (hinit := ?_) (QY := fun c s => s.mem ((c.tc : Thread nD τ).loc main_v141) = U24 m c main_v141
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11))
    (hfin := fun c s' => ?_) (hQ := fun _ h => h)
  ·
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  ·
    unfold StableHlo.held
    iintro ⟨Hh, HSI⟩
    ihave Hr := (pointsTo_read_all (Pipeline.ucRefs τ sig) (fun b => ((c : Thread nD τ).1, b)) (Gen.V24 m (outs m) c) s') $$ [Hh HSI]
    · isplitl [Hh] <;> iassumption
    icases Hr with ⟨%h, HSI⟩
    imodintro
    isplitr
    · ipureintro
      exact ⟨(h (Proc.devRef .tc main_v141) (mem_uc main_v141 (by decide))).trans (congrFun (V24_eq m c) _),
        (h (Proc.devRef .tc main_arg0) (mem_uc main_arg0 (by decide))).trans (Gen.V24_main_arg0 m (outs m) c),
        (h (Proc.devRef .tc main_arg1) (mem_uc main_arg1 (by decide))).trans (Gen.V24_main_arg1 m (outs m) c),
        (h (Proc.devRef .tc main_arg2) (mem_uc main_arg2 (by decide))).trans (Gen.V24_main_arg2 m (outs m) c),
        (h (Proc.devRef .tc main_arg3) (mem_uc main_arg3 (by decide))).trans (Gen.V24_main_arg3 m (outs m) c),
        (h (Proc.devRef .tc main_arg4) (mem_uc main_arg4 (by decide))).trans (Gen.V24_main_arg4 m (outs m) c),
        (h (Proc.devRef .tc main_arg5) (mem_uc main_arg5 (by decide))).trans (Gen.V24_main_arg5 m (outs m) c),
        (h (Proc.devRef .tc main_arg6) (mem_uc main_arg6 (by decide))).trans (Gen.V24_main_arg6 m (outs m) c),
        (h (Proc.devRef .tc main_arg7) (mem_uc main_arg7 (by decide))).trans (Gen.V24_main_arg7 m (outs m) c),
        (h (Proc.devRef .tc main_arg8) (mem_uc main_arg8 (by decide))).trans (Gen.V24_main_arg8 m (outs m) c),
        (h (Proc.devRef .tc main_arg9) (mem_uc main_arg9 (by decide))).trans (Gen.V24_main_arg9 m (outs m) c),
        (h (Proc.devRef .tc main_arg10) (mem_uc main_arg10 (by decide))).trans (Gen.V24_main_arg10 m (outs m) c),
        (h (Proc.devRef .tc main_arg11) (mem_uc main_arg11 (by decide))).trans (Gen.V24_main_arg11 m (outs m) c)⟩
    · iexact HSI

end Cert.KernelIdeal.Hand

end
-- ==== Proof.Spec.Ref.lean ====
import proofs.«147510_j18107582120779_2_alg».proof.ReferenceIdeal

noncomputable section

namespace Cert.Spec

open Idealize.ShloMosaic Cert.ReferenceIdeal
open Cert.ReferenceIdeal.Facts₀

variable {F : FTy → Type} [FloatOps F] [Cert.ReferenceIdeal.Facts₀]

structure Args (F : FTy → Type) where
  x : FVec F S50000x128 .f32
  ei : IVec S2x800000 32
  encW : FVec F S128x64 .f32
  encb : FVec F S64 .f32
  convW : FVec F S64x64 .f32
  convb : FVec F S64 .f32
  resW : FVec F S64x64 .f32
  resb : FVec F S64 .f32
  wmlp : FVec F S64x64 .f32
  lam : FVec F S_ .f32
  decW : FVec F S64x40 .f32
  decb : FVec F S40 .f32

def srcOf (ei : IVec S2x800000 32) : IVec S800000 32 :=
  shapeCast S800000 (extractStridedSlice S1x800000 ![0, 0] ei slices_S2x800000_S1x800000_0_0) shapeCasts_S1x800000_S800000

def dstOf (ei : IVec S2x800000 32) : IVec S800000 32 :=
  shapeCast S800000 (extractStridedSlice S1x800000 ![1, 0] ei slices_S2x800000_S1x800000_1_0) shapeCasts_S1x800000_S800000

def colOf {α : Type} (v : S800000.Idx → α) : S800000x1.Idx → α :=
  broadcastInDim S800000x1 ![0] bcast_S800000_S800000x1_0 v

def wrapIdx (idx : IVec S800000 32) : IVec S800000x1 32 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 50000#32))) idx)

def zeroN : FVec F S50000x64 .f32 := broadcastInDim S50000x64 ![] bcast_S_S50000x64 (constant (F := F) S_ .f32 0x00000000#32)
def oneN : FVec F S50000x64 .f32 := broadcastInDim S50000x64 ![] bcast_S_S50000x64 (constant (F := F) S_ .f32 0x3F800000#32)

def dinv (dst : IVec S800000 32) : FVec F S50000 .f32 :=
  Host.rsqrt
    (addf
      (Host.scatterAdd scatter_S50000_S800000x1_S800000_n_0_0_1
        (broadcastInDim S50000 ![] bcast_S_S50000 (constant (F := F) S_ .f32 0x00000000#32))
        (broadcastInDim S800000x1 ![0] bcast_S800000_S800000x1_0 dst)
        (broadcastInDim S800000 ![] bcast_S_S800000 (constant (F := F) S_ .f32 0x3F800000#32)))
      (broadcastInDim S50000 ![] bcast_S_S50000 (constant (F := F) S_ .f32 0x3F800000#32)))

def enormCol (d : FVec F S50000 .f32) (src dst : IVec S800000 32) : FVec F S800000x1 .f32 :=
  broadcastInDim S800000x1 ![0] bcast_S800000_S800000x1_0
    (mulf (Host.gather gather_S50000_S800000x1_S800000_n_0_n_n_0_1_1 d (wrapIdx src))
      (Host.gather gather_S50000_S800000x1_S800000_n_0_n_n_0_1_1 d (wrapIdx dst)))

def selfNormCol (d : FVec F S50000 .f32) : FVec F S50000x1 .f32 :=
  broadcastInDim S50000x1 ![0] bcast_S50000_S50000x1_0 (mulf d d)

def enc (x : FVec F S50000x128 .f32) (W : FVec F S128x64 .f32) (b : FVec F S64 .f32) : FVec F S50000x64 .f32 :=
  maximumf
    (addf (Host.dotGeneral dot_S50000x128_S128x64_S50000x64_1_0_0_1_n_n none x W)
      (broadcastInDim S50000x64 ![0, 1] bcast_S1x64_S50000x64_0_1 (broadcastInDim S1x64 ![1] bcast_S64_S1x64_1 b)))
    (broadcastInDim S50000x64 ![] bcast_S_S50000x64 (constant (F := F) S_ .f32 0x00000000#32))

def refLayer (src dst : IVec S800000 32) (en : FVec F S800000x1 .f32) (sn : FVec F S50000x1 .f32)
    (convW : FVec F S64x64 .f32) (convb : FVec F S64 .f32) (resW : FVec F S64x64 .f32) (resb : FVec F S64 .f32)
    (wmlp : FVec F S64x64 .f32) (lam : FVec F S_ .f32)
    (XY : FVec F S50000x64 .f32 × FVec F S50000x64 .f32) : FVec F S50000x64 .f32 × FVec F S50000x64 .f32 :=
  let X : FVec F S50000x64 .f32 := XY.1
  let Y : FVec F S50000x64 .f32 := XY.2
  let ws : IVec S800000x1 32 := wrapIdx src
  let wd : IVec S800000x1 32 := wrapIdx dst
  let dc : IVec S800000x1 32 := broadcastInDim S800000x1 ![0] bcast_S800000_S800000x1_0 dst
  let z : FVec F S50000x64 .f32 := broadcastInDim S50000x64 ![] bcast_S_S50000x64 (constant (F := F) S_ .f32 0x00000000#32)
  let o : FVec F S50000x64 .f32 := broadcastInDim S50000x64 ![] bcast_S_S50000x64 (constant (F := F) S_ .f32 0x3F800000#32)
  let Xs : FVec F S800000x64 .f32 := Host.gather gather_S50000x64_S800000x1_S800000x64_1_0_n_n_0_1_164 X ws
  let Xd : FVec F S800000x64 .f32 := Host.gather gather_S50000x64_S800000x1_S800000x64_1_0_n_n_0_1_164 X wd
  let msg : FVec F S800000x64 .f32 :=
    mulf (maximumf (Host.dotGeneral dot_S800000x64_S64x64_S800000x64_1_0_0_1_n_n none (subf Xs Xd) wmlp)
      (broadcastInDim S800000x64 ![] bcast_S_S800000x64 (constant (F := F) S_ .f32 0x00000000#32))) Xd
  let ax3 : FVec F S50000x64 .f32 := Host.scatterAdd scatter_S50000x64_S800000x1_S800000x64_1_0_0_1 z dc msg
  let xw : FVec F S50000x64 .f32 := Host.dotGeneral dot_S50000x64_S64x64_S50000x64_1_0_0_1_n_n none X convW
  let ev : FVec F S800000x64 .f32 :=
    mulf (Host.gather gather_S50000x64_S800000x1_S800000x64_1_0_n_n_0_1_164 xw ws)
      (broadcastInDim S800000x64 ![0, 1] bcast_S800000x1_S800000x64_0_1 en)
  let agg : FVec F S50000x64 .f32 := Host.scatterAdd scatter_S50000x64_S800000x1_S800000x64_1_0_0_1 z dc ev
  let conv : FVec F S50000x64 .f32 :=
    addf (addf agg (mulf xw (broadcastInDim S50000x64 ![0, 1] bcast_S50000x1_S50000x64_0_1 sn)))
      (broadcastInDim S50000x64 ![0, 1] bcast_S1x64_S50000x64_0_1 (broadcastInDim S1x64 ![1] bcast_S64_S1x64_1 convb))
  let res : FVec F S50000x64 .f32 :=
    Host.negf (addf (Host.dotGeneral dot_S50000x64_S64x64_S50000x64_1_0_0_1_n_n none xw resW)
      (broadcastInDim S50000x64 ![0, 1] bcast_S1x64_S50000x64_0_1 (broadcastInDim S1x64 ![1] bcast_S64_S1x64_1 resb)))
  let h : FVec F S50000x64 .f32 := maximumf (addf conv res) z
  let Y' : FVec F S50000x64 .f32 := addf Y (mulf o (subf (subf h (mulf o Y)) (mulf o X)))
  let X' : FVec F S50000x64 .f32 := addf X (mulf o (addf Y' (mulf (broadcastInDim S50000x64 ![] bcast_S_S50000x64 lam) ax3)))
  (X', Y')

def dec (X : FVec F S50000x64 .f32) (W : FVec F S64x40 .f32) (b : FVec F S40 .f32) : FVec F S50000x40 .f32 :=
  addf (Host.dotGeneral dot_S50000x64_S64x40_S50000x40_1_0_0_1_n_n none X W)
    (broadcastInDim S50000x40 ![0, 1] bcast_S1x40_S50000x40_0_1 (broadcastInDim S1x40 ![1] bcast_S40_S1x40_1 b))

def refOut (a : Args F) : FVec F S50000x40 .f32 :=
  let src : IVec S800000 32 := srcOf a.ei
  let dst : IVec S800000 32 := dstOf a.ei
  let d : FVec F S50000 .f32 := dinv dst
  let en : FVec F S800000x1 .f32 := enormCol d src dst
  let sn : FVec F S50000x1 .f32 := selfNormCol d
  let X0 : FVec F S50000x64 .f32 := enc a.x a.encW a.encb
  let L := refLayer src dst en sn a.convW a.convb a.resW a.resb a.wmlp a.lam
  dec (L (L (L (L (X0, X0))))).1 a.decW a.decb

end Cert.Spec

end
-- ==== Proof.Spec.Ker.lean ====
import proofs.«147510_j18107582120779_2_alg».proof.KernelIdeal
import proofs.«147510_j18107582120779_2_alg».proof.Proof.Spec.Ref
import Idealize.ShloMosaic.Lib.ValueIdx

noncomputable section

namespace Cert.Spec

open Idealize.ShloMosaic Idealize.ShloMosaic.ValueIdx Cert.ReferenceIdeal
open Cert.ReferenceIdeal.Facts₀

variable {F : FTy → Type} [FloatOps F] [Cert.ReferenceIdeal.Facts₀] [Cert.KernelIdeal.Facts₀]

def linG (x : FVec F S50000x64 .f32) (W : FVec F S64x64 .f32) (b1 : FVec F S1x64 .f32) : FVec F S50000x64 .f32 :=
  addf (Host.dotGeneral dot_S50000x64_S64x64_S50000x64_1_0_0_1_n_n none x W)
    (broadcastInDim S50000x64 ![0, 1] bcast_S1x64_S50000x64_0_1 b1)

def encG (x : FVec F S50000x128 .f32) (W : FVec F S128x64 .f32) (b1 : FVec F S1x64 .f32) : FVec F S50000x64 .f32 :=
  maximumf
    (addf (Host.dotGeneral dot_S50000x128_S128x64_S50000x64_1_0_0_1_n_n none x W)
      (broadcastInDim S50000x64 ![0, 1] bcast_S1x64_S50000x64_0_1 b1))
    (broadcastInDim S50000x64 ![] bcast_S_S50000x64 (constant (F := F) S_ .f32 0x00000000#32))

def decG (x : FVec F S50000x64 .f32) (W : FVec F S64x40 .f32) (b1 : FVec F S1x40 .f32) : FVec F S50000x40 .f32 :=
  addf (Host.dotGeneral dot_S50000x64_S64x40_S50000x40_1_0_0_1_n_n none x W)
    (broadcastInDim S50000x40 ![0, 1] bcast_S1x40_S50000x40_0_1 b1)

def edgeMsg (Xs Xd : FVec F S800000x64 .f32) (wmlp : FVec F S64x64 .f32) : FVec F S800000x64 .f32 :=
  mulf (maximumf (Host.dotGeneral dot_S800000x64_S64x64_S800000x64_1_0_0_1_n_n none (subf Xs Xd) wmlp)
    (broadcastInDim S800000x64 ![] bcast_S_S800000x64 (constant (F := F) S_ .f32 0x00000000#32))) Xd

def edgeEv (Xs : FVec F S800000x64 .f32) (convW : FVec F S64x64 .f32) (en : FVec F S800000x1 .f32) : FVec F S800000x64 .f32 :=
  mulf (Host.dotGeneral dot_S800000x64_S64x64_S800000x64_1_0_0_1_n_n none Xs convW)
    (broadcastInDim S800000x64 ![0, 1] bcast_S800000x1_S800000x64_0_1 en)

def edgeG (Xs Xd : FVec F S800000x64 .f32) (wmlp convW : FVec F S64x64 .f32) (en : FVec F S800000x1 .f32) :
    FVec F Cert.KernelIdeal.S800000x128 .f32 :=
  fun i =>
    if h : (i 1).val < 64 then edgeMsg Xs Xd wmlp (ix2 ⟨(i 0).val, idx2_lt0 i⟩ ⟨(i 1).val, h⟩)
    else edgeEv Xs convW en (ix2 ⟨(i 0).val, idx2_lt0 i⟩ ⟨(i 1).val - 64, by have := idx2_lt1 i; omega⟩)

theorem edgeG_lt (Xs Xd : FVec F S800000x64 .f32) (wmlp convW : FVec F S64x64 .f32) (en : FVec F S800000x1 .f32)
    (i : Cert.KernelIdeal.S800000x128.Idx) (h : (i 1).val < 64) :
    edgeG Xs Xd wmlp convW en i = edgeMsg Xs Xd wmlp (ix2 ⟨(i 0).val, idx2_lt0 i⟩ ⟨(i 1).val, h⟩) := dif_pos h

theorem edgeG_ge (Xs Xd : FVec F S800000x64 .f32) (wmlp convW : FVec F S64x64 .f32) (en : FVec F S800000x1 .f32)
    (i : Cert.KernelIdeal.S800000x128.Idx) (h : ¬ (i 1).val < 64) :
    edgeG Xs Xd wmlp convW en i
      = edgeEv Xs convW en (ix2 ⟨(i 0).val, idx2_lt0 i⟩ ⟨(i 1).val - 64, by have := idx2_lt1 i; omega⟩) := dif_neg h

def nodeG (x y xw convScatter ax3lam : FVec F S50000x64 .f32) (sn : FVec F S50000x1 .f32) (convb1 : FVec F S1x64 .f32)
    (resW : FVec F S64x64 .f32) (resb1 : FVec F S1x64 .f32) : FVec F S50000x64 .f32 × FVec F S50000x64 .f32 :=
  let z : FVec F S50000x64 .f32 := broadcastInDim S50000x64 ![] bcast_S_S50000x64 (constant (F := F) S_ .f32 0x00000000#32)
  let o : FVec F S50000x64 .f32 := broadcastInDim S50000x64 ![] bcast_S_S50000x64 (constant (F := F) S_ .f32 0x3F800000#32)
  let res : FVec F S50000x64 .f32 :=
    negf (addf (Host.dotGeneral dot_S50000x64_S64x64_S50000x64_1_0_0_1_n_n none xw resW)
      (broadcastInDim S50000x64 ![0, 1] bcast_S1x64_S50000x64_0_1 resb1))
  let convPre : FVec F S50000x64 .f32 :=
    addf (addf convScatter (mulf xw (broadcastInDim S50000x64 ![0, 1] bcast_S50000x1_S50000x64_0_1 sn)))
      (broadcastInDim S50000x64 ![0, 1] bcast_S1x64_S50000x64_0_1 convb1)
  let yNew : FVec F S50000x64 .f32 := addf y (mulf o (subf (subf (maximumf (addf convPre res) z) (mulf o y)) (mulf o x)))
  let xNew : FVec F S50000x64 .f32 := addf x (mulf o (addf yNew ax3lam))
  (xNew, yNew)

def rowOf64 (b : FVec F S64 .f32) : FVec F S1x64 .f32 := shapeCast S1x64 b Cert.KernelIdeal.Facts₀.shapeCasts_S64_S1x64
def rowOf40 (b : FVec F S40 .f32) : FVec F S1x40 .f32 := shapeCast S1x40 b Cert.KernelIdeal.Facts₀.shapeCasts_S40_S1x40

def zeroRow64 : FVec F S1x64 .f32 :=
  rowOf64 (broadcastInDim S64 ![] Cert.KernelIdeal.Facts₀.bcast_S_S64 (constant (F := F) S_ .f32 0x00000000#32))

def aggG (dst : IVec S800000 32) (E : FVec F Cert.KernelIdeal.S800000x128 .f32) : FVec F S50000x128 .f32 :=
  Host.scatterAdd Cert.KernelIdeal.scatter_S50000x128_S800000x1_S800000x128_1_0_0_1
    (broadcastInDim S50000x128 ![] Cert.KernelIdeal.Facts₀.bcast_S_S50000x128 (constant (F := F) S_ .f32 0x00000000#32))
    (broadcastInDim S800000x1 ![0] bcast_S800000_S800000x1_0 dst) E

def colsLo (A : FVec F S50000x128 .f32) : FVec F S50000x64 .f32 :=
  extractStridedSlice S50000x64 ![0, 0] A Cert.KernelIdeal.Facts₀.slices_S50000x128_S50000x64_0_0
def colsHi (A : FVec F S50000x128 .f32) : FVec F S50000x64 .f32 :=
  extractStridedSlice S50000x64 ![0, 64] A Cert.KernelIdeal.Facts₀.slices_S50000x128_S50000x64_0_64

def kerLayer (src dst : IVec S800000 32) (en : FVec F S800000x1 .f32) (sn : FVec F S50000x1 .f32)
    (convW : FVec F S64x64 .f32) (convb : FVec F S64 .f32) (resW : FVec F S64x64 .f32) (resb : FVec F S64 .f32)
    (wmlp : FVec F S64x64 .f32) (lam : FVec F S_ .f32)
    (XY : FVec F S50000x64 .f32 × FVec F S50000x64 .f32) : FVec F S50000x64 .f32 × FVec F S50000x64 .f32 :=
  let X : FVec F S50000x64 .f32 := XY.1
  let Y : FVec F S50000x64 .f32 := XY.2
  let Xs : FVec F S800000x64 .f32 := Host.gather gather_S50000x64_S800000x1_S800000x64_1_0_n_n_0_1_164 X (wrapIdx src)
  let Xd : FVec F S800000x64 .f32 := Host.gather gather_S50000x64_S800000x1_S800000x64_1_0_n_n_0_1_164 X (wrapIdx dst)
  let xw : FVec F S50000x64 .f32 := linG X convW zeroRow64
  let A : FVec F S50000x128 .f32 := aggG dst (edgeG Xs Xd wmlp convW en)
  let ax3lam : FVec F S50000x64 .f32 := mulf (colsLo A) (broadcastInDim S50000x64 ![] bcast_S_S50000x64 lam)
  nodeG X Y xw (colsHi A) ax3lam sn (rowOf64 convb) resW (rowOf64 resb)

def kerOut (a : Args F) : FVec F S50000x40 .f32 :=
  let src : IVec S800000 32 := srcOf a.ei
  let dst : IVec S800000 32 := dstOf a.ei
  let d : FVec F S50000 .f32 := dinv dst
  let en : FVec F S800000x1 .f32 := enormCol d src dst
  let sn : FVec F S50000x1 .f32 := selfNormCol d
  let X0 : FVec F S50000x64 .f32 := encG a.x a.encW (rowOf64 a.encb)
  let L := kerLayer src dst en sn a.convW a.convb a.resW a.resb a.wmlp a.lam
  decG (L (L (L (L (X0, X0))))).1 a.decW (rowOf40 a.decb)

end Cert.Spec

end
-- ==== Proof.KI.ChainCore.lean ====
import proofs.«147510_j18107582120779_2_alg».proof.Proof.Gen.KernelIdeal.Regions
import proofs.«147510_j18107582120779_2_alg».proof.Proof.Spec.Ker

set_option maxRecDepth 1864

noncomputable section

namespace Cert.KernelIdeal.Hand

open Idealize.ShloMosaic Idealize.ShloMosaic.TcCoe
open Cert.KernelIdeal Cert.KernelIdeal.Gen

variable {F : FTy → Type} [FloatOps F] [Cert.ReferenceIdeal.Facts₀]

def argsOf (W : Valuation τ sig (Elt F)) : Cert.Spec.Args F where
  x := W main_arg0
  ei := W main_arg1
  encW := W main_arg2
  encb := W main_arg3
  convW := W main_arg4
  convb := W main_arg5
  resW := W main_arg6
  resb := W main_arg7
  wmlp := W main_arg8
  lam := W main_arg9
  decW := W main_arg10
  decb := W main_arg11

abbrev constRefs : List (Ref sig .tc) :=
  [main_v1, main_v3, main_v26, main_v28, main_v29, main_arg4, main_arg5, main_arg6, main_arg7, main_arg8, main_arg9,
   main_arg10, main_arg11]

structure Consts (a : Cert.Spec.Args F) (W : Valuation τ sig (Elt F)) : Prop where
  src : W main_v1 = Cert.Spec.srcOf a.ei
  dst : W main_v3 = Cert.Spec.dstOf a.ei
  en : W main_v26 = Cert.Spec.enormCol (F := F) (Cert.Spec.dinv (Cert.Spec.dstOf a.ei)) (Cert.Spec.srcOf a.ei) (Cert.Spec.dstOf a.ei)
  sn : W main_v28 = Cert.Spec.selfNormCol (F := F) (Cert.Spec.dinv (Cert.Spec.dstOf a.ei))
  zb : W main_v29 = broadcastInDim S64 ![] bcast_S_S64 (constant S_ .f32 0x00000000#32 : (⟨S_, .f32⟩ : BufTy).Contents (Elt F))
  convW : W main_arg4 = a.convW
  convb : W main_arg5 = a.convb
  resW : W main_arg6 = a.resW
  resb : W main_arg7 = a.resb
  wmlp : W main_arg8 = a.wmlp
  lam : W main_arg9 = a.lam
  decW : W main_arg10 = a.decW
  decb : W main_arg11 = a.decb

theorem Consts.frame {a : Cert.Spec.Args F} {W W' : Valuation τ sig (Elt F)} (h : Consts a W)
    (e : ∀ r : Ref sig .tc, r ∈ constRefs → W' r = W r) : Consts a W' where
  src := (e main_v1 (by decide)).trans h.src
  dst := (e main_v3 (by decide)).trans h.dst
  en := (e main_v26 (by decide)).trans h.en
  sn := (e main_v28 (by decide)).trans h.sn
  zb := (e main_v29 (by decide)).trans h.zb
  convW := (e main_arg4 (by decide)).trans h.convW
  convb := (e main_arg5 (by decide)).trans h.convb
  resW := (e main_arg6 (by decide)).trans h.resW
  resb := (e main_arg7 (by decide)).trans h.resb
  wmlp := (e main_arg8 (by decide)).trans h.wmlp
  lam := (e main_arg9 (by decide)).trans h.lam
  decW := (e main_arg10 (by decide)).trans h.decW
  decb := (e main_arg11 (by decide)).trans h.decb

end Cert.KernelIdeal.Hand
-- ==== Proof.KI.Host0.lean ====
import proofs.«147510_j18107582120779_2_alg».proof.Proof.Gen.KernelIdeal.Regions

set_option maxRecDepth 1864

noncomputable section

namespace Cert.KernelIdeal.Hand

open Idealize.ShloMosaic Idealize.ShloMosaic.TcCoe
open Cert.KernelIdeal Cert.KernelIdeal.Gen

variable {F : FTy → Type} [FloatOps F]

theorem host0_frame (W : Valuation τ sig (Elt F)) (r : Ref sig .tc) (h : r ∉ hostOps0_W) :
    StableHlo.after hostOps0 W r = W r :=
  StableHlo.after_of_writes_sub hostOps0 W hostOps0_writes h

theorem host0_v1 (W : Valuation τ sig (Elt F)) :
    StableHlo.after hostOps0 W main_v1 = (shapeCast S800000 (extractStridedSlice S1x800000 ![0, 0] (W main_arg1) slices_S2x800000_S1x800000_0_0) shapeCasts_S1x800000_S800000) := by
  show StableHlo.after hostOps0 W (Proc.devRef .tc main_v1) = _
  after_results_simp <;> rfl

theorem host0_v3 (W : Valuation τ sig (Elt F)) :
    StableHlo.after hostOps0 W main_v3 = (shapeCast S800000 (extractStridedSlice S1x800000 ![1, 0] (W main_arg1) slices_S2x800000_S1x800000_1_0) shapeCasts_S1x800000_S800000) := by
  show StableHlo.after hostOps0 W (Proc.devRef .tc main_v3) = _
  after_results_simp <;> rfl

theorem host0_v26 (W : Valuation τ sig (Elt F)) :
    StableHlo.after hostOps0 W main_v26
      = broadcastInDim S800000x1 ![0] bcast_S800000_S800000x1_0
          (mulf (Host.gather gather_S50000_S800000x1_S800000_n_0_n_n_0_1_1 (Host.rsqrt (addf (Host.scatterAdd scatter_S50000_S800000x1_S800000_n_0_0_1 (broadcastInDim S50000 ![] bcast_S_S50000 (constant S_ .f32 0x00000000#32 : (⟨S_, .f32⟩ : BufTy).Contents (Elt F))) (broadcastInDim S800000x1 ![0] bcast_S800000_S800000x1_0 (shapeCast S800000 (extractStridedSlice S1x800000 ![1, 0] (W main_arg1) slices_S2x800000_S1x800000_1_0) shapeCasts_S1x800000_S800000)) (broadcastInDim S800000 ![] bcast_S_S800000 (constant S_ .f32 0x3F800000#32 : (⟨S_, .f32⟩ : BufTy).Contents (Elt F)))) (broadcastInDim S50000 ![] bcast_S_S50000 (constant S_ .f32 0x3F800000#32 : (⟨S_, .f32⟩ : BufTy).Contents (Elt F))))) (broadcastInDim S800000x1 ![0] bcast_S800000_S800000x1_0 (select (cmpi .slt (shapeCast S800000 (extractStridedSlice S1x800000 ![0, 0] (W main_arg1) slices_S2x800000_S1x800000_0_0) shapeCasts_S1x800000_S800000) (broadcastInDim S800000 ![] bcast_S_S800000 (constantI S_ 32 0#32 : (⟨S_, .i32⟩ : BufTy).Contents (Elt F)))) (addi (shapeCast S800000 (extractStridedSlice S1x800000 ![0, 0] (W main_arg1) slices_S2x800000_S1x800000_0_0) shapeCasts_S1x800000_S800000) (broadcastInDim S800000 ![] bcast_S_S800000 (constantI S_ 32 50000#32 : (⟨S_, .i32⟩ : BufTy).Contents (Elt F)))) (shapeCast S800000 (extractStridedSlice S1x800000 ![0, 0] (W main_arg1) slices_S2x800000_S1x800000_0_0) shapeCasts_S1x800000_S800000))))
                (Host.gather gather_S50000_S800000x1_S800000_n_0_n_n_0_1_1 (Host.rsqrt (addf (Host.scatterAdd scatter_S50000_S800000x1_S800000_n_0_0_1 (broadcastInDim S50000 ![] bcast_S_S50000 (constant S_ .f32 0x00000000#32 : (⟨S_, .f32⟩ : BufTy).Contents (Elt F))) (broadcastInDim S800000x1 ![0] bcast_S800000_S800000x1_0 (shapeCast S800000 (extractStridedSlice S1x800000 ![1, 0] (W main_arg1) slices_S2x800000_S1x800000_1_0) shapeCasts_S1x800000_S800000)) (broadcastInDim S800000 ![] bcast_S_S800000 (constant S_ .f32 0x3F800000#32 : (⟨S_, .f32⟩ : BufTy).Contents (Elt F)))) (broadcastInDim S50000 ![] bcast_S_S50000 (constant S_ .f32 0x3F800000#32 : (⟨S_, .f32⟩ : BufTy).Contents (Elt F))))) (broadcastInDim S800000x1 ![0] bcast_S800000_S800000x1_0 (select (cmpi .slt (shapeCast S800000 (extractStridedSlice S1x800000 ![1, 0] (W main_arg1) slices_S2x800000_S1x800000_1_0) shapeCasts_S1x800000_S800000) (broadcastInDim S800000 ![] bcast_S_S800000 (constantI S_ 32 0#32 : (⟨S_, .i32⟩ : BufTy).Contents (Elt F)))) (addi (shapeCast S800000 (extractStridedSlice S1x800000 ![1, 0] (W main_arg1) slices_S2x800000_S1x800000_1_0) shapeCasts_S1x800000_S800000) (broadcastInDim S800000 ![] bcast_S_S800000 (constantI S_ 32 50000#32 : (⟨S_, .i32⟩ : BufTy).Contents (Elt F)))) (shapeCast S800000 (extractStridedSlice S1x800000 ![1, 0] (W main_arg1) slices_S2x800000_S1x800000_1_0) shapeCasts_S1x800000_S800000))))) := by
  show StableHlo.after hostOps0 W (Proc.devRef .tc main_v26) = _
  after_results_simp <;> rfl

theorem host0_v28 (W : Valuation τ sig (Elt F)) :
    StableHlo.after hostOps0 W main_v28
      = broadcastInDim S50000x1 ![0] bcast_S50000_S50000x1_0 (mulf (Host.rsqrt (addf (Host.scatterAdd scatter_S50000_S800000x1_S800000_n_0_0_1 (broadcastInDim S50000 ![] bcast_S_S50000 (constant S_ .f32 0x00000000#32 : (⟨S_, .f32⟩ : BufTy).Contents (Elt F))) (broadcastInDim S800000x1 ![0] bcast_S800000_S800000x1_0 (shapeCast S800000 (extractStridedSlice S1x800000 ![1, 0] (W main_arg1) slices_S2x800000_S1x800000_1_0) shapeCasts_S1x800000_S800000)) (broadcastInDim S800000 ![] bcast_S_S800000 (constant S_ .f32 0x3F800000#32 : (⟨S_, .f32⟩ : BufTy).Contents (Elt F)))) (broadcastInDim S50000 ![] bcast_S_S50000 (constant S_ .f32 0x3F800000#32 : (⟨S_, .f32⟩ : BufTy).Contents (Elt F))))) (Host.rsqrt (addf (Host.scatterAdd scatter_S50000_S800000x1_S800000_n_0_0_1 (broadcastInDim S50000 ![] bcast_S_S50000 (constant S_ .f32 0x00000000#32 : (⟨S_, .f32⟩ : BufTy).Contents (Elt F))) (broadcastInDim S800000x1 ![0] bcast_S800000_S800000x1_0 (shapeCast S800000 (extractStridedSlice S1x800000 ![1, 0] (W main_arg1) slices_S2x800000_S1x800000_1_0) shapeCasts_S1x800000_S800000)) (broadcastInDim S800000 ![] bcast_S_S800000 (constant S_ .f32 0x3F800000#32 : (⟨S_, .f32⟩ : BufTy).Contents (Elt F)))) (broadcastInDim S50000 ![] bcast_S_S50000 (constant S_ .f32 0x3F800000#32 : (⟨S_, .f32⟩ : BufTy).Contents (Elt F)))))) := by
  show StableHlo.after hostOps0 W (Proc.devRef .tc main_v28) = _
  after_results_simp <;> rfl

theorem host0_v29 (W : Valuation τ sig (Elt F)) :
    StableHlo.after hostOps0 W main_v29
      = broadcastInDim S64 ![] bcast_S_S64 (constant S_ .f32 0x00000000#32 : (⟨S_, .f32⟩ : BufTy).Contents (Elt F)) := by
  show StableHlo.after hostOps0 W (Proc.devRef .tc main_v29) = _
  after_results_simp <;> rfl

theorem host0_v30 (W : Valuation τ sig (Elt F)) :
    StableHlo.after hostOps0 W main_v30 = shapeCast S1x64 (W main_arg3) shapeCasts_S64_S1x64 := by
  show StableHlo.after hostOps0 W (Proc.devRef .tc main_v30) = _
  after_results_simp <;> rfl

end Cert.KernelIdeal.Hand
-- ==== Proof.KI.Chain0.lean ====
import proofs.«147510_j18107582120779_2_alg».proof.Proof.KI.ChainCore
import proofs.«147510_j18107582120779_2_alg».proof.Proof.KI.Host0

set_option maxRecDepth 1864

noncomputable section

namespace Cert.KernelIdeal.Hand

open Idealize.ShloMosaic Idealize.ShloMosaic.TcCoe
open Cert.KernelIdeal Cert.KernelIdeal.Gen

variable {F : FTy → Type} [FloatOps F] [Cert.ReferenceIdeal.Facts₀]

theorem enc_step (V0 U2 : Valuation τ sig (Elt F))
    (h2 : U2 main_v31 = Cert.Spec.encG (StableHlo.after hostOps0 V0 main_arg0) (StableHlo.after hostOps0 V0 main_arg2)
      (StableHlo.after hostOps0 V0 main_v30))
    (h2o : ∀ r : Ref sig .tc, r ≠ main_v31 → U2 r = StableHlo.after hostOps0 V0 r) :
    U2 main_v31 = Cert.Spec.encG (argsOf V0).x (argsOf V0).encW (Cert.Spec.rowOf64 (argsOf V0).encb)
      ∧ Consts (argsOf V0) U2 := by
  have fa : ∀ r : Ref sig .tc, r ≠ main_v31 → r ∉ hostOps0_W → U2 r = V0 r := fun r h1 h2 =>
    (h2o r h1).trans (host0_frame V0 r h2)
  refine ⟨?_, ?_, ?_, ?_, ?_, ?_, ?_, ?_, ?_, ?_, ?_, ?_, ?_, ?_⟩
  · rw [h2, host0_frame V0 main_arg0 (by decide), host0_frame V0 main_arg2 (by decide), host0_v30 V0]; rfl
  · rw [h2o main_v1 (by decide), host0_v1 V0]; rfl
  · rw [h2o main_v3 (by decide), host0_v3 V0]; rfl
  · rw [h2o main_v26 (by decide), host0_v26 V0]; rfl
  · rw [h2o main_v28 (by decide), host0_v28 V0]; rfl
  · rw [h2o main_v29 (by decide), host0_v29 V0]
  · exact fa main_arg4 (by decide) (by decide)
  · exact fa main_arg5 (by decide) (by decide)
  · exact fa main_arg6 (by decide) (by decide)
  · exact fa main_arg7 (by decide) (by decide)
  · exact fa main_arg8 (by decide) (by decide)
  · exact fa main_arg9 (by decide) (by decide)
  · exact fa main_arg10 (by decide) (by decide)
  · exact fa main_arg11 (by decide) (by decide)

end Cert.KernelIdeal.Hand
-- ==== Proof.KI.Host1.lean ====
import proofs.«147510_j18107582120779_2_alg».proof.Proof.Gen.KernelIdeal.Regions

set_option maxRecDepth 1864

noncomputable section

namespace Cert.KernelIdeal.Hand

open Idealize.ShloMosaic Idealize.ShloMosaic.TcCoe
open Cert.KernelIdeal Cert.KernelIdeal.Gen

variable {F : FTy → Type} [FloatOps F]

theorem host1_frame (W : Valuation τ sig (Elt F)) (r : Ref sig .tc) (h : r ∉ hostOps1_W) :
    StableHlo.after hostOps1 W r = W r :=
  StableHlo.after_of_writes_sub hostOps1 W hostOps1_writes h

theorem host1_v38 (W : Valuation τ sig (Elt F)) :
    StableHlo.after hostOps1 W main_v38
      = Host.gather gather_S50000x64_S800000x1_S800000x64_1_0_n_n_0_1_164 (W main_v31) (broadcastInDim S800000x1 ![0] bcast_S800000_S800000x1_0 (select (cmpi .slt (W main_v1) (broadcastInDim S800000 ![] bcast_S_S800000 (constantI S_ 32 0#32 : (⟨S_, .i32⟩ : BufTy).Contents (Elt F)))) (addi (W main_v1) (broadcastInDim S800000 ![] bcast_S_S800000 (constantI S_ 32 50000#32 : (⟨S_, .i32⟩ : BufTy).Contents (Elt F)))) (W main_v1))) := by
  show StableHlo.after hostOps1 W (Proc.devRef .tc main_v38) = _
  after_results_simp <;> rfl

theorem host1_v45 (W : Valuation τ sig (Elt F)) :
    StableHlo.after hostOps1 W main_v45
      = Host.gather gather_S50000x64_S800000x1_S800000x64_1_0_n_n_0_1_164 (W main_v31) (broadcastInDim S800000x1 ![0] bcast_S800000_S800000x1_0 (select (cmpi .slt (W main_v3) (broadcastInDim S800000 ![] bcast_S_S800000 (constantI S_ 32 0#32 : (⟨S_, .i32⟩ : BufTy).Contents (Elt F)))) (addi (W main_v3) (broadcastInDim S800000 ![] bcast_S_S800000 (constantI S_ 32 50000#32 : (⟨S_, .i32⟩ : BufTy).Contents (Elt F)))) (W main_v3))) := by
  show StableHlo.after hostOps1 W (Proc.devRef .tc main_v45) = _
  after_results_simp <;> rfl

theorem host1_v46 (W : Valuation τ sig (Elt F)) :
    StableHlo.after hostOps1 W main_v46 = shapeCast S1x64 (W main_v29) shapeCasts_S64_S1x64 := by
  show StableHlo.after hostOps1 W (Proc.devRef .tc main_v46) = _
  after_results_simp <;> rfl

end Cert.KernelIdeal.Hand
-- ==== Proof.KI.Host3.lean ====
import proofs.«147510_j18107582120779_2_alg».proof.Proof.Gen.KernelIdeal.Regions

set_option maxRecDepth 1864

noncomputable section

namespace Cert.KernelIdeal.Hand

open Idealize.ShloMosaic Idealize.ShloMosaic.TcCoe
open Cert.KernelIdeal Cert.KernelIdeal.Gen

variable {F : FTy → Type} [FloatOps F]

theorem host3_frame (W : Valuation τ sig (Elt F)) (r : Ref sig .tc) (h : r ∉ hostOps3_W) :
    StableHlo.after hostOps3 W r = W r :=
  StableHlo.after_of_writes_sub hostOps3 W hostOps3_writes h

theorem host3_v53 (W : Valuation τ sig (Elt F)) :
    StableHlo.after hostOps3 W main_v53
      = extractStridedSlice S50000x64 ![0, 64] (Host.scatterAdd scatter_S50000x128_S800000x1_S800000x128_1_0_0_1 (broadcastInDim S50000x128 ![] bcast_S_S50000x128 (constant S_ .f32 0x00000000#32 : (⟨S_, .f32⟩ : BufTy).Contents (Elt F))) (broadcastInDim S800000x1 ![0] bcast_S800000_S800000x1_0 (W main_v3)) (W main_v48)) slices_S50000x128_S50000x64_0_64 := by
  show StableHlo.after hostOps3 W (Proc.devRef .tc main_v53) = _
  after_results <;> rfl

theorem host3_v55 (W : Valuation τ sig (Elt F)) :
    StableHlo.after hostOps3 W main_v55
      = mulf (extractStridedSlice S50000x64 ![0, 0] (Host.scatterAdd scatter_S50000x128_S800000x1_S800000x128_1_0_0_1 (broadcastInDim S50000x128 ![] bcast_S_S50000x128 (constant S_ .f32 0x00000000#32 : (⟨S_, .f32⟩ : BufTy).Contents (Elt F))) (broadcastInDim S800000x1 ![0] bcast_S800000_S800000x1_0 (W main_v3)) (W main_v48)) slices_S50000x128_S50000x64_0_0)
          (broadcastInDim S50000x64 ![] bcast_S_S50000x64 (W main_arg9)) := by
  show StableHlo.after hostOps3 W (Proc.devRef .tc main_v55) = _
  after_results <;> rfl

theorem host3_v56 (W : Valuation τ sig (Elt F)) :
    StableHlo.after hostOps3 W main_v56 = shapeCast S1x64 (W main_arg5) shapeCasts_S64_S1x64 := by
  show StableHlo.after hostOps3 W (Proc.devRef .tc main_v56) = _
  after_results <;> rfl

theorem host3_v57 (W : Valuation τ sig (Elt F)) :
    StableHlo.after hostOps3 W main_v57 = shapeCast S1x64 (W main_arg7) shapeCasts_S64_S1x64 := by
  show StableHlo.after hostOps3 W (Proc.devRef .tc main_v57) = _
  after_results <;> rfl

end Cert.KernelIdeal.Hand
-- ==== Proof.KI.Chain1.lean ====
import proofs.«147510_j18107582120779_2_alg».proof.Proof.KI.ChainCore
import proofs.«147510_j18107582120779_2_alg».proof.Proof.KI.Host1
import proofs.«147510_j18107582120779_2_alg».proof.Proof.KI.Host3

set_option maxRecDepth 1864

noncomputable section

namespace Cert.KernelIdeal.Hand

open Idealize.ShloMosaic Idealize.ShloMosaic.TcCoe
open Cert.KernelIdeal Cert.KernelIdeal.Gen

variable {F : FTy → Type} [FloatOps F] [Cert.ReferenceIdeal.Facts₀]

theorem layer1_step (Ua Uc Ud Uf : Valuation τ sig (Elt F))
    (hc : Uc main_v47 = Cert.Spec.linG (StableHlo.after hostOps1 Ua main_v31) (StableHlo.after hostOps1 Ua main_arg4)
      (StableHlo.after hostOps1 Ua main_v46))
    (hco : ∀ r : Ref sig .tc, r ≠ main_v47 → Uc r = StableHlo.after hostOps1 Ua r)
    (hd : Ud main_v48 = Cert.Spec.edgeG (Uc main_v38) (Uc main_v45) (Uc main_arg8) (Uc main_arg4) (Uc main_v26))
    (hdo : ∀ r : Ref sig .tc, r ≠ main_v48 → Ud r = Uc r)
    (hf0 : Uf main_v58_0 = (Cert.Spec.nodeG (StableHlo.after hostOps3 Ud main_v31) (StableHlo.after hostOps3 Ud main_v31)
      (StableHlo.after hostOps3 Ud main_v47) (StableHlo.after hostOps3 Ud main_v53) (StableHlo.after hostOps3 Ud main_v55)
      (StableHlo.after hostOps3 Ud main_v28) (StableHlo.after hostOps3 Ud main_v56) (StableHlo.after hostOps3 Ud main_arg6)
      (StableHlo.after hostOps3 Ud main_v57)).1)
    (hf1 : Uf main_v58_1 = (Cert.Spec.nodeG (StableHlo.after hostOps3 Ud main_v31) (StableHlo.after hostOps3 Ud main_v31)
      (StableHlo.after hostOps3 Ud main_v47) (StableHlo.after hostOps3 Ud main_v53) (StableHlo.after hostOps3 Ud main_v55)
      (StableHlo.after hostOps3 Ud main_v28) (StableHlo.after hostOps3 Ud main_v56) (StableHlo.after hostOps3 Ud main_arg6)
      (StableHlo.after hostOps3 Ud main_v57)).2)
    (hfo : ∀ r : Ref sig .tc, r ≠ main_v58_0 → r ≠ main_v58_1 → Uf r = StableHlo.after hostOps3 Ud r)
    (a : Cert.Spec.Args F) (hK : Consts a Ua) :
    ((Uf main_v58_0, Uf main_v58_1) : FVec F Cert.ReferenceIdeal.S50000x64 .f32 × FVec F Cert.ReferenceIdeal.S50000x64 .f32)
        = Cert.Spec.kerLayer (Cert.Spec.srcOf a.ei) (Cert.Spec.dstOf a.ei)
            (Cert.Spec.enormCol (Cert.Spec.dinv (Cert.Spec.dstOf a.ei)) (Cert.Spec.srcOf a.ei) (Cert.Spec.dstOf a.ei))
            (Cert.Spec.selfNormCol (Cert.Spec.dinv (Cert.Spec.dstOf a.ei)))
            a.convW a.convb a.resW a.resb a.wmlp a.lam (Ua main_v31, Ua main_v31)
      ∧ Consts a Uf := by

  have fc : ∀ r : Ref sig .tc, r ∉ hostOps1_W → r ≠ main_v47 → Uc r = Ua r := fun r h1 h2 =>
    (hco r h2).trans (host1_frame Ua r h1)
  have fd : ∀ r : Ref sig .tc, r ∉ hostOps1_W → r ≠ main_v47 → r ≠ main_v48 → Ud r = Ua r := fun r h1 h2 h3 =>
    (hdo r h3).trans (fc r h1 h2)

  have fe : ∀ r : Ref sig .tc, r ∉ hostOps1_W → r ≠ main_v47 → r ≠ main_v48 → r ∉ hostOps3_W →
      StableHlo.after hostOps3 Ud r = Ua r := fun r h1 h2 h3 h4 => (host3_frame Ud r h4).trans (fd r h1 h2 h3)

  have eXs : Uc main_v38 = Host.gather Cert.ReferenceIdeal.gather_S50000x64_S800000x1_S800000x64_1_0_n_n_0_1_164 (Ua main_v31) (Cert.Spec.wrapIdx (Cert.Spec.srcOf a.ei)) := by
    rw [hco main_v38 (by decide), host1_v38 Ua, hK.src]; rfl
  have eXd : Uc main_v45 = Host.gather Cert.ReferenceIdeal.gather_S50000x64_S800000x1_S800000x64_1_0_n_n_0_1_164 (Ua main_v31) (Cert.Spec.wrapIdx (Cert.Spec.dstOf a.ei)) := by
    rw [hco main_v45 (by decide), host1_v45 Ua, hK.dst]; rfl

  have eXW : Uc main_v47 = Cert.Spec.linG (Ua main_v31) a.convW Cert.Spec.zeroRow64 := by
    rw [hc, host1_frame Ua main_v31 (by decide), host1_frame Ua main_arg4 (by decide), host1_v46 Ua, hK.zb, hK.convW]; rfl

  have eE : Ud main_v48 = Cert.Spec.edgeG (Host.gather Cert.ReferenceIdeal.gather_S50000x64_S800000x1_S800000x64_1_0_n_n_0_1_164 (Ua main_v31) (Cert.Spec.wrapIdx (Cert.Spec.srcOf a.ei)))
      (Host.gather Cert.ReferenceIdeal.gather_S50000x64_S800000x1_S800000x64_1_0_n_n_0_1_164 (Ua main_v31) (Cert.Spec.wrapIdx (Cert.Spec.dstOf a.ei))) a.wmlp a.convW
      (Cert.Spec.enormCol (Cert.Spec.dinv (Cert.Spec.dstOf a.ei)) (Cert.Spec.srcOf a.ei) (Cert.Spec.dstOf a.ei)) := by
    rw [hd, eXs, eXd, fc main_arg8 (by decide) (by decide), fc main_arg4 (by decide) (by decide),
      fc main_v26 (by decide) (by decide), hK.wmlp, hK.convW, hK.en]

  have eD : Ud main_v3 = Cert.Spec.dstOf a.ei := (fd main_v3 (by decide) (by decide) (by decide)).trans hK.dst
  have e80 : StableHlo.after hostOps3 Ud main_v53 = Cert.Spec.colsHi (Cert.Spec.aggG (Ud main_v3) (Ud main_v48)) := by
    rw [host3_v53 Ud]; rfl
  have e82 : StableHlo.after hostOps3 Ud main_v55 = mulf (Cert.Spec.colsLo (Cert.Spec.aggG (Ud main_v3) (Ud main_v48)))
      (broadcastInDim Cert.ReferenceIdeal.S50000x64 ![] Cert.ReferenceIdeal.Facts₀.bcast_S_S50000x64 (Ud main_arg9)) := by
    rw [host3_v55 Ud]; rfl
  have e83 : StableHlo.after hostOps3 Ud main_v56 = Cert.Spec.rowOf64 a.convb := by
    rw [host3_v56 Ud, fd main_arg5 (by decide) (by decide) (by decide), hK.convb]; rfl
  have e84 : StableHlo.after hostOps3 Ud main_v57 = Cert.Spec.rowOf64 a.resb := by
    rw [host3_v57 Ud, fd main_arg7 (by decide) (by decide) (by decide), hK.resb]; rfl
  have eW : StableHlo.after hostOps3 Ud main_v47 = Cert.Spec.linG (Ua main_v31) a.convW Cert.Spec.zeroRow64 := by
    rw [host3_frame Ud main_v47 (by decide), hdo main_v47 (by decide), eXW]
  have e9 : Ud main_arg9 = a.lam := (fd main_arg9 (by decide) (by decide) (by decide)).trans hK.lam
  have eX := fe main_v31 (by decide) (by decide) (by decide) (by decide)
  have eY := fe main_v31 (by decide) (by decide) (by decide) (by decide)
  have e28 := (fe main_v28 (by decide) (by decide) (by decide) (by decide)).trans hK.sn
  have e6 := (fe main_arg6 (by decide) (by decide) (by decide) (by decide)).trans hK.resW
  refine ⟨Prod.ext ?_ ?_, hK.frame fun r hr => ?_⟩
  · show Uf main_v58_0 = _
    rw [hf0, eX]
    try rw [eY]
    rw [eW, e80, e82, e28, e83, e6, e84, eD, eE, e9]; rfl
  · show Uf main_v58_1 = _
    rw [hf1, eX]
    try rw [eY]
    rw [eW, e80, e82, e28, e83, e6, e84, eD, eE, e9]; rfl
  · exact (hfo r ((by decide : ∀ r : Ref sig .tc, r ∈ constRefs → r ≠ main_v58_0) r hr)
      ((by decide : ∀ r : Ref sig .tc, r ∈ constRefs → r ≠ main_v58_1) r hr)).trans
      (fe r ((by decide : ∀ r : Ref sig .tc, r ∈ constRefs → r ∉ hostOps1_W) r hr)
        ((by decide : ∀ r : Ref sig .tc, r ∈ constRefs → r ≠ main_v47) r hr)
        ((by decide : ∀ r : Ref sig .tc, r ∈ constRefs → r ≠ main_v48) r hr)
        ((by decide : ∀ r : Ref sig .tc, r ∈ constRefs → r ∉ hostOps3_W) r hr))

end Cert.KernelIdeal.Hand
-- ==== Proof.KI.Host4.lean ====
import proofs.«147510_j18107582120779_2_alg».proof.Proof.Gen.KernelIdeal.Regions

set_option maxRecDepth 1864

noncomputable section

namespace Cert.KernelIdeal.Hand

open Idealize.ShloMosaic Idealize.ShloMosaic.TcCoe
open Cert.KernelIdeal Cert.KernelIdeal.Gen

variable {F : FTy → Type} [FloatOps F]

theorem host4_frame (W : Valuation τ sig (Elt F)) (r : Ref sig .tc) (h : r ∉ hostOps4_W) :
    StableHlo.after hostOps4 W r = W r :=
  StableHlo.after_of_writes_sub hostOps4 W hostOps4_writes h

theorem host4_v65 (W : Valuation τ sig (Elt F)) :
    StableHlo.after hostOps4 W main_v65
      = Host.gather gather_S50000x64_S800000x1_S800000x64_1_0_n_n_0_1_164 (W main_v58_0) (broadcastInDim S800000x1 ![0] bcast_S800000_S800000x1_0 (select (cmpi .slt (W main_v1) (broadcastInDim S800000 ![] bcast_S_S800000 (constantI S_ 32 0#32 : (⟨S_, .i32⟩ : BufTy).Contents (Elt F)))) (addi (W main_v1) (broadcastInDim S800000 ![] bcast_S_S800000 (constantI S_ 32 50000#32 : (⟨S_, .i32⟩ : BufTy).Contents (Elt F)))) (W main_v1))) := by
  show StableHlo.after hostOps4 W (Proc.devRef .tc main_v65) = _
  after_results_simp <;> rfl

theorem host4_v72 (W : Valuation τ sig (Elt F)) :
    StableHlo.after hostOps4 W main_v72
      = Host.gather gather_S50000x64_S800000x1_S800000x64_1_0_n_n_0_1_164 (W main_v58_0) (broadcastInDim S800000x1 ![0] bcast_S800000_S800000x1_0 (select (cmpi .slt (W main_v3) (broadcastInDim S800000 ![] bcast_S_S800000 (constantI S_ 32 0#32 : (⟨S_, .i32⟩ : BufTy).Contents (Elt F)))) (addi (W main_v3) (broadcastInDim S800000 ![] bcast_S_S800000 (constantI S_ 32 50000#32 : (⟨S_, .i32⟩ : BufTy).Contents (Elt F)))) (W main_v3))) := by
  show StableHlo.after hostOps4 W (Proc.devRef .tc main_v72) = _
  after_results_simp <;> rfl

theorem host4_v73 (W : Valuation τ sig (Elt F)) :
    StableHlo.after hostOps4 W main_v73 = shapeCast S1x64 (W main_v29) shapeCasts_S64_S1x64 := by
  show StableHlo.after hostOps4 W (Proc.devRef .tc main_v73) = _
  after_results_simp <;> rfl

end Cert.KernelIdeal.Hand
-- ==== Proof.KI.Host6.lean ====
import proofs.«147510_j18107582120779_2_alg».proof.Proof.Gen.KernelIdeal.Regions

set_option maxRecDepth 1864

noncomputable section

namespace Cert.KernelIdeal.Hand

open Idealize.ShloMosaic Idealize.ShloMosaic.TcCoe
open Cert.KernelIdeal Cert.KernelIdeal.Gen

variable {F : FTy → Type} [FloatOps F]

theorem host6_frame (W : Valuation τ sig (Elt F)) (r : Ref sig .tc) (h : r ∉ hostOps6_W) :
    StableHlo.after hostOps6 W r = W r :=
  StableHlo.after_of_writes_sub hostOps6 W hostOps6_writes h

theorem host6_v80 (W : Valuation τ sig (Elt F)) :
    StableHlo.after hostOps6 W main_v80
      = extractStridedSlice S50000x64 ![0, 64] (Host.scatterAdd scatter_S50000x128_S800000x1_S800000x128_1_0_0_1 (broadcastInDim S50000x128 ![] bcast_S_S50000x128 (constant S_ .f32 0x00000000#32 : (⟨S_, .f32⟩ : BufTy).Contents (Elt F))) (broadcastInDim S800000x1 ![0] bcast_S800000_S800000x1_0 (W main_v3)) (W main_v75)) slices_S50000x128_S50000x64_0_64 := by
  show StableHlo.after hostOps6 W (Proc.devRef .tc main_v80) = _
  after_results <;> rfl

theorem host6_v82 (W : Valuation τ sig (Elt F)) :
    StableHlo.after hostOps6 W main_v82
      = mulf (extractStridedSlice S50000x64 ![0, 0] (Host.scatterAdd scatter_S50000x128_S800000x1_S800000x128_1_0_0_1 (broadcastInDim S50000x128 ![] bcast_S_S50000x128 (constant S_ .f32 0x00000000#32 : (⟨S_, .f32⟩ : BufTy).Contents (Elt F))) (broadcastInDim S800000x1 ![0] bcast_S800000_S800000x1_0 (W main_v3)) (W main_v75)) slices_S50000x128_S50000x64_0_0)
          (broadcastInDim S50000x64 ![] bcast_S_S50000x64 (W main_arg9)) := by
  show StableHlo.after hostOps6 W (Proc.devRef .tc main_v82) = _
  after_results <;> rfl

theorem host6_v83 (W : Valuation τ sig (Elt F)) :
    StableHlo.after hostOps6 W main_v83 = shapeCast S1x64 (W main_arg5) shapeCasts_S64_S1x64 := by
  show StableHlo.after hostOps6 W (Proc.devRef .tc main_v83) = _
  after_results <;> rfl

theorem host6_v84 (W : Valuation τ sig (Elt F)) :
    StableHlo.after hostOps6 W main_v84 = shapeCast S1x64 (W main_arg7) shapeCasts_S64_S1x64 := by
  show StableHlo.after hostOps6 W (Proc.devRef .tc main_v84) = _
  after_results <;> rfl

end Cert.KernelIdeal.Hand
-- ==== Proof.KI.Chain2.lean ====
import proofs.«147510_j18107582120779_2_alg».proof.Proof.KI.ChainCore
import proofs.«147510_j18107582120779_2_alg».proof.Proof.KI.Host4
import proofs.«147510_j18107582120779_2_alg».proof.Proof.KI.Host6

set_option maxRecDepth 1864

noncomputable section

namespace Cert.KernelIdeal.Hand

open Idealize.ShloMosaic Idealize.ShloMosaic.TcCoe
open Cert.KernelIdeal Cert.KernelIdeal.Gen

variable {F : FTy → Type} [FloatOps F] [Cert.ReferenceIdeal.Facts₀]

theorem layer2_step (Ua Uc Ud Uf : Valuation τ sig (Elt F))
    (hc : Uc main_v74 = Cert.Spec.linG (StableHlo.after hostOps4 Ua main_v58_0) (StableHlo.after hostOps4 Ua main_arg4)
      (StableHlo.after hostOps4 Ua main_v73))
    (hco : ∀ r : Ref sig .tc, r ≠ main_v74 → Uc r = StableHlo.after hostOps4 Ua r)
    (hd : Ud main_v75 = Cert.Spec.edgeG (Uc main_v65) (Uc main_v72) (Uc main_arg8) (Uc main_arg4) (Uc main_v26))
    (hdo : ∀ r : Ref sig .tc, r ≠ main_v75 → Ud r = Uc r)
    (hf0 : Uf main_v85_0 = (Cert.Spec.nodeG (StableHlo.after hostOps6 Ud main_v58_0) (StableHlo.after hostOps6 Ud main_v58_1)
      (StableHlo.after hostOps6 Ud main_v74) (StableHlo.after hostOps6 Ud main_v80) (StableHlo.after hostOps6 Ud main_v82)
      (StableHlo.after hostOps6 Ud main_v28) (StableHlo.after hostOps6 Ud main_v83) (StableHlo.after hostOps6 Ud main_arg6)
      (StableHlo.after hostOps6 Ud main_v84)).1)
    (hf1 : Uf main_v85_1 = (Cert.Spec.nodeG (StableHlo.after hostOps6 Ud main_v58_0) (StableHlo.after hostOps6 Ud main_v58_1)
      (StableHlo.after hostOps6 Ud main_v74) (StableHlo.after hostOps6 Ud main_v80) (StableHlo.after hostOps6 Ud main_v82)
      (StableHlo.after hostOps6 Ud main_v28) (StableHlo.after hostOps6 Ud main_v83) (StableHlo.after hostOps6 Ud main_arg6)
      (StableHlo.after hostOps6 Ud main_v84)).2)
    (hfo : ∀ r : Ref sig .tc, r ≠ main_v85_0 → r ≠ main_v85_1 → Uf r = StableHlo.after hostOps6 Ud r)
    (a : Cert.Spec.Args F) (hK : Consts a Ua) :
    ((Uf main_v85_0, Uf main_v85_1) : FVec F Cert.ReferenceIdeal.S50000x64 .f32 × FVec F Cert.ReferenceIdeal.S50000x64 .f32)
        = Cert.Spec.kerLayer (Cert.Spec.srcOf a.ei) (Cert.Spec.dstOf a.ei)
            (Cert.Spec.enormCol (Cert.Spec.dinv (Cert.Spec.dstOf a.ei)) (Cert.Spec.srcOf a.ei) (Cert.Spec.dstOf a.ei))
            (Cert.Spec.selfNormCol (Cert.Spec.dinv (Cert.Spec.dstOf a.ei)))
            a.convW a.convb a.resW a.resb a.wmlp a.lam (Ua main_v58_0, Ua main_v58_1)
      ∧ Consts a Uf := by

  have fc : ∀ r : Ref sig .tc, r ∉ hostOps4_W → r ≠ main_v74 → Uc r = Ua r := fun r h1 h2 =>
    (hco r h2).trans (host4_frame Ua r h1)
  have fd : ∀ r : Ref sig .tc, r ∉ hostOps4_W → r ≠ main_v74 → r ≠ main_v75 → Ud r = Ua r := fun r h1 h2 h3 =>
    (hdo r h3).trans (fc r h1 h2)

  have fe : ∀ r : Ref sig .tc, r ∉ hostOps4_W → r ≠ main_v74 → r ≠ main_v75 → r ∉ hostOps6_W →
      StableHlo.after hostOps6 Ud r = Ua r := fun r h1 h2 h3 h4 => (host6_frame Ud r h4).trans (fd r h1 h2 h3)

  have eXs : Uc main_v65 = Host.gather Cert.ReferenceIdeal.gather_S50000x64_S800000x1_S800000x64_1_0_n_n_0_1_164 (Ua main_v58_0) (Cert.Spec.wrapIdx (Cert.Spec.srcOf a.ei)) := by
    rw [hco main_v65 (by decide), host4_v65 Ua, hK.src]; rfl
  have eXd : Uc main_v72 = Host.gather Cert.ReferenceIdeal.gather_S50000x64_S800000x1_S800000x64_1_0_n_n_0_1_164 (Ua main_v58_0) (Cert.Spec.wrapIdx (Cert.Spec.dstOf a.ei)) := by
    rw [hco main_v72 (by decide), host4_v72 Ua, hK.dst]; rfl

  have eXW : Uc main_v74 = Cert.Spec.linG (Ua main_v58_0) a.convW Cert.Spec.zeroRow64 := by
    rw [hc, host4_frame Ua main_v58_0 (by decide), host4_frame Ua main_arg4 (by decide), host4_v73 Ua, hK.zb, hK.convW]; rfl

  have eE : Ud main_v75 = Cert.Spec.edgeG (Host.gather Cert.ReferenceIdeal.gather_S50000x64_S800000x1_S800000x64_1_0_n_n_0_1_164 (Ua main_v58_0) (Cert.Spec.wrapIdx (Cert.Spec.srcOf a.ei)))
      (Host.gather Cert.ReferenceIdeal.gather_S50000x64_S800000x1_S800000x64_1_0_n_n_0_1_164 (Ua main_v58_0) (Cert.Spec.wrapIdx (Cert.Spec.dstOf a.ei))) a.wmlp a.convW
      (Cert.Spec.enormCol (Cert.Spec.dinv (Cert.Spec.dstOf a.ei)) (Cert.Spec.srcOf a.ei) (Cert.Spec.dstOf a.ei)) := by
    rw [hd, eXs, eXd, fc main_arg8 (by decide) (by decide), fc main_arg4 (by decide) (by decide),
      fc main_v26 (by decide) (by decide), hK.wmlp, hK.convW, hK.en]

  have eD : Ud main_v3 = Cert.Spec.dstOf a.ei := (fd main_v3 (by decide) (by decide) (by decide)).trans hK.dst
  have e80 : StableHlo.after hostOps6 Ud main_v80 = Cert.Spec.colsHi (Cert.Spec.aggG (Ud main_v3) (Ud main_v75)) := by
    rw [host6_v80 Ud]; rfl
  have e82 : StableHlo.after hostOps6 Ud main_v82 = mulf (Cert.Spec.colsLo (Cert.Spec.aggG (Ud main_v3) (Ud main_v75)))
      (broadcastInDim Cert.ReferenceIdeal.S50000x64 ![] Cert.ReferenceIdeal.Facts₀.bcast_S_S50000x64 (Ud main_arg9)) := by
    rw [host6_v82 Ud]; rfl
  have e83 : StableHlo.after hostOps6 Ud main_v83 = Cert.Spec.rowOf64 a.convb := by
    rw [host6_v83 Ud, fd main_arg5 (by decide) (by decide) (by decide), hK.convb]; rfl
  have e84 : StableHlo.after hostOps6 Ud main_v84 = Cert.Spec.rowOf64 a.resb := by
    rw [host6_v84 Ud, fd main_arg7 (by decide) (by decide) (by decide), hK.resb]; rfl
  have eW : StableHlo.after hostOps6 Ud main_v74 = Cert.Spec.linG (Ua main_v58_0) a.convW Cert.Spec.zeroRow64 := by
    rw [host6_frame Ud main_v74 (by decide), hdo main_v74 (by decide), eXW]
  have e9 : Ud main_arg9 = a.lam := (fd main_arg9 (by decide) (by decide) (by decide)).trans hK.lam
  have eX := fe main_v58_0 (by decide) (by decide) (by decide) (by decide)
  have eY := fe main_v58_1 (by decide) (by decide) (by decide) (by decide)
  have e28 := (fe main_v28 (by decide) (by decide) (by decide) (by decide)).trans hK.sn
  have e6 := (fe main_arg6 (by decide) (by decide) (by decide) (by decide)).trans hK.resW
  refine ⟨Prod.ext ?_ ?_, hK.frame fun r hr => ?_⟩
  · show Uf main_v85_0 = _
    rw [hf0, eX]
    try rw [eY]
    rw [eW, e80, e82, e28, e83, e6, e84, eD, eE, e9]; rfl
  · show Uf main_v85_1 = _
    rw [hf1, eX]
    try rw [eY]
    rw [eW, e80, e82, e28, e83, e6, e84, eD, eE, e9]; rfl
  · exact (hfo r ((by decide : ∀ r : Ref sig .tc, r ∈ constRefs → r ≠ main_v85_0) r hr)
      ((by decide : ∀ r : Ref sig .tc, r ∈ constRefs → r ≠ main_v85_1) r hr)).trans
      (fe r ((by decide : ∀ r : Ref sig .tc, r ∈ constRefs → r ∉ hostOps4_W) r hr)
        ((by decide : ∀ r : Ref sig .tc, r ∈ constRefs → r ≠ main_v74) r hr)
        ((by decide : ∀ r : Ref sig .tc, r ∈ constRefs → r ≠ main_v75) r hr)
        ((by decide : ∀ r : Ref sig .tc, r ∈ constRefs → r ∉ hostOps6_W) r hr))

end Cert.KernelIdeal.Hand
-- ==== Proof.KI.Host7.lean ====
import proofs.«147510_j18107582120779_2_alg».proof.Proof.Gen.KernelIdeal.Regions

set_option maxRecDepth 1864

noncomputable section

namespace Cert.KernelIdeal.Hand

open Idealize.ShloMosaic Idealize.ShloMosaic.TcCoe
open Cert.KernelIdeal Cert.KernelIdeal.Gen

variable {F : FTy → Type} [FloatOps F]

theorem host7_frame (W : Valuation τ sig (Elt F)) (r : Ref sig .tc) (h : r ∉ hostOps7_W) :
    StableHlo.after hostOps7 W r = W r :=
  StableHlo.after_of_writes_sub hostOps7 W hostOps7_writes h

theorem host7_v92 (W : Valuation τ sig (Elt F)) :
    StableHlo.after hostOps7 W main_v92
      = Host.gather gather_S50000x64_S800000x1_S800000x64_1_0_n_n_0_1_164 (W main_v85_0) (broadcastInDim S800000x1 ![0] bcast_S800000_S800000x1_0 (select (cmpi .slt (W main_v1) (broadcastInDim S800000 ![] bcast_S_S800000 (constantI S_ 32 0#32 : (⟨S_, .i32⟩ : BufTy).Contents (Elt F)))) (addi (W main_v1) (broadcastInDim S800000 ![] bcast_S_S800000 (constantI S_ 32 50000#32 : (⟨S_, .i32⟩ : BufTy).Contents (Elt F)))) (W main_v1))) := by
  show StableHlo.after hostOps7 W (Proc.devRef .tc main_v92) = _
  after_results_simp <;> rfl

theorem host7_v99 (W : Valuation τ sig (Elt F)) :
    StableHlo.after hostOps7 W main_v99
      = Host.gather gather_S50000x64_S800000x1_S800000x64_1_0_n_n_0_1_164 (W main_v85_0) (broadcastInDim S800000x1 ![0] bcast_S800000_S800000x1_0 (select (cmpi .slt (W main_v3) (broadcastInDim S800000 ![] bcast_S_S800000 (constantI S_ 32 0#32 : (⟨S_, .i32⟩ : BufTy).Contents (Elt F)))) (addi (W main_v3) (broadcastInDim S800000 ![] bcast_S_S800000 (constantI S_ 32 50000#32 : (⟨S_, .i32⟩ : BufTy).Contents (Elt F)))) (W main_v3))) := by
  show StableHlo.after hostOps7 W (Proc.devRef .tc main_v99) = _
  after_results_simp <;> rfl

theorem host7_v100 (W : Valuation τ sig (Elt F)) :
    StableHlo.after hostOps7 W main_v100 = shapeCast S1x64 (W main_v29) shapeCasts_S64_S1x64 := by
  show StableHlo.after hostOps7 W (Proc.devRef .tc main_v100) = _
  after_results_simp <;> rfl

end Cert.KernelIdeal.Hand
-- ==== Proof.KI.Host9.lean ====
import proofs.«147510_j18107582120779_2_alg».proof.Proof.Gen.KernelIdeal.Regions

set_option maxRecDepth 1864

noncomputable section

namespace Cert.KernelIdeal.Hand

open Idealize.ShloMosaic Idealize.ShloMosaic.TcCoe
open Cert.KernelIdeal Cert.KernelIdeal.Gen

variable {F : FTy → Type} [FloatOps F]

theorem host9_frame (W : Valuation τ sig (Elt F)) (r : Ref sig .tc) (h : r ∉ hostOps9_W) :
    StableHlo.after hostOps9 W r = W r :=
  StableHlo.after_of_writes_sub hostOps9 W hostOps9_writes h

theorem host9_v107 (W : Valuation τ sig (Elt F)) :
    StableHlo.after hostOps9 W main_v107
      = extractStridedSlice S50000x64 ![0, 64] (Host.scatterAdd scatter_S50000x128_S800000x1_S800000x128_1_0_0_1 (broadcastInDim S50000x128 ![] bcast_S_S50000x128 (constant S_ .f32 0x00000000#32 : (⟨S_, .f32⟩ : BufTy).Contents (Elt F))) (broadcastInDim S800000x1 ![0] bcast_S800000_S800000x1_0 (W main_v3)) (W main_v102)) slices_S50000x128_S50000x64_0_64 := by
  show StableHlo.after hostOps9 W (Proc.devRef .tc main_v107) = _
  after_results <;> rfl

theorem host9_v109 (W : Valuation τ sig (Elt F)) :
    StableHlo.after hostOps9 W main_v109
      = mulf (extractStridedSlice S50000x64 ![0, 0] (Host.scatterAdd scatter_S50000x128_S800000x1_S800000x128_1_0_0_1 (broadcastInDim S50000x128 ![] bcast_S_S50000x128 (constant S_ .f32 0x00000000#32 : (⟨S_, .f32⟩ : BufTy).Contents (Elt F))) (broadcastInDim S800000x1 ![0] bcast_S800000_S800000x1_0 (W main_v3)) (W main_v102)) slices_S50000x128_S50000x64_0_0)
          (broadcastInDim S50000x64 ![] bcast_S_S50000x64 (W main_arg9)) := by
  show StableHlo.after hostOps9 W (Proc.devRef .tc main_v109) = _
  after_results <;> rfl

theorem host9_v110 (W : Valuation τ sig (Elt F)) :
    StableHlo.after hostOps9 W main_v110 = shapeCast S1x64 (W main_arg5) shapeCasts_S64_S1x64 := by
  show StableHlo.after hostOps9 W (Proc.devRef .tc main_v110) = _
  after_results <;> rfl

theorem host9_v111 (W : Valuation τ sig (Elt F)) :
    StableHlo.after hostOps9 W main_v111 = shapeCast S1x64 (W main_arg7) shapeCasts_S64_S1x64 := by
  show StableHlo.after hostOps9 W (Proc.devRef .tc main_v111) = _
  after_results <;> rfl

end Cert.KernelIdeal.Hand
-- ==== Proof.KI.Chain3.lean ====
import proofs.«147510_j18107582120779_2_alg».proof.Proof.KI.ChainCore
import proofs.«147510_j18107582120779_2_alg».proof.Proof.KI.Host7
import proofs.«147510_j18107582120779_2_alg».proof.Proof.KI.Host9

set_option maxRecDepth 1864

noncomputable section

namespace Cert.KernelIdeal.Hand

open Idealize.ShloMosaic Idealize.ShloMosaic.TcCoe
open Cert.KernelIdeal Cert.KernelIdeal.Gen

variable {F : FTy → Type} [FloatOps F] [Cert.ReferenceIdeal.Facts₀]

theorem layer3_step (Ua Uc Ud Uf : Valuation τ sig (Elt F))
    (hc : Uc main_v101 = Cert.Spec.linG (StableHlo.after hostOps7 Ua main_v85_0) (StableHlo.after hostOps7 Ua main_arg4)
      (StableHlo.after hostOps7 Ua main_v100))
    (hco : ∀ r : Ref sig .tc, r ≠ main_v101 → Uc r = StableHlo.after hostOps7 Ua r)
    (hd : Ud main_v102 = Cert.Spec.edgeG (Uc main_v92) (Uc main_v99) (Uc main_arg8) (Uc main_arg4) (Uc main_v26))
    (hdo : ∀ r : Ref sig .tc, r ≠ main_v102 → Ud r = Uc r)
    (hf0 : Uf main_v112_0 = (Cert.Spec.nodeG (StableHlo.after hostOps9 Ud main_v85_0) (StableHlo.after hostOps9 Ud main_v85_1)
      (StableHlo.after hostOps9 Ud main_v101) (StableHlo.after hostOps9 Ud main_v107) (StableHlo.after hostOps9 Ud main_v109)
      (StableHlo.after hostOps9 Ud main_v28) (StableHlo.after hostOps9 Ud main_v110) (StableHlo.after hostOps9 Ud main_arg6)
      (StableHlo.after hostOps9 Ud main_v111)).1)
    (hf1 : Uf main_v112_1 = (Cert.Spec.nodeG (StableHlo.after hostOps9 Ud main_v85_0) (StableHlo.after hostOps9 Ud main_v85_1)
      (StableHlo.after hostOps9 Ud main_v101) (StableHlo.after hostOps9 Ud main_v107) (StableHlo.after hostOps9 Ud main_v109)
      (StableHlo.after hostOps9 Ud main_v28) (StableHlo.after hostOps9 Ud main_v110) (StableHlo.after hostOps9 Ud main_arg6)
      (StableHlo.after hostOps9 Ud main_v111)).2)
    (hfo : ∀ r : Ref sig .tc, r ≠ main_v112_0 → r ≠ main_v112_1 → Uf r = StableHlo.after hostOps9 Ud r)
    (a : Cert.Spec.Args F) (hK : Consts a Ua) :
    ((Uf main_v112_0, Uf main_v112_1) : FVec F Cert.ReferenceIdeal.S50000x64 .f32 × FVec F Cert.ReferenceIdeal.S50000x64 .f32)
        = Cert.Spec.kerLayer (Cert.Spec.srcOf a.ei) (Cert.Spec.dstOf a.ei)
            (Cert.Spec.enormCol (Cert.Spec.dinv (Cert.Spec.dstOf a.ei)) (Cert.Spec.srcOf a.ei) (Cert.Spec.dstOf a.ei))
            (Cert.Spec.selfNormCol (Cert.Spec.dinv (Cert.Spec.dstOf a.ei)))
            a.convW a.convb a.resW a.resb a.wmlp a.lam (Ua main_v85_0, Ua main_v85_1)
      ∧ Consts a Uf := by

  have fc : ∀ r : Ref sig .tc, r ∉ hostOps7_W → r ≠ main_v101 → Uc r = Ua r := fun r h1 h2 =>
    (hco r h2).trans (host7_frame Ua r h1)
  have fd : ∀ r : Ref sig .tc, r ∉ hostOps7_W → r ≠ main_v101 → r ≠ main_v102 → Ud r = Ua r := fun r h1 h2 h3 =>
    (hdo r h3).trans (fc r h1 h2)

  have fe : ∀ r : Ref sig .tc, r ∉ hostOps7_W → r ≠ main_v101 → r ≠ main_v102 → r ∉ hostOps9_W →
      StableHlo.after hostOps9 Ud r = Ua r := fun r h1 h2 h3 h4 => (host9_frame Ud r h4).trans (fd r h1 h2 h3)

  have eXs : Uc main_v92 = Host.gather Cert.ReferenceIdeal.gather_S50000x64_S800000x1_S800000x64_1_0_n_n_0_1_164 (Ua main_v85_0) (Cert.Spec.wrapIdx (Cert.Spec.srcOf a.ei)) := by
    rw [hco main_v92 (by decide), host7_v92 Ua, hK.src]; rfl
  have eXd : Uc main_v99 = Host.gather Cert.ReferenceIdeal.gather_S50000x64_S800000x1_S800000x64_1_0_n_n_0_1_164 (Ua main_v85_0) (Cert.Spec.wrapIdx (Cert.Spec.dstOf a.ei)) := by
    rw [hco main_v99 (by decide), host7_v99 Ua, hK.dst]; rfl

  have eXW : Uc main_v101 = Cert.Spec.linG (Ua main_v85_0) a.convW Cert.Spec.zeroRow64 := by
    rw [hc, host7_frame Ua main_v85_0 (by decide), host7_frame Ua main_arg4 (by decide), host7_v100 Ua, hK.zb, hK.convW]; rfl

  have eE : Ud main_v102 = Cert.Spec.edgeG (Host.gather Cert.ReferenceIdeal.gather_S50000x64_S800000x1_S800000x64_1_0_n_n_0_1_164 (Ua main_v85_0) (Cert.Spec.wrapIdx (Cert.Spec.srcOf a.ei)))
      (Host.gather Cert.ReferenceIdeal.gather_S50000x64_S800000x1_S800000x64_1_0_n_n_0_1_164 (Ua main_v85_0) (Cert.Spec.wrapIdx (Cert.Spec.dstOf a.ei))) a.wmlp a.convW
      (Cert.Spec.enormCol (Cert.Spec.dinv (Cert.Spec.dstOf a.ei)) (Cert.Spec.srcOf a.ei) (Cert.Spec.dstOf a.ei)) := by
    rw [hd, eXs, eXd, fc main_arg8 (by decide) (by decide), fc main_arg4 (by decide) (by decide),
      fc main_v26 (by decide) (by decide), hK.wmlp, hK.convW, hK.en]

  have eD : Ud main_v3 = Cert.Spec.dstOf a.ei := (fd main_v3 (by decide) (by decide) (by decide)).trans hK.dst
  have e80 : StableHlo.after hostOps9 Ud main_v107 = Cert.Spec.colsHi (Cert.Spec.aggG (Ud main_v3) (Ud main_v102)) := by
    rw [host9_v107 Ud]; rfl
  have e82 : StableHlo.after hostOps9 Ud main_v109 = mulf (Cert.Spec.colsLo (Cert.Spec.aggG (Ud main_v3) (Ud main_v102)))
      (broadcastInDim Cert.ReferenceIdeal.S50000x64 ![] Cert.ReferenceIdeal.Facts₀.bcast_S_S50000x64 (Ud main_arg9)) := by
    rw [host9_v109 Ud]; rfl
  have e83 : StableHlo.after hostOps9 Ud main_v110 = Cert.Spec.rowOf64 a.convb := by
    rw [host9_v110 Ud, fd main_arg5 (by decide) (by decide) (by decide), hK.convb]; rfl
  have e84 : StableHlo.after hostOps9 Ud main_v111 = Cert.Spec.rowOf64 a.resb := by
    rw [host9_v111 Ud, fd main_arg7 (by decide) (by decide) (by decide), hK.resb]; rfl
  have eW : StableHlo.after hostOps9 Ud main_v101 = Cert.Spec.linG (Ua main_v85_0) a.convW Cert.Spec.zeroRow64 := by
    rw [host9_frame Ud main_v101 (by decide), hdo main_v101 (by decide), eXW]
  have e9 : Ud main_arg9 = a.lam := (fd main_arg9 (by decide) (by decide) (by decide)).trans hK.lam
  have eX := fe main_v85_0 (by decide) (by decide) (by decide) (by decide)
  have eY := fe main_v85_1 (by decide) (by decide) (by decide) (by decide)
  have e28 := (fe main_v28 (by decide) (by decide) (by decide) (by decide)).trans hK.sn
  have e6 := (fe main_arg6 (by decide) (by decide) (by decide) (by decide)).trans hK.resW
  refine ⟨Prod.ext ?_ ?_, hK.frame fun r hr => ?_⟩
  · show Uf main_v112_0 = _
    rw [hf0, eX]
    try rw [eY]
    rw [eW, e80, e82, e28, e83, e6, e84, eD, eE, e9]; rfl
  · show Uf main_v112_1 = _
    rw [hf1, eX]
    try rw [eY]
    rw [eW, e80, e82, e28, e83, e6, e84, eD, eE, e9]; rfl
  · exact (hfo r ((by decide : ∀ r : Ref sig .tc, r ∈ constRefs → r ≠ main_v112_0) r hr)
      ((by decide : ∀ r : Ref sig .tc, r ∈ constRefs → r ≠ main_v112_1) r hr)).trans
      (fe r ((by decide : ∀ r : Ref sig .tc, r ∈ constRefs → r ∉ hostOps7_W) r hr)
        ((by decide : ∀ r : Ref sig .tc, r ∈ constRefs → r ≠ main_v101) r hr)
        ((by decide : ∀ r : Ref sig .tc, r ∈ constRefs → r ≠ main_v102) r hr)
        ((by decide : ∀ r : Ref sig .tc, r ∈ constRefs → r ∉ hostOps9_W) r hr))

end Cert.KernelIdeal.Hand
-- ==== Proof.KI.Host10.lean ====
import proofs.«147510_j18107582120779_2_alg».proof.Proof.Gen.KernelIdeal.Regions

set_option maxRecDepth 1864

noncomputable section

namespace Cert.KernelIdeal.Hand

open Idealize.ShloMosaic Idealize.ShloMosaic.TcCoe
open Cert.KernelIdeal Cert.KernelIdeal.Gen

variable {F : FTy → Type} [FloatOps F]

theorem host10_frame (W : Valuation τ sig (Elt F)) (r : Ref sig .tc) (h : r ∉ hostOps10_W) :
    StableHlo.after hostOps10 W r = W r :=
  StableHlo.after_of_writes_sub hostOps10 W hostOps10_writes h

theorem host10_v119 (W : Valuation τ sig (Elt F)) :
    StableHlo.after hostOps10 W main_v119
      = Host.gather gather_S50000x64_S800000x1_S800000x64_1_0_n_n_0_1_164 (W main_v112_0) (broadcastInDim S800000x1 ![0] bcast_S800000_S800000x1_0 (select (cmpi .slt (W main_v1) (broadcastInDim S800000 ![] bcast_S_S800000 (constantI S_ 32 0#32 : (⟨S_, .i32⟩ : BufTy).Contents (Elt F)))) (addi (W main_v1) (broadcastInDim S800000 ![] bcast_S_S800000 (constantI S_ 32 50000#32 : (⟨S_, .i32⟩ : BufTy).Contents (Elt F)))) (W main_v1))) := by
  show StableHlo.after hostOps10 W (Proc.devRef .tc main_v119) = _
  after_results_simp <;> rfl

theorem host10_v126 (W : Valuation τ sig (Elt F)) :
    StableHlo.after hostOps10 W main_v126
      = Host.gather gather_S50000x64_S800000x1_S800000x64_1_0_n_n_0_1_164 (W main_v112_0) (broadcastInDim S800000x1 ![0] bcast_S800000_S800000x1_0 (select (cmpi .slt (W main_v3) (broadcastInDim S800000 ![] bcast_S_S800000 (constantI S_ 32 0#32 : (⟨S_, .i32⟩ : BufTy).Contents (Elt F)))) (addi (W main_v3) (broadcastInDim S800000 ![] bcast_S_S800000 (constantI S_ 32 50000#32 : (⟨S_, .i32⟩ : BufTy).Contents (Elt F)))) (W main_v3))) := by
  show StableHlo.after hostOps10 W (Proc.devRef .tc main_v126) = _
  after_results_simp <;> rfl

theorem host10_v127 (W : Valuation τ sig (Elt F)) :
    StableHlo.after hostOps10 W main_v127 = shapeCast S1x64 (W main_v29) shapeCasts_S64_S1x64 := by
  show StableHlo.after hostOps10 W (Proc.devRef .tc main_v127) = _
  after_results_simp <;> rfl

end Cert.KernelIdeal.Hand
-- ==== Proof.KI.Host12.lean ====
import proofs.«147510_j18107582120779_2_alg».proof.Proof.Gen.KernelIdeal.Regions

set_option maxRecDepth 1864

noncomputable section

namespace Cert.KernelIdeal.Hand

open Idealize.ShloMosaic Idealize.ShloMosaic.TcCoe
open Cert.KernelIdeal Cert.KernelIdeal.Gen

variable {F : FTy → Type} [FloatOps F]

theorem host12_frame (W : Valuation τ sig (Elt F)) (r : Ref sig .tc) (h : r ∉ hostOps12_W) :
    StableHlo.after hostOps12 W r = W r :=
  StableHlo.after_of_writes_sub hostOps12 W hostOps12_writes h

theorem host12_v134 (W : Valuation τ sig (Elt F)) :
    StableHlo.after hostOps12 W main_v134
      = extractStridedSlice S50000x64 ![0, 64] (Host.scatterAdd scatter_S50000x128_S800000x1_S800000x128_1_0_0_1 (broadcastInDim S50000x128 ![] bcast_S_S50000x128 (constant S_ .f32 0x00000000#32 : (⟨S_, .f32⟩ : BufTy).Contents (Elt F))) (broadcastInDim S800000x1 ![0] bcast_S800000_S800000x1_0 (W main_v3)) (W main_v129)) slices_S50000x128_S50000x64_0_64 := by
  show StableHlo.after hostOps12 W (Proc.devRef .tc main_v134) = _
  after_results <;> rfl

theorem host12_v136 (W : Valuation τ sig (Elt F)) :
    StableHlo.after hostOps12 W main_v136
      = mulf (extractStridedSlice S50000x64 ![0, 0] (Host.scatterAdd scatter_S50000x128_S800000x1_S800000x128_1_0_0_1 (broadcastInDim S50000x128 ![] bcast_S_S50000x128 (constant S_ .f32 0x00000000#32 : (⟨S_, .f32⟩ : BufTy).Contents (Elt F))) (broadcastInDim S800000x1 ![0] bcast_S800000_S800000x1_0 (W main_v3)) (W main_v129)) slices_S50000x128_S50000x64_0_0)
          (broadcastInDim S50000x64 ![] bcast_S_S50000x64 (W main_arg9)) := by
  show StableHlo.after hostOps12 W (Proc.devRef .tc main_v136) = _
  after_results <;> rfl

theorem host12_v137 (W : Valuation τ sig (Elt F)) :
    StableHlo.after hostOps12 W main_v137 = shapeCast S1x64 (W main_arg5) shapeCasts_S64_S1x64 := by
  show StableHlo.after hostOps12 W (Proc.devRef .tc main_v137) = _
  after_results <;> rfl

theorem host12_v138 (W : Valuation τ sig (Elt F)) :
    StableHlo.after hostOps12 W main_v138 = shapeCast S1x64 (W main_arg7) shapeCasts_S64_S1x64 := by
  show StableHlo.after hostOps12 W (Proc.devRef .tc main_v138) = _
  after_results <;> rfl

end Cert.KernelIdeal.Hand
-- ==== Proof.KI.Chain4.lean ====
import proofs.«147510_j18107582120779_2_alg».proof.Proof.KI.ChainCore
import proofs.«147510_j18107582120779_2_alg».proof.Proof.KI.Host10
import proofs.«147510_j18107582120779_2_alg».proof.Proof.KI.Host12

set_option maxRecDepth 1864

noncomputable section

namespace Cert.KernelIdeal.Hand

open Idealize.ShloMosaic Idealize.ShloMosaic.TcCoe
open Cert.KernelIdeal Cert.KernelIdeal.Gen

variable {F : FTy → Type} [FloatOps F] [Cert.ReferenceIdeal.Facts₀]

theorem layer4_step (Ua Uc Ud Uf : Valuation τ sig (Elt F))
    (hc : Uc main_v128 = Cert.Spec.linG (StableHlo.after hostOps10 Ua main_v112_0) (StableHlo.after hostOps10 Ua main_arg4)
      (StableHlo.after hostOps10 Ua main_v127))
    (hco : ∀ r : Ref sig .tc, r ≠ main_v128 → Uc r = StableHlo.after hostOps10 Ua r)
    (hd : Ud main_v129 = Cert.Spec.edgeG (Uc main_v119) (Uc main_v126) (Uc main_arg8) (Uc main_arg4) (Uc main_v26))
    (hdo : ∀ r : Ref sig .tc, r ≠ main_v129 → Ud r = Uc r)
    (hf0 : Uf main_v139_0 = (Cert.Spec.nodeG (StableHlo.after hostOps12 Ud main_v112_0) (StableHlo.after hostOps12 Ud main_v112_1)
      (StableHlo.after hostOps12 Ud main_v128) (StableHlo.after hostOps12 Ud main_v134) (StableHlo.after hostOps12 Ud main_v136)
      (StableHlo.after hostOps12 Ud main_v28) (StableHlo.after hostOps12 Ud main_v137) (StableHlo.after hostOps12 Ud main_arg6)
      (StableHlo.after hostOps12 Ud main_v138)).1)
    (hf1 : Uf main_v139_1 = (Cert.Spec.nodeG (StableHlo.after hostOps12 Ud main_v112_0) (StableHlo.after hostOps12 Ud main_v112_1)
      (StableHlo.after hostOps12 Ud main_v128) (StableHlo.after hostOps12 Ud main_v134) (StableHlo.after hostOps12 Ud main_v136)
      (StableHlo.after hostOps12 Ud main_v28) (StableHlo.after hostOps12 Ud main_v137) (StableHlo.after hostOps12 Ud main_arg6)
      (StableHlo.after hostOps12 Ud main_v138)).2)
    (hfo : ∀ r : Ref sig .tc, r ≠ main_v139_0 → r ≠ main_v139_1 → Uf r = StableHlo.after hostOps12 Ud r)
    (a : Cert.Spec.Args F) (hK : Consts a Ua) :
    ((Uf main_v139_0, Uf main_v139_1) : FVec F Cert.ReferenceIdeal.S50000x64 .f32 × FVec F Cert.ReferenceIdeal.S50000x64 .f32)
        = Cert.Spec.kerLayer (Cert.Spec.srcOf a.ei) (Cert.Spec.dstOf a.ei)
            (Cert.Spec.enormCol (Cert.Spec.dinv (Cert.Spec.dstOf a.ei)) (Cert.Spec.srcOf a.ei) (Cert.Spec.dstOf a.ei))
            (Cert.Spec.selfNormCol (Cert.Spec.dinv (Cert.Spec.dstOf a.ei)))
            a.convW a.convb a.resW a.resb a.wmlp a.lam (Ua main_v112_0, Ua main_v112_1)
      ∧ Consts a Uf := by

  have fc : ∀ r : Ref sig .tc, r ∉ hostOps10_W → r ≠ main_v128 → Uc r = Ua r := fun r h1 h2 =>
    (hco r h2).trans (host10_frame Ua r h1)
  have fd : ∀ r : Ref sig .tc, r ∉ hostOps10_W → r ≠ main_v128 → r ≠ main_v129 → Ud r = Ua r := fun r h1 h2 h3 =>
    (hdo r h3).trans (fc r h1 h2)

  have fe : ∀ r : Ref sig .tc, r ∉ hostOps10_W → r ≠ main_v128 → r ≠ main_v129 → r ∉ hostOps12_W →
      StableHlo.after hostOps12 Ud r = Ua r := fun r h1 h2 h3 h4 => (host12_frame Ud r h4).trans (fd r h1 h2 h3)

  have eXs : Uc main_v119 = Host.gather Cert.ReferenceIdeal.gather_S50000x64_S800000x1_S800000x64_1_0_n_n_0_1_164 (Ua main_v112_0) (Cert.Spec.wrapIdx (Cert.Spec.srcOf a.ei)) := by
    rw [hco main_v119 (by decide), host10_v119 Ua, hK.src]; rfl
  have eXd : Uc main_v126 = Host.gather Cert.ReferenceIdeal.gather_S50000x64_S800000x1_S800000x64_1_0_n_n_0_1_164 (Ua main_v112_0) (Cert.Spec.wrapIdx (Cert.Spec.dstOf a.ei)) := by
    rw [hco main_v126 (by decide), host10_v126 Ua, hK.dst]; rfl

  have eXW : Uc main_v128 = Cert.Spec.linG (Ua main_v112_0) a.convW Cert.Spec.zeroRow64 := by
    rw [hc, host10_frame Ua main_v112_0 (by decide), host10_frame Ua main_arg4 (by decide), host10_v127 Ua, hK.zb, hK.convW]; rfl

  have eE : Ud main_v129 = Cert.Spec.edgeG (Host.gather Cert.ReferenceIdeal.gather_S50000x64_S800000x1_S800000x64_1_0_n_n_0_1_164 (Ua main_v112_0) (Cert.Spec.wrapIdx (Cert.Spec.srcOf a.ei)))
      (Host.gather Cert.ReferenceIdeal.gather_S50000x64_S800000x1_S800000x64_1_0_n_n_0_1_164 (Ua main_v112_0) (Cert.Spec.wrapIdx (Cert.Spec.dstOf a.ei))) a.wmlp a.convW
      (Cert.Spec.enormCol (Cert.Spec.dinv (Cert.Spec.dstOf a.ei)) (Cert.Spec.srcOf a.ei) (Cert.Spec.dstOf a.ei)) := by
    rw [hd, eXs, eXd, fc main_arg8 (by decide) (by decide), fc main_arg4 (by decide) (by decide),
      fc main_v26 (by decide) (by decide), hK.wmlp, hK.convW, hK.en]

  have eD : Ud main_v3 = Cert.Spec.dstOf a.ei := (fd main_v3 (by decide) (by decide) (by decide)).trans hK.dst
  have e80 : StableHlo.after hostOps12 Ud main_v134 = Cert.Spec.colsHi (Cert.Spec.aggG (Ud main_v3) (Ud main_v129)) := by
    rw [host12_v134 Ud]; rfl
  have e82 : StableHlo.after hostOps12 Ud main_v136 = mulf (Cert.Spec.colsLo (Cert.Spec.aggG (Ud main_v3) (Ud main_v129)))
      (broadcastInDim Cert.ReferenceIdeal.S50000x64 ![] Cert.ReferenceIdeal.Facts₀.bcast_S_S50000x64 (Ud main_arg9)) := by
    rw [host12_v136 Ud]; rfl
  have e83 : StableHlo.after hostOps12 Ud main_v137 = Cert.Spec.rowOf64 a.convb := by
    rw [host12_v137 Ud, fd main_arg5 (by decide) (by decide) (by decide), hK.convb]; rfl
  have e84 : StableHlo.after hostOps12 Ud main_v138 = Cert.Spec.rowOf64 a.resb := by
    rw [host12_v138 Ud, fd main_arg7 (by decide) (by decide) (by decide), hK.resb]; rfl
  have eW : StableHlo.after hostOps12 Ud main_v128 = Cert.Spec.linG (Ua main_v112_0) a.convW Cert.Spec.zeroRow64 := by
    rw [host12_frame Ud main_v128 (by decide), hdo main_v128 (by decide), eXW]
  have e9 : Ud main_arg9 = a.lam := (fd main_arg9 (by decide) (by decide) (by decide)).trans hK.lam
  have eX := fe main_v112_0 (by decide) (by decide) (by decide) (by decide)
  have eY := fe main_v112_1 (by decide) (by decide) (by decide) (by decide)
  have e28 := (fe main_v28 (by decide) (by decide) (by decide) (by decide)).trans hK.sn
  have e6 := (fe main_arg6 (by decide) (by decide) (by decide) (by decide)).trans hK.resW
  refine ⟨Prod.ext ?_ ?_, hK.frame fun r hr => ?_⟩
  · show Uf main_v139_0 = _
    rw [hf0, eX]
    try rw [eY]
    rw [eW, e80, e82, e28, e83, e6, e84, eD, eE, e9]; rfl
  · show Uf main_v139_1 = _
    rw [hf1, eX]
    try rw [eY]
    rw [eW, e80, e82, e28, e83, e6, e84, eD, eE, e9]; rfl
  · exact (hfo r ((by decide : ∀ r : Ref sig .tc, r ∈ constRefs → r ≠ main_v139_0) r hr)
      ((by decide : ∀ r : Ref sig .tc, r ∈ constRefs → r ≠ main_v139_1) r hr)).trans
      (fe r ((by decide : ∀ r : Ref sig .tc, r ∈ constRefs → r ∉ hostOps10_W) r hr)
        ((by decide : ∀ r : Ref sig .tc, r ∈ constRefs → r ≠ main_v128) r hr)
        ((by decide : ∀ r : Ref sig .tc, r ∈ constRefs → r ≠ main_v129) r hr)
        ((by decide : ∀ r : Ref sig .tc, r ∈ constRefs → r ∉ hostOps12_W) r hr))

end Cert.KernelIdeal.Hand
-- ==== Proof.KI.Host13.lean ====
import proofs.«147510_j18107582120779_2_alg».proof.Proof.Gen.KernelIdeal.Regions

set_option maxRecDepth 1864

noncomputable section

namespace Cert.KernelIdeal.Hand

open Idealize.ShloMosaic Idealize.ShloMosaic.TcCoe
open Cert.KernelIdeal Cert.KernelIdeal.Gen

variable {F : FTy → Type} [FloatOps F]

theorem host13_frame (W : Valuation τ sig (Elt F)) (r : Ref sig .tc) (h : r ∉ hostOps13_W) :
    StableHlo.after hostOps13 W r = W r :=
  StableHlo.after_of_writes_sub hostOps13 W hostOps13_writes h

theorem host13_v140 (W : Valuation τ sig (Elt F)) :
    StableHlo.after hostOps13 W main_v140 = shapeCast S1x40 (W main_arg11) shapeCasts_S40_S1x40 := by
  show StableHlo.after hostOps13 W (Proc.devRef .tc main_v140) = _
  after_results <;> rfl

end Cert.KernelIdeal.Hand
-- ==== Proof.KI.ChainOut.lean ====
import proofs.«147510_j18107582120779_2_alg».proof.Proof.KI.Chain0
import proofs.«147510_j18107582120779_2_alg».proof.Proof.KI.Chain1
import proofs.«147510_j18107582120779_2_alg».proof.Proof.KI.Chain2
import proofs.«147510_j18107582120779_2_alg».proof.Proof.KI.Chain3
import proofs.«147510_j18107582120779_2_alg».proof.Proof.KI.Chain4
import proofs.«147510_j18107582120779_2_alg».proof.Proof.KI.Host13

set_option maxRecDepth 1864

noncomputable section

namespace Cert.KernelIdeal.Hand

open Idealize.ShloMosaic Idealize.ShloMosaic.TcCoe
open Cert.KernelIdeal Cert.KernelIdeal.Gen

variable {F : FTy → Type} [FloatOps F] [Cert.ReferenceIdeal.Facts₀]

theorem dec_step (Ua U24 : Valuation τ sig (Elt F))
    (h : U24 main_v141 = Cert.Spec.decG (StableHlo.after hostOps13 Ua main_v139_0) (StableHlo.after hostOps13 Ua main_arg10)
      (StableHlo.after hostOps13 Ua main_v140))
    (a : Cert.Spec.Args F) (hK : Consts a Ua) :
    U24 main_v141 = Cert.Spec.decG (Ua main_v139_0) a.decW (Cert.Spec.rowOf40 a.decb) := by
  rw [h, host13_frame Ua main_v139_0 (by decide), host13_frame Ua main_arg10 (by decide), host13_v140 Ua, hK.decW, hK.decb]; rfl

theorem chain_out (V0 U2 U4 U5 U7 U9 U10 U12 U14 U15 U17 U19 U20 U22 U24 : Valuation τ sig (Elt F))

    (h0 : U2 main_v31 = Cert.Spec.encG (StableHlo.after hostOps0 V0 main_arg0) (StableHlo.after hostOps0 V0 main_arg2)
      (StableHlo.after hostOps0 V0 main_v30))
    (h0o : ∀ r : Ref sig .tc, r ≠ main_v31 → U2 r = StableHlo.after hostOps0 V0 r)

    (h1c : U4 main_v47 = Cert.Spec.linG (StableHlo.after hostOps1 U2 main_v31) (StableHlo.after hostOps1 U2 main_arg4) (StableHlo.after hostOps1 U2 main_v46))
    (h1co : ∀ r : Ref sig .tc, r ≠ main_v47 → U4 r = StableHlo.after hostOps1 U2 r)
    (h1d : U5 main_v48 = Cert.Spec.edgeG (U4 main_v38) (U4 main_v45) (U4 main_arg8) (U4 main_arg4) (U4 main_v26))
    (h1do : ∀ r : Ref sig .tc, r ≠ main_v48 → U5 r = U4 r)
    (h1f0 : U7 main_v58_0 = (Cert.Spec.nodeG (StableHlo.after hostOps3 U5 main_v31) (StableHlo.after hostOps3 U5 main_v31) (StableHlo.after hostOps3 U5 main_v47) (StableHlo.after hostOps3 U5 main_v53) (StableHlo.after hostOps3 U5 main_v55) (StableHlo.after hostOps3 U5 main_v28) (StableHlo.after hostOps3 U5 main_v56) (StableHlo.after hostOps3 U5 main_arg6) (StableHlo.after hostOps3 U5 main_v57)).1)
    (h1f1 : U7 main_v58_1 = (Cert.Spec.nodeG (StableHlo.after hostOps3 U5 main_v31) (StableHlo.after hostOps3 U5 main_v31) (StableHlo.after hostOps3 U5 main_v47) (StableHlo.after hostOps3 U5 main_v53) (StableHlo.after hostOps3 U5 main_v55) (StableHlo.after hostOps3 U5 main_v28) (StableHlo.after hostOps3 U5 main_v56) (StableHlo.after hostOps3 U5 main_arg6) (StableHlo.after hostOps3 U5 main_v57)).2)
    (h1fo : ∀ r : Ref sig .tc, r ≠ main_v58_0 → r ≠ main_v58_1 → U7 r = StableHlo.after hostOps3 U5 r)

    (h2c : U9 main_v74 = Cert.Spec.linG (StableHlo.after hostOps4 U7 main_v58_0) (StableHlo.after hostOps4 U7 main_arg4) (StableHlo.after hostOps4 U7 main_v73))
    (h2co : ∀ r : Ref sig .tc, r ≠ main_v74 → U9 r = StableHlo.after hostOps4 U7 r)
    (h2d : U10 main_v75 = Cert.Spec.edgeG (U9 main_v65) (U9 main_v72) (U9 main_arg8) (U9 main_arg4) (U9 main_v26))
    (h2do : ∀ r : Ref sig .tc, r ≠ main_v75 → U10 r = U9 r)
    (h2f0 : U12 main_v85_0 = (Cert.Spec.nodeG (StableHlo.after hostOps6 U10 main_v58_0) (StableHlo.after hostOps6 U10 main_v58_1) (StableHlo.after hostOps6 U10 main_v74) (StableHlo.after hostOps6 U10 main_v80) (StableHlo.after hostOps6 U10 main_v82) (StableHlo.after hostOps6 U10 main_v28) (StableHlo.after hostOps6 U10 main_v83) (StableHlo.after hostOps6 U10 main_arg6) (StableHlo.after hostOps6 U10 main_v84)).1)
    (h2f1 : U12 main_v85_1 = (Cert.Spec.nodeG (StableHlo.after hostOps6 U10 main_v58_0) (StableHlo.after hostOps6 U10 main_v58_1) (StableHlo.after hostOps6 U10 main_v74) (StableHlo.after hostOps6 U10 main_v80) (StableHlo.after hostOps6 U10 main_v82) (StableHlo.after hostOps6 U10 main_v28) (StableHlo.after hostOps6 U10 main_v83) (StableHlo.after hostOps6 U10 main_arg6) (StableHlo.after hostOps6 U10 main_v84)).2)
    (h2fo : ∀ r : Ref sig .tc, r ≠ main_v85_0 → r ≠ main_v85_1 → U12 r = StableHlo.after hostOps6 U10 r)

    (h3c : U14 main_v101 = Cert.Spec.linG (StableHlo.after hostOps7 U12 main_v85_0) (StableHlo.after hostOps7 U12 main_arg4) (StableHlo.after hostOps7 U12 main_v100))
    (h3co : ∀ r : Ref sig .tc, r ≠ main_v101 → U14 r = StableHlo.after hostOps7 U12 r)
    (h3d : U15 main_v102 = Cert.Spec.edgeG (U14 main_v92) (U14 main_v99) (U14 main_arg8) (U14 main_arg4) (U14 main_v26))
    (h3do : ∀ r : Ref sig .tc, r ≠ main_v102 → U15 r = U14 r)
    (h3f0 : U17 main_v112_0 = (Cert.Spec.nodeG (StableHlo.after hostOps9 U15 main_v85_0) (StableHlo.after hostOps9 U15 main_v85_1) (StableHlo.after hostOps9 U15 main_v101) (StableHlo.after hostOps9 U15 main_v107) (StableHlo.after hostOps9 U15 main_v109) (StableHlo.after hostOps9 U15 main_v28) (StableHlo.after hostOps9 U15 main_v110) (StableHlo.after hostOps9 U15 main_arg6) (StableHlo.after hostOps9 U15 main_v111)).1)
    (h3f1 : U17 main_v112_1 = (Cert.Spec.nodeG (StableHlo.after hostOps9 U15 main_v85_0) (StableHlo.after hostOps9 U15 main_v85_1) (StableHlo.after hostOps9 U15 main_v101) (StableHlo.after hostOps9 U15 main_v107) (StableHlo.after hostOps9 U15 main_v109) (StableHlo.after hostOps9 U15 main_v28) (StableHlo.after hostOps9 U15 main_v110) (StableHlo.after hostOps9 U15 main_arg6) (StableHlo.after hostOps9 U15 main_v111)).2)
    (h3fo : ∀ r : Ref sig .tc, r ≠ main_v112_0 → r ≠ main_v112_1 → U17 r = StableHlo.after hostOps9 U15 r)

    (h4c : U19 main_v128 = Cert.Spec.linG (StableHlo.after hostOps10 U17 main_v112_0) (StableHlo.after hostOps10 U17 main_arg4) (StableHlo.after hostOps10 U17 main_v127))
    (h4co : ∀ r : Ref sig .tc, r ≠ main_v128 → U19 r = StableHlo.after hostOps10 U17 r)
    (h4d : U20 main_v129 = Cert.Spec.edgeG (U19 main_v119) (U19 main_v126) (U19 main_arg8) (U19 main_arg4) (U19 main_v26))
    (h4do : ∀ r : Ref sig .tc, r ≠ main_v129 → U20 r = U19 r)
    (h4f0 : U22 main_v139_0 = (Cert.Spec.nodeG (StableHlo.after hostOps12 U20 main_v112_0) (StableHlo.after hostOps12 U20 main_v112_1) (StableHlo.after hostOps12 U20 main_v128) (StableHlo.after hostOps12 U20 main_v134) (StableHlo.after hostOps12 U20 main_v136) (StableHlo.after hostOps12 U20 main_v28) (StableHlo.after hostOps12 U20 main_v137) (StableHlo.after hostOps12 U20 main_arg6) (StableHlo.after hostOps12 U20 main_v138)).1)
    (h4f1 : U22 main_v139_1 = (Cert.Spec.nodeG (StableHlo.after hostOps12 U20 main_v112_0) (StableHlo.after hostOps12 U20 main_v112_1) (StableHlo.after hostOps12 U20 main_v128) (StableHlo.after hostOps12 U20 main_v134) (StableHlo.after hostOps12 U20 main_v136) (StableHlo.after hostOps12 U20 main_v28) (StableHlo.after hostOps12 U20 main_v137) (StableHlo.after hostOps12 U20 main_arg6) (StableHlo.after hostOps12 U20 main_v138)).2)
    (h4fo : ∀ r : Ref sig .tc, r ≠ main_v139_0 → r ≠ main_v139_1 → U22 r = StableHlo.after hostOps12 U20 r)

    (h5 : U24 main_v141 = Cert.Spec.decG (StableHlo.after hostOps13 U22 main_v139_0) (StableHlo.after hostOps13 U22 main_arg10)
      (StableHlo.after hostOps13 U22 main_v140)) :
    U24 main_v141 = Cert.Spec.kerOut (argsOf V0) := by
  obtain ⟨e0, k2⟩ := enc_step V0 U2 h0 h0o
  obtain ⟨e1, k7⟩ := layer1_step U2 U4 U5 U7 h1c h1co h1d h1do h1f0 h1f1 h1fo (argsOf V0) k2
  obtain ⟨e2, k12⟩ := layer2_step U7 U9 U10 U12 h2c h2co h2d h2do h2f0 h2f1 h2fo (argsOf V0) k7
  obtain ⟨e3, k17⟩ := layer3_step U12 U14 U15 U17 h3c h3co h3d h3do h3f0 h3f1 h3fo (argsOf V0) k12
  obtain ⟨e4, k22⟩ := layer4_step U17 U19 U20 U22 h4c h4co h4d h4do h4f0 h4f1 h4fo (argsOf V0) k17

  rw [e3, e2, e1, e0] at e4
  have x4 := congrArg Prod.fst e4
  rw [dec_step U22 U24 h5 (argsOf V0) k22]
  exact (congrArg (fun X => Cert.Spec.decG X (argsOf V0).decW (Cert.Spec.rowOf40 (argsOf V0).decb)) x4).trans rfl

end Cert.KernelIdeal.Hand
-- ==== Proof.KI.ValLinCore.lean ====
import Idealize.ShloMosaic.Lib.StackMember
import Idealize.ShloMosaic.Lib.ValueLayout
import Idealize.ShloMosaic.Lib.IdealHost
import Idealize.ShloMosaic.Lib.Pipeline.Value

noncomputable section

namespace Cert.KernelIdeal.Hand

open Idealize.ShloMosaic Idealize.ShloMosaic.ValueIdx

theorem lin_zeros2 : (![0, 0] : Fin 2 → Nat) = fun _ => 0 := funext fun a => by fin_cases a <;> rfl

theorem lin_matmul_zero_plain_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [matmul_zero_eq_dotGeneral]
  exact StackMember.dotGeneral_plain_apply prec A B a b

theorem lin_block_apply {m M k n : ℕ} {φ₁ φ₂ : FTy}
    (A : FVec Ideal ⟨2, ![m, k]⟩ φ₁) (B : FVec Ideal ⟨2, ![k, n]⟩ φ₂) (bb : FVec Ideal ⟨2, ![m, n]⟩ .f32)
    (X : FVec Ideal ⟨2, ![M, k]⟩ .f32) (W : FVec Ideal ⟨2, ![k, n]⟩ .f32) (b : FVec Ideal ⟨2, ![1, n]⟩ .f32)
    (hbd : (⟨2, ![1, n]⟩ : Shape).BroadcastsInDim ⟨2, ![M, n]⟩ ![0, 1])
    (p : Fin m) (r : Fin M) (q : Fin n)
    (hA : ∀ c : Fin k, (A (ix2 p c) : EReal) = X (ix2 r c)) (hB : ∀ c : Fin k, (B (ix2 c q) : EReal) = W (ix2 c q))
    (hb : bb (ix2 p q) = b (ix2 (0 : Fin 1) q)) :
    addf (matmul (DotDims.plain m k n) none A B (constant ⟨2, ![m, n]⟩ .f32 0x00000000#32)) bb (ix2 p q)
      = addf (Host.dotGeneral (DotDims.plain M k n) none X W) (broadcastInDim ⟨2, ![M, n]⟩ ![0, 1] hbd b) (ix2 r q) := by
  rw [addf_apply, addf_apply, lin_matmul_zero_plain_apply, StackMember.dotGeneral_plain_apply,
    broadcastInDim_oneRow_apply, hb]
  congr 1
  exact Finset.sum_congr rfl fun c _ => by rw [hA c, hB c]

theorem lin_relu_block_apply {m M k n : ℕ} {φ₁ φ₂ : FTy}
    (A : FVec Ideal ⟨2, ![m, k]⟩ φ₁) (B : FVec Ideal ⟨2, ![k, n]⟩ φ₂) (bb : FVec Ideal ⟨2, ![m, n]⟩ .f32)
    (X : FVec Ideal ⟨2, ![M, k]⟩ .f32) (W : FVec Ideal ⟨2, ![k, n]⟩ .f32) (b : FVec Ideal ⟨2, ![1, n]⟩ .f32)
    (hbd : (⟨2, ![1, n]⟩ : Shape).BroadcastsInDim ⟨2, ![M, n]⟩ ![0, 1])
    (hz : (⟨0, ![]⟩ : Shape).BroadcastsInDim ⟨2, ![M, n]⟩ ![])
    (p : Fin m) (r : Fin M) (q : Fin n)
    (hA : ∀ c : Fin k, (A (ix2 p c) : EReal) = X (ix2 r c)) (hB : ∀ c : Fin k, (B (ix2 c q) : EReal) = W (ix2 c q))
    (hb : bb (ix2 p q) = b (ix2 (0 : Fin 1) q)) :
    maximumf (addf (matmul (DotDims.plain m k n) none A B (constant ⟨2, ![m, n]⟩ .f32 0x00000000#32)) bb)
        (broadcast ⟨2, ![m, n]⟩ (Scalar.ofBits (F := Ideal) .f32 0x00000000#32)) (ix2 p q)
      = maximumf (addf (Host.dotGeneral (DotDims.plain M k n) none X W) (broadcastInDim ⟨2, ![M, n]⟩ ![0, 1] hbd b))
        (broadcastInDim ⟨2, ![M, n]⟩ ![] hz (constant (F := Ideal) ⟨0, ![]⟩ .f32 0x00000000#32)) (ix2 r q) := by
  rw [maximumf_apply, maximumf_apply, lin_block_apply A B bb X W b hbd p r q hA hB hb, broadcast_apply,
    broadcastInDim_scalar_apply, constant_apply]
  rfl

end Cert.KernelIdeal.Hand
-- ==== Proof.KI.ValLin0.lean ====
import proofs.«147510_j18107582120779_2_alg».proof.Proof.KI.R0
import proofs.«147510_j18107582120779_2_alg».proof.Proof.KI.ValLinCore
import proofs.«147510_j18107582120779_2_alg».proof.Proof.Spec.Ker
import proofs.«147510_j18107582120779_2_alg».proof.Proof.Gen.ReferenceIdeal

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem idx_facts0 : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem pay0_ix (x0 : Vec Ideal S5000x128 .f32) (x1 : Vec Ideal S128x64 .f32) (x2 : Vec Ideal S1x64 .f32)
    (X : FVec Ideal S50000x128 .f32) (p : Fin 5000) (r : Fin 50000) (q : Fin 64)
    (hrow : ∀ c : Fin 128, x0 (ix2 p c) = X (ix2 r c)) :
    k0_pay1 x0 x1 x2 (ix2 p q) = Cert.Spec.encG X x1 x2 (ix2 r q) :=
  lin_relu_block_apply (m := 5000) (M := 50000) (k := 128) (n := 64)
    (truncf .bf16 x0 bitsLt_bf16_f32) (truncf .bf16 x1 bitsLt_bf16_f32)
    (broadcastTo S5000x64 (shapeCast S1x64 x2 shapeCasts_S1x64_S1x64) broadcasts_S1x64_S5000x64) X x1 x2 _ _ p r q
    hrow (fun _ => rfl) (by rw [broadcastTo_1b_ab_apply, shapeCast_self])

theorem pay0_eq (x0 : Vec Ideal S5000x128 .f32) (x1 : Vec Ideal S128x64 .f32) (x2 : Vec Ideal S1x64 .f32)
    (X : FVec Ideal S50000x128 .f32) (W : FVec Ideal S128x64 .f32) (b : FVec Ideal S1x64 .f32)
    (j : S5000x64.Idx) (i : S50000x64.Idx) (hq : (i 1).val = (j 1).val)
    (hrow : ∀ c : Fin 128, x0 (ix2 (j 0) c) = X (ix2 (i 0) c)) (h1 : x1 = W) (h2 : x2 = b) :
    k0_pay1 x0 x1 x2 j = Cert.Spec.encG X W b i := by
  subst h1 h2
  have hi : i = ix2 (i 0) (j 1) := (eq_ix2 i).trans (congrArg (ix2 (i 0)) (Fin.ext hq))
  rw [eq_ix2 j, hi]
  exact pay0_ix x0 x1 x2 X (j 0) (i 0) (j 1) hrow

theorem flushed0_3_eq (c : Dev nD) (t : Fin cfg0.N) :
    (dat0 (F := Ideal) V c).flushed 3 t
      = ((cfg0.win 3).blk t).view.read (Elt Ideal) (Cert.Spec.encG (F := Ideal) (V c main_arg0) (V c main_arg2) (V c main_v30)) := by
  show (cfg0.win 3).cut (grid0.coords t) ((dat0 V c).after 3 t) = _
  rw [after0_3]
  unfold out0_3
  rw [View.canon_unit_zero lin_zeros2]
  simp only [View.ld_unit_zero (S := S5000x128) lin_zeros2, View.ld_unit_zero (S := S128x64) lin_zeros2,
    View.ld_unit_zero (S := S1x64) lin_zeros2]
  obtain ⟨e00, e01, e10, e11, e20, e21, e30, e31⟩ := idx_facts0 t
  funext j
  show k0_pay1 (iblk0 V c 0 t) (iblk0 V c 1 t) (iblk0 V c 2 t) j
    = Cert.Spec.encG (F := Ideal) (V c main_arg0) (V c main_arg2) (V c main_v30) (((cfg0.win 3).blk t).view.emb j)
  refine pay0_eq _ _ _ _ _ _ j _ ?_ ?_ ?_ ?_
  · show win0_3.index t (1 : Fin 2) * 64 + 1 * (j 1).val = (j 1).val
    omega
  · intro k
    show V c main_arg0 (((cfg0.win 0).blk t).view.emb (ix2 (j 0) k))
      = V c main_arg0 (ix2 ((((cfg0.win 3).blk t).view.emb j) 0) k)
    refine congrArg _ (funext fun a => Fin.ext ?_)
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * k.val = k.val; omega
  · funext y
    show V c main_arg2 (((cfg0.win 1).blk t).view.emb y) = V c main_arg2 y
    refine congrArg _ (funext fun a => Fin.ext ?_)
    match a with
    | ⟨0, _⟩ => show win0_1.index t (0 : Fin 2) * 128 + 1 * (y 0).val = (y 0).val; omega
    | ⟨1, _⟩ => show win0_1.index t (1 : Fin 2) * 64 + 1 * (y 1).val = (y 1).val; omega
  · funext y
    show V c main_v30 (((cfg0.win 2).blk t).view.emb y) = V c main_v30 y
    refine congrArg _ (funext fun a => Fin.ext ?_)
    match a with
    | ⟨0, _⟩ => show win0_2.index t (0 : Fin 2) * 1 + 1 * (y 0).val = (y 0).val; omega
    | ⟨1, _⟩ => show win0_2.index t (1 : Fin 2) * 64 + 1 * (y 1).val = (y 1).val; omega

theorem mem_blk0_3 (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v31).slice (win0_3.rect t)).set ↔ _
  rw [View.set_slice_whole, Rect.mem_set_unit]
  exact Iff.rfl

theorem cover0_arr (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  have hN : cfg0.N = 10 := by decide
  let t : Fin cfg0.N := ⟨(i 0).val / 5000, by rw [hN]; omega⟩
  obtain ⟨e00, e01, e10, e11, e20, e21, e30, e31⟩ := idx_facts0 t
  have ht : t.val = (i 0).val / 5000 := rfl
  refine ⟨t, flush0_3 t, ?_⟩
  rw [mem_blk0_3]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

theorem final0 (c : Dev nD) :
    (dat0 (F := Ideal) V c).arrAt 3 cfg0.N = Cert.Spec.encG (F := Ideal) (V c main_arg0) (V c main_arg2) (V c main_v30) :=
  (dat0 V c).arrAt_eq_of_cover 3 (Cert.Spec.encG (F := Ideal) (V c main_arg0) (V c main_arg2) (V c main_v30))
    (fun t _ => flushed0_3_eq V c t) cover0_arr

end Cert.KernelIdeal.Hand
-- ==== Proof.KI.ValLin1.lean ====
import proofs.«147510_j18107582120779_2_alg».proof.Proof.KI.R1
import proofs.«147510_j18107582120779_2_alg».proof.Proof.KI.ValLinCore
import proofs.«147510_j18107582120779_2_alg».proof.Proof.Spec.Ker
import proofs.«147510_j18107582120779_2_alg».proof.Proof.Gen.ReferenceIdeal

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem idx_facts1 : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem pay1_ix (x0 : Vec Ideal S5000x64 .f32) (x1 : Vec Ideal S64x64 .f32) (x2 : Vec Ideal S1x64 .f32)
    (X : FVec Ideal S50000x64 .f32) (p : Fin 5000) (r : Fin 50000)
    (q : Fin 64)
    (hrow : ∀ c : Fin 64, x0 (ix2 p c) = X (ix2 r c)) :
    k1_pay1 x0 x1 x2 (ix2 p q) = Cert.Spec.linG X x1 x2 (ix2 r q) :=
  lin_block_apply (m := 5000) (M := 50000) (k := 64)
    (n := 64)
    (truncf .bf16 (shapeCast S5000x64 x0 shapeCasts_S5000x64_S5000x64) bitsLt_bf16_f32) (truncf .bf16 x1 bitsLt_bf16_f32)
    (broadcastTo S5000x64 (shapeCast S1x64 x2 shapeCasts_S1x64_S1x64) broadcasts_S1x64_S5000x64) X x1 x2 _ p r q
    (fun c => (congrFun (shapeCast_self x0 shapeCasts_S5000x64_S5000x64) (ix2 p c)).trans (hrow c)) (fun _ => rfl)
    (by rw [broadcastTo_1b_ab_apply, shapeCast_self])

theorem pay1_eq (x0 : Vec Ideal S5000x64 .f32) (x1 : Vec Ideal S64x64 .f32) (x2 : Vec Ideal S1x64 .f32)
    (X : FVec Ideal S50000x64 .f32) (W : FVec Ideal S64x64 .f32) (b : FVec Ideal S1x64 .f32)
    (j : S5000x64.Idx)
    (i : S50000x64.Idx)
    (hq : (i 1).val = (j 1).val)
    (hrow : ∀ c : Fin 64, x0 (ix2 (j 0) c) = X (ix2 (i 0) c)) (h1 : x1 = W) (h2 : x2 = b) :
    k1_pay1 x0 x1 x2 j = Cert.Spec.linG X W b i := by
  subst h1 h2
  have hi : i = ix2 (i 0) (j 1) := (eq_ix2 i).trans (congrArg (ix2 (i 0)) (Fin.ext hq))
  rw [eq_ix2 j, hi]
  exact pay1_ix x0 x1 x2 X (j 0) (i 0) (j 1) hrow

theorem flushed1_3_eq (c : Dev nD) (t : Fin cfg1.N) :
    (dat1 (F := Ideal) V c).flushed 3 t
      = ((cfg1.win 3).blk t).view.read (Elt Ideal) (Cert.Spec.linG (F := Ideal) (V c main_v31) (V c main_arg4) (V c main_v46)) := by
  show (cfg1.win 3).cut (grid1.coords t) ((dat1 V c).after 3 t) = _
  rw [after1_3]
  unfold out1_3
  rw [View.canon_unit_zero lin_zeros2]
  simp only [View.ld_unit_zero (S := S5000x64) lin_zeros2, View.ld_unit_zero (S := S64x64) lin_zeros2,
    View.ld_unit_zero (S := S1x64) lin_zeros2]
  obtain ⟨e00, e01, e10, e11, e20, e21, e30, e31⟩ := idx_facts1 t
  funext j
  show k1_pay1 (iblk1 V c 0 t) (iblk1 V c 1 t) (iblk1 V c 2 t) j
    = Cert.Spec.linG (F := Ideal) (V c main_v31) (V c main_arg4) (V c main_v46) (((cfg1.win 3).blk t).view.emb j)
  refine pay1_eq _ _ _ _ _ _ j _ ?_ ?_ ?_ ?_
  · show win1_3.index t (1 : Fin 2) * 64 + 1 * (j 1).val = (j 1).val
    omega
  · intro k
    show V c main_v31 (((cfg1.win 0).blk t).view.emb (ix2 (j 0) k))
      = V c main_v31 (ix2 ((((cfg1.win 3).blk t).view.emb j) 0) k)
    refine congrArg _ (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 64 + 1 * k.val = k.val; omega
  · funext y
    show V c main_arg4 (((cfg1.win 1).blk t).view.emb y) = V c main_arg4 y
    refine congrArg _ (funext fun a => Fin.ext ?_)
    match a with
    | ⟨0, _⟩ => show win1_1.index t (0 : Fin 2) * 64 + 1 * (y 0).val = (y 0).val; omega
    | ⟨1, _⟩ => show win1_1.index t (1 : Fin 2) * 64 + 1 * (y 1).val = (y 1).val; omega
  · funext y
    show V c main_v46 (((cfg1.win 2).blk t).view.emb y) = V c main_v46 y
    refine congrArg _ (funext fun a => Fin.ext ?_)
    match a with
    | ⟨0, _⟩ => show win1_2.index t (0 : Fin 2) * 1 + 1 * (y 0).val = (y 0).val; omega
    | ⟨1, _⟩ => show win1_2.index t (1 : Fin 2) * 64 + 1 * (y 1).val = (y 1).val; omega

theorem mem_blk1_3 (t : Fin cfg1.N)
    (i : S50000x64.Idx) :
    i ∈ ((cfg1.win 3).blk t).view.set ↔ ∀ a : Fin 2,
      win1_3.index t a * S5000x64.size a ≤ (i a).val ∧ (i a).val < win1_3.index t a * S5000x64.size a + S5000x64.size a := by
  show i ∈ ((View.whole main_v47).slice (win1_3.rect t)).set ↔ _
  rw [View.set_slice_whole, Rect.mem_set_unit]
  exact Iff.rfl

theorem cover1_arr
    (i : S50000x64.Idx) :
    ∃ t : Fin cfg1.N, (cfg1.win 3).flush t = true ∧ i ∈ ((cfg1.win 3).blk t).view.set := by
  have hi0 : (i 0).val < 50000 := (i 0).isLt
  have hi1 : (i 1).val < 64 := (i 1).isLt
  have hN : cfg1.N = 10 := by decide
  let t : Fin cfg1.N := ⟨(i 0).val / 5000, by rw [hN]; omega⟩
  obtain ⟨e00, e01, e10, e11, e20, e21, e30, e31⟩ := idx_facts1 t
  have ht : t.val = (i 0).val / 5000 := rfl
  refine ⟨t, flush1_3 t, ?_⟩
  rw [mem_blk1_3]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega

theorem final1 (c : Dev nD) :
    (dat1 (F := Ideal) V c).arrAt 3 cfg1.N = Cert.Spec.linG (F := Ideal) (V c main_v31) (V c main_arg4) (V c main_v46) :=
  (dat1 V c).arrAt_eq_of_cover 3 (Cert.Spec.linG (F := Ideal) (V c main_v31) (V c main_arg4) (V c main_v46))
    (fun t _ => flushed1_3_eq V c t) cover1_arr

end Cert.KernelIdeal.Hand
-- ==== Proof.KI.ValLin4.lean ====
import proofs.«147510_j18107582120779_2_alg».proof.Proof.KI.ValLin1
import proofs.«147510_j18107582120779_2_alg».proof.Proof.KI.R4
import proofs.«147510_j18107582120779_2_alg».proof.Proof.KI.ValLinCore
import proofs.«147510_j18107582120779_2_alg».proof.Proof.Spec.Ker
import proofs.«147510_j18107582120779_2_alg».proof.Proof.Gen.ReferenceIdeal

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem idx_facts4 : ∀ t : Fin cfg4.N,
    win4_0.index t (0 : Fin 2) = win4_3.index t (0 : Fin 2) ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

theorem flushed4_3_eq (c : Dev nD) (t : Fin cfg4.N) :
    (dat4 (F := Ideal) V c).flushed 3 t
      = ((cfg4.win 3).blk t).view.read (Elt Ideal) (Cert.Spec.linG (F := Ideal) (V c main_v58_0) (V c main_arg4) (V c main_v73)) := by
  show (cfg4.win 3).cut (grid4.coords t) ((dat4 V c).after 3 t) = _
  rw [after4_3]
  unfold out1_3
  rw [View.canon_unit_zero lin_zeros2]
  simp only [View.ld_unit_zero (S := S5000x64) lin_zeros2, View.ld_unit_zero (S := S64x64) lin_zeros2,
    View.ld_unit_zero (S := S1x64) lin_zeros2]
  obtain ⟨e00, e01, e10, e11, e20, e21, e30, e31⟩ := idx_facts4 t
  funext j
  show k1_pay1 (iblk4 V c 0 t) (iblk4 V c 1 t) (iblk4 V c 2 t) j
    = Cert.Spec.linG (F := Ideal) (V c main_v58_0) (V c main_arg4) (V c main_v73) (((cfg4.win 3).blk t).view.emb j)
  refine pay1_eq _ _ _ _ _ _ j _ ?_ ?_ ?_ ?_
  · show win4_3.index t (1 : Fin 2) * 64 + 1 * (j 1).val = (j 1).val
    omega
  · intro k
    show V c main_v58_0 (((cfg4.win 0).blk t).view.emb (ix2 (j 0) k))
      = V c main_v58_0 (ix2 ((((cfg4.win 3).blk t).view.emb j) 0) k)
    refine congrArg _ (funext fun a => Fin.ext ?_)
    match a with
    | ⟨0, _⟩ => show win4_0.index t (0 : Fin 2) * 5000 + 1 * (j 0).val = win4_3.index t (0 : Fin 2) * 5000 + 1 * (j 0).val; omega
    | ⟨1, _⟩ => show win4_0.index t (1 : Fin 2) * 64 + 1 * k.val = k.val; omega
  · funext y
    show V c main_arg4 (((cfg4.win 1).blk t).view.emb y) = V c main_arg4 y
    refine congrArg _ (funext fun a => Fin.ext ?_)
    match a with
    | ⟨0, _⟩ => show win4_1.index t (0 : Fin 2) * 64 + 1 * (y 0).val = (y 0).val; omega
    | ⟨1, _⟩ => show win4_1.index t (1 : Fin 2) * 64 + 1 * (y 1).val = (y 1).val; omega
  · funext y
    show V c main_v73 (((cfg4.win 2).blk t).view.emb y) = V c main_v73 y
    refine congrArg _ (funext fun a => Fin.ext ?_)
    match a with
    | ⟨0, _⟩ => show win4_2.index t (0 : Fin 2) * 1 + 1 * (y 0).val = (y 0).val; omega
    | ⟨1, _⟩ => show win4_2.index t (1 : Fin 2) * 64 + 1 * (y 1).val = (y 1).val; omega

theorem mem_blk4_3 (t : Fin cfg4.N)
    (i : S50000x64.Idx) :
    i ∈ ((cfg4.win 3).blk t).view.set ↔ ∀ a : Fin 2,
      win4_3.index t a * S5000x64.size a ≤ (i a).val ∧ (i a).val < win4_3.index t a * S5000x64.size a + S5000x64.size a := by
  show i ∈ ((View.whole main_v74).slice (win4_3.rect t)).set ↔ _
  rw [View.set_slice_whole, Rect.mem_set_unit]
  exact Iff.rfl

theorem cover4_arr
    (i : S50000x64.Idx) :
    ∃ t : Fin cfg4.N, (cfg4.win 3).flush t = true ∧ i ∈ ((cfg4.win 3).blk t).view.set := by
  have hi0 : (i 0).val < 50000 := (i 0).isLt
  have hi1 : (i 1).val < 64 := (i 1).isLt
  have hN : cfg4.N = 10 := by decide
  let t : Fin cfg4.N := ⟨(i 0).val / 5000, by rw [hN]; omega⟩
  obtain ⟨e00, e01, e10, e11, e20, e21, e30, e31⟩ := idx_facts4 t
  have ht : t.val = (i 0).val / 5000 := rfl
  refine ⟨t, flush4_3 t, ?_⟩
  rw [mem_blk4_3]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 64 ≤ (i 1).val ∧ (i 1).val < win4_3.index t (1 : Fin 2) * 64 + 64; omega

theorem final4 (c : Dev nD) :
    (dat4 (F := Ideal) V c).arrAt 3 cfg4.N = Cert.Spec.linG (F := Ideal) (V c main_v58_0) (V c main_arg4) (V c main_v73) :=
  (dat4 V c).arrAt_eq_of_cover 3 (Cert.Spec.linG (F := Ideal) (V c main_v58_0) (V c main_arg4) (V c main_v73))
    (fun t _ => flushed4_3_eq V c t) cover4_arr

end Cert.KernelIdeal.Hand
-- ==== Proof.KI.ValLin7.lean ====
import proofs.«147510_j18107582120779_2_alg».proof.Proof.KI.ValLin1
import proofs.«147510_j18107582120779_2_alg».proof.Proof.KI.R7
import proofs.«147510_j18107582120779_2_alg».proof.Proof.KI.ValLinCore
import proofs.«147510_j18107582120779_2_alg».proof.Proof.Spec.Ker
import proofs.«147510_j18107582120779_2_alg».proof.Proof.Gen.ReferenceIdeal

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem idx_facts7 : ∀ t : Fin cfg7.N,
    win7_0.index t (0 : Fin 2) = win7_3.index t (0 : Fin 2) ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

theorem flushed7_3_eq (c : Dev nD) (t : Fin cfg7.N) :
    (dat7 (F := Ideal) V c).flushed 3 t
      = ((cfg7.win 3).blk t).view.read (Elt Ideal) (Cert.Spec.linG (F := Ideal) (V c main_v85_0) (V c main_arg4) (V c main_v100)) := by
  show (cfg7.win 3).cut (grid7.coords t) ((dat7 V c).after 3 t) = _
  rw [after7_3]
  unfold out1_3
  rw [View.canon_unit_zero lin_zeros2]
  simp only [View.ld_unit_zero (S := S5000x64) lin_zeros2, View.ld_unit_zero (S := S64x64) lin_zeros2,
    View.ld_unit_zero (S := S1x64) lin_zeros2]
  obtain ⟨e00, e01, e10, e11, e20, e21, e30, e31⟩ := idx_facts7 t
  funext j
  show k1_pay1 (iblk7 V c 0 t) (iblk7 V c 1 t) (iblk7 V c 2 t) j
    = Cert.Spec.linG (F := Ideal) (V c main_v85_0) (V c main_arg4) (V c main_v100) (((cfg7.win 3).blk t).view.emb j)
  refine pay1_eq _ _ _ _ _ _ j _ ?_ ?_ ?_ ?_
  · show win7_3.index t (1 : Fin 2) * 64 + 1 * (j 1).val = (j 1).val
    omega
  · intro k
    show V c main_v85_0 (((cfg7.win 0).blk t).view.emb (ix2 (j 0) k))
      = V c main_v85_0 (ix2 ((((cfg7.win 3).blk t).view.emb j) 0) k)
    refine congrArg _ (funext fun a => Fin.ext ?_)
    match a with
    | ⟨0, _⟩ => show win7_0.index t (0 : Fin 2) * 5000 + 1 * (j 0).val = win7_3.index t (0 : Fin 2) * 5000 + 1 * (j 0).val; omega
    | ⟨1, _⟩ => show win7_0.index t (1 : Fin 2) * 64 + 1 * k.val = k.val; omega
  · funext y
    show V c main_arg4 (((cfg7.win 1).blk t).view.emb y) = V c main_arg4 y
    refine congrArg _ (funext fun a => Fin.ext ?_)
    match a with
    | ⟨0, _⟩ => show win7_1.index t (0 : Fin 2) * 64 + 1 * (y 0).val = (y 0).val; omega
    | ⟨1, _⟩ => show win7_1.index t (1 : Fin 2) * 64 + 1 * (y 1).val = (y 1).val; omega
  · funext y
    show V c main_v100 (((cfg7.win 2).blk t).view.emb y) = V c main_v100 y
    refine congrArg _ (funext fun a => Fin.ext ?_)
    match a with
    | ⟨0, _⟩ => show win7_2.index t (0 : Fin 2) * 1 + 1 * (y 0).val = (y 0).val; omega
    | ⟨1, _⟩ => show win7_2.index t (1 : Fin 2) * 64 + 1 * (y 1).val = (y 1).val; omega

theorem mem_blk7_3 (t : Fin cfg7.N)
    (i : S50000x64.Idx) :
    i ∈ ((cfg7.win 3).blk t).view.set ↔ ∀ a : Fin 2,
      win7_3.index t a * S5000x64.size a ≤ (i a).val ∧ (i a).val < win7_3.index t a * S5000x64.size a + S5000x64.size a := by
  show i ∈ ((View.whole main_v101).slice (win7_3.rect t)).set ↔ _
  rw [View.set_slice_whole, Rect.mem_set_unit]
  exact Iff.rfl

theorem cover7_arr
    (i : S50000x64.Idx) :
    ∃ t : Fin cfg7.N, (cfg7.win 3).flush t = true ∧ i ∈ ((cfg7.win 3).blk t).view.set := by
  have hi0 : (i 0).val < 50000 := (i 0).isLt
  have hi1 : (i 1).val < 64 := (i 1).isLt
  have hN : cfg7.N = 10 := by decide
  let t : Fin cfg7.N := ⟨(i 0).val / 5000, by rw [hN]; omega⟩
  obtain ⟨e00, e01, e10, e11, e20, e21, e30, e31⟩ := idx_facts7 t
  have ht : t.val = (i 0).val / 5000 := rfl
  refine ⟨t, flush7_3 t, ?_⟩
  rw [mem_blk7_3]
  intro a
  match a with
  | ⟨0, _⟩ => show win7_3.index t (0 : Fin 2) * 5000 ≤ (i 0).val ∧ (i 0).val < win7_3.index t (0 : Fin 2) * 5000 + 5000; omega
  | ⟨1, _⟩ => show win7_3.index t (1 : Fin 2) * 64 ≤ (i 1).val ∧ (i 1).val < win7_3.index t (1 : Fin 2) * 64 + 64; omega

theorem final7 (c : Dev nD) :
    (dat7 (F := Ideal) V c).arrAt 3 cfg7.N = Cert.Spec.linG (F := Ideal) (V c main_v85_0) (V c main_arg4) (V c main_v100) :=
  (dat7 V c).arrAt_eq_of_cover 3 (Cert.Spec.linG (F := Ideal) (V c main_v85_0) (V c main_arg4) (V c main_v100))
    (fun t _ => flushed7_3_eq V c t) cover7_arr

end Cert.KernelIdeal.Hand
-- ==== Proof.KI.ValLin10.lean ====
import proofs.«147510_j18107582120779_2_alg».proof.Proof.KI.ValLin1
import proofs.«147510_j18107582120779_2_alg».proof.Proof.KI.R10
import proofs.«147510_j18107582120779_2_alg».proof.Proof.KI.ValLinCore
import proofs.«147510_j18107582120779_2_alg».proof.Proof.Spec.Ker
import proofs.«147510_j18107582120779_2_alg».proof.Proof.Gen.ReferenceIdeal

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem idx_facts10 : ∀ t : Fin cfg10.N,
    win10_0.index t (0 : Fin 2) = win10_3.index t (0 : Fin 2) ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = t.val ∧ win10_3.index t (1 : Fin 2) = 0 :=
  (by decide +kernel : ∀ t : Fin grid10.N, _)

theorem flushed10_3_eq (c : Dev nD) (t : Fin cfg10.N) :
    (dat10 (F := Ideal) V c).flushed 3 t
      = ((cfg10.win 3).blk t).view.read (Elt Ideal) (Cert.Spec.linG (F := Ideal) (V c main_v112_0) (V c main_arg4) (V c main_v127)) := by
  show (cfg10.win 3).cut (grid10.coords t) ((dat10 V c).after 3 t) = _
  rw [after10_3]
  unfold out1_3
  rw [View.canon_unit_zero lin_zeros2]
  simp only [View.ld_unit_zero (S := S5000x64) lin_zeros2, View.ld_unit_zero (S := S64x64) lin_zeros2,
    View.ld_unit_zero (S := S1x64) lin_zeros2]
  obtain ⟨e00, e01, e10, e11, e20, e21, e30, e31⟩ := idx_facts10 t
  funext j
  show k1_pay1 (iblk10 V c 0 t) (iblk10 V c 1 t) (iblk10 V c 2 t) j
    = Cert.Spec.linG (F := Ideal) (V c main_v112_0) (V c main_arg4) (V c main_v127) (((cfg10.win 3).blk t).view.emb j)
  refine pay1_eq _ _ _ _ _ _ j _ ?_ ?_ ?_ ?_
  · show win10_3.index t (1 : Fin 2) * 64 + 1 * (j 1).val = (j 1).val
    omega
  · intro k
    show V c main_v112_0 (((cfg10.win 0).blk t).view.emb (ix2 (j 0) k))
      = V c main_v112_0 (ix2 ((((cfg10.win 3).blk t).view.emb j) 0) k)
    refine congrArg _ (funext fun a => Fin.ext ?_)
    match a with
    | ⟨0, _⟩ => show win10_0.index t (0 : Fin 2) * 5000 + 1 * (j 0).val = win10_3.index t (0 : Fin 2) * 5000 + 1 * (j 0).val; omega
    | ⟨1, _⟩ => show win10_0.index t (1 : Fin 2) * 64 + 1 * k.val = k.val; omega
  · funext y
    show V c main_arg4 (((cfg10.win 1).blk t).view.emb y) = V c main_arg4 y
    refine congrArg _ (funext fun a => Fin.ext ?_)
    match a with
    | ⟨0, _⟩ => show win10_1.index t (0 : Fin 2) * 64 + 1 * (y 0).val = (y 0).val; omega
    | ⟨1, _⟩ => show win10_1.index t (1 : Fin 2) * 64 + 1 * (y 1).val = (y 1).val; omega
  · funext y
    show V c main_v127 (((cfg10.win 2).blk t).view.emb y) = V c main_v127 y
    refine congrArg _ (funext fun a => Fin.ext ?_)
    match a with
    | ⟨0, _⟩ => show win10_2.index t (0 : Fin 2) * 1 + 1 * (y 0).val = (y 0).val; omega
    | ⟨1, _⟩ => show win10_2.index t (1 : Fin 2) * 64 + 1 * (y 1).val = (y 1).val; omega

theorem mem_blk10_3 (t : Fin cfg10.N)
    (i : S50000x64.Idx) :
    i ∈ ((cfg10.win 3).blk t).view.set ↔ ∀ a : Fin 2,
      win10_3.index t a * S5000x64.size a ≤ (i a).val ∧ (i a).val < win10_3.index t a * S5000x64.size a + S5000x64.size a := by
  show i ∈ ((View.whole main_v128).slice (win10_3.rect t)).set ↔ _
  rw [View.set_slice_whole, Rect.mem_set_unit]
  exact Iff.rfl

theorem cover10_arr
    (i : S50000x64.Idx) :
    ∃ t : Fin cfg10.N, (cfg10.win 3).flush t = true ∧ i ∈ ((cfg10.win 3).blk t).view.set := by
  have hi0 : (i 0).val < 50000 := (i 0).isLt
  have hi1 : (i 1).val < 64 := (i 1).isLt
  have hN : cfg10.N = 10 := by decide
  let t : Fin cfg10.N := ⟨(i 0).val / 5000, by rw [hN]; omega⟩
  obtain ⟨e00, e01, e10, e11, e20, e21, e30, e31⟩ := idx_facts10 t
  have ht : t.val = (i 0).val / 5000 := rfl
  refine ⟨t, flush10_3 t, ?_⟩
  rw [mem_blk10_3]
  intro a
  match a with
  | ⟨0, _⟩ => show win10_3.index t (0 : Fin 2) * 5000 ≤ (i 0).val ∧ (i 0).val < win10_3.index t (0 : Fin 2) * 5000 + 5000; omega
  | ⟨1, _⟩ => show win10_3.index t (1 : Fin 2) * 64 ≤ (i 1).val ∧ (i 1).val < win10_3.index t (1 : Fin 2) * 64 + 64; omega

theorem final10 (c : Dev nD) :
    (dat10 (F := Ideal) V c).arrAt 3 cfg10.N = Cert.Spec.linG (F := Ideal) (V c main_v112_0) (V c main_arg4) (V c main_v127) :=
  (dat10 V c).arrAt_eq_of_cover 3 (Cert.Spec.linG (F := Ideal) (V c main_v112_0) (V c main_arg4) (V c main_v127))
    (fun t _ => flushed10_3_eq V c t) cover10_arr

end Cert.KernelIdeal.Hand
-- ==== Proof.KI.ValLin13.lean ====
import proofs.«147510_j18107582120779_2_alg».proof.Proof.KI.R13
import proofs.«147510_j18107582120779_2_alg».proof.Proof.KI.ValLinCore
import proofs.«147510_j18107582120779_2_alg».proof.Proof.Spec.Ker
import proofs.«147510_j18107582120779_2_alg».proof.Proof.Gen.ReferenceIdeal

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem idx_facts13 : ∀ t : Fin cfg13.N,
    win13_0.index t (0 : Fin 2) = win13_3.index t (0 : Fin 2) ∧ win13_0.index t (1 : Fin 2) = 0
    ∧ win13_1.index t (0 : Fin 2) = 0 ∧ win13_1.index t (1 : Fin 2) = 0
    ∧ win13_2.index t (0 : Fin 2) = 0 ∧ win13_2.index t (1 : Fin 2) = 0
    ∧ win13_3.index t (0 : Fin 2) = t.val ∧ win13_3.index t (1 : Fin 2) = 0 :=
  (by decide +kernel : ∀ t : Fin grid13.N, _)

theorem pay13_ix (x0 : Vec Ideal S5000x64 .f32) (x1 : Vec Ideal S64x40 .f32) (x2 : Vec Ideal S1x40 .f32)
    (X : FVec Ideal S50000x64 .f32) (p : Fin 5000) (r : Fin 50000)
    (q : Fin 40)
    (hrow : ∀ c : Fin 64, x0 (ix2 p c) = X (ix2 r c)) :
    k13_pay1 x0 x1 x2 (ix2 p q) = Cert.Spec.decG X x1 x2 (ix2 r q) :=
  lin_block_apply (m := 5000) (M := 50000) (k := 64)
    (n := 40)
    (truncf .bf16 (shapeCast S5000x64 x0 shapeCasts_S5000x64_S5000x64) bitsLt_bf16_f32) (truncf .bf16 x1 bitsLt_bf16_f32)
    (broadcastTo S5000x40 (shapeCast S1x40 x2 shapeCasts_S1x40_S1x40) broadcasts_S1x40_S5000x40) X x1 x2 _ p r q
    (fun c => (congrFun (shapeCast_self x0 shapeCasts_S5000x64_S5000x64) (ix2 p c)).trans (hrow c)) (fun _ => rfl)
    (by rw [broadcastTo_1b_ab_apply, shapeCast_self])

theorem pay13_eq (x0 : Vec Ideal S5000x64 .f32) (x1 : Vec Ideal S64x40 .f32) (x2 : Vec Ideal S1x40 .f32)
    (X : FVec Ideal S50000x64 .f32) (W : FVec Ideal S64x40 .f32) (b : FVec Ideal S1x40 .f32)
    (j : S5000x40.Idx)
    (i : S50000x40.Idx)
    (hq : (i 1).val = (j 1).val)
    (hrow : ∀ c : Fin 64, x0 (ix2 (j 0) c) = X (ix2 (i 0) c)) (h1 : x1 = W) (h2 : x2 = b) :
    k13_pay1 x0 x1 x2 j = Cert.Spec.decG X W b i := by
  subst h1 h2
  have hi : i = ix2 (i 0) (j 1) := (eq_ix2 i).trans (congrArg (ix2 (i 0)) (Fin.ext hq))
  rw [eq_ix2 j, hi]
  exact pay13_ix x0 x1 x2 X (j 0) (i 0) (j 1) hrow

theorem flushed13_3_eq (c : Dev nD) (t : Fin cfg13.N) :
    (dat13 (F := Ideal) V c).flushed 3 t
      = ((cfg13.win 3).blk t).view.read (Elt Ideal) (Cert.Spec.decG (F := Ideal) (V c main_v139_0) (V c main_arg10) (V c main_v140)) := by
  show (cfg13.win 3).cut (grid13.coords t) ((dat13 V c).after 3 t) = _
  rw [after13_3]
  unfold out13_3
  rw [View.canon_unit_zero lin_zeros2]
  simp only [View.ld_unit_zero (S := S5000x64) lin_zeros2, View.ld_unit_zero (S := S64x40) lin_zeros2,
    View.ld_unit_zero (S := S1x40) lin_zeros2]
  obtain ⟨e00, e01, e10, e11, e20, e21, e30, e31⟩ := idx_facts13 t
  funext j
  show k13_pay1 (iblk13 V c 0 t) (iblk13 V c 1 t) (iblk13 V c 2 t) j
    = Cert.Spec.decG (F := Ideal) (V c main_v139_0) (V c main_arg10) (V c main_v140) (((cfg13.win 3).blk t).view.emb j)
  refine pay13_eq _ _ _ _ _ _ j _ ?_ ?_ ?_ ?_
  · show win13_3.index t (1 : Fin 2) * 40 + 1 * (j 1).val = (j 1).val
    omega
  · intro k
    show V c main_v139_0 (((cfg13.win 0).blk t).view.emb (ix2 (j 0) k))
      = V c main_v139_0 (ix2 ((((cfg13.win 3).blk t).view.emb j) 0) k)
    refine congrArg _ (funext fun a => Fin.ext ?_)
    match a with
    | ⟨0, _⟩ => show win13_0.index t (0 : Fin 2) * 5000 + 1 * (j 0).val = win13_3.index t (0 : Fin 2) * 5000 + 1 * (j 0).val; omega
    | ⟨1, _⟩ => show win13_0.index t (1 : Fin 2) * 64 + 1 * k.val = k.val; omega
  · funext y
    show V c main_arg10 (((cfg13.win 1).blk t).view.emb y) = V c main_arg10 y
    refine congrArg _ (funext fun a => Fin.ext ?_)
    match a with
    | ⟨0, _⟩ => show win13_1.index t (0 : Fin 2) * 64 + 1 * (y 0).val = (y 0).val; omega
    | ⟨1, _⟩ => show win13_1.index t (1 : Fin 2) * 40 + 1 * (y 1).val = (y 1).val; omega
  · funext y
    show V c main_v140 (((cfg13.win 2).blk t).view.emb y) = V c main_v140 y
    refine congrArg _ (funext fun a => Fin.ext ?_)
    match a with
    | ⟨0, _⟩ => show win13_2.index t (0 : Fin 2) * 1 + 1 * (y 0).val = (y 0).val; omega
    | ⟨1, _⟩ => show win13_2.index t (1 : Fin 2) * 40 + 1 * (y 1).val = (y 1).val; omega

theorem mem_blk13_3 (t : Fin cfg13.N)
    (i : S50000x40.Idx) :
    i ∈ ((cfg13.win 3).blk t).view.set ↔ ∀ a : Fin 2,
      win13_3.index t a * S5000x40.size a ≤ (i a).val ∧ (i a).val < win13_3.index t a * S5000x40.size a + S5000x40.size a := by
  show i ∈ ((View.whole main_v141).slice (win13_3.rect t)).set ↔ _
  rw [View.set_slice_whole, Rect.mem_set_unit]
  exact Iff.rfl

theorem cover13_arr
    (i : S50000x40.Idx) :
    ∃ t : Fin cfg13.N, (cfg13.win 3).flush t = true ∧ i ∈ ((cfg13.win 3).blk t).view.set := by
  have hi0 : (i 0).val < 50000 := (i 0).isLt
  have hi1 : (i 1).val < 40 := (i 1).isLt
  have hN : cfg13.N = 10 := by decide
  let t : Fin cfg13.N := ⟨(i 0).val / 5000, by rw [hN]; omega⟩
  obtain ⟨e00, e01, e10, e11, e20, e21, e30, e31⟩ := idx_facts13 t
  have ht : t.val = (i 0).val / 5000 := rfl
  refine ⟨t, flush13_3 t, ?_⟩
  rw [mem_blk13_3]
  intro a
  match a with
  | ⟨0, _⟩ => show win13_3.index t (0 : Fin 2) * 5000 ≤ (i 0).val ∧ (i 0).val < win13_3.index t (0 : Fin 2) * 5000 + 5000; omega
  | ⟨1, _⟩ => show win13_3.index t (1 : Fin 2) * 40 ≤ (i 1).val ∧ (i 1).val < win13_3.index t (1 : Fin 2) * 40 + 40; omega

theorem final13 (c : Dev nD) :
    (dat13 (F := Ideal) V c).arrAt 3 cfg13.N = Cert.Spec.decG (F := Ideal) (V c main_v139_0) (V c main_arg10) (V c main_v140) :=
  (dat13 V c).arrAt_eq_of_cover 3 (Cert.Spec.decG (F := Ideal) (V c main_v139_0) (V c main_arg10) (V c main_v140))
    (fun t _ => flushed13_3_eq V c t) cover13_arr

end Cert.KernelIdeal.Hand
-- ==== Proof.KI.ValLin.lean ====
import proofs.«147510_j18107582120779_2_alg».proof.Proof.KI.ValLin0
import proofs.«147510_j18107582120779_2_alg».proof.Proof.KI.ValLin1
import proofs.«147510_j18107582120779_2_alg».proof.Proof.KI.ValLin4
import proofs.«147510_j18107582120779_2_alg».proof.Proof.KI.ValLin7
import proofs.«147510_j18107582120779_2_alg».proof.Proof.KI.ValLin10
import proofs.«147510_j18107582120779_2_alg».proof.Proof.KI.ValLin13
-- ==== Proof.KI.EdgeLaws.lean ====
import proofs.«147510_j18107582120779_2_alg».proof.Proof.Gen.KernelIdeal
import proofs.«147510_j18107582120779_2_alg».proof.Proof.Gen.ReferenceIdeal
import proofs.«147510_j18107582120779_2_alg».proof.Proof.Spec.Ker
import Idealize.ShloMosaic.Lib.Pipeline.Value
import Idealize.ShloMosaic.Lib.ValueIdx
import Idealize.ShloMosaic.Lib.IdealHost
import Idealize.ShloMosaic.PureOps.Ideal.Laws

noncomputable section

namespace Cert.KernelIdeal.Hand

open Cert.KernelIdeal
open Idealize.ShloMosaic Idealize.ShloMosaic.ValueIdx

abbrev edgeDot := dot_S5000x64_S64x64_S5000x64_1_0_0_1_n_n

theorem edgeDot_rank : edgeDot.contr.rank = 1 := rfl
theorem edgeDot_size : edgeDot.contr.size ⟨0, by rw [edgeDot_rank]; omega⟩ = 64 := rfl

abbrev edgeContr : edgeDot.contr.Idx ≃ Fin 64 := contrEquiv1 edgeDot 64 edgeDot_rank edgeDot_size

theorem edgeDot_lhsIdx (j : S5000x64.Idx) (k : Fin 64) : edgeDot.lhsIdx j (edgeContr.symm k) = ix2 (j 0) k := by
  funext a
  match a with
  | ⟨0, _⟩ => simp [DotDims.lhsIdx, edgeDot, dot_S5000x64_S64x64_S5000x64_1_0_0_1_n_n]; rfl
  | ⟨1, _⟩ => simp [DotDims.lhsIdx, edgeDot, dot_S5000x64_S64x64_S5000x64_1_0_0_1_n_n, edgeContr, contrEquiv1]; rfl

theorem edgeDot_rhsIdx (j : S5000x64.Idx) (k : Fin 64) : edgeDot.rhsIdx j (edgeContr.symm k) = ix2 k (j 1) := by
  funext a
  match a with
  | ⟨0, _⟩ => simp [DotDims.rhsIdx, edgeDot, dot_S5000x64_S64x64_S5000x64_1_0_0_1_n_n, edgeContr, contrEquiv1]; rfl
  | ⟨1, _⟩ => simp [DotDims.rhsIdx, edgeDot, dot_S5000x64_S64x64_S5000x64_1_0_0_1_n_n]; rfl

theorem edgeDot_apply (A : FVec Ideal S5000x64 .bf16) (B : FVec Ideal S64x64 .bf16) (j : S5000x64.Idx) :
    matmul edgeDot none A B (constant S5000x64 .f32 0x00000000#32) j
      = ∑ k : Fin 64, ((A (ix2 (j 0) k) : EReal) * (B (ix2 k (j 1)) : EReal)) := by
  simp only [matmul]
  rw [Ideal.matmul_constant_zero_apply, ← Equiv.sum_comp edgeContr.symm]
  exact Finset.sum_congr rfl fun k _ => by rw [edgeDot_lhsIdx, edgeDot_rhsIdx]; rfl

abbrev edgeWholeDot := Cert.ReferenceIdeal.dot_S800000x64_S64x64_S800000x64_1_0_0_1_n_n

theorem edgeWholeDot_rank : edgeWholeDot.contr.rank = 1 := rfl
theorem edgeWholeDot_size : edgeWholeDot.contr.size ⟨0, by rw [edgeWholeDot_rank]; omega⟩ = 64 := rfl
abbrev edgeWholeContr : edgeWholeDot.contr.Idx ≃ Fin 64 := contrEquiv1 edgeWholeDot 64 edgeWholeDot_rank edgeWholeDot_size

theorem edgeWholeDot_lhsIdx (j : S800000x64.Idx) (k : Fin 64) : edgeWholeDot.lhsIdx j (edgeWholeContr.symm k) = ix2 (j 0) k := by
  funext a
  match a with
  | ⟨0, _⟩ => simp [DotDims.lhsIdx, edgeWholeDot, Cert.ReferenceIdeal.dot_S800000x64_S64x64_S800000x64_1_0_0_1_n_n]; rfl
  | ⟨1, _⟩ => simp [DotDims.lhsIdx, edgeWholeDot, Cert.ReferenceIdeal.dot_S800000x64_S64x64_S800000x64_1_0_0_1_n_n, edgeWholeContr, contrEquiv1]; rfl

theorem edgeWholeDot_rhsIdx (j : S800000x64.Idx) (k : Fin 64) : edgeWholeDot.rhsIdx j (edgeWholeContr.symm k) = ix2 k (j 1) := by
  funext a
  match a with
  | ⟨0, _⟩ => simp [DotDims.rhsIdx, edgeWholeDot, Cert.ReferenceIdeal.dot_S800000x64_S64x64_S800000x64_1_0_0_1_n_n, edgeWholeContr, contrEquiv1]; rfl
  | ⟨1, _⟩ => simp [DotDims.rhsIdx, edgeWholeDot, Cert.ReferenceIdeal.dot_S800000x64_S64x64_S800000x64_1_0_0_1_n_n]; rfl

theorem edgeWholeDot_apply (A : FVec Ideal S800000x64 .f32) (B : FVec Ideal S64x64 .f32) (j : S800000x64.Idx) :
    Host.dotGeneral edgeWholeDot none A B j = ∑ k : Fin 64, ((A (ix2 (j 0) k) : EReal) * (B (ix2 k (j 1)) : EReal)) := by
  simp only [Host.dotGeneral]
  rw [Ideal.dotGeneral_apply, ← Equiv.sum_comp edgeWholeContr.symm]
  exact Finset.sum_congr rfl fun k _ => by rw [edgeWholeDot_lhsIdx, edgeWholeDot_rhsIdx]; rfl

theorem edgeMsg_apply (Xs Xd : FVec Ideal S800000x64 .f32) (wmlp : FVec Ideal S64x64 .f32) (r : Fin 800000) (q : Fin 64) :
    Cert.Spec.edgeMsg Xs Xd wmlp (ix2 r q) = max (∑ k : Fin 64, (Xs (ix2 r k) - Xd (ix2 r k)) * wmlp (ix2 k q)) 0 * Xd (ix2 r q) := by
  unfold Cert.Spec.edgeMsg
  rw [mulf_apply, maximumf_apply, edgeWholeDot_apply, broadcastInDim_scalar_apply, constant_apply, Ideal.ofBits_zero_f32]
  rfl

theorem edgeEv_apply (Xs : FVec Ideal S800000x64 .f32) (convW : FVec Ideal S64x64 .f32) (en : FVec Ideal S800000x1 .f32) (r : Fin 800000) (q : Fin 64) :
    Cert.Spec.edgeEv Xs convW en (ix2 r q) = (∑ k : Fin 64, Xs (ix2 r k) * convW (ix2 k q)) * en (ix2 r 0) := by
  unfold Cert.Spec.edgeEv
  rw [mulf_apply, edgeWholeDot_apply]
  rw [broadcastInDim_apply _ _ en (ix2 r q) (ix2 (n0 := 800000) (n1 := 1) r 0) (fun a => by
    match a with
    | ⟨0, _⟩ => rfl
    | ⟨1, _⟩ => rfl)]

theorem edgeZero : (![0, 0] : Fin 2 → Nat) = fun _ => 0 := funext fun a => by fin_cases a <;> rfl

end Cert.KernelIdeal.Hand
-- ==== Proof.KI.ValEdge.lean ====
import proofs.«147510_j18107582120779_2_alg».proof.Proof.KI.R2
import proofs.«147510_j18107582120779_2_alg».proof.Proof.KI.EdgeLaws
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

theorem edgePay2_left (x0 x1 : Vec Ideal S5000x64 .f32) (x2 x3 : Vec Ideal S64x64 .f32) (x4 : Vec Ideal S5000x1 .f32)
    (j : S5000x128.Idx) (h : (j 1).val < 64) :
    k2_pay1 x0 x1 x2 x3 x4 j
      = max (∑ k : Fin 64, (x0 (ix2 (j 0) k) - x1 (ix2 (j 0) k)) * x2 (ix2 k ⟨(j 1).val, h⟩)) 0 * x1 (ix2 (j 0) ⟨(j 1).val, h⟩) := by
  unfold k2_pay1
  simp only [shapeCast_self]
  rw [concatenate_pair_apply_left (t := S5000x128) (s₁ := S5000x64) (s₂ := S5000x64) (1 : Fin 2) _ _ _ j rfl
    (ix2 (n0 := 5000) (n1 := 64) (j 0) ⟨(j 1).val, h⟩) (fun b => by
    match b with
    | ⟨0, _⟩ => rfl
    | ⟨1, _⟩ => rfl)]
  rw [mulf_apply, maximumf_apply, broadcast_apply, edgeDot_apply]
  rw [show (FloatOps.ofBits (F := Ideal) .f32 0x00000000#32 : EReal) = 0 from Ideal.ofBits_zero_f32]
  rfl

theorem edgePay2_right (x0 x1 : Vec Ideal S5000x64 .f32) (x2 x3 : Vec Ideal S64x64 .f32) (x4 : Vec Ideal S5000x1 .f32)
    (j : S5000x128.Idx) (h : ¬ (j 1).val < 64) :
    k2_pay1 x0 x1 x2 x3 x4 j
      = (∑ k : Fin 64, x0 (ix2 (j 0) k) * x3 (ix2 k ⟨(j 1).val - 64, by have := idx2_lt1 j; omega⟩)) * x4 (ix2 (j 0) 0) := by
  have hj : (j 1).val < 128 := idx2_lt1 j
  unfold k2_pay1
  simp only [shapeCast_self]
  rw [concatenate_pair_apply_right (t := S5000x128) (s₁ := S5000x64) (s₂ := S5000x64) (1 : Fin 2) _ _ _ j rfl rfl
    (ix2 (n0 := 5000) (n1 := 64) (j 0) ⟨(j 1).val - 64, by omega⟩) (fun b => by
    match b with
    | ⟨0, _⟩ => intro _; rfl
    | ⟨1, _⟩ => intro hne; exact absurd rfl hne) (by show ((j 1).val - 64) + 64 = (j 1).val; omega)]
  rw [mulf_apply, edgeDot_apply]
  rw [broadcastTo_apply x4 _ _ (ix2 (n0 := 5000) (n1 := 1) (j 0) 0) (fun a => by
    match a with
    | ⟨0, _⟩ => rfl
    | ⟨1, _⟩ => rfl)]
  rfl

theorem edgeAt2 (Xs Xd : FVec Ideal S800000x64 .f32) (wmlp convW : FVec Ideal S64x64 .f32) (en : FVec Ideal S800000x1 .f32)
    (x0 x1 : Vec Ideal S5000x64 .f32) (x2 x3 : Vec Ideal S64x64 .f32) (x4 : Vec Ideal S5000x1 .f32)
    (i : S800000x128.Idx) (j : S5000x128.Idx)
    (hcol : (i 1).val = (j 1).val)
    (h0 : ∀ k : Fin 64, x0 (ix2 (j 0) k) = Xs (ix2 ⟨(i 0).val, idx2_lt0 i⟩ k))
    (h1 : ∀ k : Fin 64, x1 (ix2 (j 0) k) = Xd (ix2 ⟨(i 0).val, idx2_lt0 i⟩ k))
    (h2 : x2 = wmlp) (h3 : x3 = convW)
    (h4 : x4 (ix2 (j 0) 0) = en (ix2 ⟨(i 0).val, idx2_lt0 i⟩ 0)) :
    k2_pay1 x0 x1 x2 x3 x4 j = Cert.Spec.edgeG Xs Xd wmlp convW en i := by
  subst h2 h3
  by_cases h : (j 1).val < 64
  · have h' : (i 1).val < 64 := by omega
    have e : (⟨(i 1).val, h'⟩ : Fin 64) = ⟨(j 1).val, h⟩ := Fin.ext hcol
    rw [edgePay2_left _ _ _ _ _ j h, Cert.Spec.edgeG_lt _ _ _ _ _ i h', edgeMsg_apply, e]
    simp only [h0, h1]
  · have h' : ¬ (i 1).val < 64 := by omega
    have e : (⟨(i 1).val - 64, by have := idx2_lt1 i; omega⟩ : Fin 64) = ⟨(j 1).val - 64, by have := idx2_lt1 j; omega⟩ :=
      Fin.ext (by show (i 1).val - 64 = (j 1).val - 64; omega)
    rw [edgePay2_right _ _ _ _ _ j h, Cert.Spec.edgeG_ge _ _ _ _ _ i h', edgeEv_apply, e]
    simp only [h0, h4]

variable (V : (c : Dev nD) → (b : Ref sig .tc) → Buf (Elt Ideal) ((c : Thread nD τ).loc b))

theorem edgeIdx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

theorem edgeFlushed2 (c : Dev nD) (t : Fin cfg2.N) :
    (dat2 V c).flushed 5 t = ((cfg2.win 5).blk t).view.read (Elt Ideal)
      (Cert.Spec.edgeG (F := Ideal) (V c main_v38) (V c main_v45) (V c main_arg8) (V c main_arg4) (V c main_v26)) := by
  show (cfg2.win 5).cut (grid2.coords t) ((dat2 V c).after 5 t) = _
  rw [after2_5]
  unfold out2_5
  rw [View.canon_unit_zero edgeZero]
  simp only [View.ld_unit_zero (S := S5000x64) edgeZero, View.ld_unit_zero (S := S64x64) edgeZero, View.ld_unit_zero (S := S5000x1) edgeZero]
  obtain ⟨e00, e01, e10, e11, e20, e21, e30, e31, e40, e41, e50, e51⟩ := edgeIdx2 t
  funext j
  show k2_pay1 (iblk2 V c 0 t) (iblk2 V c 1 t) (iblk2 V c 2 t) (iblk2 V c 3 t) (iblk2 V c 4 t) j
    = Cert.Spec.edgeG (F := Ideal) (V c main_v38) (V c main_v45) (V c main_arg8) (V c main_arg4) (V c main_v26) (((cfg2.win 5).blk t).view.emb j)
  have hj0 : (j 0).val < 5000 := idx2_lt0 j
  have hj1 : (j 1).val < 128 := idx2_lt1 j
  refine edgeAt2 (V c main_v38) (V c main_v45) (V c main_arg8) (V c main_arg4) (V c main_v26)
    (iblk2 V c 0 t) (iblk2 V c 1 t) (iblk2 V c 2 t) (iblk2 V c 3 t) (iblk2 V c 4 t) (((cfg2.win 5).blk t).view.emb j) j ?_ ?_ ?_ ?_ ?_ ?_
  · show win2_5.index t (1 : Fin 2) * 128 + 1 * (j 1).val = (j 1).val
    omega
  · intro k
    show V c main_v38 (((cfg2.win 0).blk t).view.emb (ix2 (j 0) k)) = V c main_v38 _
    refine congrArg _ (funext fun a => Fin.ext ?_)
    match a with
    | ⟨0, _⟩ => show win2_0.index t (0 : Fin 2) * 5000 + 1 * (j 0).val = win2_5.index t (0 : Fin 2) * 5000 + 1 * (j 0).val; omega
    | ⟨1, _⟩ => show win2_0.index t (1 : Fin 2) * 64 + 1 * k.val = k.val; omega
  · intro k
    show V c main_v45 (((cfg2.win 1).blk t).view.emb (ix2 (j 0) k)) = V c main_v45 _
    refine congrArg _ (funext fun a => Fin.ext ?_)
    match a with
    | ⟨0, _⟩ => show win2_1.index t (0 : Fin 2) * 5000 + 1 * (j 0).val = win2_5.index t (0 : Fin 2) * 5000 + 1 * (j 0).val; omega
    | ⟨1, _⟩ => show win2_1.index t (1 : Fin 2) * 64 + 1 * k.val = k.val; omega
  · funext y
    show V c main_arg8 (((cfg2.win 2).blk t).view.emb y) = V c main_arg8 y
    refine congrArg _ (funext fun a => Fin.ext ?_)
    match a with
    | ⟨0, _⟩ => show win2_2.index t (0 : Fin 2) * 64 + 1 * (y 0).val = (y 0).val; omega
    | ⟨1, _⟩ => show win2_2.index t (1 : Fin 2) * 64 + 1 * (y 1).val = (y 1).val; omega
  · funext y
    show V c main_arg4 (((cfg2.win 3).blk t).view.emb y) = V c main_arg4 y
    refine congrArg _ (funext fun a => Fin.ext ?_)
    match a with
    | ⟨0, _⟩ => show win2_3.index t (0 : Fin 2) * 64 + 1 * (y 0).val = (y 0).val; omega
    | ⟨1, _⟩ => show win2_3.index t (1 : Fin 2) * 64 + 1 * (y 1).val = (y 1).val; omega
  · show V c main_v26 (((cfg2.win 4).blk t).view.emb (ix2 (j 0) 0)) = V c main_v26 _
    refine congrArg _ (funext fun a => Fin.ext ?_)
    match a with
    | ⟨0, _⟩ => show win2_4.index t (0 : Fin 2) * 5000 + 1 * (j 0).val = win2_5.index t (0 : Fin 2) * 5000 + 1 * (j 0).val; omega
    | ⟨1, _⟩ => show win2_4.index t (1 : Fin 2) * 1 + 1 * 0 = 0; omega

theorem edgeMem2 (t : Fin cfg2.N) (i : S800000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v48).slice (win2_5.rect t)).set ↔ _
  rw [View.set_slice_whole, Rect.mem_set_unit]
  exact Iff.rfl

theorem edgeCover2 (i : S800000x128.Idx) :
    ∃ t : Fin cfg2.N, (cfg2.win 5).flush t = true ∧ i ∈ ((cfg2.win 5).blk t).view.set := by
  have hi0 : (i 0).val < 800000 := idx2_lt0 i
  have hi1 : (i 1).val < 128 := idx2_lt1 i
  have hN : cfg2.N = 160 := N_2
  refine ⟨⟨(i 0).val / 5000, by rw [hN]; omega⟩, flush2_5 _, ?_⟩
  rw [edgeMem2]
  obtain ⟨-, -, -, -, -, -, -, -, -, -, e50, e51⟩ := edgeIdx2 ⟨(i 0).val / 5000, by rw [hN]; omega⟩
  intro a
  match a with
  | ⟨0, _⟩ =>
    show win2_5.index _ (0 : Fin 2) * 5000 ≤ (i 0).val ∧ (i 0).val < win2_5.index _ (0 : Fin 2) * 5000 + 5000
    rw [e50]; show (i 0).val / 5000 * 5000 ≤ (i 0).val ∧ (i 0).val < (i 0).val / 5000 * 5000 + 5000; omega
  | ⟨1, _⟩ =>
    show win2_5.index _ (1 : Fin 2) * 128 ≤ (i 1).val ∧ (i 1).val < win2_5.index _ (1 : Fin 2) * 128 + 128
    rw [e51]; omega

theorem final2 (c : Dev nD) :
    (dat2 V c).arrAt 5 cfg2.N = Cert.Spec.edgeG (F := Ideal) (V c main_v38) (V c main_v45) (V c main_arg8) (V c main_arg4) (V c main_v26) :=
  (dat2 V c).arrAt_eq_of_cover 5 _ (fun t _ => edgeFlushed2 V c t) (fun i => edgeCover2 i)

end Cert.KernelIdeal.Hand
-- ==== Proof.KI.ValEdge5.lean ====
import proofs.«147510_j18107582120779_2_alg».proof.Proof.KI.ValEdge
import proofs.«147510_j18107582120779_2_alg».proof.Proof.KI.R5
import proofs.«147510_j18107582120779_2_alg».proof.Proof.KI.EdgeLaws
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem edgeIdx5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0
    ∧ win5_5.index t (0 : Fin 2) = t.val ∧ win5_5.index t (1 : Fin 2) = 0 :=
  (by decide +kernel : ∀ t : Fin grid5.N, _)

theorem edgeFlushed5 (c : Dev nD) (t : Fin cfg5.N) :
    (dat5 V c).flushed 5 t = ((cfg5.win 5).blk t).view.read (Elt Ideal)
      (Cert.Spec.edgeG (F := Ideal) (V c main_v65) (V c main_v72) (V c main_arg8) (V c main_arg4) (V c main_v26)) := by
  show (cfg5.win 5).cut (grid5.coords t) ((dat5 V c).after 5 t) = _
  rw [after5_5]
  unfold out2_5
  rw [View.canon_unit_zero edgeZero]
  simp only [View.ld_unit_zero (S := S5000x64) edgeZero, View.ld_unit_zero (S := S64x64) edgeZero, View.ld_unit_zero (S := S5000x1) edgeZero]
  obtain ⟨e00, e01, e10, e11, e20, e21, e30, e31, e40, e41, e50, e51⟩ := edgeIdx5 t
  funext j
  show k2_pay1 (iblk5 V c 0 t) (iblk5 V c 1 t) (iblk5 V c 2 t) (iblk5 V c 3 t) (iblk5 V c 4 t) j
    = Cert.Spec.edgeG (F := Ideal) (V c main_v65) (V c main_v72) (V c main_arg8) (V c main_arg4) (V c main_v26) (((cfg5.win 5).blk t).view.emb j)
  have hj0 : (j 0).val < 5000 := idx2_lt0 j
  have hj1 : (j 1).val < 128 := idx2_lt1 j
  refine edgeAt2 (V c main_v65) (V c main_v72) (V c main_arg8) (V c main_arg4) (V c main_v26)
    (iblk5 V c 0 t) (iblk5 V c 1 t) (iblk5 V c 2 t) (iblk5 V c 3 t) (iblk5 V c 4 t) (((cfg5.win 5).blk t).view.emb j) j ?_ ?_ ?_ ?_ ?_ ?_
  · show win5_5.index t (1 : Fin 2) * 128 + 1 * (j 1).val = (j 1).val
    omega
  · intro k
    show V c main_v65 (((cfg5.win 0).blk t).view.emb (ix2 (j 0) k)) = V c main_v65 _
    refine congrArg _ (funext fun a => Fin.ext ?_)
    match a with
    | ⟨0, _⟩ => show win5_0.index t (0 : Fin 2) * 5000 + 1 * (j 0).val = win5_5.index t (0 : Fin 2) * 5000 + 1 * (j 0).val; omega
    | ⟨1, _⟩ => show win5_0.index t (1 : Fin 2) * 64 + 1 * k.val = k.val; omega
  · intro k
    show V c main_v72 (((cfg5.win 1).blk t).view.emb (ix2 (j 0) k)) = V c main_v72 _
    refine congrArg _ (funext fun a => Fin.ext ?_)
    match a with
    | ⟨0, _⟩ => show win5_1.index t (0 : Fin 2) * 5000 + 1 * (j 0).val = win5_5.index t (0 : Fin 2) * 5000 + 1 * (j 0).val; omega
    | ⟨1, _⟩ => show win5_1.index t (1 : Fin 2) * 64 + 1 * k.val = k.val; omega
  · funext y
    show V c main_arg8 (((cfg5.win 2).blk t).view.emb y) = V c main_arg8 y
    refine congrArg _ (funext fun a => Fin.ext ?_)
    match a with
    | ⟨0, _⟩ => show win5_2.index t (0 : Fin 2) * 64 + 1 * (y 0).val = (y 0).val; omega
    | ⟨1, _⟩ => show win5_2.index t (1 : Fin 2) * 64 + 1 * (y 1).val = (y 1).val; omega
  · funext y
    show V c main_arg4 (((cfg5.win 3).blk t).view.emb y) = V c main_arg4 y
    refine congrArg _ (funext fun a => Fin.ext ?_)
    match a with
    | ⟨0, _⟩ => show win5_3.index t (0 : Fin 2) * 64 + 1 * (y 0).val = (y 0).val; omega
    | ⟨1, _⟩ => show win5_3.index t (1 : Fin 2) * 64 + 1 * (y 1).val = (y 1).val; omega
  · show V c main_v26 (((cfg5.win 4).blk t).view.emb (ix2 (j 0) 0)) = V c main_v26 _
    refine congrArg _ (funext fun a => Fin.ext ?_)
    match a with
    | ⟨0, _⟩ => show win5_4.index t (0 : Fin 2) * 5000 + 1 * (j 0).val = win5_5.index t (0 : Fin 2) * 5000 + 1 * (j 0).val; omega
    | ⟨1, _⟩ => show win5_4.index t (1 : Fin 2) * 1 + 1 * 0 = 0; omega

theorem edgeMem5 (t : Fin cfg5.N) (i : S800000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole main_v75).slice (win5_5.rect t)).set ↔ _
  rw [View.set_slice_whole, Rect.mem_set_unit]
  exact Iff.rfl

theorem edgeCover5 (i : S800000x128.Idx) :
    ∃ t : Fin cfg5.N, (cfg5.win 5).flush t = true ∧ i ∈ ((cfg5.win 5).blk t).view.set := by
  have hi0 : (i 0).val < 800000 := idx2_lt0 i
  have hi1 : (i 1).val < 128 := idx2_lt1 i
  have hN : cfg5.N = 160 := N_5
  refine ⟨⟨(i 0).val / 5000, by rw [hN]; omega⟩, flush5_5 _, ?_⟩
  rw [edgeMem5]
  obtain ⟨-, -, -, -, -, -, -, -, -, -, e50, e51⟩ := edgeIdx5 ⟨(i 0).val / 5000, by rw [hN]; omega⟩
  intro a
  match a with
  | ⟨0, _⟩ =>
    show win5_5.index _ (0 : Fin 2) * 5000 ≤ (i 0).val ∧ (i 0).val < win5_5.index _ (0 : Fin 2) * 5000 + 5000
    rw [e50]; show (i 0).val / 5000 * 5000 ≤ (i 0).val ∧ (i 0).val < (i 0).val / 5000 * 5000 + 5000; omega
  | ⟨1, _⟩ =>
    show win5_5.index _ (1 : Fin 2) * 128 ≤ (i 1).val ∧ (i 1).val < win5_5.index _ (1 : Fin 2) * 128 + 128
    rw [e51]; omega

theorem final5 (c : Dev nD) :
    (dat5 V c).arrAt 5 cfg5.N = Cert.Spec.edgeG (F := Ideal) (V c main_v65) (V c main_v72) (V c main_arg8) (V c main_arg4) (V c main_v26) :=
  (dat5 V c).arrAt_eq_of_cover 5 _ (fun t _ => edgeFlushed5 V c t) (fun i => edgeCover5 i)

end Cert.KernelIdeal.Hand
-- ==== Proof.KI.ValEdge8.lean ====
import proofs.«147510_j18107582120779_2_alg».proof.Proof.KI.ValEdge
import proofs.«147510_j18107582120779_2_alg».proof.Proof.KI.R8
import proofs.«147510_j18107582120779_2_alg».proof.Proof.KI.EdgeLaws
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem edgeIdx8 : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = t.val ∧ win8_4.index t (1 : Fin 2) = 0
    ∧ win8_5.index t (0 : Fin 2) = t.val ∧ win8_5.index t (1 : Fin 2) = 0 :=
  (by decide +kernel : ∀ t : Fin grid8.N, _)

theorem edgeFlushed8 (c : Dev nD) (t : Fin cfg8.N) :
    (dat8 V c).flushed 5 t = ((cfg8.win 5).blk t).view.read (Elt Ideal)
      (Cert.Spec.edgeG (F := Ideal) (V c main_v92) (V c main_v99) (V c main_arg8) (V c main_arg4) (V c main_v26)) := by
  show (cfg8.win 5).cut (grid8.coords t) ((dat8 V c).after 5 t) = _
  rw [after8_5]
  unfold out2_5
  rw [View.canon_unit_zero edgeZero]
  simp only [View.ld_unit_zero (S := S5000x64) edgeZero, View.ld_unit_zero (S := S64x64) edgeZero, View.ld_unit_zero (S := S5000x1) edgeZero]
  obtain ⟨e00, e01, e10, e11, e20, e21, e30, e31, e40, e41, e50, e51⟩ := edgeIdx8 t
  funext j
  show k2_pay1 (iblk8 V c 0 t) (iblk8 V c 1 t) (iblk8 V c 2 t) (iblk8 V c 3 t) (iblk8 V c 4 t) j
    = Cert.Spec.edgeG (F := Ideal) (V c main_v92) (V c main_v99) (V c main_arg8) (V c main_arg4) (V c main_v26) (((cfg8.win 5).blk t).view.emb j)
  have hj0 : (j 0).val < 5000 := idx2_lt0 j
  have hj1 : (j 1).val < 128 := idx2_lt1 j
  refine edgeAt2 (V c main_v92) (V c main_v99) (V c main_arg8) (V c main_arg4) (V c main_v26)
    (iblk8 V c 0 t) (iblk8 V c 1 t) (iblk8 V c 2 t) (iblk8 V c 3 t) (iblk8 V c 4 t) (((cfg8.win 5).blk t).view.emb j) j ?_ ?_ ?_ ?_ ?_ ?_
  · show win8_5.index t (1 : Fin 2) * 128 + 1 * (j 1).val = (j 1).val
    omega
  · intro k
    show V c main_v92 (((cfg8.win 0).blk t).view.emb (ix2 (j 0) k)) = V c main_v92 _
    refine congrArg _ (funext fun a => Fin.ext ?_)
    match a with
    | ⟨0, _⟩ => show win8_0.index t (0 : Fin 2) * 5000 + 1 * (j 0).val = win8_5.index t (0 : Fin 2) * 5000 + 1 * (j 0).val; omega
    | ⟨1, _⟩ => show win8_0.index t (1 : Fin 2) * 64 + 1 * k.val = k.val; omega
  · intro k
    show V c main_v99 (((cfg8.win 1).blk t).view.emb (ix2 (j 0) k)) = V c main_v99 _
    refine congrArg _ (funext fun a => Fin.ext ?_)
    match a with
    | ⟨0, _⟩ => show win8_1.index t (0 : Fin 2) * 5000 + 1 * (j 0).val = win8_5.index t (0 : Fin 2) * 5000 + 1 * (j 0).val; omega
    | ⟨1, _⟩ => show win8_1.index t (1 : Fin 2) * 64 + 1 * k.val = k.val; omega
  · funext y
    show V c main_arg8 (((cfg8.win 2).blk t).view.emb y) = V c main_arg8 y
    refine congrArg _ (funext fun a => Fin.ext ?_)
    match a with
    | ⟨0, _⟩ => show win8_2.index t (0 : Fin 2) * 64 + 1 * (y 0).val = (y 0).val; omega
    | ⟨1, _⟩ => show win8_2.index t (1 : Fin 2) * 64 + 1 * (y 1).val = (y 1).val; omega
  · funext y
    show V c main_arg4 (((cfg8.win 3).blk t).view.emb y) = V c main_arg4 y
    refine congrArg _ (funext fun a => Fin.ext ?_)
    match a with
    | ⟨0, _⟩ => show win8_3.index t (0 : Fin 2) * 64 + 1 * (y 0).val = (y 0).val; omega
    | ⟨1, _⟩ => show win8_3.index t (1 : Fin 2) * 64 + 1 * (y 1).val = (y 1).val; omega
  · show V c main_v26 (((cfg8.win 4).blk t).view.emb (ix2 (j 0) 0)) = V c main_v26 _
    refine congrArg _ (funext fun a => Fin.ext ?_)
    match a with
    | ⟨0, _⟩ => show win8_4.index t (0 : Fin 2) * 5000 + 1 * (j 0).val = win8_5.index t (0 : Fin 2) * 5000 + 1 * (j 0).val; omega
    | ⟨1, _⟩ => show win8_4.index t (1 : Fin 2) * 1 + 1 * 0 = 0; omega

theorem edgeMem8 (t : Fin cfg8.N) (i : S800000x128.Idx) :
    i ∈ ((cfg8.win 5).blk t).view.set ↔ ∀ a : Fin 2, win8_5.index t a * S5000x128.size a ≤ (i a).val ∧ (i a).val < win8_5.index t a * S5000x128.size a + S5000x128.size a := by
  show i ∈ ((View.whole main_v102).slice (win8_5.rect t)).set ↔ _
  rw [View.set_slice_whole, Rect.mem_set_unit]
  exact Iff.rfl

theorem edgeCover8 (i : S800000x128.Idx) :
    ∃ t : Fin cfg8.N, (cfg8.win 5).flush t = true ∧ i ∈ ((cfg8.win 5).blk t).view.set := by
  have hi0 : (i 0).val < 800000 := idx2_lt0 i
  have hi1 : (i 1).val < 128 := idx2_lt1 i
  have hN : cfg8.N = 160 := N_8
  refine ⟨⟨(i 0).val / 5000, by rw [hN]; omega⟩, flush8_5 _, ?_⟩
  rw [edgeMem8]
  obtain ⟨-, -, -, -, -, -, -, -, -, -, e50, e51⟩ := edgeIdx8 ⟨(i 0).val / 5000, by rw [hN]; omega⟩
  intro a
  match a with
  | ⟨0, _⟩ =>
    show win8_5.index _ (0 : Fin 2) * 5000 ≤ (i 0).val ∧ (i 0).val < win8_5.index _ (0 : Fin 2) * 5000 + 5000
    rw [e50]; show (i 0).val / 5000 * 5000 ≤ (i 0).val ∧ (i 0).val < (i 0).val / 5000 * 5000 + 5000; omega
  | ⟨1, _⟩ =>
    show win8_5.index _ (1 : Fin 2) * 128 ≤ (i 1).val ∧ (i 1).val < win8_5.index _ (1 : Fin 2) * 128 + 128
    rw [e51]; omega

theorem final8 (c : Dev nD) :
    (dat8 V c).arrAt 5 cfg8.N = Cert.Spec.edgeG (F := Ideal) (V c main_v92) (V c main_v99) (V c main_arg8) (V c main_arg4) (V c main_v26) :=
  (dat8 V c).arrAt_eq_of_cover 5 _ (fun t _ => edgeFlushed8 V c t) (fun i => edgeCover8 i)

end Cert.KernelIdeal.Hand
-- ==== Proof.KI.ValEdge11.lean ====
import proofs.«147510_j18107582120779_2_alg».proof.Proof.KI.ValEdge
import proofs.«147510_j18107582120779_2_alg».proof.Proof.KI.R11
import proofs.«147510_j18107582120779_2_alg».proof.Proof.KI.EdgeLaws
import Idealize.ShloMosaic.Lib.Pipeline.Value
import Idealize.ShloMosaic.Lib.ValueIdx
import Idealize.ShloMosaic.Lib.IdealHost
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem edgeIdx11 : ∀ t : Fin cfg11.N,
    win11_0.index t (0 : Fin 2) = t.val ∧ win11_0.index t (1 : Fin 2) = 0
    ∧ win11_1.index t (0 : Fin 2) = t.val ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = t.val ∧ win11_4.index t (1 : Fin 2) = 0
    ∧ win11_5.index t (0 : Fin 2) = t.val ∧ win11_5.index t (1 : Fin 2) = 0 :=
  (by decide +kernel : ∀ t : Fin grid11.N, _)

theorem edgeFlushed11 (c : Dev nD) (t : Fin cfg11.N) :
    (dat11 V c).flushed 5 t = ((cfg11.win 5).blk t).view.read (Elt Ideal)
      (Cert.Spec.edgeG (F := Ideal) (V c main_v119) (V c main_v126) (V c main_arg8) (V c main_arg4) (V c main_v26)) := by
  show (cfg11.win 5).cut (grid11.coords t) ((dat11 V c).after 5 t) = _
  rw [after11_5]
  unfold out2_5
  rw [View.canon_unit_zero edgeZero]
  simp only [View.ld_unit_zero (S := S5000x64) edgeZero, View.ld_unit_zero (S := S64x64) edgeZero, View.ld_unit_zero (S := S5000x1) edgeZero]
  obtain ⟨e00, e01, e10, e11, e20, e21, e30, e31, e40, e41, e50, e51⟩ := edgeIdx11 t
  funext j
  show k2_pay1 (iblk11 V c 0 t) (iblk11 V c 1 t) (iblk11 V c 2 t) (iblk11 V c 3 t) (iblk11 V c 4 t) j
    = Cert.Spec.edgeG (F := Ideal) (V c main_v119) (V c main_v126) (V c main_arg8) (V c main_arg4) (V c main_v26) (((cfg11.win 5).blk t).view.emb j)
  have hj0 : (j 0).val < 5000 := idx2_lt0 j
  have hj1 : (j 1).val < 128 := idx2_lt1 j
  refine edgeAt2 (V c main_v119) (V c main_v126) (V c main_arg8) (V c main_arg4) (V c main_v26)
    (iblk11 V c 0 t) (iblk11 V c 1 t) (iblk11 V c 2 t) (iblk11 V c 3 t) (iblk11 V c 4 t) (((cfg11.win 5).blk t).view.emb j) j ?_ ?_ ?_ ?_ ?_ ?_
  · show win11_5.index t (1 : Fin 2) * 128 + 1 * (j 1).val = (j 1).val
    omega
  · intro k
    show V c main_v119 (((cfg11.win 0).blk t).view.emb (ix2 (j 0) k)) = V c main_v119 _
    refine congrArg _ (funext fun a => Fin.ext ?_)
    match a with
    | ⟨0, _⟩ => show win11_0.index t (0 : Fin 2) * 5000 + 1 * (j 0).val = win11_5.index t (0 : Fin 2) * 5000 + 1 * (j 0).val; omega
    | ⟨1, _⟩ => show win11_0.index t (1 : Fin 2) * 64 + 1 * k.val = k.val; omega
  · intro k
    show V c main_v126 (((cfg11.win 1).blk t).view.emb (ix2 (j 0) k)) = V c main_v126 _
    refine congrArg _ (funext fun a => Fin.ext ?_)
    match a with
    | ⟨0, _⟩ => show win11_1.index t (0 : Fin 2) * 5000 + 1 * (j 0).val = win11_5.index t (0 : Fin 2) * 5000 + 1 * (j 0).val; omega
    | ⟨1, _⟩ => show win11_1.index t (1 : Fin 2) * 64 + 1 * k.val = k.val; omega
  · funext y
    show V c main_arg8 (((cfg11.win 2).blk t).view.emb y) = V c main_arg8 y
    refine congrArg _ (funext fun a => Fin.ext ?_)
    match a with
    | ⟨0, _⟩ => show win11_2.index t (0 : Fin 2) * 64 + 1 * (y 0).val = (y 0).val; omega
    | ⟨1, _⟩ => show win11_2.index t (1 : Fin 2) * 64 + 1 * (y 1).val = (y 1).val; omega
  · funext y
    show V c main_arg4 (((cfg11.win 3).blk t).view.emb y) = V c main_arg4 y
    refine congrArg _ (funext fun a => Fin.ext ?_)
    match a with
    | ⟨0, _⟩ => show win11_3.index t (0 : Fin 2) * 64 + 1 * (y 0).val = (y 0).val; omega
    | ⟨1, _⟩ => show win11_3.index t (1 : Fin 2) * 64 + 1 * (y 1).val = (y 1).val; omega
  · show V c main_v26 (((cfg11.win 4).blk t).view.emb (ix2 (j 0) 0)) = V c main_v26 _
    refine congrArg _ (funext fun a => Fin.ext ?_)
    match a with
    | ⟨0, _⟩ => show win11_4.index t (0 : Fin 2) * 5000 + 1 * (j 0).val = win11_5.index t (0 : Fin 2) * 5000 + 1 * (j 0).val; omega
    | ⟨1, _⟩ => show win11_4.index t (1 : Fin 2) * 1 + 1 * 0 = 0; omega

theorem edgeMem11 (t : Fin cfg11.N) (i : S800000x128.Idx) :
    i ∈ ((cfg11.win 5).blk t).view.set ↔ ∀ a : Fin 2, win11_5.index t a * S5000x128.size a ≤ (i a).val ∧ (i a).val < win11_5.index t a * S5000x128.size a + S5000x128.size a := by
  show i ∈ ((View.whole main_v129).slice (win11_5.rect t)).set ↔ _
  rw [View.set_slice_whole, Rect.mem_set_unit]
  exact Iff.rfl

theorem edgeCover11 (i : S800000x128.Idx) :
    ∃ t : Fin cfg11.N, (cfg11.win 5).flush t = true ∧ i ∈ ((cfg11.win 5).blk t).view.set := by
  have hi0 : (i 0).val < 800000 := idx2_lt0 i
  have hi1 : (i 1).val < 128 := idx2_lt1 i
  have hN : cfg11.N = 160 := N_11
  refine ⟨⟨(i 0).val / 5000, by rw [hN]; omega⟩, flush11_5 _, ?_⟩
  rw [edgeMem11]
  obtain ⟨-, -, -, -, -, -, -, -, -, -, e50, e51⟩ := edgeIdx11 ⟨(i 0).val / 5000, by rw [hN]; omega⟩
  intro a
  match a with
  | ⟨0, _⟩ =>
    show win11_5.index _ (0 : Fin 2) * 5000 ≤ (i 0).val ∧ (i 0).val < win11_5.index _ (0 : Fin 2) * 5000 + 5000
    rw [e50]; show (i 0).val / 5000 * 5000 ≤ (i 0).val ∧ (i 0).val < (i 0).val / 5000 * 5000 + 5000; omega
  | ⟨1, _⟩ =>
    show win11_5.index _ (1 : Fin 2) * 128 ≤ (i 1).val ∧ (i 1).val < win11_5.index _ (1 : Fin 2) * 128 + 128
    rw [e51]; omega

theorem final11 (c : Dev nD) :
    (dat11 V c).arrAt 5 cfg11.N = Cert.Spec.edgeG (F := Ideal) (V c main_v119) (V c main_v126) (V c main_arg8) (V c main_arg4) (V c main_v26) :=
  (dat11 V c).arrAt_eq_of_cover 5 _ (fun t _ => edgeFlushed11 V c t) (fun i => edgeCover11 i)

end Cert.KernelIdeal.Hand
-- ==== Proof.KI.ValNodeCore.lean ====
import Idealize.ShloMosaic.Lib.StackMember
import Idealize.ShloMosaic.Lib.ValueLayout
import Idealize.ShloMosaic.Lib.IdealHost
import Idealize.ShloMosaic.Lib.KernelVsHost
import Idealize.ShloMosaic.Lib.Pipeline.Value

noncomputable section

namespace Cert.KernelIdeal.Hand

open Idealize.ShloMosaic Idealize.ShloMosaic.ValueIdx

section Layout
variable {α : Type}

theorem broadcastTo_oneCol_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem broadcastInDim_oneCol_apply {m n : ℕ} (hbc : (⟨2, ![m, 1]⟩ : Shape).BroadcastsInDim ⟨2, ![m, n]⟩ ![0, 1])
    (y : (⟨2, ![m, 1]⟩ : Shape).Idx → α) (r : Fin m) (t : Fin n) :
    broadcastInDim ⟨2, ![m, n]⟩ ![0, 1] hbc y (ix2 r t) = y (ix2 r (0 : Fin 1)) := by
  refine broadcastInDim_apply ![0, 1] hbc y (ix2 r t) (ix2 r (0 : Fin 1)) ?_
  intro a
  fin_cases a
  · show r.val = if m = 1 then 0 else r.val
    split_ifs with hm
    · have := r.isLt; omega
    · rfl
  · show (0 : ℕ) = if (1 : ℕ) = 1 then 0 else _
    simp

end Layout

theorem node_matmul_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [matmul_zero_eq_dotGeneral]
  exact StackMember.dotGeneral_plain_apply prec A B a b

def nodeYVal (x y xw cs sn cb dot rb : EReal) : EReal :=
  y + Ideal.ofBits .f32 0x3F800000#32 * ((max ((cs + xw * sn + cb) + -(dot + rb)) (Ideal.ofBits .f32 0x00000000#32) - Ideal.ofBits .f32 0x3F800000#32 * y) - Ideal.ofBits .f32 0x3F800000#32 * x)

def nodeXVal (x ynew ax : EReal) : EReal := x + Ideal.ofBits .f32 0x3F800000#32 * (ynew + ax)

theorem zero_word_sub (v : EReal) : Ideal.ofBits .f32 0x00000000#32 - v = -v := by rw [Ideal.ofBits_zero_f32, zero_sub]

section WholeArray
variable {M n : ℕ}

theorem node_y_spec_apply (x y xw cs : FVec Ideal ⟨2, ![M, n]⟩ .f32) (sn : FVec Ideal ⟨2, ![M, 1]⟩ .f32)
    (cb : FVec Ideal ⟨2, ![1, n]⟩ .f32) (rW : FVec Ideal ⟨2, ![n, n]⟩ .f32) (rb : FVec Ideal ⟨2, ![1, n]⟩ .f32)
    (hz : (⟨0, ![]⟩ : Shape).BroadcastsInDim ⟨2, ![M, n]⟩ ![])
    (hrow : (⟨2, ![1, n]⟩ : Shape).BroadcastsInDim ⟨2, ![M, n]⟩ ![0, 1])
    (hcol : (⟨2, ![M, 1]⟩ : Shape).BroadcastsInDim ⟨2, ![M, n]⟩ ![0, 1])
    (r : Fin M) (q : Fin n) :
    addf y (mulf (broadcastInDim ⟨2, ![M, n]⟩ ![] hz (constant (F := Ideal) ⟨0, ![]⟩ .f32 0x3F800000#32))
      (subf (subf (maximumf
          (addf (addf (addf cs (mulf xw (broadcastInDim ⟨2, ![M, n]⟩ ![0, 1] hcol sn))) (broadcastInDim ⟨2, ![M, n]⟩ ![0, 1] hrow cb))
            (negf (addf (Host.dotGeneral (DotDims.plain M n n) none xw rW) (broadcastInDim ⟨2, ![M, n]⟩ ![0, 1] hrow rb))))
          (broadcastInDim ⟨2, ![M, n]⟩ ![] hz (constant (F := Ideal) ⟨0, ![]⟩ .f32 0x00000000#32)))
        (mulf (broadcastInDim ⟨2, ![M, n]⟩ ![] hz (constant (F := Ideal) ⟨0, ![]⟩ .f32 0x3F800000#32)) y)) (mulf (broadcastInDim ⟨2, ![M, n]⟩ ![] hz (constant (F := Ideal) ⟨0, ![]⟩ .f32 0x3F800000#32)) x))) (ix2 r q)
      = nodeYVal (x (ix2 r q)) (y (ix2 r q)) (xw (ix2 r q)) (cs (ix2 r q)) (sn (ix2 r (0 : Fin 1))) (cb (ix2 (0 : Fin 1) q))
          (∑ c : Fin n, xw (ix2 r c) * rW (ix2 c q)) (rb (ix2 (0 : Fin 1) q)) := by
  unfold nodeYVal
  simp only [addf_apply, mulf_apply, subf_apply, negf_apply, maximumf_apply, StackMember.dotGeneral_plain_apply]
  rw [broadcastInDim_scalar_apply hz (constant (F := Ideal) ⟨0, ![]⟩ .f32 0x3F800000#32) (ix2 r q),
    broadcastInDim_scalar_apply hz (constant (F := Ideal) ⟨0, ![]⟩ .f32 0x00000000#32) (ix2 r q),
    broadcastInDim_oneCol_apply hcol sn r q, broadcastInDim_oneRow_apply hrow cb r q, broadcastInDim_oneRow_apply hrow rb r q]
  rfl

theorem node_x_spec_apply (x ynew ax : FVec Ideal ⟨2, ![M, n]⟩ .f32)
    (hz : (⟨0, ![]⟩ : Shape).BroadcastsInDim ⟨2, ![M, n]⟩ ![]) (r : Fin M) (q : Fin n) :
    addf x (mulf (broadcastInDim ⟨2, ![M, n]⟩ ![] hz (constant (F := Ideal) ⟨0, ![]⟩ .f32 0x3F800000#32)) (addf ynew ax)) (ix2 r q) = nodeXVal (x (ix2 r q)) (ynew (ix2 r q)) (ax (ix2 r q)) := by
  unfold nodeXVal
  simp only [addf_apply, mulf_apply]
  rw [broadcastInDim_scalar_apply hz (constant (F := Ideal) ⟨0, ![]⟩ .f32 0x3F800000#32) (ix2 r q)]
  rfl

end WholeArray

end Cert.KernelIdeal.Hand
-- ==== Proof.KI.ValNodeSpec.lean ====
import proofs.«147510_j18107582120779_2_alg».proof.Proof.Spec.Ker
import proofs.«147510_j18107582120779_2_alg».proof.Proof.KI.ValNodeCore

noncomputable section

namespace Cert.KernelIdeal.Hand

open Idealize.ShloMosaic Idealize.ShloMosaic.ValueIdx

section SpecAtIndex
variable [Cert.ReferenceIdeal.Facts₀] [Cert.KernelIdeal.Facts₀]

theorem nodeG_snd_apply (x y xw cs ax : FVec Ideal Cert.ReferenceIdeal.S50000x64 .f32) (sn : FVec Ideal Cert.ReferenceIdeal.S50000x1 .f32)
    (cb : FVec Ideal Cert.ReferenceIdeal.S1x64 .f32) (rW : FVec Ideal Cert.ReferenceIdeal.S64x64 .f32) (rb : FVec Ideal Cert.ReferenceIdeal.S1x64 .f32)
    (r : Fin 50000) (q : Fin 64) :
    (Cert.Spec.nodeG x y xw cs ax sn cb rW rb).2 (ix2 r q)
      = nodeYVal (x (ix2 r q)) (y (ix2 r q)) (xw (ix2 r q)) (cs (ix2 r q)) (sn (ix2 r (0 : Fin 1))) (cb (ix2 (0 : Fin 1) q))
          (∑ c : Fin 64, xw (ix2 r c) * rW (ix2 c q)) (rb (ix2 (0 : Fin 1) q)) :=
  node_y_spec_apply (M := 50000) (n := 64) x y xw cs sn cb rW rb Cert.ReferenceIdeal.Facts₀.bcast_S_S50000x64
    Cert.ReferenceIdeal.Facts₀.bcast_S1x64_S50000x64_0_1 Cert.ReferenceIdeal.Facts₀.bcast_S50000x1_S50000x64_0_1 r q

theorem nodeG_fst_apply (x y xw cs ax : FVec Ideal Cert.ReferenceIdeal.S50000x64 .f32) (sn : FVec Ideal Cert.ReferenceIdeal.S50000x1 .f32)
    (cb : FVec Ideal Cert.ReferenceIdeal.S1x64 .f32) (rW : FVec Ideal Cert.ReferenceIdeal.S64x64 .f32) (rb : FVec Ideal Cert.ReferenceIdeal.S1x64 .f32)
    (r : Fin 50000) (q : Fin 64) :
    (Cert.Spec.nodeG x y xw cs ax sn cb rW rb).1 (ix2 r q)
      = nodeXVal (x (ix2 r q))
          (nodeYVal (x (ix2 r q)) (y (ix2 r q)) (xw (ix2 r q)) (cs (ix2 r q)) (sn (ix2 r (0 : Fin 1))) (cb (ix2 (0 : Fin 1) q))
            (∑ c : Fin 64, xw (ix2 r c) * rW (ix2 c q)) (rb (ix2 (0 : Fin 1) q)))
          (ax (ix2 r q)) := by
  rw [← nodeG_snd_apply x y xw cs ax sn cb rW rb r q]
  exact node_x_spec_apply (M := 50000) (n := 64) x (Cert.Spec.nodeG x y xw cs ax sn cb rW rb).2 ax
    Cert.ReferenceIdeal.Facts₀.bcast_S_S50000x64 r q

end SpecAtIndex

end Cert.KernelIdeal.Hand
-- ==== Proof.KI.ValNode.lean ====
import proofs.«147510_j18107582120779_2_alg».proof.Proof.KI.R6
import proofs.«147510_j18107582120779_2_alg».proof.Proof.KI.ValNodeSpec
import Idealize.ShloMosaic.Lib.Pipeline.Value

noncomputable section

namespace Cert.KernelIdeal.Hand

open Cert.KernelIdeal Cert.KernelIdeal.Gen
open Idealize.ShloMosaic Idealize.ShloMosaic.ValueIdx
open Idealize.ShloMosaic.TcCoe Idealize.SL.Sem
open Idealize.ShloMosaic.Pipeline (Dat)

theorem k6_yPay_apply (x y xw cs : FVec Ideal S2000x64 .f32) (sn : FVec Ideal S2000x1 .f32) (cb : FVec Ideal S1x64 .f32)
    (rW : FVec Ideal S64x64 .f32) (rb : FVec Ideal S1x64 .f32) (p : Fin 2000) (q : Fin 64) :
    k6_pay1 (k6_pay3 y) (k6_pay5 xw rW rb cs sn cb y x) (k6_pay6 (F := Ideal)) (ix2 p q)
      = nodeYVal (x (ix2 p q)) (y (ix2 p q)) (xw (ix2 p q)) (cs (ix2 p q)) (sn (ix2 p (0 : Fin 1))) (cb (ix2 (0 : Fin 1) q))
          (∑ c : Fin 64, xw (ix2 p c) * rW (ix2 c q)) (rb (ix2 (0 : Fin 1) q)) := by
  unfold k6_pay1 k6_pay5 k6_pay6 k6_pay3 k6_pay4 nodeYVal
  rw [show dot_S2000x64_S64x64_S2000x64_1_0_0_1_n_n = DotDims.plain 2000 64 64 from rfl, ← zero_word_sub]
  simp only [addf_apply, mulf_apply, subf_apply, maximumf_apply, broadcast_apply, shapeCast_self, truncf_apply,
    broadcastTo_1b_ab_apply, broadcastTo_oneCol_apply, node_matmul_zero_apply]
  rfl

theorem k6_xPay_apply (x y xw cs ax : FVec Ideal S2000x64 .f32) (sn : FVec Ideal S2000x1 .f32) (cb : FVec Ideal S1x64 .f32)
    (rW : FVec Ideal S64x64 .f32) (rb : FVec Ideal S1x64 .f32) (p : Fin 2000) (q : Fin 64) :
    k6_pay2 (k6_pay3 y) (k6_pay4 x) (k6_pay5 xw rW rb cs sn cb y x) (k6_pay6 (F := Ideal)) ax (ix2 p q)
      = nodeXVal (x (ix2 p q))
          (nodeYVal (x (ix2 p q)) (y (ix2 p q)) (xw (ix2 p q)) (cs (ix2 p q)) (sn (ix2 p (0 : Fin 1))) (cb (ix2 (0 : Fin 1) q))
            (∑ c : Fin 64, xw (ix2 p c) * rW (ix2 c q)) (rb (ix2 (0 : Fin 1) q)))
          (ax (ix2 p q)) := by
  rw [← k6_yPay_apply]
  unfold k6_pay2 k6_pay4 nodeXVal
  simp only [addf_apply, mulf_apply, broadcast_apply, shapeCast_self]
  rfl

variable (V : (c : Dev nD) → (b : Ref sig .tc) → Buf (Elt Ideal) ((c : Thread nD τ).loc b))

theorem hz6 : (![0, 0] : Fin 2 → Nat) = fun _ => 0 := funext fun a => by fin_cases a <;> rfl

theorem idx_facts6 : ∀ t : Fin cfg6.N,
    (win6_0.index t (0 : Fin 2) = t.val ∧ win6_0.index t (1 : Fin 2) = 0)
    ∧ (win6_1.index t (0 : Fin 2) = t.val ∧ win6_1.index t (1 : Fin 2) = 0)
    ∧ (win6_2.index t (0 : Fin 2) = t.val ∧ win6_2.index t (1 : Fin 2) = 0)
    ∧ (win6_3.index t (0 : Fin 2) = t.val ∧ win6_3.index t (1 : Fin 2) = 0)
    ∧ (win6_4.index t (0 : Fin 2) = t.val ∧ win6_4.index t (1 : Fin 2) = 0)
    ∧ (win6_5.index t (0 : Fin 2) = t.val ∧ win6_5.index t (1 : Fin 2) = 0)
    ∧ (win6_9.index t (0 : Fin 2) = t.val ∧ win6_9.index t (1 : Fin 2) = 0)
    ∧ (win6_10.index t (0 : Fin 2) = t.val ∧ win6_10.index t (1 : Fin 2) = 0)
    ∧ (win6_6.index t (0 : Fin 2) = 0 ∧ win6_6.index t (1 : Fin 2) = 0)
    ∧ (win6_7.index t (0 : Fin 2) = 0 ∧ win6_7.index t (1 : Fin 2) = 0)
    ∧ (win6_8.index t (0 : Fin 2) = 0 ∧ win6_8.index t (1 : Fin 2) = 0) :=
  (by decide +kernel : ∀ t : Fin grid6.N, _)

theorem t_lt6 (t : Fin cfg6.N) : t.val < 25 := by
  have h : t.val < grid6.N := t.isLt
  rwa [N_6] at h

abbrev blk6_0 (c : Dev nD) (t : Fin cfg6.N) : FVec Ideal S2000x64 .f32 := iblk6 V c 0 t
abbrev blk6_1 (c : Dev nD) (t : Fin cfg6.N) : FVec Ideal S2000x64 .f32 := iblk6 V c 1 t
abbrev blk6_2 (c : Dev nD) (t : Fin cfg6.N) : FVec Ideal S2000x64 .f32 := iblk6 V c 2 t
abbrev blk6_3 (c : Dev nD) (t : Fin cfg6.N) : FVec Ideal S2000x64 .f32 := iblk6 V c 3 t
abbrev blk6_4 (c : Dev nD) (t : Fin cfg6.N) : FVec Ideal S2000x64 .f32 := iblk6 V c 4 t
abbrev blk6_5 (c : Dev nD) (t : Fin cfg6.N) : FVec Ideal S2000x1 .f32 := iblk6 V c 5 t
abbrev blk6_6 (c : Dev nD) (t : Fin cfg6.N) : FVec Ideal S1x64 .f32 := iblk6 V c 6 t
abbrev blk6_7 (c : Dev nD) (t : Fin cfg6.N) : FVec Ideal S64x64 .f32 := iblk6 V c 7 t
abbrev blk6_8 (c : Dev nD) (t : Fin cfg6.N) : FVec Ideal S1x64 .f32 := iblk6 V c 8 t

abbrev arr6_0 (c : Dev nD) : FVec Ideal S50000x64 .f32 := V c main_v58_0
abbrev arr6_1 (c : Dev nD) : FVec Ideal S50000x64 .f32 := V c main_v58_1
abbrev arr6_2 (c : Dev nD) : FVec Ideal S50000x64 .f32 := V c main_v74
abbrev arr6_3 (c : Dev nD) : FVec Ideal S50000x64 .f32 := V c main_v80
abbrev arr6_4 (c : Dev nD) : FVec Ideal S50000x64 .f32 := V c main_v82
abbrev arr6_5 (c : Dev nD) : FVec Ideal S50000x1 .f32 := V c main_v28
abbrev arr6_6 (c : Dev nD) : FVec Ideal S1x64 .f32 := V c main_v83
abbrev arr6_7 (c : Dev nD) : FVec Ideal S64x64 .f32 := V c main_arg6
abbrev arr6_8 (c : Dev nD) : FVec Ideal S1x64 .f32 := V c main_v84

abbrev row6 (t : Fin cfg6.N) (p : Fin 2000) : Fin 50000 := ⟨t.val * 2000 + p.val, by have := t_lt6 t; have := p.isLt; omega⟩

theorem blk6_0_apply (c : Dev nD) (t : Fin cfg6.N) (p : Fin 2000) (q : Fin 64) :
    blk6_0 V c t (ix2 p q) = arr6_0 V c (ix2 (row6 t p) q) := by
  show V c main_v58_0 (((cfg6.win 0).blk t).view.emb (ix2 p q)) = V c main_v58_0 (ix2 (row6 t p) q)
  refine congrArg (V c main_v58_0) ?_
  funext a; apply Fin.ext
  match a with
  | ⟨0, _⟩ => show win6_0.index t (0 : Fin 2) * 2000 + 1 * p.val = t.val * 2000 + p.val; rw [(idx_facts6 t).1.1]; omega
  | ⟨1, _⟩ => show win6_0.index t (1 : Fin 2) * 64 + 1 * q.val = q.val; rw [(idx_facts6 t).1.2]; omega
theorem blk6_1_apply (c : Dev nD) (t : Fin cfg6.N) (p : Fin 2000) (q : Fin 64) :
    blk6_1 V c t (ix2 p q) = arr6_1 V c (ix2 (row6 t p) q) := by
  show V c main_v58_1 (((cfg6.win 1).blk t).view.emb (ix2 p q)) = V c main_v58_1 (ix2 (row6 t p) q)
  refine congrArg (V c main_v58_1) ?_
  funext a; apply Fin.ext
  match a with
  | ⟨0, _⟩ => show win6_1.index t (0 : Fin 2) * 2000 + 1 * p.val = t.val * 2000 + p.val; rw [(idx_facts6 t).2.1.1]; omega
  | ⟨1, _⟩ => show win6_1.index t (1 : Fin 2) * 64 + 1 * q.val = q.val; rw [(idx_facts6 t).2.1.2]; omega
theorem blk6_2_apply (c : Dev nD) (t : Fin cfg6.N) (p : Fin 2000) (q : Fin 64) :
    blk6_2 V c t (ix2 p q) = arr6_2 V c (ix2 (row6 t p) q) := by
  show V c main_v74 (((cfg6.win 2).blk t).view.emb (ix2 p q)) = V c main_v74 (ix2 (row6 t p) q)
  refine congrArg (V c main_v74) ?_
  funext a; apply Fin.ext
  match a with
  | ⟨0, _⟩ => show win6_2.index t (0 : Fin 2) * 2000 + 1 * p.val = t.val * 2000 + p.val; rw [(idx_facts6 t).2.2.1.1]; omega
  | ⟨1, _⟩ => show win6_2.index t (1 : Fin 2) * 64 + 1 * q.val = q.val; rw [(idx_facts6 t).2.2.1.2]; omega
theorem blk6_3_apply (c : Dev nD) (t : Fin cfg6.N) (p : Fin 2000) (q : Fin 64) :
    blk6_3 V c t (ix2 p q) = arr6_3 V c (ix2 (row6 t p) q) := by
  show V c main_v80 (((cfg6.win 3).blk t).view.emb (ix2 p q)) = V c main_v80 (ix2 (row6 t p) q)
  refine congrArg (V c main_v80) ?_
  funext a; apply Fin.ext
  match a with
  | ⟨0, _⟩ => show win6_3.index t (0 : Fin 2) * 2000 + 1 * p.val = t.val * 2000 + p.val; rw [(idx_facts6 t).2.2.2.1.1]; omega
  | ⟨1, _⟩ => show win6_3.index t (1 : Fin 2) * 64 + 1 * q.val = q.val; rw [(idx_facts6 t).2.2.2.1.2]; omega
theorem blk6_4_apply (c : Dev nD) (t : Fin cfg6.N) (p : Fin 2000) (q : Fin 64) :
    blk6_4 V c t (ix2 p q) = arr6_4 V c (ix2 (row6 t p) q) := by
  show V c main_v82 (((cfg6.win 4).blk t).view.emb (ix2 p q)) = V c main_v82 (ix2 (row6 t p) q)
  refine congrArg (V c main_v82) ?_
  funext a; apply Fin.ext
  match a with
  | ⟨0, _⟩ => show win6_4.index t (0 : Fin 2) * 2000 + 1 * p.val = t.val * 2000 + p.val; rw [(idx_facts6 t).2.2.2.2.1.1]; omega
  | ⟨1, _⟩ => show win6_4.index t (1 : Fin 2) * 64 + 1 * q.val = q.val; rw [(idx_facts6 t).2.2.2.2.1.2]; omega
theorem blk6_5_apply (c : Dev nD) (t : Fin cfg6.N) (p : Fin 2000) :
    blk6_5 V c t (ix2 p (0 : Fin 1)) = arr6_5 V c (ix2 (row6 t p) (0 : Fin 1)) := by
  show V c main_v28 (((cfg6.win 5).blk t).view.emb (ix2 p (0 : Fin 1))) = V c main_v28 (ix2 (row6 t p) (0 : Fin 1))
  refine congrArg (V c main_v28) ?_
  funext a; apply Fin.ext
  match a with
  | ⟨0, _⟩ => show win6_5.index t (0 : Fin 2) * 2000 + 1 * p.val = t.val * 2000 + p.val; rw [(idx_facts6 t).2.2.2.2.2.1.1]; omega
  | ⟨1, _⟩ => show win6_5.index t (1 : Fin 2) * 1 + 1 * 0 = 0; rw [(idx_facts6 t).2.2.2.2.2.1.2]

theorem blk6_6_apply (c : Dev nD) (t : Fin cfg6.N) (a : Fin 1) (b : Fin 64) :
    blk6_6 V c t (ix2 a b) = arr6_6 V c (ix2 a b) := by
  show V c main_v83 (((cfg6.win 6).blk t).view.emb (ix2 a b)) = V c main_v83 (ix2 a b)
  refine congrArg (V c main_v83) ?_
  funext ax; apply Fin.ext
  match ax with
  | ⟨0, _⟩ => show win6_6.index t (0 : Fin 2) * 1 + 1 * a.val = a.val; rw [(idx_facts6 t).2.2.2.2.2.2.2.2.1.1]; omega
  | ⟨1, _⟩ => show win6_6.index t (1 : Fin 2) * 64 + 1 * b.val = b.val; rw [(idx_facts6 t).2.2.2.2.2.2.2.2.1.2]; omega
theorem blk6_7_apply (c : Dev nD) (t : Fin cfg6.N) (a : Fin 64) (b : Fin 64) :
    blk6_7 V c t (ix2 a b) = arr6_7 V c (ix2 a b) := by
  show V c main_arg6 (((cfg6.win 7).blk t).view.emb (ix2 a b)) = V c main_arg6 (ix2 a b)
  refine congrArg (V c main_arg6) ?_
  funext ax; apply Fin.ext
  match ax with
  | ⟨0, _⟩ => show win6_7.index t (0 : Fin 2) * 64 + 1 * a.val = a.val; rw [(idx_facts6 t).2.2.2.2.2.2.2.2.2.1.1]; omega
  | ⟨1, _⟩ => show win6_7.index t (1 : Fin 2) * 64 + 1 * b.val = b.val; rw [(idx_facts6 t).2.2.2.2.2.2.2.2.2.1.2]; omega
theorem blk6_8_apply (c : Dev nD) (t : Fin cfg6.N) (a : Fin 1) (b : Fin 64) :
    blk6_8 V c t (ix2 a b) = arr6_8 V c (ix2 a b) := by
  show V c main_v84 (((cfg6.win 8).blk t).view.emb (ix2 a b)) = V c main_v84 (ix2 a b)
  refine congrArg (V c main_v84) ?_
  funext ax; apply Fin.ext
  match ax with
  | ⟨0, _⟩ => show win6_8.index t (0 : Fin 2) * 1 + 1 * a.val = a.val; rw [(idx_facts6 t).2.2.2.2.2.2.2.2.2.2.1]; omega
  | ⟨1, _⟩ => show win6_8.index t (1 : Fin 2) * 64 + 1 * b.val = b.val; rw [(idx_facts6 t).2.2.2.2.2.2.2.2.2.2.2]; omega

theorem emb6_9 (t : Fin cfg6.N) (p : Fin 2000) (q : Fin 64) :
    ((cfg6.win 9).blk t).view.emb (ix2 p q) = (ix2 (row6 t p) q : S50000x64.Idx) := by
  funext a; apply Fin.ext
  match a with
  | ⟨0, _⟩ => show win6_9.index t (0 : Fin 2) * 2000 + 1 * p.val = t.val * 2000 + p.val; rw [(idx_facts6 t).2.2.2.2.2.2.1.1]; omega
  | ⟨1, _⟩ => show win6_9.index t (1 : Fin 2) * 64 + 1 * q.val = q.val; rw [(idx_facts6 t).2.2.2.2.2.2.1.2]; omega
theorem emb6_10 (t : Fin cfg6.N) (p : Fin 2000) (q : Fin 64) :
    ((cfg6.win 10).blk t).view.emb (ix2 p q) = (ix2 (row6 t p) q : S50000x64.Idx) := by
  funext a; apply Fin.ext
  match a with
  | ⟨0, _⟩ => show win6_10.index t (0 : Fin 2) * 2000 + 1 * p.val = t.val * 2000 + p.val; rw [(idx_facts6 t).2.2.2.2.2.2.2.1.1]; omega
  | ⟨1, _⟩ => show win6_10.index t (1 : Fin 2) * 64 + 1 * q.val = q.val; rw [(idx_facts6 t).2.2.2.2.2.2.2.1.2]; omega

theorem mem_blk6_9 (t : Fin cfg6.N) (i : S50000x64.Idx) :
    i ∈ ((cfg6.win 9).blk t).view.set ↔ ∀ a : Fin 2, win6_9.index t a * S2000x64.size a ≤ (i a).val ∧ (i a).val < win6_9.index t a * S2000x64.size a + S2000x64.size a := by
  show i ∈ ((View.whole main_v85_0).slice (win6_9.rect t)).set ↔ _
  rw [View.set_slice_whole, Rect.mem_set_unit]
  exact Iff.rfl

theorem covered6_9 (i : S50000x64.Idx) : ∃ t : Fin cfg6.N, (cfg6.win 9).flush t = true ∧ i ∈ ((cfg6.win 9).blk t).view.set := by
  have hi0 : (i 0).val < 50000 := (i 0).isLt
  have hi1 : (i 1).val < 64 := (i 1).isLt
  have hN : grid6.N = 25 := N_6
  let t : Fin cfg6.N := ⟨(i 0).val / 2000, by show (i 0).val / 2000 < grid6.N; rw [hN]; omega⟩
  refine ⟨t, flush6_9 t, ?_⟩
  rw [mem_blk6_9]
  have ht : t.val = (i 0).val / 2000 := rfl
  intro a
  match a with
  | ⟨0, _⟩ => show win6_9.index t (0 : Fin 2) * 2000 ≤ (i 0).val ∧ (i 0).val < win6_9.index t (0 : Fin 2) * 2000 + 2000; rw [(idx_facts6 t).2.2.2.2.2.2.1.1, ht]; omega
  | ⟨1, _⟩ => show win6_9.index t (1 : Fin 2) * 64 ≤ (i 1).val ∧ (i 1).val < win6_9.index t (1 : Fin 2) * 64 + 64; rw [(idx_facts6 t).2.2.2.2.2.2.1.2]; omega

theorem mem_blk6_10 (t : Fin cfg6.N) (i : S50000x64.Idx) :
    i ∈ ((cfg6.win 10).blk t).view.set ↔ ∀ a : Fin 2, win6_10.index t a * S2000x64.size a ≤ (i a).val ∧ (i a).val < win6_10.index t a * S2000x64.size a + S2000x64.size a := by
  show i ∈ ((View.whole main_v85_1).slice (win6_10.rect t)).set ↔ _
  rw [View.set_slice_whole, Rect.mem_set_unit]
  exact Iff.rfl

theorem covered6_10 (i : S50000x64.Idx) : ∃ t : Fin cfg6.N, (cfg6.win 10).flush t = true ∧ i ∈ ((cfg6.win 10).blk t).view.set := by
  have hi0 : (i 0).val < 50000 := (i 0).isLt
  have hi1 : (i 1).val < 64 := (i 1).isLt
  have hN : grid6.N = 25 := N_6
  let t : Fin cfg6.N := ⟨(i 0).val / 2000, by show (i 0).val / 2000 < grid6.N; rw [hN]; omega⟩
  refine ⟨t, flush6_10 t, ?_⟩
  rw [mem_blk6_10]
  have ht : t.val = (i 0).val / 2000 := rfl
  intro a
  match a with
  | ⟨0, _⟩ => show win6_10.index t (0 : Fin 2) * 2000 ≤ (i 0).val ∧ (i 0).val < win6_10.index t (0 : Fin 2) * 2000 + 2000; rw [(idx_facts6 t).2.2.2.2.2.2.2.1.1, ht]; omega
  | ⟨1, _⟩ => show win6_10.index t (1 : Fin 2) * 64 ≤ (i 1).val ∧ (i 1).val < win6_10.index t (1 : Fin 2) * 64 + 64; rw [(idx_facts6 t).2.2.2.2.2.2.2.1.2]; omega

section Final
variable [Cert.ReferenceIdeal.Facts₀]

abbrev nodeOf6 (c : Dev nD) : FVec Ideal S50000x64 .f32 × FVec Ideal S50000x64 .f32 :=
  Cert.Spec.nodeG (arr6_0 V c) (arr6_1 V c) (arr6_2 V c) (arr6_3 V c) (arr6_4 V c) (arr6_5 V c) (arr6_6 V c) (arr6_7 V c) (arr6_8 V c)

theorem yVal_blk6 (c : Dev nD) (t : Fin cfg6.N) (p : Fin 2000) (q : Fin 64) :
    nodeYVal (blk6_0 V c t (ix2 p q)) (blk6_1 V c t (ix2 p q)) (blk6_2 V c t (ix2 p q)) (blk6_3 V c t (ix2 p q))
        (blk6_5 V c t (ix2 p (0 : Fin 1))) (blk6_6 V c t (ix2 (0 : Fin 1) q))
        (∑ k : Fin 64, blk6_2 V c t (ix2 p k) * blk6_7 V c t (ix2 k q)) (blk6_8 V c t (ix2 (0 : Fin 1) q))
      = nodeYVal (arr6_0 V c (ix2 (row6 t p) q)) (arr6_1 V c (ix2 (row6 t p) q)) (arr6_2 V c (ix2 (row6 t p) q)) (arr6_3 V c (ix2 (row6 t p) q))
        (arr6_5 V c (ix2 (row6 t p) (0 : Fin 1))) (arr6_6 V c (ix2 (0 : Fin 1) q))
        (∑ k : Fin 64, arr6_2 V c (ix2 (row6 t p) k) * arr6_7 V c (ix2 k q)) (arr6_8 V c (ix2 (0 : Fin 1) q)) := by
  rw [blk6_0_apply V c t p q, blk6_1_apply V c t p q, blk6_2_apply V c t p q, blk6_3_apply V c t p q, blk6_5_apply V c t p,
    blk6_6_apply V c t 0 q, blk6_8_apply V c t 0 q]
  refine congrArg (fun s => nodeYVal _ _ _ _ _ _ s _) ?_
  exact Finset.sum_congr rfl fun k _ => by rw [blk6_2_apply V c t p k, blk6_7_apply V c t k q]

theorem flushed6_10_eq (c : Dev nD) (t : Fin cfg6.N) :
    (dat6 V c).flushed 10 t = ((cfg6.win 10).blk t).view.read (Elt Ideal) (nodeOf6 V c).2 := by
  show (cfg6.win 10).cut (grid6.coords t) ((dat6 V c).after 10 t) = _
  rw [after6_10]
  unfold out6_10
  rw [View.canon_unit_zero hz6]
  simp only [View.ld_unit_zero (S := S2000x64) hz6, View.ld_unit_zero (S := S2000x1) hz6, View.ld_unit_zero (S := S1x64) hz6, View.ld_unit_zero (S := S64x64) hz6]
  refine funext fun (j : S2000x64.Idx) => ?_
  obtain ⟨p, q, rfl⟩ : ∃ (p : Fin 2000) (q : Fin 64), j = ix2 p q := ⟨j 0, j 1, eq_ix2 j⟩
  show k6_pay1 (k6_pay3 (blk6_1 V c t)) (k6_pay5 (blk6_2 V c t) (blk6_7 V c t) (blk6_8 V c t) (blk6_3 V c t) (blk6_5 V c t) (blk6_6 V c t) (blk6_1 V c t) (blk6_0 V c t)) (k6_pay6 (F := Ideal)) (ix2 p q)
      = (nodeOf6 V c).2 (((cfg6.win 10).blk t).view.emb (ix2 p q))
  rw [emb6_10 t p q]
  refine (k6_yPay_apply (blk6_0 V c t) (blk6_1 V c t) (blk6_2 V c t) (blk6_3 V c t) (blk6_5 V c t) (blk6_6 V c t) (blk6_7 V c t) (blk6_8 V c t) p q).trans ?_
  refine Eq.trans ?_ (nodeG_snd_apply (arr6_0 V c) (arr6_1 V c) (arr6_2 V c) (arr6_3 V c) (arr6_4 V c) (arr6_5 V c) (arr6_6 V c) (arr6_7 V c) (arr6_8 V c) (row6 t p) q).symm
  exact yVal_blk6 V c t p q

theorem flushed6_9_eq (c : Dev nD) (t : Fin cfg6.N) :
    (dat6 V c).flushed 9 t = ((cfg6.win 9).blk t).view.read (Elt Ideal) (nodeOf6 V c).1 := by
  show (cfg6.win 9).cut (grid6.coords t) ((dat6 V c).after 9 t) = _
  rw [after6_9]
  unfold out6_9
  rw [View.canon_unit_zero hz6]
  simp only [View.ld_unit_zero (S := S2000x64) hz6, View.ld_unit_zero (S := S2000x1) hz6, View.ld_unit_zero (S := S1x64) hz6, View.ld_unit_zero (S := S64x64) hz6]
  refine funext fun (j : S2000x64.Idx) => ?_
  obtain ⟨p, q, rfl⟩ : ∃ (p : Fin 2000) (q : Fin 64), j = ix2 p q := ⟨j 0, j 1, eq_ix2 j⟩
  show k6_pay2 (k6_pay3 (blk6_1 V c t)) (k6_pay4 (blk6_0 V c t)) (k6_pay5 (blk6_2 V c t) (blk6_7 V c t) (blk6_8 V c t) (blk6_3 V c t) (blk6_5 V c t) (blk6_6 V c t) (blk6_1 V c t) (blk6_0 V c t)) (k6_pay6 (F := Ideal)) (blk6_4 V c t) (ix2 p q)
      = (nodeOf6 V c).1 (((cfg6.win 9).blk t).view.emb (ix2 p q))
  rw [emb6_9 t p q]
  refine (k6_xPay_apply (blk6_0 V c t) (blk6_1 V c t) (blk6_2 V c t) (blk6_3 V c t) (blk6_4 V c t) (blk6_5 V c t) (blk6_6 V c t) (blk6_7 V c t) (blk6_8 V c t) p q).trans ?_
  refine Eq.trans ?_ (nodeG_fst_apply (arr6_0 V c) (arr6_1 V c) (arr6_2 V c) (arr6_3 V c) (arr6_4 V c) (arr6_5 V c) (arr6_6 V c) (arr6_7 V c) (arr6_8 V c) (row6 t p) q).symm
  rw [yVal_blk6 V c t p q, blk6_0_apply V c t p q, blk6_4_apply V c t p q]

theorem final6_9 (c : Dev nD) : (dat6 V c).arrAt 9 cfg6.N = (nodeOf6 V c).1 :=
  (dat6 V c).arrAt_eq_of_cover 9 (nodeOf6 V c).1 (fun t _ => flushed6_9_eq V c t) covered6_9

theorem final6_10 (c : Dev nD) : (dat6 V c).arrAt 10 cfg6.N = (nodeOf6 V c).2 :=
  (dat6 V c).arrAt_eq_of_cover 10 (nodeOf6 V c).2 (fun t _ => flushed6_10_eq V c t) covered6_10

end Final

end Cert.KernelIdeal.Hand
-- ==== Proof.KI.ValNode3.lean ====
import proofs.«147510_j18107582120779_2_alg».proof.Proof.KI.ValNode
import proofs.«147510_j18107582120779_2_alg».proof.Proof.KI.R3
import proofs.«147510_j18107582120779_2_alg».proof.Proof.KI.ValNodeSpec
import Idealize.ShloMosaic.Lib.Pipeline.Value

noncomputable section

namespace Cert.KernelIdeal.Hand

open Cert.KernelIdeal Cert.KernelIdeal.Gen
open Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

theorem hz3 : (![0, 0] : Fin 2 → Nat) = fun _ => 0 := funext fun a => by fin_cases a <;> rfl

theorem idx_facts3 : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = t.val ∧ win3_2.index t (1 : Fin 2) = 0)
    ∧ (win3_3.index t (0 : Fin 2) = t.val ∧ win3_3.index t (1 : Fin 2) = 0)
    ∧ (win3_4.index t (0 : Fin 2) = t.val ∧ win3_4.index t (1 : Fin 2) = 0)
    ∧ (win3_5.index t (0 : Fin 2) = t.val ∧ win3_5.index t (1 : Fin 2) = 0)
    ∧ (win3_9.index t (0 : Fin 2) = t.val ∧ win3_9.index t (1 : Fin 2) = 0)
    ∧ (win3_10.index t (0 : Fin 2) = t.val ∧ win3_10.index t (1 : Fin 2) = 0)
    ∧ (win3_6.index t (0 : Fin 2) = 0 ∧ win3_6.index t (1 : Fin 2) = 0)
    ∧ (win3_7.index t (0 : Fin 2) = 0 ∧ win3_7.index t (1 : Fin 2) = 0)
    ∧ (win3_8.index t (0 : Fin 2) = 0 ∧ win3_8.index t (1 : Fin 2) = 0) :=
  (by decide +kernel : ∀ t : Fin grid3.N, _)

theorem t_lt3 (t : Fin cfg3.N) : t.val < 25 := by
  have h : t.val < grid3.N := t.isLt
  rwa [N_3] at h

abbrev blk3_0 (c : Dev nD) (t : Fin cfg3.N) : FVec Ideal S2000x64 .f32 := iblk3 V c 0 t
abbrev blk3_1 (c : Dev nD) (t : Fin cfg3.N) : FVec Ideal S2000x64 .f32 := iblk3 V c 1 t
abbrev blk3_2 (c : Dev nD) (t : Fin cfg3.N) : FVec Ideal S2000x64 .f32 := iblk3 V c 2 t
abbrev blk3_3 (c : Dev nD) (t : Fin cfg3.N) : FVec Ideal S2000x64 .f32 := iblk3 V c 3 t
abbrev blk3_4 (c : Dev nD) (t : Fin cfg3.N) : FVec Ideal S2000x64 .f32 := iblk3 V c 4 t
abbrev blk3_5 (c : Dev nD) (t : Fin cfg3.N) : FVec Ideal S2000x1 .f32 := iblk3 V c 5 t
abbrev blk3_6 (c : Dev nD) (t : Fin cfg3.N) : FVec Ideal S1x64 .f32 := iblk3 V c 6 t
abbrev blk3_7 (c : Dev nD) (t : Fin cfg3.N) : FVec Ideal S64x64 .f32 := iblk3 V c 7 t
abbrev blk3_8 (c : Dev nD) (t : Fin cfg3.N) : FVec Ideal S1x64 .f32 := iblk3 V c 8 t

abbrev arr3_0 (c : Dev nD) : FVec Ideal S50000x64 .f32 := V c main_v31
abbrev arr3_1 (c : Dev nD) : FVec Ideal S50000x64 .f32 := V c main_v31
abbrev arr3_2 (c : Dev nD) : FVec Ideal S50000x64 .f32 := V c main_v47
abbrev arr3_3 (c : Dev nD) : FVec Ideal S50000x64 .f32 := V c main_v53
abbrev arr3_4 (c : Dev nD) : FVec Ideal S50000x64 .f32 := V c main_v55
abbrev arr3_5 (c : Dev nD) : FVec Ideal S50000x1 .f32 := V c main_v28
abbrev arr3_6 (c : Dev nD) : FVec Ideal S1x64 .f32 := V c main_v56
abbrev arr3_7 (c : Dev nD) : FVec Ideal S64x64 .f32 := V c main_arg6
abbrev arr3_8 (c : Dev nD) : FVec Ideal S1x64 .f32 := V c main_v57

abbrev row3 (t : Fin cfg3.N) (p : Fin 2000) : Fin 50000 := ⟨t.val * 2000 + p.val, by have := t_lt3 t; have := p.isLt; omega⟩

theorem blk3_0_apply (c : Dev nD) (t : Fin cfg3.N) (p : Fin 2000) (q : Fin 64) :
    blk3_0 V c t (ix2 p q) = arr3_0 V c (ix2 (row3 t p) q) := by
  show V c main_v31 (((cfg3.win 0).blk t).view.emb (ix2 p q)) = V c main_v31 (ix2 (row3 t p) q)
  refine congrArg (V c main_v31) ?_
  funext a; apply Fin.ext
  match a with
  | ⟨0, _⟩ => show win3_0.index t (0 : Fin 2) * 2000 + 1 * p.val = t.val * 2000 + p.val; rw [(idx_facts3 t).1.1]; omega
  | ⟨1, _⟩ => show win3_0.index t (1 : Fin 2) * 64 + 1 * q.val = q.val; rw [(idx_facts3 t).1.2]; omega
theorem blk3_1_apply (c : Dev nD) (t : Fin cfg3.N) (p : Fin 2000) (q : Fin 64) :
    blk3_1 V c t (ix2 p q) = arr3_1 V c (ix2 (row3 t p) q) := by
  show V c main_v31 (((cfg3.win 1).blk t).view.emb (ix2 p q)) = V c main_v31 (ix2 (row3 t p) q)
  refine congrArg (V c main_v31) ?_
  funext a; apply Fin.ext
  match a with
  | ⟨0, _⟩ => show win3_1.index t (0 : Fin 2) * 2000 + 1 * p.val = t.val * 2000 + p.val; rw [(idx_facts3 t).2.1.1]; omega
  | ⟨1, _⟩ => show win3_1.index t (1 : Fin 2) * 64 + 1 * q.val = q.val; rw [(idx_facts3 t).2.1.2]; omega
theorem blk3_2_apply (c : Dev nD) (t : Fin cfg3.N) (p : Fin 2000) (q : Fin 64) :
    blk3_2 V c t (ix2 p q) = arr3_2 V c (ix2 (row3 t p) q) := by
  show V c main_v47 (((cfg3.win 2).blk t).view.emb (ix2 p q)) = V c main_v47 (ix2 (row3 t p) q)
  refine congrArg (V c main_v47) ?_
  funext a; apply Fin.ext
  match a with
  | ⟨0, _⟩ => show win3_2.index t (0 : Fin 2) * 2000 + 1 * p.val = t.val * 2000 + p.val; rw [(idx_facts3 t).2.2.1.1]; omega
  | ⟨1, _⟩ => show win3_2.index t (1 : Fin 2) * 64 + 1 * q.val = q.val; rw [(idx_facts3 t).2.2.1.2]; omega
theorem blk3_3_apply (c : Dev nD) (t : Fin cfg3.N) (p : Fin 2000) (q : Fin 64) :
    blk3_3 V c t (ix2 p q) = arr3_3 V c (ix2 (row3 t p) q) := by
  show V c main_v53 (((cfg3.win 3).blk t).view.emb (ix2 p q)) = V c main_v53 (ix2 (row3 t p) q)
  refine congrArg (V c main_v53) ?_
  funext a; apply Fin.ext
  match a with
  | ⟨0, _⟩ => show win3_3.index t (0 : Fin 2) * 2000 + 1 * p.val = t.val * 2000 + p.val; rw [(idx_facts3 t).2.2.2.1.1]; omega
  | ⟨1, _⟩ => show win3_3.index t (1 : Fin 2) * 64 + 1 * q.val = q.val; rw [(idx_facts3 t).2.2.2.1.2]; omega
theorem blk3_4_apply (c : Dev nD) (t : Fin cfg3.N) (p : Fin 2000) (q : Fin 64) :
    blk3_4 V c t (ix2 p q) = arr3_4 V c (ix2 (row3 t p) q) := by
  show V c main_v55 (((cfg3.win 4).blk t).view.emb (ix2 p q)) = V c main_v55 (ix2 (row3 t p) q)
  refine congrArg (V c main_v55) ?_
  funext a; apply Fin.ext
  match a with
  | ⟨0, _⟩ => show win3_4.index t (0 : Fin 2) * 2000 + 1 * p.val = t.val * 2000 + p.val; rw [(idx_facts3 t).2.2.2.2.1.1]; omega
  | ⟨1, _⟩ => show win3_4.index t (1 : Fin 2) * 64 + 1 * q.val = q.val; rw [(idx_facts3 t).2.2.2.2.1.2]; omega
theorem blk3_5_apply (c : Dev nD) (t : Fin cfg3.N) (p : Fin 2000) :
    blk3_5 V c t (ix2 p (0 : Fin 1)) = arr3_5 V c (ix2 (row3 t p) (0 : Fin 1)) := by
  show V c main_v28 (((cfg3.win 5).blk t).view.emb (ix2 p (0 : Fin 1))) = V c main_v28 (ix2 (row3 t p) (0 : Fin 1))
  refine congrArg (V c main_v28) ?_
  funext a; apply Fin.ext
  match a with
  | ⟨0, _⟩ => show win3_5.index t (0 : Fin 2) * 2000 + 1 * p.val = t.val * 2000 + p.val; rw [(idx_facts3 t).2.2.2.2.2.1.1]; omega
  | ⟨1, _⟩ => show win3_5.index t (1 : Fin 2) * 1 + 1 * 0 = 0; rw [(idx_facts3 t).2.2.2.2.2.1.2]

theorem blk3_6_apply (c : Dev nD) (t : Fin cfg3.N) (a : Fin 1) (b : Fin 64) :
    blk3_6 V c t (ix2 a b) = arr3_6 V c (ix2 a b) := by
  show V c main_v56 (((cfg3.win 6).blk t).view.emb (ix2 a b)) = V c main_v56 (ix2 a b)
  refine congrArg (V c main_v56) ?_
  funext ax; apply Fin.ext
  match ax with
  | ⟨0, _⟩ => show win3_6.index t (0 : Fin 2) * 1 + 1 * a.val = a.val; rw [(idx_facts3 t).2.2.2.2.2.2.2.2.1.1]; omega
  | ⟨1, _⟩ => show win3_6.index t (1 : Fin 2) * 64 + 1 * b.val = b.val; rw [(idx_facts3 t).2.2.2.2.2.2.2.2.1.2]; omega
theorem blk3_7_apply (c : Dev nD) (t : Fin cfg3.N) (a : Fin 64) (b : Fin 64) :
    blk3_7 V c t (ix2 a b) = arr3_7 V c (ix2 a b) := by
  show V c main_arg6 (((cfg3.win 7).blk t).view.emb (ix2 a b)) = V c main_arg6 (ix2 a b)
  refine congrArg (V c main_arg6) ?_
  funext ax; apply Fin.ext
  match ax with
  | ⟨0, _⟩ => show win3_7.index t (0 : Fin 2) * 64 + 1 * a.val = a.val; rw [(idx_facts3 t).2.2.2.2.2.2.2.2.2.1.1]; omega
  | ⟨1, _⟩ => show win3_7.index t (1 : Fin 2) * 64 + 1 * b.val = b.val; rw [(idx_facts3 t).2.2.2.2.2.2.2.2.2.1.2]; omega
theorem blk3_8_apply (c : Dev nD) (t : Fin cfg3.N) (a : Fin 1) (b : Fin 64) :
    blk3_8 V c t (ix2 a b) = arr3_8 V c (ix2 a b) := by
  show V c main_v57 (((cfg3.win 8).blk t).view.emb (ix2 a b)) = V c main_v57 (ix2 a b)
  refine congrArg (V c main_v57) ?_
  funext ax; apply Fin.ext
  match ax with
  | ⟨0, _⟩ => show win3_8.index t (0 : Fin 2) * 1 + 1 * a.val = a.val; rw [(idx_facts3 t).2.2.2.2.2.2.2.2.2.2.1]; omega
  | ⟨1, _⟩ => show win3_8.index t (1 : Fin 2) * 64 + 1 * b.val = b.val; rw [(idx_facts3 t).2.2.2.2.2.2.2.2.2.2.2]; omega

theorem emb3_9 (t : Fin cfg3.N) (p : Fin 2000) (q : Fin 64) :
    ((cfg3.win 9).blk t).view.emb (ix2 p q) = (ix2 (row3 t p) q : S50000x64.Idx) := by
  funext a; apply Fin.ext
  match a with
  | ⟨0, _⟩ => show win3_9.index t (0 : Fin 2) * 2000 + 1 * p.val = t.val * 2000 + p.val; rw [(idx_facts3 t).2.2.2.2.2.2.1.1]; omega
  | ⟨1, _⟩ => show win3_9.index t (1 : Fin 2) * 64 + 1 * q.val = q.val; rw [(idx_facts3 t).2.2.2.2.2.2.1.2]; omega
theorem emb3_10 (t : Fin cfg3.N) (p : Fin 2000) (q : Fin 64) :
    ((cfg3.win 10).blk t).view.emb (ix2 p q) = (ix2 (row3 t p) q : S50000x64.Idx) := by
  funext a; apply Fin.ext
  match a with
  | ⟨0, _⟩ => show win3_10.index t (0 : Fin 2) * 2000 + 1 * p.val = t.val * 2000 + p.val; rw [(idx_facts3 t).2.2.2.2.2.2.2.1.1]; omega
  | ⟨1, _⟩ => show win3_10.index t (1 : Fin 2) * 64 + 1 * q.val = q.val; rw [(idx_facts3 t).2.2.2.2.2.2.2.1.2]; omega

theorem mem_blk3_9 (t : Fin cfg3.N) (i : S50000x64.Idx) :
    i ∈ ((cfg3.win 9).blk t).view.set ↔ ∀ a : Fin 2, win3_9.index t a * S2000x64.size a ≤ (i a).val ∧ (i a).val < win3_9.index t a * S2000x64.size a + S2000x64.size a := by
  show i ∈ ((View.whole main_v58_0).slice (win3_9.rect t)).set ↔ _
  rw [View.set_slice_whole, Rect.mem_set_unit]
  exact Iff.rfl

theorem covered3_9 (i : S50000x64.Idx) : ∃ t : Fin cfg3.N, (cfg3.win 9).flush t = true ∧ i ∈ ((cfg3.win 9).blk t).view.set := by
  have hi0 : (i 0).val < 50000 := (i 0).isLt
  have hi1 : (i 1).val < 64 := (i 1).isLt
  have hN : grid3.N = 25 := N_3
  let t : Fin cfg3.N := ⟨(i 0).val / 2000, by show (i 0).val / 2000 < grid3.N; rw [hN]; omega⟩
  refine ⟨t, flush3_9 t, ?_⟩
  rw [mem_blk3_9]
  have ht : t.val = (i 0).val / 2000 := rfl
  intro a
  match a with
  | ⟨0, _⟩ => show win3_9.index t (0 : Fin 2) * 2000 ≤ (i 0).val ∧ (i 0).val < win3_9.index t (0 : Fin 2) * 2000 + 2000; rw [(idx_facts3 t).2.2.2.2.2.2.1.1, ht]; omega
  | ⟨1, _⟩ => show win3_9.index t (1 : Fin 2) * 64 ≤ (i 1).val ∧ (i 1).val < win3_9.index t (1 : Fin 2) * 64 + 64; rw [(idx_facts3 t).2.2.2.2.2.2.1.2]; omega

theorem mem_blk3_10 (t : Fin cfg3.N) (i : S50000x64.Idx) :
    i ∈ ((cfg3.win 10).blk t).view.set ↔ ∀ a : Fin 2, win3_10.index t a * S2000x64.size a ≤ (i a).val ∧ (i a).val < win3_10.index t a * S2000x64.size a + S2000x64.size a := by
  show i ∈ ((View.whole main_v58_1).slice (win3_10.rect t)).set ↔ _
  rw [View.set_slice_whole, Rect.mem_set_unit]
  exact Iff.rfl

theorem covered3_10 (i : S50000x64.Idx) : ∃ t : Fin cfg3.N, (cfg3.win 10).flush t = true ∧ i ∈ ((cfg3.win 10).blk t).view.set := by
  have hi0 : (i 0).val < 50000 := (i 0).isLt
  have hi1 : (i 1).val < 64 := (i 1).isLt
  have hN : grid3.N = 25 := N_3
  let t : Fin cfg3.N := ⟨(i 0).val / 2000, by show (i 0).val / 2000 < grid3.N; rw [hN]; omega⟩
  refine ⟨t, flush3_10 t, ?_⟩
  rw [mem_blk3_10]
  have ht : t.val = (i 0).val / 2000 := rfl
  intro a
  match a with
  | ⟨0, _⟩ => show win3_10.index t (0 : Fin 2) * 2000 ≤ (i 0).val ∧ (i 0).val < win3_10.index t (0 : Fin 2) * 2000 + 2000; rw [(idx_facts3 t).2.2.2.2.2.2.2.1.1, ht]; omega
  | ⟨1, _⟩ => show win3_10.index t (1 : Fin 2) * 64 ≤ (i 1).val ∧ (i 1).val < win3_10.index t (1 : Fin 2) * 64 + 64; rw [(idx_facts3 t).2.2.2.2.2.2.2.1.2]; omega

section Final
variable [Cert.ReferenceIdeal.Facts₀]

abbrev nodeOf3 (c : Dev nD) : FVec Ideal S50000x64 .f32 × FVec Ideal S50000x64 .f32 :=
  Cert.Spec.nodeG (arr3_0 V c) (arr3_1 V c) (arr3_2 V c) (arr3_3 V c) (arr3_4 V c) (arr3_5 V c) (arr3_6 V c) (arr3_7 V c) (arr3_8 V c)

theorem yVal_blk3 (c : Dev nD) (t : Fin cfg3.N) (p : Fin 2000) (q : Fin 64) :
    nodeYVal (blk3_0 V c t (ix2 p q)) (blk3_1 V c t (ix2 p q)) (blk3_2 V c t (ix2 p q)) (blk3_3 V c t (ix2 p q))
        (blk3_5 V c t (ix2 p (0 : Fin 1))) (blk3_6 V c t (ix2 (0 : Fin 1) q))
        (∑ k : Fin 64, blk3_2 V c t (ix2 p k) * blk3_7 V c t (ix2 k q)) (blk3_8 V c t (ix2 (0 : Fin 1) q))
      = nodeYVal (arr3_0 V c (ix2 (row3 t p) q)) (arr3_1 V c (ix2 (row3 t p) q)) (arr3_2 V c (ix2 (row3 t p) q)) (arr3_3 V c (ix2 (row3 t p) q))
        (arr3_5 V c (ix2 (row3 t p) (0 : Fin 1))) (arr3_6 V c (ix2 (0 : Fin 1) q))
        (∑ k : Fin 64, arr3_2 V c (ix2 (row3 t p) k) * arr3_7 V c (ix2 k q)) (arr3_8 V c (ix2 (0 : Fin 1) q)) := by
  rw [blk3_0_apply V c t p q, blk3_1_apply V c t p q, blk3_2_apply V c t p q, blk3_3_apply V c t p q, blk3_5_apply V c t p,
    blk3_6_apply V c t 0 q, blk3_8_apply V c t 0 q]
  refine congrArg (fun s => nodeYVal _ _ _ _ _ _ s _) ?_
  exact Finset.sum_congr rfl fun k _ => by rw [blk3_2_apply V c t p k, blk3_7_apply V c t k q]

theorem flushed3_10_eq (c : Dev nD) (t : Fin cfg3.N) :
    (dat3 V c).flushed 10 t = ((cfg3.win 10).blk t).view.read (Elt Ideal) (nodeOf3 V c).2 := by
  show (cfg3.win 10).cut (grid3.coords t) ((dat3 V c).after 10 t) = _
  rw [after3_10]
  unfold out6_10
  rw [View.canon_unit_zero hz3]
  simp only [View.ld_unit_zero (S := S2000x64) hz3, View.ld_unit_zero (S := S2000x1) hz3, View.ld_unit_zero (S := S1x64) hz3, View.ld_unit_zero (S := S64x64) hz3]
  refine funext fun (j : S2000x64.Idx) => ?_
  obtain ⟨p, q, rfl⟩ : ∃ (p : Fin 2000) (q : Fin 64), j = ix2 p q := ⟨j 0, j 1, eq_ix2 j⟩
  show k6_pay1 (k6_pay3 (blk3_1 V c t)) (k6_pay5 (blk3_2 V c t) (blk3_7 V c t) (blk3_8 V c t) (blk3_3 V c t) (blk3_5 V c t) (blk3_6 V c t) (blk3_1 V c t) (blk3_0 V c t)) (k6_pay6 (F := Ideal)) (ix2 p q)
      = (nodeOf3 V c).2 (((cfg3.win 10).blk t).view.emb (ix2 p q))
  rw [emb3_10 t p q]
  refine (k6_yPay_apply (blk3_0 V c t) (blk3_1 V c t) (blk3_2 V c t) (blk3_3 V c t) (blk3_5 V c t) (blk3_6 V c t) (blk3_7 V c t) (blk3_8 V c t) p q).trans ?_
  refine Eq.trans ?_ (nodeG_snd_apply (arr3_0 V c) (arr3_1 V c) (arr3_2 V c) (arr3_3 V c) (arr3_4 V c) (arr3_5 V c) (arr3_6 V c) (arr3_7 V c) (arr3_8 V c) (row3 t p) q).symm
  exact yVal_blk3 V c t p q

theorem flushed3_9_eq (c : Dev nD) (t : Fin cfg3.N) :
    (dat3 V c).flushed 9 t = ((cfg3.win 9).blk t).view.read (Elt Ideal) (nodeOf3 V c).1 := by
  show (cfg3.win 9).cut (grid3.coords t) ((dat3 V c).after 9 t) = _
  rw [after3_9]
  unfold out6_9
  rw [View.canon_unit_zero hz3]
  simp only [View.ld_unit_zero (S := S2000x64) hz3, View.ld_unit_zero (S := S2000x1) hz3, View.ld_unit_zero (S := S1x64) hz3, View.ld_unit_zero (S := S64x64) hz3]
  refine funext fun (j : S2000x64.Idx) => ?_
  obtain ⟨p, q, rfl⟩ : ∃ (p : Fin 2000) (q : Fin 64), j = ix2 p q := ⟨j 0, j 1, eq_ix2 j⟩
  show k6_pay2 (k6_pay3 (blk3_1 V c t)) (k6_pay4 (blk3_0 V c t)) (k6_pay5 (blk3_2 V c t) (blk3_7 V c t) (blk3_8 V c t) (blk3_3 V c t) (blk3_5 V c t) (blk3_6 V c t) (blk3_1 V c t) (blk3_0 V c t)) (k6_pay6 (F := Ideal)) (blk3_4 V c t) (ix2 p q)
      = (nodeOf3 V c).1 (((cfg3.win 9).blk t).view.emb (ix2 p q))
  rw [emb3_9 t p q]
  refine (k6_xPay_apply (blk3_0 V c t) (blk3_1 V c t) (blk3_2 V c t) (blk3_3 V c t) (blk3_4 V c t) (blk3_5 V c t) (blk3_6 V c t) (blk3_7 V c t) (blk3_8 V c t) p q).trans ?_
  refine Eq.trans ?_ (nodeG_fst_apply (arr3_0 V c) (arr3_1 V c) (arr3_2 V c) (arr3_3 V c) (arr3_4 V c) (arr3_5 V c) (arr3_6 V c) (arr3_7 V c) (arr3_8 V c) (row3 t p) q).symm
  rw [yVal_blk3 V c t p q, blk3_0_apply V c t p q, blk3_4_apply V c t p q]

theorem final3_9 (c : Dev nD) : (dat3 V c).arrAt 9 cfg3.N = (nodeOf3 V c).1 :=
  (dat3 V c).arrAt_eq_of_cover 9 (nodeOf3 V c).1 (fun t _ => flushed3_9_eq V c t) covered3_9

theorem final3_10 (c : Dev nD) : (dat3 V c).arrAt 10 cfg3.N = (nodeOf3 V c).2 :=
  (dat3 V c).arrAt_eq_of_cover 10 (nodeOf3 V c).2 (fun t _ => flushed3_10_eq V c t) covered3_10

end Final

end Cert.KernelIdeal.Hand
-- ==== Proof.KI.ValNode9.lean ====
import proofs.«147510_j18107582120779_2_alg».proof.Proof.KI.ValNode
import proofs.«147510_j18107582120779_2_alg».proof.Proof.KI.R9
import proofs.«147510_j18107582120779_2_alg».proof.Proof.KI.ValNodeSpec
import Idealize.ShloMosaic.Lib.Pipeline.Value

noncomputable section

namespace Cert.KernelIdeal.Hand

open Cert.KernelIdeal Cert.KernelIdeal.Gen
open Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

theorem hz9 : (![0, 0] : Fin 2 → Nat) = fun _ => 0 := funext fun a => by fin_cases a <;> rfl

theorem idx_facts9 : ∀ t : Fin cfg9.N,
    (win9_0.index t (0 : Fin 2) = t.val ∧ win9_0.index t (1 : Fin 2) = 0)
    ∧ (win9_1.index t (0 : Fin 2) = t.val ∧ win9_1.index t (1 : Fin 2) = 0)
    ∧ (win9_2.index t (0 : Fin 2) = t.val ∧ win9_2.index t (1 : Fin 2) = 0)
    ∧ (win9_3.index t (0 : Fin 2) = t.val ∧ win9_3.index t (1 : Fin 2) = 0)
    ∧ (win9_4.index t (0 : Fin 2) = t.val ∧ win9_4.index t (1 : Fin 2) = 0)
    ∧ (win9_5.index t (0 : Fin 2) = t.val ∧ win9_5.index t (1 : Fin 2) = 0)
    ∧ (win9_9.index t (0 : Fin 2) = t.val ∧ win9_9.index t (1 : Fin 2) = 0)
    ∧ (win9_10.index t (0 : Fin 2) = t.val ∧ win9_10.index t (1 : Fin 2) = 0)
    ∧ (win9_6.index t (0 : Fin 2) = 0 ∧ win9_6.index t (1 : Fin 2) = 0)
    ∧ (win9_7.index t (0 : Fin 2) = 0 ∧ win9_7.index t (1 : Fin 2) = 0)
    ∧ (win9_8.index t (0 : Fin 2) = 0 ∧ win9_8.index t (1 : Fin 2) = 0) :=
  (by decide +kernel : ∀ t : Fin grid9.N, _)

theorem t_lt9 (t : Fin cfg9.N) : t.val < 25 := by
  have h : t.val < grid9.N := t.isLt
  rwa [N_9] at h

abbrev blk9_0 (c : Dev nD) (t : Fin cfg9.N) : FVec Ideal S2000x64 .f32 := iblk9 V c 0 t
abbrev blk9_1 (c : Dev nD) (t : Fin cfg9.N) : FVec Ideal S2000x64 .f32 := iblk9 V c 1 t
abbrev blk9_2 (c : Dev nD) (t : Fin cfg9.N) : FVec Ideal S2000x64 .f32 := iblk9 V c 2 t
abbrev blk9_3 (c : Dev nD) (t : Fin cfg9.N) : FVec Ideal S2000x64 .f32 := iblk9 V c 3 t
abbrev blk9_4 (c : Dev nD) (t : Fin cfg9.N) : FVec Ideal S2000x64 .f32 := iblk9 V c 4 t
abbrev blk9_5 (c : Dev nD) (t : Fin cfg9.N) : FVec Ideal S2000x1 .f32 := iblk9 V c 5 t
abbrev blk9_6 (c : Dev nD) (t : Fin cfg9.N) : FVec Ideal S1x64 .f32 := iblk9 V c 6 t
abbrev blk9_7 (c : Dev nD) (t : Fin cfg9.N) : FVec Ideal S64x64 .f32 := iblk9 V c 7 t
abbrev blk9_8 (c : Dev nD) (t : Fin cfg9.N) : FVec Ideal S1x64 .f32 := iblk9 V c 8 t

abbrev arr9_0 (c : Dev nD) : FVec Ideal S50000x64 .f32 := V c main_v85_0
abbrev arr9_1 (c : Dev nD) : FVec Ideal S50000x64 .f32 := V c main_v85_1
abbrev arr9_2 (c : Dev nD) : FVec Ideal S50000x64 .f32 := V c main_v101
abbrev arr9_3 (c : Dev nD) : FVec Ideal S50000x64 .f32 := V c main_v107
abbrev arr9_4 (c : Dev nD) : FVec Ideal S50000x64 .f32 := V c main_v109
abbrev arr9_5 (c : Dev nD) : FVec Ideal S50000x1 .f32 := V c main_v28
abbrev arr9_6 (c : Dev nD) : FVec Ideal S1x64 .f32 := V c main_v110
abbrev arr9_7 (c : Dev nD) : FVec Ideal S64x64 .f32 := V c main_arg6
abbrev arr9_8 (c : Dev nD) : FVec Ideal S1x64 .f32 := V c main_v111

abbrev row9 (t : Fin cfg9.N) (p : Fin 2000) : Fin 50000 := ⟨t.val * 2000 + p.val, by have := t_lt9 t; have := p.isLt; omega⟩

theorem blk9_0_apply (c : Dev nD) (t : Fin cfg9.N) (p : Fin 2000) (q : Fin 64) :
    blk9_0 V c t (ix2 p q) = arr9_0 V c (ix2 (row9 t p) q) := by
  show V c main_v85_0 (((cfg9.win 0).blk t).view.emb (ix2 p q)) = V c main_v85_0 (ix2 (row9 t p) q)
  refine congrArg (V c main_v85_0) ?_
  funext a; apply Fin.ext
  match a with
  | ⟨0, _⟩ => show win9_0.index t (0 : Fin 2) * 2000 + 1 * p.val = t.val * 2000 + p.val; rw [(idx_facts9 t).1.1]; omega
  | ⟨1, _⟩ => show win9_0.index t (1 : Fin 2) * 64 + 1 * q.val = q.val; rw [(idx_facts9 t).1.2]; omega
theorem blk9_1_apply (c : Dev nD) (t : Fin cfg9.N) (p : Fin 2000) (q : Fin 64) :
    blk9_1 V c t (ix2 p q) = arr9_1 V c (ix2 (row9 t p) q) := by
  show V c main_v85_1 (((cfg9.win 1).blk t).view.emb (ix2 p q)) = V c main_v85_1 (ix2 (row9 t p) q)
  refine congrArg (V c main_v85_1) ?_
  funext a; apply Fin.ext
  match a with
  | ⟨0, _⟩ => show win9_1.index t (0 : Fin 2) * 2000 + 1 * p.val = t.val * 2000 + p.val; rw [(idx_facts9 t).2.1.1]; omega
  | ⟨1, _⟩ => show win9_1.index t (1 : Fin 2) * 64 + 1 * q.val = q.val; rw [(idx_facts9 t).2.1.2]; omega
theorem blk9_2_apply (c : Dev nD) (t : Fin cfg9.N) (p : Fin 2000) (q : Fin 64) :
    blk9_2 V c t (ix2 p q) = arr9_2 V c (ix2 (row9 t p) q) := by
  show V c main_v101 (((cfg9.win 2).blk t).view.emb (ix2 p q)) = V c main_v101 (ix2 (row9 t p) q)
  refine congrArg (V c main_v101) ?_
  funext a; apply Fin.ext
  match a with
  | ⟨0, _⟩ => show win9_2.index t (0 : Fin 2) * 2000 + 1 * p.val = t.val * 2000 + p.val; rw [(idx_facts9 t).2.2.1.1]; omega
  | ⟨1, _⟩ => show win9_2.index t (1 : Fin 2) * 64 + 1 * q.val = q.val; rw [(idx_facts9 t).2.2.1.2]; omega
theorem blk9_3_apply (c : Dev nD) (t : Fin cfg9.N) (p : Fin 2000) (q : Fin 64) :
    blk9_3 V c t (ix2 p q) = arr9_3 V c (ix2 (row9 t p) q) := by
  show V c main_v107 (((cfg9.win 3).blk t).view.emb (ix2 p q)) = V c main_v107 (ix2 (row9 t p) q)
  refine congrArg (V c main_v107) ?_
  funext a; apply Fin.ext
  match a with
  | ⟨0, _⟩ => show win9_3.index t (0 : Fin 2) * 2000 + 1 * p.val = t.val * 2000 + p.val; rw [(idx_facts9 t).2.2.2.1.1]; omega
  | ⟨1, _⟩ => show win9_3.index t (1 : Fin 2) * 64 + 1 * q.val = q.val; rw [(idx_facts9 t).2.2.2.1.2]; omega
theorem blk9_4_apply (c : Dev nD) (t : Fin cfg9.N) (p : Fin 2000) (q : Fin 64) :
    blk9_4 V c t (ix2 p q) = arr9_4 V c (ix2 (row9 t p) q) := by
  show V c main_v109 (((cfg9.win 4).blk t).view.emb (ix2 p q)) = V c main_v109 (ix2 (row9 t p) q)
  refine congrArg (V c main_v109) ?_
  funext a; apply Fin.ext
  match a with
  | ⟨0, _⟩ => show win9_4.index t (0 : Fin 2) * 2000 + 1 * p.val = t.val * 2000 + p.val; rw [(idx_facts9 t).2.2.2.2.1.1]; omega
  | ⟨1, _⟩ => show win9_4.index t (1 : Fin 2) * 64 + 1 * q.val = q.val; rw [(idx_facts9 t).2.2.2.2.1.2]; omega
theorem blk9_5_apply (c : Dev nD) (t : Fin cfg9.N) (p : Fin 2000) :
    blk9_5 V c t (ix2 p (0 : Fin 1)) = arr9_5 V c (ix2 (row9 t p) (0 : Fin 1)) := by
  show V c main_v28 (((cfg9.win 5).blk t).view.emb (ix2 p (0 : Fin 1))) = V c main_v28 (ix2 (row9 t p) (0 : Fin 1))
  refine congrArg (V c main_v28) ?_
  funext a; apply Fin.ext
  match a with
  | ⟨0, _⟩ => show win9_5.index t (0 : Fin 2) * 2000 + 1 * p.val = t.val * 2000 + p.val; rw [(idx_facts9 t).2.2.2.2.2.1.1]; omega
  | ⟨1, _⟩ => show win9_5.index t (1 : Fin 2) * 1 + 1 * 0 = 0; rw [(idx_facts9 t).2.2.2.2.2.1.2]

theorem blk9_6_apply (c : Dev nD) (t : Fin cfg9.N) (a : Fin 1) (b : Fin 64) :
    blk9_6 V c t (ix2 a b) = arr9_6 V c (ix2 a b) := by
  show V c main_v110 (((cfg9.win 6).blk t).view.emb (ix2 a b)) = V c main_v110 (ix2 a b)
  refine congrArg (V c main_v110) ?_
  funext ax; apply Fin.ext
  match ax with
  | ⟨0, _⟩ => show win9_6.index t (0 : Fin 2) * 1 + 1 * a.val = a.val; rw [(idx_facts9 t).2.2.2.2.2.2.2.2.1.1]; omega
  | ⟨1, _⟩ => show win9_6.index t (1 : Fin 2) * 64 + 1 * b.val = b.val; rw [(idx_facts9 t).2.2.2.2.2.2.2.2.1.2]; omega
theorem blk9_7_apply (c : Dev nD) (t : Fin cfg9.N) (a : Fin 64) (b : Fin 64) :
    blk9_7 V c t (ix2 a b) = arr9_7 V c (ix2 a b) := by
  show V c main_arg6 (((cfg9.win 7).blk t).view.emb (ix2 a b)) = V c main_arg6 (ix2 a b)
  refine congrArg (V c main_arg6) ?_
  funext ax; apply Fin.ext
  match ax with
  | ⟨0, _⟩ => show win9_7.index t (0 : Fin 2) * 64 + 1 * a.val = a.val; rw [(idx_facts9 t).2.2.2.2.2.2.2.2.2.1.1]; omega
  | ⟨1, _⟩ => show win9_7.index t (1 : Fin 2) * 64 + 1 * b.val = b.val; rw [(idx_facts9 t).2.2.2.2.2.2.2.2.2.1.2]; omega
theorem blk9_8_apply (c : Dev nD) (t : Fin cfg9.N) (a : Fin 1) (b : Fin 64) :
    blk9_8 V c t (ix2 a b) = arr9_8 V c (ix2 a b) := by
  show V c main_v111 (((cfg9.win 8).blk t).view.emb (ix2 a b)) = V c main_v111 (ix2 a b)
  refine congrArg (V c main_v111) ?_
  funext ax; apply Fin.ext
  match ax with
  | ⟨0, _⟩ => show win9_8.index t (0 : Fin 2) * 1 + 1 * a.val = a.val; rw [(idx_facts9 t).2.2.2.2.2.2.2.2.2.2.1]; omega
  | ⟨1, _⟩ => show win9_8.index t (1 : Fin 2) * 64 + 1 * b.val = b.val; rw [(idx_facts9 t).2.2.2.2.2.2.2.2.2.2.2]; omega

theorem emb9_9 (t : Fin cfg9.N) (p : Fin 2000) (q : Fin 64) :
    ((cfg9.win 9).blk t).view.emb (ix2 p q) = (ix2 (row9 t p) q : S50000x64.Idx) := by
  funext a; apply Fin.ext
  match a with
  | ⟨0, _⟩ => show win9_9.index t (0 : Fin 2) * 2000 + 1 * p.val = t.val * 2000 + p.val; rw [(idx_facts9 t).2.2.2.2.2.2.1.1]; omega
  | ⟨1, _⟩ => show win9_9.index t (1 : Fin 2) * 64 + 1 * q.val = q.val; rw [(idx_facts9 t).2.2.2.2.2.2.1.2]; omega
theorem emb9_10 (t : Fin cfg9.N) (p : Fin 2000) (q : Fin 64) :
    ((cfg9.win 10).blk t).view.emb (ix2 p q) = (ix2 (row9 t p) q : S50000x64.Idx) := by
  funext a; apply Fin.ext
  match a with
  | ⟨0, _⟩ => show win9_10.index t (0 : Fin 2) * 2000 + 1 * p.val = t.val * 2000 + p.val; rw [(idx_facts9 t).2.2.2.2.2.2.2.1.1]; omega
  | ⟨1, _⟩ => show win9_10.index t (1 : Fin 2) * 64 + 1 * q.val = q.val; rw [(idx_facts9 t).2.2.2.2.2.2.2.1.2]; omega

theorem mem_blk9_9 (t : Fin cfg9.N) (i : S50000x64.Idx) :
    i ∈ ((cfg9.win 9).blk t).view.set ↔ ∀ a : Fin 2, win9_9.index t a * S2000x64.size a ≤ (i a).val ∧ (i a).val < win9_9.index t a * S2000x64.size a + S2000x64.size a := by
  show i ∈ ((View.whole main_v112_0).slice (win9_9.rect t)).set ↔ _
  rw [View.set_slice_whole, Rect.mem_set_unit]
  exact Iff.rfl

theorem covered9_9 (i : S50000x64.Idx) : ∃ t : Fin cfg9.N, (cfg9.win 9).flush t = true ∧ i ∈ ((cfg9.win 9).blk t).view.set := by
  have hi0 : (i 0).val < 50000 := (i 0).isLt
  have hi1 : (i 1).val < 64 := (i 1).isLt
  have hN : grid9.N = 25 := N_9
  let t : Fin cfg9.N := ⟨(i 0).val / 2000, by show (i 0).val / 2000 < grid9.N; rw [hN]; omega⟩
  refine ⟨t, flush9_9 t, ?_⟩
  rw [mem_blk9_9]
  have ht : t.val = (i 0).val / 2000 := rfl
  intro a
  match a with
  | ⟨0, _⟩ => show win9_9.index t (0 : Fin 2) * 2000 ≤ (i 0).val ∧ (i 0).val < win9_9.index t (0 : Fin 2) * 2000 + 2000; rw [(idx_facts9 t).2.2.2.2.2.2.1.1, ht]; omega
  | ⟨1, _⟩ => show win9_9.index t (1 : Fin 2) * 64 ≤ (i 1).val ∧ (i 1).val < win9_9.index t (1 : Fin 2) * 64 + 64; rw [(idx_facts9 t).2.2.2.2.2.2.1.2]; omega

theorem mem_blk9_10 (t : Fin cfg9.N) (i : S50000x64.Idx) :
    i ∈ ((cfg9.win 10).blk t).view.set ↔ ∀ a : Fin 2, win9_10.index t a * S2000x64.size a ≤ (i a).val ∧ (i a).val < win9_10.index t a * S2000x64.size a + S2000x64.size a := by
  show i ∈ ((View.whole main_v112_1).slice (win9_10.rect t)).set ↔ _
  rw [View.set_slice_whole, Rect.mem_set_unit]
  exact Iff.rfl

theorem covered9_10 (i : S50000x64.Idx) : ∃ t : Fin cfg9.N, (cfg9.win 10).flush t = true ∧ i ∈ ((cfg9.win 10).blk t).view.set := by
  have hi0 : (i 0).val < 50000 := (i 0).isLt
  have hi1 : (i 1).val < 64 := (i 1).isLt
  have hN : grid9.N = 25 := N_9
  let t : Fin cfg9.N := ⟨(i 0).val / 2000, by show (i 0).val / 2000 < grid9.N; rw [hN]; omega⟩
  refine ⟨t, flush9_10 t, ?_⟩
  rw [mem_blk9_10]
  have ht : t.val = (i 0).val / 2000 := rfl
  intro a
  match a with
  | ⟨0, _⟩ => show win9_10.index t (0 : Fin 2) * 2000 ≤ (i 0).val ∧ (i 0).val < win9_10.index t (0 : Fin 2) * 2000 + 2000; rw [(idx_facts9 t).2.2.2.2.2.2.2.1.1, ht]; omega
  | ⟨1, _⟩ => show win9_10.index t (1 : Fin 2) * 64 ≤ (i 1).val ∧ (i 1).val < win9_10.index t (1 : Fin 2) * 64 + 64; rw [(idx_facts9 t).2.2.2.2.2.2.2.1.2]; omega

section Final
variable [Cert.ReferenceIdeal.Facts₀]

abbrev nodeOf9 (c : Dev nD) : FVec Ideal S50000x64 .f32 × FVec Ideal S50000x64 .f32 :=
  Cert.Spec.nodeG (arr9_0 V c) (arr9_1 V c) (arr9_2 V c) (arr9_3 V c) (arr9_4 V c) (arr9_5 V c) (arr9_6 V c) (arr9_7 V c) (arr9_8 V c)

theorem yVal_blk9 (c : Dev nD) (t : Fin cfg9.N) (p : Fin 2000) (q : Fin 64) :
    nodeYVal (blk9_0 V c t (ix2 p q)) (blk9_1 V c t (ix2 p q)) (blk9_2 V c t (ix2 p q)) (blk9_3 V c t (ix2 p q))
        (blk9_5 V c t (ix2 p (0 : Fin 1))) (blk9_6 V c t (ix2 (0 : Fin 1) q))
        (∑ k : Fin 64, blk9_2 V c t (ix2 p k) * blk9_7 V c t (ix2 k q)) (blk9_8 V c t (ix2 (0 : Fin 1) q))
      = nodeYVal (arr9_0 V c (ix2 (row9 t p) q)) (arr9_1 V c (ix2 (row9 t p) q)) (arr9_2 V c (ix2 (row9 t p) q)) (arr9_3 V c (ix2 (row9 t p) q))
        (arr9_5 V c (ix2 (row9 t p) (0 : Fin 1))) (arr9_6 V c (ix2 (0 : Fin 1) q))
        (∑ k : Fin 64, arr9_2 V c (ix2 (row9 t p) k) * arr9_7 V c (ix2 k q)) (arr9_8 V c (ix2 (0 : Fin 1) q)) := by
  rw [blk9_0_apply V c t p q, blk9_1_apply V c t p q, blk9_2_apply V c t p q, blk9_3_apply V c t p q, blk9_5_apply V c t p,
    blk9_6_apply V c t 0 q, blk9_8_apply V c t 0 q]
  refine congrArg (fun s => nodeYVal _ _ _ _ _ _ s _) ?_
  exact Finset.sum_congr rfl fun k _ => by rw [blk9_2_apply V c t p k, blk9_7_apply V c t k q]

theorem flushed9_10_eq (c : Dev nD) (t : Fin cfg9.N) :
    (dat9 V c).flushed 10 t = ((cfg9.win 10).blk t).view.read (Elt Ideal) (nodeOf9 V c).2 := by
  show (cfg9.win 10).cut (grid9.coords t) ((dat9 V c).after 10 t) = _
  rw [after9_10]
  unfold out6_10
  rw [View.canon_unit_zero hz9]
  simp only [View.ld_unit_zero (S := S2000x64) hz9, View.ld_unit_zero (S := S2000x1) hz9, View.ld_unit_zero (S := S1x64) hz9, View.ld_unit_zero (S := S64x64) hz9]
  refine funext fun (j : S2000x64.Idx) => ?_
  obtain ⟨p, q, rfl⟩ : ∃ (p : Fin 2000) (q : Fin 64), j = ix2 p q := ⟨j 0, j 1, eq_ix2 j⟩
  show k6_pay1 (k6_pay3 (blk9_1 V c t)) (k6_pay5 (blk9_2 V c t) (blk9_7 V c t) (blk9_8 V c t) (blk9_3 V c t) (blk9_5 V c t) (blk9_6 V c t) (blk9_1 V c t) (blk9_0 V c t)) (k6_pay6 (F := Ideal)) (ix2 p q)
      = (nodeOf9 V c).2 (((cfg9.win 10).blk t).view.emb (ix2 p q))
  rw [emb9_10 t p q]
  refine (k6_yPay_apply (blk9_0 V c t) (blk9_1 V c t) (blk9_2 V c t) (blk9_3 V c t) (blk9_5 V c t) (blk9_6 V c t) (blk9_7 V c t) (blk9_8 V c t) p q).trans ?_
  refine Eq.trans ?_ (nodeG_snd_apply (arr9_0 V c) (arr9_1 V c) (arr9_2 V c) (arr9_3 V c) (arr9_4 V c) (arr9_5 V c) (arr9_6 V c) (arr9_7 V c) (arr9_8 V c) (row9 t p) q).symm
  exact yVal_blk9 V c t p q

theorem flushed9_9_eq (c : Dev nD) (t : Fin cfg9.N) :
    (dat9 V c).flushed 9 t = ((cfg9.win 9).blk t).view.read (Elt Ideal) (nodeOf9 V c).1 := by
  show (cfg9.win 9).cut (grid9.coords t) ((dat9 V c).after 9 t) = _
  rw [after9_9]
  unfold out6_9
  rw [View.canon_unit_zero hz9]
  simp only [View.ld_unit_zero (S := S2000x64) hz9, View.ld_unit_zero (S := S2000x1) hz9, View.ld_unit_zero (S := S1x64) hz9, View.ld_unit_zero (S := S64x64) hz9]
  refine funext fun (j : S2000x64.Idx) => ?_
  obtain ⟨p, q, rfl⟩ : ∃ (p : Fin 2000) (q : Fin 64), j = ix2 p q := ⟨j 0, j 1, eq_ix2 j⟩
  show k6_pay2 (k6_pay3 (blk9_1 V c t)) (k6_pay4 (blk9_0 V c t)) (k6_pay5 (blk9_2 V c t) (blk9_7 V c t) (blk9_8 V c t) (blk9_3 V c t) (blk9_5 V c t) (blk9_6 V c t) (blk9_1 V c t) (blk9_0 V c t)) (k6_pay6 (F := Ideal)) (blk9_4 V c t) (ix2 p q)
      = (nodeOf9 V c).1 (((cfg9.win 9).blk t).view.emb (ix2 p q))
  rw [emb9_9 t p q]
  refine (k6_xPay_apply (blk9_0 V c t) (blk9_1 V c t) (blk9_2 V c t) (blk9_3 V c t) (blk9_4 V c t) (blk9_5 V c t) (blk9_6 V c t) (blk9_7 V c t) (blk9_8 V c t) p q).trans ?_
  refine Eq.trans ?_ (nodeG_fst_apply (arr9_0 V c) (arr9_1 V c) (arr9_2 V c) (arr9_3 V c) (arr9_4 V c) (arr9_5 V c) (arr9_6 V c) (arr9_7 V c) (arr9_8 V c) (row9 t p) q).symm
  rw [yVal_blk9 V c t p q, blk9_0_apply V c t p q, blk9_4_apply V c t p q]

theorem final9_9 (c : Dev nD) : (dat9 V c).arrAt 9 cfg9.N = (nodeOf9 V c).1 :=
  (dat9 V c).arrAt_eq_of_cover 9 (nodeOf9 V c).1 (fun t _ => flushed9_9_eq V c t) covered9_9

theorem final9_10 (c : Dev nD) : (dat9 V c).arrAt 10 cfg9.N = (nodeOf9 V c).2 :=
  (dat9 V c).arrAt_eq_of_cover 10 (nodeOf9 V c).2 (fun t _ => flushed9_10_eq V c t) covered9_10

end Final

end Cert.KernelIdeal.Hand
-- ==== Proof.KI.ValNode12.lean ====
import proofs.«147510_j18107582120779_2_alg».proof.Proof.KI.ValNode
import proofs.«147510_j18107582120779_2_alg».proof.Proof.KI.R12
import proofs.«147510_j18107582120779_2_alg».proof.Proof.KI.ValNodeSpec
import Idealize.ShloMosaic.Lib.Pipeline.Value

noncomputable section

namespace Cert.KernelIdeal.Hand

open Cert.KernelIdeal Cert.KernelIdeal.Gen
open Idealize.ShloMosaic Idealize.ShloMosaic.ValueIdx
open Idealize.ShloMosaic.TcCoe Idealize.SL.Sem
open Idealize.ShloMosaic.Pipeline (Dat)

variable (V : (c : Dev nD) → (b : Ref sig .tc) → Buf (Elt Ideal) ((c : Thread nD τ).loc b))

theorem hz12 : (![0, 0] : Fin 2 → Nat) = fun _ => 0 := funext fun a => by fin_cases a <;> rfl

theorem idx_facts12 : ∀ t : Fin cfg12.N,
    (win12_0.index t (0 : Fin 2) = t.val ∧ win12_0.index t (1 : Fin 2) = 0)
    ∧ (win12_1.index t (0 : Fin 2) = t.val ∧ win12_1.index t (1 : Fin 2) = 0)
    ∧ (win12_2.index t (0 : Fin 2) = t.val ∧ win12_2.index t (1 : Fin 2) = 0)
    ∧ (win12_3.index t (0 : Fin 2) = t.val ∧ win12_3.index t (1 : Fin 2) = 0)
    ∧ (win12_4.index t (0 : Fin 2) = t.val ∧ win12_4.index t (1 : Fin 2) = 0)
    ∧ (win12_5.index t (0 : Fin 2) = t.val ∧ win12_5.index t (1 : Fin 2) = 0)
    ∧ (win12_9.index t (0 : Fin 2) = t.val ∧ win12_9.index t (1 : Fin 2) = 0)
    ∧ (win12_10.index t (0 : Fin 2) = t.val ∧ win12_10.index t (1 : Fin 2) = 0)
    ∧ (win12_6.index t (0 : Fin 2) = 0 ∧ win12_6.index t (1 : Fin 2) = 0)
    ∧ (win12_7.index t (0 : Fin 2) = 0 ∧ win12_7.index t (1 : Fin 2) = 0)
    ∧ (win12_8.index t (0 : Fin 2) = 0 ∧ win12_8.index t (1 : Fin 2) = 0) :=
  (by decide +kernel : ∀ t : Fin grid12.N, _)

theorem t_lt12 (t : Fin cfg12.N) : t.val < 25 := by
  have h : t.val < grid12.N := t.isLt
  rwa [N_12] at h

abbrev blk12_0 (c : Dev nD) (t : Fin cfg12.N) : FVec Ideal S2000x64 .f32 := iblk12 V c 0 t
abbrev blk12_1 (c : Dev nD) (t : Fin cfg12.N) : FVec Ideal S2000x64 .f32 := iblk12 V c 1 t
abbrev blk12_2 (c : Dev nD) (t : Fin cfg12.N) : FVec Ideal S2000x64 .f32 := iblk12 V c 2 t
abbrev blk12_3 (c : Dev nD) (t : Fin cfg12.N) : FVec Ideal S2000x64 .f32 := iblk12 V c 3 t
abbrev blk12_4 (c : Dev nD) (t : Fin cfg12.N) : FVec Ideal S2000x64 .f32 := iblk12 V c 4 t
abbrev blk12_5 (c : Dev nD) (t : Fin cfg12.N) : FVec Ideal S2000x1 .f32 := iblk12 V c 5 t
abbrev blk12_6 (c : Dev nD) (t : Fin cfg12.N) : FVec Ideal S1x64 .f32 := iblk12 V c 6 t
abbrev blk12_7 (c : Dev nD) (t : Fin cfg12.N) : FVec Ideal S64x64 .f32 := iblk12 V c 7 t
abbrev blk12_8 (c : Dev nD) (t : Fin cfg12.N) : FVec Ideal S1x64 .f32 := iblk12 V c 8 t

abbrev arr12_0 (c : Dev nD) : FVec Ideal S50000x64 .f32 := V c main_v112_0
abbrev arr12_1 (c : Dev nD) : FVec Ideal S50000x64 .f32 := V c main_v112_1
abbrev arr12_2 (c : Dev nD) : FVec Ideal S50000x64 .f32 := V c main_v128
abbrev arr12_3 (c : Dev nD) : FVec Ideal S50000x64 .f32 := V c main_v134
abbrev arr12_4 (c : Dev nD) : FVec Ideal S50000x64 .f32 := V c main_v136
abbrev arr12_5 (c : Dev nD) : FVec Ideal S50000x1 .f32 := V c main_v28
abbrev arr12_6 (c : Dev nD) : FVec Ideal S1x64 .f32 := V c main_v137
abbrev arr12_7 (c : Dev nD) : FVec Ideal S64x64 .f32 := V c main_arg6
abbrev arr12_8 (c : Dev nD) : FVec Ideal S1x64 .f32 := V c main_v138

abbrev row12 (t : Fin cfg12.N) (p : Fin 2000) : Fin 50000 := ⟨t.val * 2000 + p.val, by have := t_lt12 t; have := p.isLt; omega⟩

theorem blk12_0_apply (c : Dev nD) (t : Fin cfg12.N) (p : Fin 2000) (q : Fin 64) :
    blk12_0 V c t (ix2 p q) = arr12_0 V c (ix2 (row12 t p) q) := by
  show V c main_v112_0 (((cfg12.win 0).blk t).view.emb (ix2 p q)) = V c main_v112_0 (ix2 (row12 t p) q)
  refine congrArg (V c main_v112_0) ?_
  funext a; apply Fin.ext
  match a with
  | ⟨0, _⟩ => show win12_0.index t (0 : Fin 2) * 2000 + 1 * p.val = t.val * 2000 + p.val; rw [(idx_facts12 t).1.1]; omega
  | ⟨1, _⟩ => show win12_0.index t (1 : Fin 2) * 64 + 1 * q.val = q.val; rw [(idx_facts12 t).1.2]; omega
theorem blk12_1_apply (c : Dev nD) (t : Fin cfg12.N) (p : Fin 2000) (q : Fin 64) :
    blk12_1 V c t (ix2 p q) = arr12_1 V c (ix2 (row12 t p) q) := by
  show V c main_v112_1 (((cfg12.win 1).blk t).view.emb (ix2 p q)) = V c main_v112_1 (ix2 (row12 t p) q)
  refine congrArg (V c main_v112_1) ?_
  funext a; apply Fin.ext
  match a with
  | ⟨0, _⟩ => show win12_1.index t (0 : Fin 2) * 2000 + 1 * p.val = t.val * 2000 + p.val; rw [(idx_facts12 t).2.1.1]; omega
  | ⟨1, _⟩ => show win12_1.index t (1 : Fin 2) * 64 + 1 * q.val = q.val; rw [(idx_facts12 t).2.1.2]; omega
theorem blk12_2_apply (c : Dev nD) (t : Fin cfg12.N) (p : Fin 2000) (q : Fin 64) :
    blk12_2 V c t (ix2 p q) = arr12_2 V c (ix2 (row12 t p) q) := by
  show V c main_v128 (((cfg12.win 2).blk t).view.emb (ix2 p q)) = V c main_v128 (ix2 (row12 t p) q)
  refine congrArg (V c main_v128) ?_
  funext a; apply Fin.ext
  match a with
  | ⟨0, _⟩ => show win12_2.index t (0 : Fin 2) * 2000 + 1 * p.val = t.val * 2000 + p.val; rw [(idx_facts12 t).2.2.1.1]; omega
  | ⟨1, _⟩ => show win12_2.index t (1 : Fin 2) * 64 + 1 * q.val = q.val; rw [(idx_facts12 t).2.2.1.2]; omega
theorem blk12_3_apply (c : Dev nD) (t : Fin cfg12.N) (p : Fin 2000) (q : Fin 64) :
    blk12_3 V c t (ix2 p q) = arr12_3 V c (ix2 (row12 t p) q) := by
  show V c main_v134 (((cfg12.win 3).blk t).view.emb (ix2 p q)) = V c main_v134 (ix2 (row12 t p) q)
  refine congrArg (V c main_v134) ?_
  funext a; apply Fin.ext
  match a with
  | ⟨0, _⟩ => show win12_3.index t (0 : Fin 2) * 2000 + 1 * p.val = t.val * 2000 + p.val; rw [(idx_facts12 t).2.2.2.1.1]; omega
  | ⟨1, _⟩ => show win12_3.index t (1 : Fin 2) * 64 + 1 * q.val = q.val; rw [(idx_facts12 t).2.2.2.1.2]; omega
theorem blk12_4_apply (c : Dev nD) (t : Fin cfg12.N) (p : Fin 2000) (q : Fin 64) :
    blk12_4 V c t (ix2 p q) = arr12_4 V c (ix2 (row12 t p) q) := by
  show V c main_v136 (((cfg12.win 4).blk t).view.emb (ix2 p q)) = V c main_v136 (ix2 (row12 t p) q)
  refine congrArg (V c main_v136) ?_
  funext a; apply Fin.ext
  match a with
  | ⟨0, _⟩ => show win12_4.index t (0 : Fin 2) * 2000 + 1 * p.val = t.val * 2000 + p.val; rw [(idx_facts12 t).2.2.2.2.1.1]; omega
  | ⟨1, _⟩ => show win12_4.index t (1 : Fin 2) * 64 + 1 * q.val = q.val; rw [(idx_facts12 t).2.2.2.2.1.2]; omega
theorem blk12_5_apply (c : Dev nD) (t : Fin cfg12.N) (p : Fin 2000) :
    blk12_5 V c t (ix2 p (0 : Fin 1)) = arr12_5 V c (ix2 (row12 t p) (0 : Fin 1)) := by
  show V c main_v28 (((cfg12.win 5).blk t).view.emb (ix2 p (0 : Fin 1))) = V c main_v28 (ix2 (row12 t p) (0 : Fin 1))
  refine congrArg (V c main_v28) ?_
  funext a; apply Fin.ext
  match a with
  | ⟨0, _⟩ => show win12_5.index t (0 : Fin 2) * 2000 + 1 * p.val = t.val * 2000 + p.val; rw [(idx_facts12 t).2.2.2.2.2.1.1]; omega
  | ⟨1, _⟩ => show win12_5.index t (1 : Fin 2) * 1 + 1 * 0 = 0; rw [(idx_facts12 t).2.2.2.2.2.1.2]

theorem blk12_6_apply (c : Dev nD) (t : Fin cfg12.N) (a : Fin 1) (b : Fin 64) :
    blk12_6 V c t (ix2 a b) = arr12_6 V c (ix2 a b) := by
  show V c main_v137 (((cfg12.win 6).blk t).view.emb (ix2 a b)) = V c main_v137 (ix2 a b)
  refine congrArg (V c main_v137) ?_
  funext ax; apply Fin.ext
  match ax with
  | ⟨0, _⟩ => show win12_6.index t (0 : Fin 2) * 1 + 1 * a.val = a.val; rw [(idx_facts12 t).2.2.2.2.2.2.2.2.1.1]; omega
  | ⟨1, _⟩ => show win12_6.index t (1 : Fin 2) * 64 + 1 * b.val = b.val; rw [(idx_facts12 t).2.2.2.2.2.2.2.2.1.2]; omega
theorem blk12_7_apply (c : Dev nD) (t : Fin cfg12.N) (a : Fin 64) (b : Fin 64) :
    blk12_7 V c t (ix2 a b) = arr12_7 V c (ix2 a b) := by
  show V c main_arg6 (((cfg12.win 7).blk t).view.emb (ix2 a b)) = V c main_arg6 (ix2 a b)
  refine congrArg (V c main_arg6) ?_
  funext ax; apply Fin.ext
  match ax with
  | ⟨0, _⟩ => show win12_7.index t (0 : Fin 2) * 64 + 1 * a.val = a.val; rw [(idx_facts12 t).2.2.2.2.2.2.2.2.2.1.1]; omega
  | ⟨1, _⟩ => show win12_7.index t (1 : Fin 2) * 64 + 1 * b.val = b.val; rw [(idx_facts12 t).2.2.2.2.2.2.2.2.2.1.2]; omega
theorem blk12_8_apply (c : Dev nD) (t : Fin cfg12.N) (a : Fin 1) (b : Fin 64) :
    blk12_8 V c t (ix2 a b) = arr12_8 V c (ix2 a b) := by
  show V c main_v138 (((cfg12.win 8).blk t).view.emb (ix2 a b)) = V c main_v138 (ix2 a b)
  refine congrArg (V c main_v138) ?_
  funext ax; apply Fin.ext
  match ax with
  | ⟨0, _⟩ => show win12_8.index t (0 : Fin 2) * 1 + 1 * a.val = a.val; rw [(idx_facts12 t).2.2.2.2.2.2.2.2.2.2.1]; omega
  | ⟨1, _⟩ => show win12_8.index t (1 : Fin 2) * 64 + 1 * b.val = b.val; rw [(idx_facts12 t).2.2.2.2.2.2.2.2.2.2.2]; omega

theorem emb12_9 (t : Fin cfg12.N) (p : Fin 2000) (q : Fin 64) :
    ((cfg12.win 9).blk t).view.emb (ix2 p q) = (ix2 (row12 t p) q : S50000x64.Idx) := by
  funext a; apply Fin.ext
  match a with
  | ⟨0, _⟩ => show win12_9.index t (0 : Fin 2) * 2000 + 1 * p.val = t.val * 2000 + p.val; rw [(idx_facts12 t).2.2.2.2.2.2.1.1]; omega
  | ⟨1, _⟩ => show win12_9.index t (1 : Fin 2) * 64 + 1 * q.val = q.val; rw [(idx_facts12 t).2.2.2.2.2.2.1.2]; omega
theorem emb12_10 (t : Fin cfg12.N) (p : Fin 2000) (q : Fin 64) :
    ((cfg12.win 10).blk t).view.emb (ix2 p q) = (ix2 (row12 t p) q : S50000x64.Idx) := by
  funext a; apply Fin.ext
  match a with
  | ⟨0, _⟩ => show win12_10.index t (0 : Fin 2) * 2000 + 1 * p.val = t.val * 2000 + p.val; rw [(idx_facts12 t).2.2.2.2.2.2.2.1.1]; omega
  | ⟨1, _⟩ => show win12_10.index t (1 : Fin 2) * 64 + 1 * q.val = q.val; rw [(idx_facts12 t).2.2.2.2.2.2.2.1.2]; omega

theorem mem_blk12_9 (t : Fin cfg12.N) (i : S50000x64.Idx) :
    i ∈ ((cfg12.win 9).blk t).view.set ↔ ∀ a : Fin 2, win12_9.index t a * S2000x64.size a ≤ (i a).val ∧ (i a).val < win12_9.index t a * S2000x64.size a + S2000x64.size a := by
  show i ∈ ((View.whole main_v139_0).slice (win12_9.rect t)).set ↔ _
  rw [View.set_slice_whole, Rect.mem_set_unit]
  exact Iff.rfl

theorem covered12_9 (i : S50000x64.Idx) : ∃ t : Fin cfg12.N, (cfg12.win 9).flush t = true ∧ i ∈ ((cfg12.win 9).blk t).view.set := by
  have hi0 : (i 0).val < 50000 := (i 0).isLt
  have hi1 : (i 1).val < 64 := (i 1).isLt
  have hN : grid12.N = 25 := N_12
  let t : Fin cfg12.N := ⟨(i 0).val / 2000, by show (i 0).val / 2000 < grid12.N; rw [hN]; omega⟩
  refine ⟨t, flush12_9 t, ?_⟩
  rw [mem_blk12_9]
  have ht : t.val = (i 0).val / 2000 := rfl
  intro a
  match a with
  | ⟨0, _⟩ => show win12_9.index t (0 : Fin 2) * 2000 ≤ (i 0).val ∧ (i 0).val < win12_9.index t (0 : Fin 2) * 2000 + 2000; rw [(idx_facts12 t).2.2.2.2.2.2.1.1, ht]; omega
  | ⟨1, _⟩ => show win12_9.index t (1 : Fin 2) * 64 ≤ (i 1).val ∧ (i 1).val < win12_9.index t (1 : Fin 2) * 64 + 64; rw [(idx_facts12 t).2.2.2.2.2.2.1.2]; omega

theorem mem_blk12_10 (t : Fin cfg12.N) (i : S50000x64.Idx) :
    i ∈ ((cfg12.win 10).blk t).view.set ↔ ∀ a : Fin 2, win12_10.index t a * S2000x64.size a ≤ (i a).val ∧ (i a).val < win12_10.index t a * S2000x64.size a + S2000x64.size a := by
  show i ∈ ((View.whole main_v139_1).slice (win12_10.rect t)).set ↔ _
  rw [View.set_slice_whole, Rect.mem_set_unit]
  exact Iff.rfl

theorem covered12_10 (i : S50000x64.Idx) : ∃ t : Fin cfg12.N, (cfg12.win 10).flush t = true ∧ i ∈ ((cfg12.win 10).blk t).view.set := by
  have hi0 : (i 0).val < 50000 := (i 0).isLt
  have hi1 : (i 1).val < 64 := (i 1).isLt
  have hN : grid12.N = 25 := N_12
  let t : Fin cfg12.N := ⟨(i 0).val / 2000, by show (i 0).val / 2000 < grid12.N; rw [hN]; omega⟩
  refine ⟨t, flush12_10 t, ?_⟩
  rw [mem_blk12_10]
  have ht : t.val = (i 0).val / 2000 := rfl
  intro a
  match a with
  | ⟨0, _⟩ => show win12_10.index t (0 : Fin 2) * 2000 ≤ (i 0).val ∧ (i 0).val < win12_10.index t (0 : Fin 2) * 2000 + 2000; rw [(idx_facts12 t).2.2.2.2.2.2.2.1.1, ht]; omega
  | ⟨1, _⟩ => show win12_10.index t (1 : Fin 2) * 64 ≤ (i 1).val ∧ (i 1).val < win12_10.index t (1 : Fin 2) * 64 + 64; rw [(idx_facts12 t).2.2.2.2.2.2.2.1.2]; omega

section Final
variable [Cert.ReferenceIdeal.Facts₀]

abbrev nodeOf12 (c : Dev nD) : FVec Ideal S50000x64 .f32 × FVec Ideal S50000x64 .f32 :=
  Cert.Spec.nodeG (arr12_0 V c) (arr12_1 V c) (arr12_2 V c) (arr12_3 V c) (arr12_4 V c) (arr12_5 V c) (arr12_6 V c) (arr12_7 V c) (arr12_8 V c)

theorem yVal_blk12 (c : Dev nD) (t : Fin cfg12.N) (p : Fin 2000) (q : Fin 64) :
    nodeYVal (blk12_0 V c t (ix2 p q)) (blk12_1 V c t (ix2 p q)) (blk12_2 V c t (ix2 p q)) (blk12_3 V c t (ix2 p q))
        (blk12_5 V c t (ix2 p (0 : Fin 1))) (blk12_6 V c t (ix2 (0 : Fin 1) q))
        (∑ k : Fin 64, blk12_2 V c t (ix2 p k) * blk12_7 V c t (ix2 k q)) (blk12_8 V c t (ix2 (0 : Fin 1) q))
      = nodeYVal (arr12_0 V c (ix2 (row12 t p) q)) (arr12_1 V c (ix2 (row12 t p) q)) (arr12_2 V c (ix2 (row12 t p) q)) (arr12_3 V c (ix2 (row12 t p) q))
        (arr12_5 V c (ix2 (row12 t p) (0 : Fin 1))) (arr12_6 V c (ix2 (0 : Fin 1) q))
        (∑ k : Fin 64, arr12_2 V c (ix2 (row12 t p) k) * arr12_7 V c (ix2 k q)) (arr12_8 V c (ix2 (0 : Fin 1) q)) := by
  rw [blk12_0_apply V c t p q, blk12_1_apply V c t p q, blk12_2_apply V c t p q, blk12_3_apply V c t p q, blk12_5_apply V c t p,
    blk12_6_apply V c t 0 q, blk12_8_apply V c t 0 q]
  refine congrArg (fun s => nodeYVal _ _ _ _ _ _ s _) ?_
  exact Finset.sum_congr rfl fun k _ => by rw [blk12_2_apply V c t p k, blk12_7_apply V c t k q]

theorem flushed12_10_eq (c : Dev nD) (t : Fin cfg12.N) :
    (dat12 V c).flushed 10 t = ((cfg12.win 10).blk t).view.read (Elt Ideal) (nodeOf12 V c).2 := by
  show (cfg12.win 10).cut (grid12.coords t) ((dat12 V c).after 10 t) = _
  rw [after12_10]
  unfold out6_10
  rw [View.canon_unit_zero hz12]
  simp only [View.ld_unit_zero (S := S2000x64) hz12, View.ld_unit_zero (S := S2000x1) hz12, View.ld_unit_zero (S := S1x64) hz12, View.ld_unit_zero (S := S64x64) hz12]
  refine funext fun (j : S2000x64.Idx) => ?_
  obtain ⟨p, q, rfl⟩ : ∃ (p : Fin 2000) (q : Fin 64), j = ix2 p q := ⟨j 0, j 1, eq_ix2 j⟩
  show k6_pay1 (k6_pay3 (blk12_1 V c t)) (k6_pay5 (blk12_2 V c t) (blk12_7 V c t) (blk12_8 V c t) (blk12_3 V c t) (blk12_5 V c t) (blk12_6 V c t) (blk12_1 V c t) (blk12_0 V c t)) (k6_pay6 (F := Ideal)) (ix2 p q)
      = (nodeOf12 V c).2 (((cfg12.win 10).blk t).view.emb (ix2 p q))
  rw [emb12_10 t p q]
  refine (k6_yPay_apply (blk12_0 V c t) (blk12_1 V c t) (blk12_2 V c t) (blk12_3 V c t) (blk12_5 V c t) (blk12_6 V c t) (blk12_7 V c t) (blk12_8 V c t) p q).trans ?_
  refine Eq.trans ?_ (nodeG_snd_apply (arr12_0 V c) (arr12_1 V c) (arr12_2 V c) (arr12_3 V c) (arr12_4 V c) (arr12_5 V c) (arr12_6 V c) (arr12_7 V c) (arr12_8 V c) (row12 t p) q).symm
  exact yVal_blk12 V c t p q

theorem flushed12_9_eq (c : Dev nD) (t : Fin cfg12.N) :
    (dat12 V c).flushed 9 t = ((cfg12.win 9).blk t).view.read (Elt Ideal) (nodeOf12 V c).1 := by
  show (cfg12.win 9).cut (grid12.coords t) ((dat12 V c).after 9 t) = _
  rw [after12_9]
  unfold out6_9
  rw [View.canon_unit_zero hz12]
  simp only [View.ld_unit_zero (S := S2000x64) hz12, View.ld_unit_zero (S := S2000x1) hz12, View.ld_unit_zero (S := S1x64) hz12, View.ld_unit_zero (S := S64x64) hz12]
  refine funext fun (j : S2000x64.Idx) => ?_
  obtain ⟨p, q, rfl⟩ : ∃ (p : Fin 2000) (q : Fin 64), j = ix2 p q := ⟨j 0, j 1, eq_ix2 j⟩
  show k6_pay2 (k6_pay3 (blk12_1 V c t)) (k6_pay4 (blk12_0 V c t)) (k6_pay5 (blk12_2 V c t) (blk12_7 V c t) (blk12_8 V c t) (blk12_3 V c t) (blk12_5 V c t) (blk12_6 V c t) (blk12_1 V c t) (blk12_0 V c t)) (k6_pay6 (F := Ideal)) (blk12_4 V c t) (ix2 p q)
      = (nodeOf12 V c).1 (((cfg12.win 9).blk t).view.emb (ix2 p q))
  rw [emb12_9 t p q]
  refine (k6_xPay_apply (blk12_0 V c t) (blk12_1 V c t) (blk12_2 V c t) (blk12_3 V c t) (blk12_4 V c t) (blk12_5 V c t) (blk12_6 V c t) (blk12_7 V c t) (blk12_8 V c t) p q).trans ?_
  refine Eq.trans ?_ (nodeG_fst_apply (arr12_0 V c) (arr12_1 V c) (arr12_2 V c) (arr12_3 V c) (arr12_4 V c) (arr12_5 V c) (arr12_6 V c) (arr12_7 V c) (arr12_8 V c) (row12 t p) q).symm
  rw [yVal_blk12 V c t p q, blk12_0_apply V c t p q, blk12_4_apply V c t p q]

theorem final12_9 (c : Dev nD) : (dat12 V c).arrAt 9 cfg12.N = (nodeOf12 V c).1 :=
  (dat12 V c).arrAt_eq_of_cover 9 (nodeOf12 V c).1 (fun t _ => flushed12_9_eq V c t) covered12_9

theorem final12_10 (c : Dev nD) : (dat12 V c).arrAt 10 cfg12.N = (nodeOf12 V c).2 :=
  (dat12 V c).arrAt_eq_of_cover 10 (nodeOf12 V c).2 (fun t _ => flushed12_10_eq V c t) covered12_10

end Final

end Cert.KernelIdeal.Hand
-- ==== Proof.KI.Chain.lean ====
import proofs.«147510_j18107582120779_2_alg».proof.Proof.KI.ChainOut
import proofs.«147510_j18107582120779_2_alg».proof.Proof.KI.Fold
import proofs.«147510_j18107582120779_2_alg».proof.Proof.KI.ValLin
import proofs.«147510_j18107582120779_2_alg».proof.Proof.KI.ValEdge
import proofs.«147510_j18107582120779_2_alg».proof.Proof.KI.ValEdge5
import proofs.«147510_j18107582120779_2_alg».proof.Proof.KI.ValEdge8
import proofs.«147510_j18107582120779_2_alg».proof.Proof.KI.ValEdge11
import proofs.«147510_j18107582120779_2_alg».proof.Proof.KI.ValNode
import proofs.«147510_j18107582120779_2_alg».proof.Proof.KI.ValNode3
import proofs.«147510_j18107582120779_2_alg».proof.Proof.KI.ValNode9
import proofs.«147510_j18107582120779_2_alg».proof.Proof.KI.ValNode12
import proofs.«147510_j18107582120779_2_alg».proof.Proof.Gen.ReferenceIdeal

set_option maxRecDepth 16384

noncomputable section

namespace Cert.KernelIdeal.Hand

open Idealize.ShloMosaic Idealize.ShloMosaic.TcCoe
open Cert.KernelIdeal Cert.KernelIdeal.Gen

variable (m : (ℓ : Loc nD τ sig) → Buf (Elt Ideal) ℓ)

abbrev args (c : Dev nD) : Cert.Spec.Args Ideal := argsOf (Gen.V0 m c)

theorem ch_a0 (c : Dev nD) :
    U2 m c main_v31 = Cert.Spec.encG (F := Ideal) (StableHlo.after hostOps0 (Gen.V0 m c) main_arg0) (StableHlo.after hostOps0 (Gen.V0 m c) main_arg2) (StableHlo.after hostOps0 (Gen.V0 m c) main_v30) :=
  (U2_main_v31 m c).trans (final0 (tcOf (U1 m)) c)

theorem ch_a0o (c : Dev nD) :
    ∀ r : Ref sig .tc, r ≠ main_v31 → U2 m c r = StableHlo.after hostOps0 (Gen.V0 m c) r :=
  fun r h => U2_of m c r h

theorem ch_b1c (c : Dev nD) :
    U4 m c main_v47 = Cert.Spec.linG (F := Ideal) (StableHlo.after hostOps1 (U2 m c) main_v31) (StableHlo.after hostOps1 (U2 m c) main_arg4) (StableHlo.after hostOps1 (U2 m c) main_v46) :=
  (U4_main_v47 m c).trans (final1 (tcOf (U3 m)) c)

theorem ch_b1co (c : Dev nD) :
    ∀ r : Ref sig .tc, r ≠ main_v47 → U4 m c r = StableHlo.after hostOps1 (U2 m c) r :=
  fun r h => U4_of m c r h

theorem ch_b1d (c : Dev nD) :
    U5 m c main_v48 = Cert.Spec.edgeG (F := Ideal) (U4 m c main_v38) (U4 m c main_v45) (U4 m c main_arg8) (U4 m c main_arg4) (U4 m c main_v26) :=
  (U5_main_v48 m c).trans (final2 (tcOf (U4 m)) c)

theorem ch_b1do (c : Dev nD) :
    ∀ r : Ref sig .tc, r ≠ main_v48 → U5 m c r = U4 m c r :=
  fun r h => U5_of m c r h

theorem ch_b1f0 (c : Dev nD) :
    U7 m c main_v58_0 = (Cert.Spec.nodeG (F := Ideal) (StableHlo.after hostOps3 (U5 m c) main_v31) (StableHlo.after hostOps3 (U5 m c) main_v31) (StableHlo.after hostOps3 (U5 m c) main_v47) (StableHlo.after hostOps3 (U5 m c) main_v53) (StableHlo.after hostOps3 (U5 m c) main_v55) (StableHlo.after hostOps3 (U5 m c) main_v28) (StableHlo.after hostOps3 (U5 m c) main_v56) (StableHlo.after hostOps3 (U5 m c) main_arg6) (StableHlo.after hostOps3 (U5 m c) main_v57)).1 :=
  (U7_main_v58_0 m c).trans (final3_9 (tcOf (U6 m)) c)

theorem ch_b1f1 (c : Dev nD) :
    U7 m c main_v58_1 = (Cert.Spec.nodeG (F := Ideal) (StableHlo.after hostOps3 (U5 m c) main_v31) (StableHlo.after hostOps3 (U5 m c) main_v31) (StableHlo.after hostOps3 (U5 m c) main_v47) (StableHlo.after hostOps3 (U5 m c) main_v53) (StableHlo.after hostOps3 (U5 m c) main_v55) (StableHlo.after hostOps3 (U5 m c) main_v28) (StableHlo.after hostOps3 (U5 m c) main_v56) (StableHlo.after hostOps3 (U5 m c) main_arg6) (StableHlo.after hostOps3 (U5 m c) main_v57)).2 :=
  (U7_main_v58_1 m c).trans (final3_10 (tcOf (U6 m)) c)

theorem ch_b1fo (c : Dev nD) :
    ∀ r : Ref sig .tc, r ≠ main_v58_0 → r ≠ main_v58_1 → U7 m c r = StableHlo.after hostOps3 (U5 m c) r :=
  fun r h0 h1 => U7_of m c r h0 h1

theorem ch_b2c (c : Dev nD) :
    U9 m c main_v74 = Cert.Spec.linG (F := Ideal) (StableHlo.after hostOps4 (U7 m c) main_v58_0) (StableHlo.after hostOps4 (U7 m c) main_arg4) (StableHlo.after hostOps4 (U7 m c) main_v73) :=
  (U9_main_v74 m c).trans (final4 (tcOf (U8 m)) c)

theorem ch_b2co (c : Dev nD) :
    ∀ r : Ref sig .tc, r ≠ main_v74 → U9 m c r = StableHlo.after hostOps4 (U7 m c) r :=
  fun r h => U9_of m c r h

theorem ch_b2d (c : Dev nD) :
    U10 m c main_v75 = Cert.Spec.edgeG (F := Ideal) (U9 m c main_v65) (U9 m c main_v72) (U9 m c main_arg8) (U9 m c main_arg4) (U9 m c main_v26) :=
  (U10_main_v75 m c).trans (final5 (tcOf (U9 m)) c)

theorem ch_b2do (c : Dev nD) :
    ∀ r : Ref sig .tc, r ≠ main_v75 → U10 m c r = U9 m c r :=
  fun r h => U10_of m c r h

theorem ch_b2f0 (c : Dev nD) :
    U12 m c main_v85_0 = (Cert.Spec.nodeG (F := Ideal) (StableHlo.after hostOps6 (U10 m c) main_v58_0) (StableHlo.after hostOps6 (U10 m c) main_v58_1) (StableHlo.after hostOps6 (U10 m c) main_v74) (StableHlo.after hostOps6 (U10 m c) main_v80) (StableHlo.after hostOps6 (U10 m c) main_v82) (StableHlo.after hostOps6 (U10 m c) main_v28) (StableHlo.after hostOps6 (U10 m c) main_v83) (StableHlo.after hostOps6 (U10 m c) main_arg6) (StableHlo.after hostOps6 (U10 m c) main_v84)).1 :=
  (U12_main_v85_0 m c).trans (final6_9 (tcOf (U11 m)) c)

theorem ch_b2f1 (c : Dev nD) :
    U12 m c main_v85_1 = (Cert.Spec.nodeG (F := Ideal) (StableHlo.after hostOps6 (U10 m c) main_v58_0) (StableHlo.after hostOps6 (U10 m c) main_v58_1) (StableHlo.after hostOps6 (U10 m c) main_v74) (StableHlo.after hostOps6 (U10 m c) main_v80) (StableHlo.after hostOps6 (U10 m c) main_v82) (StableHlo.after hostOps6 (U10 m c) main_v28) (StableHlo.after hostOps6 (U10 m c) main_v83) (StableHlo.after hostOps6 (U10 m c) main_arg6) (StableHlo.after hostOps6 (U10 m c) main_v84)).2 :=
  (U12_main_v85_1 m c).trans (final6_10 (tcOf (U11 m)) c)

theorem ch_b2fo (c : Dev nD) :
    ∀ r : Ref sig .tc, r ≠ main_v85_0 → r ≠ main_v85_1 → U12 m c r = StableHlo.after hostOps6 (U10 m c) r :=
  fun r h0 h1 => U12_of m c r h0 h1

theorem ch_b3c (c : Dev nD) :
    U14 m c main_v101 = Cert.Spec.linG (F := Ideal) (StableHlo.after hostOps7 (U12 m c) main_v85_0) (StableHlo.after hostOps7 (U12 m c) main_arg4) (StableHlo.after hostOps7 (U12 m c) main_v100) :=
  (U14_main_v101 m c).trans (final7 (tcOf (U13 m)) c)

theorem ch_b3co (c : Dev nD) :
    ∀ r : Ref sig .tc, r ≠ main_v101 → U14 m c r = StableHlo.after hostOps7 (U12 m c) r :=
  fun r h => U14_of m c r h

theorem ch_b3d (c : Dev nD) :
    U15 m c main_v102 = Cert.Spec.edgeG (F := Ideal) (U14 m c main_v92) (U14 m c main_v99) (U14 m c main_arg8) (U14 m c main_arg4) (U14 m c main_v26) :=
  (U15_main_v102 m c).trans (final8 (tcOf (U14 m)) c)

theorem ch_b3do (c : Dev nD) :
    ∀ r : Ref sig .tc, r ≠ main_v102 → U15 m c r = U14 m c r :=
  fun r h => U15_of m c r h

theorem ch_b3f0 (c : Dev nD) :
    U17 m c main_v112_0 = (Cert.Spec.nodeG (F := Ideal) (StableHlo.after hostOps9 (U15 m c) main_v85_0) (StableHlo.after hostOps9 (U15 m c) main_v85_1) (StableHlo.after hostOps9 (U15 m c) main_v101) (StableHlo.after hostOps9 (U15 m c) main_v107) (StableHlo.after hostOps9 (U15 m c) main_v109) (StableHlo.after hostOps9 (U15 m c) main_v28) (StableHlo.after hostOps9 (U15 m c) main_v110) (StableHlo.after hostOps9 (U15 m c) main_arg6) (StableHlo.after hostOps9 (U15 m c) main_v111)).1 :=
  (U17_main_v112_0 m c).trans (final9_9 (tcOf (U16 m)) c)

theorem ch_b3f1 (c : Dev nD) :
    U17 m c main_v112_1 = (Cert.Spec.nodeG (F := Ideal) (StableHlo.after hostOps9 (U15 m c) main_v85_0) (StableHlo.after hostOps9 (U15 m c) main_v85_1) (StableHlo.after hostOps9 (U15 m c) main_v101) (StableHlo.after hostOps9 (U15 m c) main_v107) (StableHlo.after hostOps9 (U15 m c) main_v109) (StableHlo.after hostOps9 (U15 m c) main_v28) (StableHlo.after hostOps9 (U15 m c) main_v110) (StableHlo.after hostOps9 (U15 m c) main_arg6) (StableHlo.after hostOps9 (U15 m c) main_v111)).2 :=
  (U17_main_v112_1 m c).trans (final9_10 (tcOf (U16 m)) c)

theorem ch_b3fo (c : Dev nD) :
    ∀ r : Ref sig .tc, r ≠ main_v112_0 → r ≠ main_v112_1 → U17 m c r = StableHlo.after hostOps9 (U15 m c) r :=
  fun r h0 h1 => U17_of m c r h0 h1

theorem ch_b4c (c : Dev nD) :
    U19 m c main_v128 = Cert.Spec.linG (F := Ideal) (StableHlo.after hostOps10 (U17 m c) main_v112_0) (StableHlo.after hostOps10 (U17 m c) main_arg4) (StableHlo.after hostOps10 (U17 m c) main_v127) :=
  (U19_main_v128 m c).trans (final10 (tcOf (U18 m)) c)

theorem ch_b4co (c : Dev nD) :
    ∀ r : Ref sig .tc, r ≠ main_v128 → U19 m c r = StableHlo.after hostOps10 (U17 m c) r :=
  fun r h => U19_of m c r h

theorem ch_b4d (c : Dev nD) :
    U20 m c main_v129 = Cert.Spec.edgeG (F := Ideal) (U19 m c main_v119) (U19 m c main_v126) (U19 m c main_arg8) (U19 m c main_arg4) (U19 m c main_v26) :=
  (U20_main_v129 m c).trans (final11 (tcOf (U19 m)) c)

theorem ch_b4do (c : Dev nD) :
    ∀ r : Ref sig .tc, r ≠ main_v129 → U20 m c r = U19 m c r :=
  fun r h => U20_of m c r h

theorem ch_b4f0 (c : Dev nD) :
    U22 m c main_v139_0 = (Cert.Spec.nodeG (F := Ideal) (StableHlo.after hostOps12 (U20 m c) main_v112_0) (StableHlo.after hostOps12 (U20 m c) main_v112_1) (StableHlo.after hostOps12 (U20 m c) main_v128) (StableHlo.after hostOps12 (U20 m c) main_v134) (StableHlo.after hostOps12 (U20 m c) main_v136) (StableHlo.after hostOps12 (U20 m c) main_v28) (StableHlo.after hostOps12 (U20 m c) main_v137) (StableHlo.after hostOps12 (U20 m c) main_arg6) (StableHlo.after hostOps12 (U20 m c) main_v138)).1 :=
  (U22_main_v139_0 m c).trans (final12_9 (tcOf (U21 m)) c)

theorem ch_b4f1 (c : Dev nD) :
    U22 m c main_v139_1 = (Cert.Spec.nodeG (F := Ideal) (StableHlo.after hostOps12 (U20 m c) main_v112_0) (StableHlo.after hostOps12 (U20 m c) main_v112_1) (StableHlo.after hostOps12 (U20 m c) main_v128) (StableHlo.after hostOps12 (U20 m c) main_v134) (StableHlo.after hostOps12 (U20 m c) main_v136) (StableHlo.after hostOps12 (U20 m c) main_v28) (StableHlo.after hostOps12 (U20 m c) main_v137) (StableHlo.after hostOps12 (U20 m c) main_arg6) (StableHlo.after hostOps12 (U20 m c) main_v138)).2 :=
  (U22_main_v139_1 m c).trans (final12_10 (tcOf (U21 m)) c)

theorem ch_b4fo (c : Dev nD) :
    ∀ r : Ref sig .tc, r ≠ main_v139_0 → r ≠ main_v139_1 → U22 m c r = StableHlo.after hostOps12 (U20 m c) r :=
  fun r h0 h1 => U22_of m c r h0 h1

theorem ch_a5 (c : Dev nD) :
    U24 m c main_v141 = Cert.Spec.decG (F := Ideal) (StableHlo.after hostOps13 (U22 m c) main_v139_0) (StableHlo.after hostOps13 (U22 m c) main_arg10) (StableHlo.after hostOps13 (U22 m c) main_v140) :=
  (U24_main_v141 m c).trans (final13 (tcOf (U23 m)) c)

theorem U24_out (c : Dev nD) : U24 m c main_v141 = Cert.Spec.kerOut (args m c) :=
  chain_out (Gen.V0 m c) (U2 m c) (U4 m c) (U5 m c) (U7 m c) (U9 m c) (U10 m c) (U12 m c) (U14 m c) (U15 m c) (U17 m c)
    (U19 m c) (U20 m c) (U22 m c) (U24 m c)
    (ch_a0 m c) (ch_a0o m c) (ch_b1c m c) (ch_b1co m c) (ch_b1d m c) (ch_b1do m c)
    (ch_b1f0 m c) (ch_b1f1 m c) (ch_b1fo m c) (ch_b2c m c) (ch_b2co m c) (ch_b2d m c)
    (ch_b2do m c) (ch_b2f0 m c) (ch_b2f1 m c) (ch_b2fo m c) (ch_b3c m c) (ch_b3co m c)
    (ch_b3d m c) (ch_b3do m c) (ch_b3f0 m c) (ch_b3f1 m c) (ch_b3fo m c) (ch_b4c m c)
    (ch_b4co m c) (ch_b4d m c) (ch_b4do m c) (ch_b4f0 m c) (ch_b4f1 m c) (ch_b4fo m c)
    (ch_a5 m c)

end Cert.KernelIdeal.Hand
-- ==== Proof.Ref.Run.lean ====
import proofs.«147510_j18107582120779_2_alg».proof.Proof.Ref.Ops
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem forall_append {α : Type} {p : α → Prop} {l₁ l₂ : List α} (h₁ : l₁.Forall p) (h₂ : l₂.Forall p) : (l₁ ++ l₂).Forall p :=
  List.forall_iff_forall_mem.2 fun x hx =>
    (List.mem_append.1 hx).elim (List.forall_iff_forall_mem.1 h₁ x) (List.forall_iff_forall_mem.1 h₂ x)

local macro "writes_mem" : tactic =>
  `(tactic| (simp only [StableHlo.nullary_writes, StableHlo.unary_writes, StableHlo.binary_writes, StableHlo.ternary_writes,
      StableHlo.reshape_writes, Finset.singleton_subset_iff, List.mem_toFinset]
             exact List.mem_map_of_mem (by decide)))

theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., unary_bufs_sub .., binary_bufs_sub .., unary_bufs_sub .., unary_bufs_sub .., binary_bufs_sub .., nullary_bufs_sub .., unary_bufs_sub .., binary_bufs_sub ..⟩
theorem ops0_fresh : (ops0 : List (HloOp τ sig (Elt F))).Forall fun op => op.fresh = ∅ := by
  simp only [List.Forall]; repeat' constructor

abbrev ops0_W : List (Ref sig .tc) := [main_v0, main_v1, main_v2, main_v3, main_cst, main_v4, main_cst_0, main_v5, main_v6, main_v7, main_cst_1, main_v8, main_v9, main_v10, main_c, main_v11, main_v12, main_c_2, main_v13, main_v14, main_v15, main_v16, main_v17, main_c_3, main_v18, main_v19, main_c_4, main_v20, main_v21, main_v22, main_v23, main_v24, main_v25, main_v26, main_v27, main_v28, main_v29, main_v30, main_v31, main_v32, main_call0_cst, main_call0_v0, main_v33]
set_option maxHeartbeats 1000000 in
theorem ops0_writes : (ops0 : List (HloOp τ sig (Elt F))).Forall fun op => op.writes ⊆ (ops0_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> writes_mem

theorem ops0_keep (V : Valuation τ sig (Elt F)) (r : Ref sig .tc) (h : r ∉ ops0_W) : after ops0 V r = V r :=
  after_of_writes_sub ops0 V ops0_writes h

theorem ops1_sub : (ops1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem ops1_fresh : (ops1 : List (HloOp τ sig (Elt F))).Forall fun op => op.fresh = ∅ := by
  simp only [List.Forall]; repeat' constructor

abbrev ops1_W : List (Ref sig .tc) := [main_c_5, main_v34, main_v35, main_c_6, main_v36, main_v37, main_v38, main_v39, main_v40, main_c_7, main_v41, main_v42, main_c_8, main_v43, main_v44, main_v45, main_v46, main_v47, main_v48]
set_option maxHeartbeats 1000000 in
theorem ops1_writes : (ops1 : List (HloOp τ sig (Elt F))).Forall fun op => op.writes ⊆ (ops1_W.map (Proc.devRef (τ := τ) .tc)).toFinset := by
  simp only [List.Forall]; refine ⟨?_, ?_, ?_, ?_, ?_, ?_, ?_, ?_, ?_, ?_, ?_, ?_, ?_, ?_, ?_, ?_, ?_, ?_, ?_⟩ <;> writes_mem

theorem ops1_keep (V : Valuation τ sig (Elt F)) (r : Ref sig .tc) (h : r ∉ ops1_W) : after ops1 V r = V r :=
  after_of_writes_sub ops1 V ops1_writes h

theorem ops2_sub : (ops2 : List (HloOp τ sig (Elt F))).Forall fun op => op.bufs ⊆ tcRefs τ sig :=
  ⟨binary_bufs_sub .., nullary_bufs_sub .., unary_bufs_sub .., binary_bufs_sub .., binary_bufs_sub .., nullary_bufs_sub .., unary_bufs_sub .., unary_bufs_sub .., ternary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., binary_bufs_sub .., binary_bufs_sub .., unary_bufs_sub .., unary_bufs_sub .., binary_bufs_sub .., binary_bufs_sub .., unary_bufs_sub .., unary_bufs_sub .., binary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., unary_bufs_sub .., binary_bufs_sub .., binary_bufs_sub .., nullary_bufs_sub .., unary_bufs_sub .., binary_bufs_sub .., binary_bufs_sub ..⟩
theorem ops2_fresh : (ops2 : List (HloOp τ sig (Elt F))).Forall fun op => op.fresh = ∅ := by
  simp only [List.Forall]; repeat' constructor

abbrev ops2_W : List (Ref sig .tc) := [main_v49, main_call1_cst, main_call1_v0, main_v50, main_v51, main_cst_9, main_v52, main_v53, main_v54, main_v55, main_c_10, main_v56, main_v57, main_c_11, main_v58, main_v59, main_v60, main_v61, main_v62, main_v63, main_v64, main_cst_12, main_v65, main_v66, main_v67, main_v68, main_v69, main_v70, main_v71, main_v72, main_v73, main_v74, main_v75, main_v76, main_v77, main_v78, main_v79, main_call2_cst, main_call2_v0, main_v80, main_cst_13, main_v81, main_v82, main_v83, main_cst_14, main_v84, main_v85, main_v86, main_cst_15, main_v87, main_v88, main_v89, main_v90, main_v91, main_v92, main_cst_16, main_v93, main_v94, main_v95]
set_option maxHeartbeats 1000000 in
theorem ops2_writes : (ops2 : List (HloOp τ sig (Elt F))).Forall fun op => op.writes ⊆ (ops2_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> writes_mem

theorem ops2_keep (V : Valuation τ sig (Elt F)) (r : Ref sig .tc) (h : r ∉ ops2_W) : after ops2 V r = V r :=
  after_of_writes_sub ops2 V ops2_writes h

theorem ops3_sub : (ops3 : List (HloOp τ sig (Elt F))).Forall fun op => op.bufs ⊆ tcRefs τ sig :=
  ⟨nullary_bufs_sub .., unary_bufs_sub .., binary_bufs_sub .., nullary_bufs_sub .., unary_bufs_sub ..⟩
theorem ops3_fresh : (ops3 : List (HloOp τ sig (Elt F))).Forall fun op => op.fresh = ∅ := by
  simp only [List.Forall]; repeat' constructor

abbrev ops3_W : List (Ref sig .tc) := [main_c_17, main_v96, main_v97, main_c_18, main_v98]
set_option maxHeartbeats 1000000 in
theorem ops3_writes : (ops3 : List (HloOp τ sig (Elt F))).Forall fun op => op.writes ⊆ (ops3_W.map (Proc.devRef (τ := τ) .tc)).toFinset := by
  simp only [List.Forall]; refine ⟨?_, ?_, ?_, ?_, ?_⟩ <;> writes_mem

theorem ops3_keep (V : Valuation τ sig (Elt F)) (r : Ref sig .tc) (h : r ∉ ops3_W) : after ops3 V r = V r :=
  after_of_writes_sub ops3 V ops3_writes h

theorem ops4_sub : (ops4 : List (HloOp τ sig (Elt F))).Forall fun op => op.bufs ⊆ tcRefs τ sig :=
  ⟨binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., binary_bufs_sub .., nullary_bufs_sub .., unary_bufs_sub .., unary_bufs_sub .., ternary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., binary_bufs_sub .., binary_bufs_sub .., unary_bufs_sub .., unary_bufs_sub .., binary_bufs_sub .., binary_bufs_sub .., unary_bufs_sub .., unary_bufs_sub .., binary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub ..⟩
theorem ops4_fresh : (ops4 : List (HloOp τ sig (Elt F))).Forall fun op => op.fresh = ∅ := by
  simp only [List.Forall]; repeat' constructor

abbrev ops4_W : List (Ref sig .tc) := [main_v99, main_v100, main_v101, main_v102, main_c_19, main_v103, main_v104, main_c_20, main_v105, main_v106, main_v107, main_v108, main_v109, main_v110, main_v111, main_call3_cst, main_call3_v0, main_v112, main_v113, main_cst_21, main_v114, main_v115, main_v116, main_v117, main_c_22, main_v118, main_v119, main_c_23, main_v120, main_v121, main_v122, main_v123, main_v124, main_v125, main_v126, main_cst_24, main_v127, main_v128, main_v129, main_v130, main_v131, main_v132, main_v133, main_v134, main_v135, main_v136, main_v137, main_v138, main_v139, main_v140, main_v141, main_call4_cst, main_call4_v0, main_v142, main_cst_25, main_v143, main_v144, main_v145, main_cst_26, main_v146, main_v147, main_v148, main_cst_27, main_v149]
set_option maxHeartbeats 1000000 in
theorem ops4_writes : (ops4 : List (HloOp τ sig (Elt F))).Forall fun op => op.writes ⊆ (ops4_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> writes_mem

theorem ops4_keep (V : Valuation τ sig (Elt F)) (r : Ref sig .tc) (h : r ∉ ops4_W) : after ops4 V r = V r :=
  after_of_writes_sub ops4 V ops4_writes h

theorem ops5_sub : (ops5 : List (HloOp τ sig (Elt F))).Forall fun op => op.bufs ⊆ tcRefs τ sig :=
  ⟨binary_bufs_sub .., binary_bufs_sub .., unary_bufs_sub .., binary_bufs_sub .., binary_bufs_sub .., nullary_bufs_sub .., unary_bufs_sub .., binary_bufs_sub .., binary_bufs_sub ..⟩
theorem ops5_fresh : (ops5 : List (HloOp τ sig (Elt F))).Forall fun op => op.fresh = ∅ := by
  simp only [List.Forall]; repeat' constructor

abbrev ops5_W : List (Ref sig .tc) := [main_v150, main_v151, main_v152, main_v153, main_v154, main_cst_28, main_v155, main_v156, main_v157]
set_option maxHeartbeats 1000000 in
theorem ops5_writes : (ops5 : List (HloOp τ sig (Elt F))).Forall fun op => op.writes ⊆ (ops5_W.map (Proc.devRef (τ := τ) .tc)).toFinset := by
  simp only [List.Forall]; refine ⟨?_, ?_, ?_, ?_, ?_, ?_, ?_, ?_, ?_⟩ <;> writes_mem

theorem ops5_keep (V : Valuation τ sig (Elt F)) (r : Ref sig .tc) (h : r ∉ ops5_W) : after ops5 V r = V r :=
  after_of_writes_sub ops5 V ops5_writes h

theorem ops6_sub : (ops6 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., binary_bufs_sub .., nullary_bufs_sub .., unary_bufs_sub .., unary_bufs_sub .., ternary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., binary_bufs_sub .., binary_bufs_sub .., unary_bufs_sub .., unary_bufs_sub .., binary_bufs_sub .., binary_bufs_sub .., unary_bufs_sub .., unary_bufs_sub ..⟩
theorem ops6_fresh : (ops6 : List (HloOp τ sig (Elt F))).Forall fun op => op.fresh = ∅ := by
  simp only [List.Forall]; repeat' constructor

abbrev ops6_W : List (Ref sig .tc) := [main_c_29, main_v158, main_v159, main_c_30, main_v160, main_v161, main_v162, main_v163, main_v164, main_c_31, main_v165, main_v166, main_c_32, main_v167, main_v168, main_v169, main_v170, main_v171, main_v172, main_v173, main_call5_cst, main_call5_v0, main_v174, main_v175, main_cst_33, main_v176, main_v177, main_v178, main_v179, main_c_34, main_v180, main_v181, main_c_35, main_v182, main_v183, main_v184, main_v185, main_v186, main_v187, main_v188, main_cst_36, main_v189, main_v190, main_v191, main_v192, main_v193, main_v194, main_v195, main_v196, main_v197, main_v198, main_v199, main_v200]
set_option maxHeartbeats 1000000 in
theorem ops6_writes : (ops6 : List (HloOp τ sig (Elt F))).Forall fun op => op.writes ⊆ (ops6_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> writes_mem

theorem ops6_keep (V : Valuation τ sig (Elt F)) (r : Ref sig .tc) (h : r ∉ ops6_W) : after ops6 V r = V r :=
  after_of_writes_sub ops6 V ops6_writes h

theorem ops7_sub : (ops7 : List (HloOp τ sig (Elt F))).Forall fun op => op.bufs ⊆ tcRefs τ sig :=
  ⟨binary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., unary_bufs_sub .., binary_bufs_sub .., binary_bufs_sub .., nullary_bufs_sub .., unary_bufs_sub .., binary_bufs_sub .., binary_bufs_sub ..⟩
theorem ops7_fresh : (ops7 : List (HloOp τ sig (Elt F))).Forall fun op => op.fresh = ∅ := by
  simp only [List.Forall]; repeat' constructor

abbrev ops7_W : List (Ref sig .tc) := [main_v201, main_v202, main_v203, main_call6_cst, main_call6_v0, main_v204, main_cst_37, main_v205, main_v206, main_v207, main_cst_38, main_v208, main_v209, main_v210, main_cst_39, main_v211, main_v212, main_v213, main_v214, main_v215, main_v216, main_cst_40, main_v217, main_v218, main_v219]
set_option maxHeartbeats 1000000 in
theorem ops7_writes : (ops7 : List (HloOp τ sig (Elt F))).Forall fun op => op.writes ⊆ (ops7_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_⟩ <;> writes_mem

theorem ops7_keep (V : Valuation τ sig (Elt F)) (r : Ref sig .tc) (h : r ∉ ops7_W) : after ops7 V r = V r :=
  after_of_writes_sub ops7 V ops7_writes h

theorem ops8_sub : (ops8 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., binary_bufs_sub .., nullary_bufs_sub .., unary_bufs_sub .., unary_bufs_sub .., ternary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub ..⟩
theorem ops8_fresh : (ops8 : List (HloOp τ sig (Elt F))).Forall fun op => op.fresh = ∅ := by
  simp only [List.Forall]; repeat' constructor

abbrev ops8_W : List (Ref sig .tc) := [main_c_41, main_v220, main_v221, main_c_42, main_v222, main_v223, main_v224, main_v225, main_v226, main_c_43, main_v227, main_v228, main_c_44, main_v229, main_v230, main_v231, main_v232, main_v233, main_v234, main_v235, main_call7_cst, main_call7_v0, main_v236, main_v237, main_cst_45, main_v238, main_v239, main_v240, main_v241, main_c_46, main_v242, main_v243, main_c_47, main_v244, main_v245, main_v246, main_v247, main_v248, main_v249]
set_option maxHeartbeats 1000000 in
theorem ops8_writes : (ops8 : List (HloOp τ sig (Elt F))).Forall fun op => op.writes ⊆ (ops8_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> writes_mem

theorem ops8_keep (V : Valuation τ sig (Elt F)) (r : Ref sig .tc) (h : r ∉ ops8_W) : after ops8 V r = V r :=
  after_of_writes_sub ops8 V ops8_writes h

theorem ops9_sub : (ops9 : List (HloOp τ sig (Elt F))).Forall fun op => op.bufs ⊆ tcRefs τ sig :=
  ⟨binary_bufs_sub .., nullary_bufs_sub .., unary_bufs_sub .., unary_bufs_sub .., ternary_bufs_sub .., unary_bufs_sub .., binary_bufs_sub .., binary_bufs_sub .., unary_bufs_sub .., unary_bufs_sub .., binary_bufs_sub .., binary_bufs_sub .., unary_bufs_sub .., unary_bufs_sub .., binary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., unary_bufs_sub .., binary_bufs_sub .., binary_bufs_sub .., nullary_bufs_sub .., unary_bufs_sub .., binary_bufs_sub .., binary_bufs_sub ..⟩
theorem ops9_fresh : (ops9 : List (HloOp τ sig (Elt F))).Forall fun op => op.fresh = ∅ := by
  simp only [List.Forall]; repeat' constructor

abbrev ops9_W : List (Ref sig .tc) := [main_v250, main_cst_48, main_v251, main_v252, main_v253, main_v254, main_v255, main_v256, main_v257, main_v258, main_v259, main_v260, main_v261, main_v262, main_v263, main_v264, main_v265, main_call8_cst, main_call8_v0, main_v266, main_cst_49, main_v267, main_v268, main_v269, main_cst_50, main_v270, main_v271, main_v272, main_cst_51, main_v273, main_v274, main_v275, main_v276, main_v277, main_v278, main_cst_52, main_v279, main_v280, main_v281]
set_option maxHeartbeats 1000000 in
theorem ops9_writes : (ops9 : List (HloOp τ sig (Elt F))).Forall fun op => op.writes ⊆ (ops9_W.map (Proc.devRef (τ := τ) .tc)).toFinset := by
  simp only [List.Forall]; refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> writes_mem

theorem ops9_keep (V : Valuation τ sig (Elt F)) (r : Ref sig .tc) (h : r ∉ ops9_W) : after ops9 V r = V r :=
  after_of_writes_sub ops9 V ops9_writes h

theorem ops10_sub : (ops10 : List (HloOp τ sig (Elt F))).Forall fun op => op.bufs ⊆ tcRefs τ sig :=
  ⟨binary_bufs_sub .., unary_bufs_sub .., unary_bufs_sub .., binary_bufs_sub ..⟩
theorem ops10_fresh : (ops10 : List (HloOp τ sig (Elt F))).Forall fun op => op.fresh = ∅ := by
  simp only [List.Forall]; repeat' constructor

abbrev ops10_W : List (Ref sig .tc) := [main_v282, main_v283, main_v284, main_v285]
set_option maxHeartbeats 1000000 in
theorem ops10_writes : (ops10 : List (HloOp τ sig (Elt F))).Forall fun op => op.writes ⊆ (ops10_W.map (Proc.devRef (τ := τ) .tc)).toFinset := by
  simp only [List.Forall]; refine ⟨?_, ?_, ?_, ?_⟩ <;> writes_mem

theorem ops10_keep (V : Valuation τ sig (Elt F)) (r : Ref sig .tc) (h : r ∉ ops10_W) : after ops10 V r = V r :=
  after_of_writes_sub ops10 V ops10_writes h

set_option maxRecDepth 8192 in
theorem main_part0_eq (c : Dev nD) : main_part0 (F := F) c = seq (ops0 ++ ops1) := by chain_rfl
set_option maxRecDepth 8192 in
theorem main_part1_eq (c : Dev nD) : main_part1 (F := F) c = seq (ops2 ++ ops3) := by chain_rfl
set_option maxRecDepth 8192 in
theorem main_part2_eq (c : Dev nD) : main_part2 (F := F) c = seq ops4 := by chain_rfl
set_option maxRecDepth 8192 in
theorem main_part3_eq (c : Dev nD) : main_part3 (F := F) c = seq (ops5 ++ ops6) := by chain_rfl
set_option maxRecDepth 8192 in
theorem main_part4_eq (c : Dev nD) : main_part4 (F := F) c = seq (ops7 ++ ops8) := by chain_rfl
set_option maxRecDepth 8192 in
theorem main_part5_eq (c : Dev nD) : main_part5 (F := F) c = seq (ops9 ++ ops10) := by chain_rfl

theorem main_eq (c : Dev nD) : main (F := F) c = seq ops := by
  rw [ops, seq_append (ops0 ++ ops1), seq_append (ops2 ++ ops3), seq_append ops4, seq_append (ops5 ++ ops6), seq_append (ops7 ++ ops8),
    ← main_part0_eq c, ← main_part1_eq c, ← main_part2_eq c, ← main_part3_eq c, ← main_part4_eq c, ← main_part5_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_append (forall_append ops0_sub ops1_sub) (forall_append (forall_append ops2_sub ops3_sub) (forall_append ops4_sub
    (forall_append (forall_append ops5_sub ops6_sub) (forall_append (forall_append ops7_sub ops8_sub) (forall_append ops9_sub ops10_sub)))))
theorem ops_fresh : (ops : List (HloOp τ sig (Elt F))).Forall fun op => op.fresh = ∅ :=
  forall_append (forall_append ops0_fresh ops1_fresh) (forall_append (forall_append ops2_fresh ops3_fresh) (forall_append ops4_fresh
    (forall_append (forall_append ops5_fresh ops6_fresh) (forall_append (forall_append ops7_fresh ops8_fresh) (forall_append ops9_fresh ops10_fresh)))))

theorem after_ops (V : Valuation τ sig (Elt F)) :
    after ops V = after ops10 (after ops9 (after ops8 (after ops7 (after ops6 (after ops5 (after ops4 (after ops3
      (after ops2 (after ops1 (after ops0 V)))))))))) := by
  simp only [ops, StableHlo.after_append]

theorem after_ops_stages (V : Valuation τ sig (Elt F)) :
    after ops V = after opsDec (after opsL4 (after opsL3 (after opsL2 (after opsL1 (after opsPre V))))) := by
  simp only [ops, opsPre, opsL1, opsL2, opsL3, opsL4, opsDec, StableHlo.after_append]

theorem ops_keep (V : Valuation τ sig (Elt F)) (r : Ref sig .tc)
    (h0 : r ∉ ops0_W) (h1 : r ∉ ops1_W) (h2 : r ∉ ops2_W) (h3 : r ∉ ops3_W) (h4 : r ∉ ops4_W) (h5 : r ∉ ops5_W)
    (h6 : r ∉ ops6_W) (h7 : r ∉ ops7_W) (h8 : r ∉ ops8_W) (h9 : r ∉ ops9_W) (h10 : r ∉ ops10_W) : after ops V r = V r := by
  rw [after_ops, ops10_keep _ r h10, ops9_keep _ r h9, ops8_keep _ r h8, ops7_keep _ r h7, ops6_keep _ r h6, ops5_keep _ r h5,
    ops4_keep _ r h4, ops3_keep _ r h3, ops2_keep _ r h2, ops1_keep _ r h1, ops0_keep _ r h0]

local macro "arg_keep" : term =>
  `(ops_keep _ _ (by decide) (by decide) (by decide) (by decide) (by decide) (by decide) (by decide) (by decide) (by decide)
      (by decide) (by decide))

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v285) = after ops (fun b => m (c, b)) main_v285
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨h c main_v285,
      (h c main_arg0).trans arg_keep,
      (h c main_arg1).trans arg_keep,
      (h c main_arg2).trans arg_keep,
      (h c main_arg3).trans arg_keep,
      (h c main_arg4).trans arg_keep,
      (h c main_arg5).trans arg_keep,
      (h c main_arg6).trans arg_keep,
      (h c main_arg7).trans arg_keep,
      (h c main_arg8).trans arg_keep,
      (h c main_arg9).trans arg_keep,
      (h c main_arg10).trans arg_keep,
      (h c main_arg11).trans arg_keep⟩)
    (run_seq scopedRefs_eq scopedSems_eq defs main (fun _ => ops) main_eq (fun _ => ops_sub) m ρ
      (fun _ => List.forall_iff_forall_mem.1 ops_fresh))

end Cert.ReferenceIdeal.Hand

end
-- ==== Proof.Ref.Chain.lean ====
import proofs.«147510_j18107582120779_2_alg».proof.Proof.Ref.Run
import proofs.«147510_j18107582120779_2_alg».proof.Proof.Spec.Ref

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

def argsOf (V : Valuation τ sig (Elt F)) : Spec.Args F where
  x := V main_arg0
  ei := V main_arg1
  encW := V main_arg2
  encb := V main_arg3
  convW := V main_arg4
  convb := V main_arg5
  resW := V main_arg6
  resb := V main_arg7
  wmlp := V main_arg8
  lam := V main_arg9
  decW := V main_arg10
  decb := V main_arg11

def layerAt (V : Valuation τ sig (Elt F)) :
    FVec F S50000x64 .f32 × FVec F S50000x64 .f32 → FVec F S50000x64 .f32 × FVec F S50000x64 .f32 :=
  Spec.refLayer (V main_v1) (V main_v3) (V main_v26) (V main_v28) (V main_arg4) (V main_arg5) (V main_arg6) (V main_arg7)
    (V main_arg8) (V main_arg9)

theorem layerAt_congr {V W : Valuation τ sig (Elt F)}
    (h0 : W main_v1 = V main_v1)
    (h1 : W main_v3 = V main_v3)
    (h2 : W main_v26 = V main_v26)
    (h3 : W main_v28 = V main_v28)
    (h4 : W main_arg4 = V main_arg4)
    (h5 : W main_arg5 = V main_arg5)
    (h6 : W main_arg6 = V main_arg6)
    (h7 : W main_arg7 = V main_arg7)
    (h8 : W main_arg8 = V main_arg8)
    (h9 : W main_arg9 = V main_arg9) : layerAt W = layerAt V := by
  unfold layerAt; rw [h0, h1, h2, h3, h4, h5, h6, h7, h8, h9]

theorem pre_src (V : Valuation τ sig (Elt F)) : after opsPre V main_v1 = Spec.srcOf (V main_arg1) := by
  after_results_simp <;> (try simp only [TRef.ofBuf, TRef.toBuf, cast_eq]) <;> rfl
theorem pre_dst (V : Valuation τ sig (Elt F)) : after opsPre V main_v3 = Spec.dstOf (V main_arg1) := by
  after_results_simp <;> (try simp only [TRef.ofBuf, TRef.toBuf, cast_eq]) <;> rfl
set_option maxHeartbeats 1000000 in
theorem pre_enorm (V : Valuation τ sig (Elt F)) :
    after opsPre V main_v26
      = Spec.enormCol (Spec.dinv (Spec.dstOf (V main_arg1))) (Spec.srcOf (V main_arg1)) (Spec.dstOf (V main_arg1)) := by
  after_results_simp <;> (try simp only [TRef.ofBuf, TRef.toBuf, cast_eq]) <;> rfl
set_option maxHeartbeats 1000000 in
theorem pre_selfNorm (V : Valuation τ sig (Elt F)) :
    after opsPre V main_v28 = Spec.selfNormCol (Spec.dinv (Spec.dstOf (V main_arg1))) := by
  after_results_simp <;> (try simp only [TRef.ofBuf, TRef.toBuf, cast_eq]) <;> rfl
set_option maxHeartbeats 1000000 in
theorem pre_enc (V : Valuation τ sig (Elt F)) :
    after opsPre V main_v33 = Spec.enc (V main_arg0) (V main_arg2) (V main_arg3) := by
  after_results_simp <;> (try simp only [TRef.ofBuf, TRef.toBuf, cast_eq]) <;> rfl

theorem opsPre_keep (V : Valuation τ sig (Elt F)) (r : Ref sig .tc) (h : r ∉ ops0_W) : after opsPre V r = V r :=
  ops0_keep V r h

theorem opsL1_keep (V : Valuation τ sig (Elt F)) (r : Ref sig .tc) (h1 : r ∉ ops1_W) (h2 : r ∉ ops2_W) : after opsL1 V r = V r := by
  rw [opsL1, StableHlo.after_append, ops2_keep _ r h2, ops1_keep _ r h1]
theorem layerAt_opsL1 (V : Valuation τ sig (Elt F)) : layerAt (after opsL1 V) = layerAt V :=
  layerAt_congr (opsL1_keep V main_v1 (by decide) (by decide))
    (opsL1_keep V main_v3 (by decide) (by decide))
    (opsL1_keep V main_v26 (by decide) (by decide))
    (opsL1_keep V main_v28 (by decide) (by decide))
    (opsL1_keep V main_arg4 (by decide) (by decide))
    (opsL1_keep V main_arg5 (by decide) (by decide))
    (opsL1_keep V main_arg6 (by decide) (by decide))
    (opsL1_keep V main_arg7 (by decide) (by decide))
    (opsL1_keep V main_arg8 (by decide) (by decide))
    (opsL1_keep V main_arg9 (by decide) (by decide))
set_option maxHeartbeats 4000000 in
theorem layer1_fst (V : Valuation τ sig (Elt F)) : after opsL1 V main_v95 = (layerAt V (V main_v33, V main_v33)).1 := by
  rw [opsL1, StableHlo.after_append]; unfold layerAt Spec.refLayer
  after_results_simp <;> (try simp only [TRef.ofBuf, TRef.toBuf, cast_eq]) <;> rfl
set_option maxHeartbeats 4000000 in
theorem layer1_snd (V : Valuation τ sig (Elt F)) : after opsL1 V main_v89 = (layerAt V (V main_v33, V main_v33)).2 := by
  rw [opsL1, StableHlo.after_append]; unfold layerAt Spec.refLayer
  after_results_simp <;> (try simp only [TRef.ofBuf, TRef.toBuf, cast_eq]) <;> rfl

theorem layer1 (V : Valuation τ sig (Elt F)) :
    (after opsL1 V main_v95, after opsL1 V main_v89) = layerAt V (V main_v33, V main_v33) :=
  Prod.ext (layer1_fst V) (layer1_snd V)

theorem opsL2_keep (V : Valuation τ sig (Elt F)) (r : Ref sig .tc) (h3 : r ∉ ops3_W) (h4 : r ∉ ops4_W) (h5 : r ∉ ops5_W) : after opsL2 V r = V r := by
  rw [opsL2, StableHlo.after_append, StableHlo.after_append, ops5_keep _ r h5, ops4_keep _ r h4, ops3_keep _ r h3]
theorem layerAt_opsL2 (V : Valuation τ sig (Elt F)) : layerAt (after opsL2 V) = layerAt V :=
  layerAt_congr (opsL2_keep V main_v1 (by decide) (by decide) (by decide))
    (opsL2_keep V main_v3 (by decide) (by decide) (by decide))
    (opsL2_keep V main_v26 (by decide) (by decide) (by decide))
    (opsL2_keep V main_v28 (by decide) (by decide) (by decide))
    (opsL2_keep V main_arg4 (by decide) (by decide) (by decide))
    (opsL2_keep V main_arg5 (by decide) (by decide) (by decide))
    (opsL2_keep V main_arg6 (by decide) (by decide) (by decide))
    (opsL2_keep V main_arg7 (by decide) (by decide) (by decide))
    (opsL2_keep V main_arg8 (by decide) (by decide) (by decide))
    (opsL2_keep V main_arg9 (by decide) (by decide) (by decide))
set_option maxHeartbeats 4000000 in
theorem layer2_fst (V : Valuation τ sig (Elt F)) : after opsL2 V main_v157 = (layerAt V (V main_v95, V main_v89)).1 := by
  rw [opsL2, StableHlo.after_append, StableHlo.after_append]; unfold layerAt Spec.refLayer
  after_results_simp <;> (try simp only [TRef.ofBuf, TRef.toBuf, cast_eq]) <;> rfl
set_option maxHeartbeats 4000000 in
theorem layer2_snd (V : Valuation τ sig (Elt F)) : after opsL2 V main_v151 = (layerAt V (V main_v95, V main_v89)).2 := by
  rw [opsL2, StableHlo.after_append, StableHlo.after_append]; unfold layerAt Spec.refLayer
  after_results_simp <;> (try simp only [TRef.ofBuf, TRef.toBuf, cast_eq]) <;> rfl

theorem layer2 (V : Valuation τ sig (Elt F)) :
    (after opsL2 V main_v157, after opsL2 V main_v151) = layerAt V (V main_v95, V main_v89) :=
  Prod.ext (layer2_fst V) (layer2_snd V)

theorem opsL3_keep (V : Valuation τ sig (Elt F)) (r : Ref sig .tc) (h6 : r ∉ ops6_W) (h7 : r ∉ ops7_W) : after opsL3 V r = V r := by
  rw [opsL3, StableHlo.after_append, ops7_keep _ r h7, ops6_keep _ r h6]
theorem layerAt_opsL3 (V : Valuation τ sig (Elt F)) : layerAt (after opsL3 V) = layerAt V :=
  layerAt_congr (opsL3_keep V main_v1 (by decide) (by decide))
    (opsL3_keep V main_v3 (by decide) (by decide))
    (opsL3_keep V main_v26 (by decide) (by decide))
    (opsL3_keep V main_v28 (by decide) (by decide))
    (opsL3_keep V main_arg4 (by decide) (by decide))
    (opsL3_keep V main_arg5 (by decide) (by decide))
    (opsL3_keep V main_arg6 (by decide) (by decide))
    (opsL3_keep V main_arg7 (by decide) (by decide))
    (opsL3_keep V main_arg8 (by decide) (by decide))
    (opsL3_keep V main_arg9 (by decide) (by decide))
set_option maxHeartbeats 4000000 in
theorem layer3_fst (V : Valuation τ sig (Elt F)) : after opsL3 V main_v219 = (layerAt V (V main_v157, V main_v151)).1 := by
  rw [opsL3, StableHlo.after_append]; unfold layerAt Spec.refLayer
  after_results_simp <;> (try simp only [TRef.ofBuf, TRef.toBuf, cast_eq]) <;> rfl
set_option maxHeartbeats 4000000 in
theorem layer3_snd (V : Valuation τ sig (Elt F)) : after opsL3 V main_v213 = (layerAt V (V main_v157, V main_v151)).2 := by
  rw [opsL3, StableHlo.after_append]; unfold layerAt Spec.refLayer
  after_results_simp <;> (try simp only [TRef.ofBuf, TRef.toBuf, cast_eq]) <;> rfl

theorem layer3 (V : Valuation τ sig (Elt F)) :
    (after opsL3 V main_v219, after opsL3 V main_v213) = layerAt V (V main_v157, V main_v151) :=
  Prod.ext (layer3_fst V) (layer3_snd V)

theorem opsL4_keep (V : Valuation τ sig (Elt F)) (r : Ref sig .tc) (h8 : r ∉ ops8_W) (h9 : r ∉ ops9_W) : after opsL4 V r = V r := by
  rw [opsL4, StableHlo.after_append, ops9_keep _ r h9, ops8_keep _ r h8]
theorem layerAt_opsL4 (V : Valuation τ sig (Elt F)) : layerAt (after opsL4 V) = layerAt V :=
  layerAt_congr (opsL4_keep V main_v1 (by decide) (by decide))
    (opsL4_keep V main_v3 (by decide) (by decide))
    (opsL4_keep V main_v26 (by decide) (by decide))
    (opsL4_keep V main_v28 (by decide) (by decide))
    (opsL4_keep V main_arg4 (by decide) (by decide))
    (opsL4_keep V main_arg5 (by decide) (by decide))
    (opsL4_keep V main_arg6 (by decide) (by decide))
    (opsL4_keep V main_arg7 (by decide) (by decide))
    (opsL4_keep V main_arg8 (by decide) (by decide))
    (opsL4_keep V main_arg9 (by decide) (by decide))
set_option maxHeartbeats 4000000 in
theorem layer4_fst (V : Valuation τ sig (Elt F)) : after opsL4 V main_v281 = (layerAt V (V main_v219, V main_v213)).1 := by
  rw [opsL4, StableHlo.after_append]; unfold layerAt Spec.refLayer
  after_results_simp <;> (try simp only [TRef.ofBuf, TRef.toBuf, cast_eq]) <;> rfl
set_option maxHeartbeats 4000000 in
theorem layer4_snd (V : Valuation τ sig (Elt F)) : after opsL4 V main_v275 = (layerAt V (V main_v219, V main_v213)).2 := by
  rw [opsL4, StableHlo.after_append]; unfold layerAt Spec.refLayer
  after_results_simp <;> (try simp only [TRef.ofBuf, TRef.toBuf, cast_eq]) <;> rfl

theorem layer4 (V : Valuation τ sig (Elt F)) :
    (after opsL4 V main_v281, after opsL4 V main_v275) = layerAt V (V main_v219, V main_v213) :=
  Prod.ext (layer4_fst V) (layer4_snd V)

theorem dec_result (V : Valuation τ sig (Elt F)) :
    after opsDec V main_v285 = Spec.dec (V main_v281) (V main_arg10) (V main_arg11) := by
  after_results_simp <;> (try simp only [TRef.ofBuf, TRef.toBuf, cast_eq]) <;> rfl

theorem after_ops_result (V : Valuation τ sig (Elt F)) : after ops V main_v285 = Spec.refOut (argsOf V) := by
  rw [after_ops_stages, dec_result,
    opsL4_keep _ main_arg10 (by decide) (by decide), opsL3_keep _ main_arg10 (by decide) (by decide), opsL2_keep _ main_arg10 (by decide) (by decide) (by decide), opsL1_keep _ main_arg10 (by decide) (by decide), opsPre_keep _ main_arg10 (by decide),
    opsL4_keep _ main_arg11 (by decide) (by decide), opsL3_keep _ main_arg11 (by decide) (by decide), opsL2_keep _ main_arg11 (by decide) (by decide) (by decide), opsL1_keep _ main_arg11 (by decide) (by decide), opsPre_keep _ main_arg11 (by decide),
    layer4_fst, layer3, layer2, layer1, layerAt_opsL3, layerAt_opsL2, layerAt_opsL1]
  unfold layerAt
  rw [pre_src, pre_dst, pre_enorm, pre_selfNorm, pre_enc,
    opsPre_keep _ main_arg4 (by decide), opsPre_keep _ main_arg5 (by decide), opsPre_keep _ main_arg6 (by decide), opsPre_keep _ main_arg7 (by decide), opsPre_keep _ main_arg8 (by decide), opsPre_keep _ main_arg9 (by decide)]
  rfl

end Cert.ReferenceIdeal.Hand

end
-- ==== Proof.Bridge.RowScatter.lean ====
import Idealize.ShloMosaic.Lib.ValueLayout

noncomputable section

open scoped BigOperators

namespace Cert.Bridge

open Idealize.ShloMosaic Idealize.ShloMosaic.ValueIdx

variable {N E C : Nat}

abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section
variable (wf : ScatterDims.WF ⟨2, ![N, C]⟩ ⟨2, ![E, 1]⟩ ⟨2, ![E, C]⟩ [1] [0] [0] 1) {w : Nat}
  (j : (⟨2, ![E, C]⟩ : Shape).Idx) (idx : IVec ⟨2, ![E, 1]⟩ w)

theorem rs_window0 : (rowScatterDims N E C wf).window j 0 = 0 := by
  unfold ScatterDims.window
  rw [dif_neg (by show (0 : Fin 2) ∉ ([1] : List (Fin 2)); decide)]

theorem rs_window1 : (rowScatterDims N E C wf).window j 1 = (j 1).val := by
  unfold ScatterDims.window
  rw [dif_pos (by show (1 : Fin 2) ∈ ([1] : List (Fin 2)); decide)]
  rfl

theorem rs_start1 : (rowScatterDims N E C wf).start j idx 1 = 0 := by
  unfold ScatterDims.start
  rw [dif_neg (by show (1 : Fin 2) ∉ ([0] : List (Fin 2)); decide)]

theorem rs_siIdx0 : (rowScatterDims N E C wf).siIdx j ⟨0, Nat.one_pos⟩ = ix2 (j 0) (0 : Fin 1) := by
  funext b
  match b with
  | ⟨0, _⟩ => rfl
  | ⟨1, _⟩ => rfl

theorem rs_start0 : (rowScatterDims N E C wf).start j idx 0 = (idx (ix2 (j 0) (0 : Fin 1))).toInt := by
  unfold ScatterDims.start
  rw [dif_pos (by show (0 : Fin 2) ∈ ([0] : List (Fin 2)); decide)]
  exact congrArg (fun t => (idx t).toInt) (rs_siIdx0 wf j)

theorem rs_resultIdx?_eq_some_iff (p : (⟨2, ![N, C]⟩ : Shape).Idx) :
    (rowScatterDims N E C wf).resultIdx? j idx = some p ↔
      (idx (ix2 (j 0) (0 : Fin 1))).toInt = ((p 0).val : Int) ∧ (j 1).val = (p 1).val := by
  unfold ScatterDims.resultIdx?
  constructor
  · intro h
    split at h
    · next hh =>
      have hp := Option.some.inj h
      have h0 := congrArg (fun q : (⟨2, ![N, C]⟩ : Shape).Idx => (q 0).val) hp
      have h1 := congrArg (fun q : (⟨2, ![N, C]⟩ : Shape).Idx => (q 1).val) hp
      simp only [rs_start0, rs_start1, rs_window0, rs_window1] at h0 h1 hh
      have hh0 := hh 0
      simp only [rs_start0, rs_window0] at hh0
      constructor
      · omega
      · omega
    · exact absurd h (by simp)
  · rintro ⟨h0, h1⟩
    have hh : ∀ a, 0 ≤ (rowScatterDims N E C wf).start j idx a + (rowScatterDims N E C wf).window j a ∧
        (rowScatterDims N E C wf).start j idx a + (rowScatterDims N E C wf).window j a < (⟨2, ![N, C]⟩ : Shape).size a := by
      refine Fin.forall_fin_two.2 ⟨?_, ?_⟩
      · rw [rs_start0, rs_window0, h0]; have := idx2_lt0 p; show _ ∧ _ < (N : Int); omega
      · rw [rs_start1, rs_window1]; have := idx2_lt1 p; show _ ∧ _ < (C : Int); omega
    rw [dif_pos hh]
    congr 1
    funext a
    revert a
    refine Fin.forall_fin_two.2 ⟨?_, ?_⟩
    · apply Fin.ext
      show ((rowScatterDims N E C wf).start j idx 0 + (rowScatterDims N E C wf).window j 0).toNat = (p 0).val
      rw [rs_start0, rs_window0, h0]; omega
    · apply Fin.ext
      show ((rowScatterDims N E C wf).start j idx 1 + (rowScatterDims N E C wf).window j 1).toNat = (p 1).val
      rw [rs_start1, rs_window1]; omega

end

abbrev colEmb {M C C' : Nat} (off : Nat) (h : off + C ≤ C') (q : (⟨2, ![M, C]⟩ : Shape).Idx) : (⟨2, ![M, C']⟩ : Shape).Idx :=
  ix2 (q 0) ⟨off + (q 1).val, by have := idx2_lt1 q; omega⟩

theorem scatterAdd_cols {N E C C' w : Nat} (off : Nat) (hoff : off + C ≤ C')
    (wf' : ScatterDims.WF ⟨2, ![N, C']⟩ ⟨2, ![E, 1]⟩ ⟨2, ![E, C']⟩ [1] [0] [0] 1)
    (wf : ScatterDims.WF ⟨2, ![N, C]⟩ ⟨2, ![E, 1]⟩ ⟨2, ![E, C]⟩ [1] [0] [0] 1)
    (x' : (⟨2, ![N, C']⟩ : Shape).Idx → EReal) (x : (⟨2, ![N, C]⟩ : Shape).Idx → EReal) (idx : IVec ⟨2, ![E, 1]⟩ w)
    (U : (⟨2, ![E, C']⟩ : Shape).Idx → EReal) (u : (⟨2, ![E, C]⟩ : Shape).Idx → EReal)
    (hx : ∀ p, x' (colEmb off hoff p) = x p) (hU : ∀ q, U (colEmb off hoff q) = u q) (p : (⟨2, ![N, C]⟩ : Shape).Idx) :
    Ideal.hostScatterAdd (rowScatterDims N E C' wf') x' idx U (colEmb off hoff p)
      = Ideal.hostScatterAdd (rowScatterDims N E C wf) x idx u p := by
  have hC : 0 < C := by have := idx2_lt1 p; omega
  unfold Ideal.hostScatterAdd
  rw [hx]
  congr 1
  symm
  refine Finset.sum_nbij' (i := colEmb off hoff)
    (j := fun j' => ix2 (j' 0) ⟨((j' 1).val - off) % C, Nat.mod_lt _ hC⟩) ?_ ?_ ?_ ?_ ?_
  · intro j hj
    rw [Finset.mem_filter] at hj ⊢
    refine ⟨Finset.mem_univ _, ?_⟩
    have := (rs_resultIdx?_eq_some_iff wf j idx p).1 hj.2
    refine (rs_resultIdx?_eq_some_iff wf' _ idx _).2 ⟨this.1, ?_⟩
    show off + (j 1).val = off + (p 1).val
    omega
  · intro j' hj'
    rw [Finset.mem_filter] at hj' ⊢
    refine ⟨Finset.mem_univ _, ?_⟩
    have := (rs_resultIdx?_eq_some_iff wf' j' idx _).1 hj'.2
    refine (rs_resultIdx?_eq_some_iff wf _ idx p).2 ⟨this.1, ?_⟩
    have h1 : (j' 1).val = off + (p 1).val := this.2
    have hp := idx2_lt1 p
    show ((j' 1).val - off) % C = (p 1).val
    rw [h1, Nat.add_sub_cancel_left, Nat.mod_eq_of_lt hp]
  · intro j _
    have hj := idx2_lt1 j
    rw [eq_ix2 j]
    congr 1
    apply Fin.ext
    show (off + (j 1).val - off) % C = (j 1).val
    rw [Nat.add_sub_cancel_left, Nat.mod_eq_of_lt hj]
  · intro j' hj'
    rw [Finset.mem_filter] at hj'
    have := (rs_resultIdx?_eq_some_iff wf' j' idx _).1 hj'.2
    have h1 : (j' 1).val = off + (p 1).val := this.2
    have hp := idx2_lt1 p
    conv_rhs => rw [eq_ix2 j']
    show ix2 (j' 0) ⟨off + ((j' 1).val - off) % C, _⟩ = ix2 (j' 0) (j' 1)
    congr 1
    apply Fin.ext
    show off + ((j' 1).val - off) % C = (j' 1).val
    rw [h1, Nat.add_sub_cancel_left, Nat.mod_eq_of_lt hp]
  · intro j _
    exact (hU j).symm

end Cert.Bridge

end
-- ==== Proof.Bridge.RowGather.lean ====
import Idealize.ShloMosaic.Lib.ValueLayout
import Idealize.ShloMosaic.PureOps.Ideal.Laws

noncomputable section

open scoped BigOperators

namespace Cert.Bridge

open Idealize.ShloMosaic Idealize.ShloMosaic.ValueIdx

variable {N E C : Nat} {α : Type}

abbrev rowGatherDims (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

section
variable (wf : GatherDims.WF ⟨2, ![N, C]⟩ ⟨2, ![E, 1]⟩ ⟨2, ![E, C]⟩ [1] [0] [] [0] [] 1 ![1, C]) {w : Nat}
  (j : (⟨2, ![E, C]⟩ : Shape).Idx) (idx : IVec ⟨2, ![E, 1]⟩ w)

theorem rg_siIdx0 : (rowGatherDims N E C wf).siIdx j ⟨0, Nat.one_pos⟩ = ix2 (j 0) (0 : Fin 1) := by
  funext b
  match b with
  | ⟨0, _⟩ => rfl
  | ⟨1, _⟩ => rfl

theorem rg_start0 : (rowGatherDims N E C wf).start j idx 0 = min (idx (ix2 (j 0) (0 : Fin 1))).toInt.toNat (N - 1) := by
  unfold GatherDims.start
  rw [dif_pos (by show (0 : Fin 2) ∈ ([0] : List (Fin 2)); decide)]
  exact congrArg (fun t => min (idx t).toInt.toNat (N - 1)) (rg_siIdx0 wf j)

theorem rg_start1 : (rowGatherDims N E C wf).start j idx 1 = 0 := by
  unfold GatherDims.start
  rw [dif_neg (by show (1 : Fin 2) ∉ ([0] : List (Fin 2)); decide)]

theorem rg_off0 : (rowGatherDims N E C wf).offCoord j 0 = 0 := by
  unfold GatherDims.offCoord
  rw [dif_neg (by show (0 : Fin 2) ∉ ([1] : List (Fin 2)); decide)]

theorem rg_off1 : (rowGatherDims N E C wf).offCoord j 1 = (j 1).val := by
  unfold GatherDims.offCoord
  rw [dif_pos (by show (1 : Fin 2) ∈ ([1] : List (Fin 2)); decide)]
  rfl

abbrev startRow (hN : 0 < N) (idx : IVec ⟨2, ![E, 1]⟩ w) (e : Fin E) : Fin N :=
  ⟨min (idx (ix2 e (0 : Fin 1))).toInt.toNat (N - 1), by omega⟩

theorem rowGather_apply (hN : 0 < N) (x : (⟨2, ![N, C]⟩ : Shape).Idx → α) :
    Host.gather (rowGatherDims N E C wf) x idx j = x (ix2 (startRow hN idx (j 0)) (j 1)) := by
  unfold Host.gather
  congr 1
  funext a
  match a with
  | ⟨0, _⟩ =>
    apply Fin.ext
    show (rowGatherDims N E C wf).start j idx 0 + (rowGatherDims N E C wf).batchCoord j 0 + (rowGatherDims N E C wf).offCoord j 0 = _
    rw [rg_start0, rg_off0, GatherDims.batchCoord_eq_zero _ _ _ List.not_mem_nil]
    rfl
  | ⟨1, _⟩ =>
    apply Fin.ext
    show (rowGatherDims N E C wf).start j idx 1 + (rowGatherDims N E C wf).batchCoord j 1 + (rowGatherDims N E C wf).offCoord j 1 = _
    rw [rg_start1, rg_off1, GatherDims.batchCoord_eq_zero _ _ _ List.not_mem_nil]
    simp

end

section
variable {M K L : Nat} (j : (⟨2, ![M, L]⟩ : Shape).Idx) (k : (DotDims.plain M K L).contr.Idx)

theorem plain_lhsIdx0 : ((DotDims.plain M K L).lhsIdx j k 0).val = (j 0).val := rfl
theorem plain_lhsIdx1 : ((DotDims.plain M K L).lhsIdx j k 1).val = (k ⟨0, Nat.one_pos⟩).val := rfl
theorem plain_rhsIdx0 : ((DotDims.plain M K L).rhsIdx j k 0).val = (k ⟨0, Nat.one_pos⟩).val := rfl
theorem plain_rhsIdx1 : ((DotDims.plain M K L).rhsIdx j k 1).val = (j 1).val := rfl

end

theorem dot_rowGather {N E K L w : Nat} (hN : 0 < N)
    (wfK : GatherDims.WF ⟨2, ![N, K]⟩ ⟨2, ![E, 1]⟩ ⟨2, ![E, K]⟩ [1] [0] [] [0] [] 1 ![1, K])
    (wfL : GatherDims.WF ⟨2, ![N, L]⟩ ⟨2, ![E, 1]⟩ ⟨2, ![E, L]⟩ [1] [0] [] [0] [] 1 ![1, L])
    (prec : Option ContractPrecision) (sched : HostSchedule)
    (X : FVec Ideal ⟨2, ![N, K]⟩ .f32) (W : FVec Ideal ⟨2, ![K, L]⟩ .f32) (idx : IVec ⟨2, ![E, 1]⟩ w) :
    FloatOps.dotGeneral (DotDims.plain E K L) prec sched (Host.gather (rowGatherDims N E K wfK) X idx) W
      = Host.gather (rowGatherDims N E L wfL) (FloatOps.dotGeneral (DotDims.plain N K L) prec sched X W) idx := by
  funext j
  rw [Ideal.dotGeneral_apply, rowGather_apply wfL j idx hN, Ideal.dotGeneral_apply]
  refine Finset.sum_congr rfl fun k _ => ?_
  rw [rowGather_apply wfK _ idx hN]
  congr 2
  · funext a
    revert a
    refine Fin.forall_fin_two.2 ⟨?_, ?_⟩
    · apply Fin.ext
      rfl
    · apply Fin.ext
      rfl
  · funext a
    revert a
    refine Fin.forall_fin_two.2 ⟨?_, ?_⟩
    · apply Fin.ext
      rfl
    · apply Fin.ext
      rfl

end Cert.Bridge

end
-- ==== Proof.Bridge.Facts.lean ====
import proofs.«147510_j18107582120779_2_alg».proof.Proof.Spec.Ker
import proofs.«147510_j18107582120779_2_alg».proof.Proof.Bridge.RowScatter
import proofs.«147510_j18107582120779_2_alg».proof.Proof.Bridge.RowGather

noncomputable section

open scoped BigOperators

namespace Cert.Bridge

open Idealize.ShloMosaic Idealize.ShloMosaic.ValueIdx Cert.ReferenceIdeal Cert.Spec
open Cert.ReferenceIdeal.Facts₀

variable [Cert.ReferenceIdeal.Facts₀] [Cert.KernelIdeal.Facts₀]

theorem shapeCast_row_eq_bcast {α : Type} {n : Nat} (hn : n ≠ 1) (b : (⟨1, ![n]⟩ : Shape).Idx → α)
    (hc : (⟨1, ![n]⟩ : Shape).ShapeCasts ⟨2, ![1, n]⟩)
    (hb : (⟨1, ![n]⟩ : Shape).BroadcastsInDim ⟨2, ![1, n]⟩ (![1] : Fin 1 → Fin 2)) :
    shapeCast ⟨2, ![1, n]⟩ b hc = broadcastInDim ⟨2, ![1, n]⟩ ![1] hb b := by
  funext j
  obtain ⟨u, i, rfl⟩ : ∃ u i, j = ix2 u i := ⟨j 0, j 1, eq_ix2 j⟩
  rw [shapeCast_a_1a_apply]
  unfold broadcastInDim
  congr 1
  funext a
  obtain rfl : a = 0 := Subsingleton.elim _ _
  apply Fin.ext
  split
  · next h1 => exact absurd h1 hn
  · rfl

theorem rowOf64_eq {F : FTy → Type} [FloatOps F] (b : FVec F S64 .f32) :
    rowOf64 b = broadcastInDim S1x64 ![1] bcast_S64_S1x64_1 b :=
  shapeCast_row_eq_bcast (by decide) b _ _

theorem rowOf40_eq {F : FTy → Type} [FloatOps F] (b : FVec F S40 .f32) :
    rowOf40 b = broadcastInDim S1x40 ![1] bcast_S40_S1x40_1 b :=
  shapeCast_row_eq_bcast (by decide) b _ _

theorem linG_zero (X : FVec Ideal S50000x64 .f32) (W : FVec Ideal S64x64 .f32) :
    linG X W zeroRow64 = Host.dotGeneral dot_S50000x64_S64x64_S50000x64_1_0_0_1_n_n none X W := by
  funext j
  show Host.dotGeneral dot_S50000x64_S64x64_S50000x64_1_0_0_1_n_n none X W j + Ideal.ofBits .f32 0x00000000#32 = _
  rw [Ideal.ofBits_zero_f32, add_zero]

theorem mulf_comm' {s : Shape} (a b : FVec Ideal s .f32) : mulf a b = mulf b a := by
  funext j
  exact mul_comm (a j) (b j)

theorem negf_eq_host {s : Shape} (v : FVec Ideal s .f32) : negf v = Host.negf v := rfl

theorem slice_cols_apply {α : Type} {M C C' : Nat} (off : Nat) (hoff : off + C ≤ C') (A : (⟨2, ![M, C']⟩ : Shape).Idx → α)
    (h : (⟨2, ![M, C']⟩ : Shape).Slices ![0, off] ⟨2, ![M, C]⟩) (p : (⟨2, ![M, C]⟩ : Shape).Idx) :
    extractStridedSlice ⟨2, ![M, C]⟩ ![0, off] A h p = A (colEmb off hoff p) := by
  unfold extractStridedSlice
  congr 1
  funext a
  revert a
  refine Fin.forall_fin_two.2 ⟨?_, ?_⟩
  · apply Fin.ext
    show 0 + (p 0).val = (p 0).val
    omega
  · apply Fin.ext
    rfl

theorem edgeG_colEmb_lo (Xs Xd : FVec Ideal S800000x64 .f32) (wmlp convW : FVec Ideal S64x64 .f32)
    (en : FVec Ideal S800000x1 .f32) (q : S800000x64.Idx) :
    edgeG Xs Xd wmlp convW en (colEmb (M := 800000) (C := 64) (C' := 128) 0 (by decide) q) = edgeMsg Xs Xd wmlp q := by
  have h : ((colEmb (M := 800000) (C := 64) (C' := 128) 0 (by decide) q) 1).val < 64 := by
    show 0 + (q 1).val < 64
    have := idx2_lt1 q
    omega
  rw [edgeG_lt _ _ _ _ _ _ h]
  congr 1
  conv_rhs => rw [eq_ix2 q]
  congr 1
  apply Fin.ext
  show 0 + (q 1).val = (q 1).val
  omega

theorem edgeG_colEmb_hi (Xs Xd : FVec Ideal S800000x64 .f32) (wmlp convW : FVec Ideal S64x64 .f32)
    (en : FVec Ideal S800000x1 .f32) (q : S800000x64.Idx) :
    edgeG Xs Xd wmlp convW en (colEmb (M := 800000) (C := 64) (C' := 128) 64 (by decide) q) = edgeEv Xs convW en q := by
  have h : ¬ ((colEmb (M := 800000) (C := 64) (C' := 128) 64 (by decide) q) 1).val < 64 := by
    show ¬ (64 + (q 1).val < 64)
    omega
  rw [edgeG_ge _ _ _ _ _ _ h]
  congr 1
  conv_rhs => rw [eq_ix2 q]
  congr 1
  apply Fin.ext
  show 64 + (q 1).val - 64 = (q 1).val
  omega

theorem scatterAdd_eq {s si su : Shape} {w : Nat} (d : ScatterDims s si su) (x : FVec Ideal s .f32) (idx : IVec si w)
    (upd : FVec Ideal su .f32) : Host.scatterAdd d x idx upd = Ideal.hostScatterAdd d x idx upd := rfl

theorem colsLo_apply (A : FVec Ideal S50000x128 .f32) (p : S50000x64.Idx) :
    colsLo A p = A (colEmb (M := 50000) (C := 64) (C' := 128) 0 (by decide) p) :=
  slice_cols_apply 0 (by decide) A _ p

theorem colsHi_apply (A : FVec Ideal S50000x128 .f32) (p : S50000x64.Idx) :
    colsHi A p = A (colEmb (M := 50000) (C := 64) (C' := 128) 64 (by decide) p) :=
  slice_cols_apply 64 (by decide) A _ p

theorem aggG_eq (dst : IVec S800000 32) (E : FVec Ideal Cert.KernelIdeal.S800000x128 .f32) :
    aggG dst E = Ideal.hostScatterAdd Cert.KernelIdeal.scatter_S50000x128_S800000x1_S800000x128_1_0_0_1
      (broadcastInDim S50000x128 ![] Cert.KernelIdeal.Facts₀.bcast_S_S50000x128 (constant (F := Ideal) S_ .f32 0x00000000#32))
      (broadcastInDim S800000x1 ![0] bcast_S800000_S800000x1_0 dst) E := rfl

theorem colsLo_aggG (dst : IVec S800000 32) (Xs Xd : FVec Ideal S800000x64 .f32) (wmlp convW : FVec Ideal S64x64 .f32)
    (en : FVec Ideal S800000x1 .f32) :
    colsLo (aggG dst (edgeG Xs Xd wmlp convW en))
      = Host.scatterAdd scatter_S50000x64_S800000x1_S800000x64_1_0_0_1
          (broadcastInDim S50000x64 ![] bcast_S_S50000x64 (constant (F := Ideal) S_ .f32 0x00000000#32))
          (broadcastInDim S800000x1 ![0] bcast_S800000_S800000x1_0 dst) (edgeMsg Xs Xd wmlp) := by
  funext p
  rw [colsLo_apply, aggG_eq, scatterAdd_eq]
  have hx : ∀ p : S50000x64.Idx,
      (broadcastInDim S50000x128 ![] Cert.KernelIdeal.Facts₀.bcast_S_S50000x128 (constant (F := Ideal) S_ .f32 0x00000000#32))
        (colEmb (M := 50000) (C := 64) (C' := 128) 0 (by decide) p)
      = (broadcastInDim S50000x64 ![] bcast_S_S50000x64 (constant (F := Ideal) S_ .f32 0x00000000#32)) p := fun _ => rfl
  have key := scatterAdd_cols (N := 50000) (E := 800000) (C := 64) (C' := 128) (w := 32) 0 (by decide)
    Cert.KernelIdeal.Facts₀.scatter_S50000x128_S800000x1_S800000x128_1_0_0_1_wf
    scatter_S50000x64_S800000x1_S800000x64_1_0_0_1_wf
    (broadcastInDim S50000x128 ![] Cert.KernelIdeal.Facts₀.bcast_S_S50000x128 (constant (F := Ideal) S_ .f32 0x00000000#32))
    (broadcastInDim S50000x64 ![] bcast_S_S50000x64 (constant (F := Ideal) S_ .f32 0x00000000#32))
    (broadcastInDim S800000x1 ![0] bcast_S800000_S800000x1_0 dst)
    (edgeG Xs Xd wmlp convW en) (edgeMsg Xs Xd wmlp) hx (edgeG_colEmb_lo Xs Xd wmlp convW en) p
  exact key

theorem colsHi_aggG (dst : IVec S800000 32) (Xs Xd : FVec Ideal S800000x64 .f32) (wmlp convW : FVec Ideal S64x64 .f32)
    (en : FVec Ideal S800000x1 .f32) :
    colsHi (aggG dst (edgeG Xs Xd wmlp convW en))
      = Host.scatterAdd scatter_S50000x64_S800000x1_S800000x64_1_0_0_1
          (broadcastInDim S50000x64 ![] bcast_S_S50000x64 (constant (F := Ideal) S_ .f32 0x00000000#32))
          (broadcastInDim S800000x1 ![0] bcast_S800000_S800000x1_0 dst) (edgeEv Xs convW en) := by
  funext p
  rw [colsHi_apply, aggG_eq, scatterAdd_eq]
  have hx : ∀ p : S50000x64.Idx,
      (broadcastInDim S50000x128 ![] Cert.KernelIdeal.Facts₀.bcast_S_S50000x128 (constant (F := Ideal) S_ .f32 0x00000000#32))
        (colEmb (M := 50000) (C := 64) (C' := 128) 64 (by decide) p)
      = (broadcastInDim S50000x64 ![] bcast_S_S50000x64 (constant (F := Ideal) S_ .f32 0x00000000#32)) p := fun _ => rfl
  have key := scatterAdd_cols (N := 50000) (E := 800000) (C := 64) (C' := 128) (w := 32) 64 (by decide)
    Cert.KernelIdeal.Facts₀.scatter_S50000x128_S800000x1_S800000x128_1_0_0_1_wf
    scatter_S50000x64_S800000x1_S800000x64_1_0_0_1_wf
    (broadcastInDim S50000x128 ![] Cert.KernelIdeal.Facts₀.bcast_S_S50000x128 (constant (F := Ideal) S_ .f32 0x00000000#32))
    (broadcastInDim S50000x64 ![] bcast_S_S50000x64 (constant (F := Ideal) S_ .f32 0x00000000#32))
    (broadcastInDim S800000x1 ![0] bcast_S800000_S800000x1_0 dst)
    (edgeG Xs Xd wmlp convW en) (edgeEv Xs convW en) hx (edgeG_colEmb_hi Xs Xd wmlp convW en) p
  exact key

theorem dot_gather (X : FVec Ideal S50000x64 .f32) (W : FVec Ideal S64x64 .f32) (idx : IVec S800000x1 32) :
    Host.dotGeneral dot_S800000x64_S64x64_S800000x64_1_0_0_1_n_n none
        (Host.gather gather_S50000x64_S800000x1_S800000x64_1_0_n_n_0_1_164 X idx) W
      = Host.gather gather_S50000x64_S800000x1_S800000x64_1_0_n_n_0_1_164
          (Host.dotGeneral dot_S50000x64_S64x64_S50000x64_1_0_0_1_n_n none X W) idx :=
  dot_rowGather (N := 50000) (E := 800000) (K := 64) (L := 64) (by decide)
    gather_S50000x64_S800000x1_S800000x64_1_0_n_n_0_1_164_wf gather_S50000x64_S800000x1_S800000x64_1_0_n_n_0_1_164_wf
    none .single X W idx

theorem edgeEv_gather (X : FVec Ideal S50000x64 .f32) (W : FVec Ideal S64x64 .f32) (idx : IVec S800000x1 32)
    (en : FVec Ideal S800000x1 .f32) :
    edgeEv (Host.gather gather_S50000x64_S800000x1_S800000x64_1_0_n_n_0_1_164 X idx) W en
      = mulf (Host.gather gather_S50000x64_S800000x1_S800000x64_1_0_n_n_0_1_164
          (Host.dotGeneral dot_S50000x64_S64x64_S50000x64_1_0_0_1_n_n none X W) idx)
        (broadcastInDim S800000x64 ![0, 1] bcast_S800000x1_S800000x64_0_1 en) := by
  unfold edgeEv
  rw [dot_gather]

end Cert.Bridge

end
-- ==== Proof.Bridge.Layer.lean ====
import proofs.«147510_j18107582120779_2_alg».proof.Proof.Bridge.Facts

noncomputable section

namespace Cert.Bridge

open Idealize.ShloMosaic Cert.ReferenceIdeal Cert.Spec
open Cert.ReferenceIdeal.Facts₀

variable [Cert.ReferenceIdeal.Facts₀] [Cert.KernelIdeal.Facts₀]

theorem refLayer_eq_nodeG (src dst : IVec S800000 32) (en : FVec Ideal S800000x1 .f32) (sn : FVec Ideal S50000x1 .f32)
    (convW : FVec Ideal S64x64 .f32) (convb : FVec Ideal S64 .f32) (resW : FVec Ideal S64x64 .f32) (resb : FVec Ideal S64 .f32)
    (wmlp : FVec Ideal S64x64 .f32) (lam : FVec Ideal S_ .f32) (XY : FVec Ideal S50000x64 .f32 × FVec Ideal S50000x64 .f32) :
    refLayer src dst en sn convW convb resW resb wmlp lam XY
      = nodeG XY.1 XY.2
          (Host.dotGeneral dot_S50000x64_S64x64_S50000x64_1_0_0_1_n_n none XY.1 convW)
          (Host.scatterAdd scatter_S50000x64_S800000x1_S800000x64_1_0_0_1
            (broadcastInDim S50000x64 ![] bcast_S_S50000x64 (constant (F := Ideal) S_ .f32 0x00000000#32))
            (broadcastInDim S800000x1 ![0] bcast_S800000_S800000x1_0 dst)
            (mulf (Host.gather gather_S50000x64_S800000x1_S800000x64_1_0_n_n_0_1_164
                (Host.dotGeneral dot_S50000x64_S64x64_S50000x64_1_0_0_1_n_n none XY.1 convW) (wrapIdx src))
              (broadcastInDim S800000x64 ![0, 1] bcast_S800000x1_S800000x64_0_1 en)))
          (mulf (broadcastInDim S50000x64 ![] bcast_S_S50000x64 lam)
            (Host.scatterAdd scatter_S50000x64_S800000x1_S800000x64_1_0_0_1
              (broadcastInDim S50000x64 ![] bcast_S_S50000x64 (constant (F := Ideal) S_ .f32 0x00000000#32))
              (broadcastInDim S800000x1 ![0] bcast_S800000_S800000x1_0 dst)
              (edgeMsg (Host.gather gather_S50000x64_S800000x1_S800000x64_1_0_n_n_0_1_164 XY.1 (wrapIdx src))
                (Host.gather gather_S50000x64_S800000x1_S800000x64_1_0_n_n_0_1_164 XY.1 (wrapIdx dst)) wmlp)))
          sn (broadcastInDim S1x64 ![1] bcast_S64_S1x64_1 convb) resW (broadcastInDim S1x64 ![1] bcast_S64_S1x64_1 resb) :=
  rfl

theorem kerLayer_eq (src dst : IVec S800000 32) (en : FVec Ideal S800000x1 .f32) (sn : FVec Ideal S50000x1 .f32)
    (convW : FVec Ideal S64x64 .f32) (convb : FVec Ideal S64 .f32) (resW : FVec Ideal S64x64 .f32) (resb : FVec Ideal S64 .f32)
    (wmlp : FVec Ideal S64x64 .f32) (lam : FVec Ideal S_ .f32) (XY : FVec Ideal S50000x64 .f32 × FVec Ideal S50000x64 .f32) :
    kerLayer src dst en sn convW convb resW resb wmlp lam XY = refLayer src dst en sn convW convb resW resb wmlp lam XY := by
  rw [refLayer_eq_nodeG]
  unfold kerLayer
  dsimp only
  rw [linG_zero, colsLo_aggG, colsHi_aggG, edgeEv_gather, rowOf64_eq, rowOf64_eq,
    mulf_comm' (Host.scatterAdd scatter_S50000x64_S800000x1_S800000x64_1_0_0_1 _ _ _)]

theorem kerOut_eq_refOut (a : Args Ideal) : kerOut a = refOut a := by
  unfold kerOut refOut
  dsimp only
  have hL : kerLayer (srcOf a.ei) (dstOf a.ei) (enormCol (dinv (dstOf a.ei)) (srcOf a.ei) (dstOf a.ei))
      (selfNormCol (dinv (dstOf a.ei))) a.convW a.convb a.resW a.resb a.wmlp a.lam
      = refLayer (srcOf a.ei) (dstOf a.ei) (enormCol (dinv (dstOf a.ei)) (srcOf a.ei) (dstOf a.ei))
      (selfNormCol (dinv (dstOf a.ei))) a.convW a.convb a.resW a.resb a.wmlp a.lam :=
    funext fun XY => kerLayer_eq _ _ _ _ _ _ _ _ _ _ XY
  rw [hL]
  unfold encG decG enc dec
  rw [rowOf64_eq, rowOf40_eq]

end Cert.Bridge

end
-- ==== Proof.lean ====
import proofs.«147510_j18107582120779_2_alg».proof.Defs
import proofs.«147510_j18107582120779_2_alg».proof.Proof.Gen.Kernel
import proofs.«147510_j18107582120779_2_alg».proof.Proof.Gen.KernelIdeal
import proofs.«147510_j18107582120779_2_alg».proof.Proof.Gen.ReferenceIdeal
import proofs.«147510_j18107582120779_2_alg».proof.Proof.Gen.Pre_finite_inputs
import proofs.«147510_j18107582120779_2_alg».proof.Proof.K.Frame
import proofs.«147510_j18107582120779_2_alg».proof.Proof.KI.RunValue
import proofs.«147510_j18107582120779_2_alg».proof.Proof.KI.Chain
import proofs.«147510_j18107582120779_2_alg».proof.Proof.Ref.Chain
import proofs.«147510_j18107582120779_2_alg».proof.Proof.Bridge.Layer

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Hand.run (F := Ideal) m ρ)

theorem args_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.ReferenceIdeal.Hand.argsOf (F := Ideal) (fun b => m' (c, b)) = Cert.KernelIdeal.Hand.args m c := by
  obtain ⟨h0, h1, h2, h3, h4, h5, h6, h7, h8, h9, h10, h11⟩ := h
  unfold Cert.ReferenceIdeal.Hand.argsOf Cert.KernelIdeal.Hand.args Cert.KernelIdeal.Hand.argsOf
  simp only [Cert.Spec.Args.mk.injEq]
  exact ⟨h0, h1, h2, h3, h4, h5, h6, h7, h8, h9, h10, h11⟩

theorem algebraic : Cert.algebraic_KernelIdeal_ReferenceIdeal := by
  intro m ρ m' ρ' _ hagree
  refine ⟨fun c => Cert.Spec.kerOut (F := Ideal) (Cert.KernelIdeal.Hand.args m c), ?_, ?_⟩
  · exact (θ_run Cert.KernelIdeal.defs _ _).mono
      (fun _ h c => ⟨(h c).1.trans (Cert.KernelIdeal.Hand.U24_out m c), (h c).2⟩)
      (Cert.KernelIdeal.Hand.run_value (F := Ideal) m ρ)
  · refine (θ_run Cert.ReferenceIdeal.defs _ _).mono (fun _ h c => ⟨(h c).1.trans ?_, (h c).2⟩)
      (Cert.ReferenceIdeal.Hand.run (F := Ideal) m' ρ')
    rw [Cert.ReferenceIdeal.Hand.after_ops_result, args_agree m m' c (hagree c)]
    exact (Cert.Bridge.kerOut_eq_refOut _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
